-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S_ : Shape := ⟨0, ![]⟩

class Facts : Prop where
  bcast_S_S4x16x50000x4 : S_.BroadcastsInDim S4x16x50000x4 (![] : Fin 0 → Fin S4x16x50000x4.rank)
  reducesTo_S4x16x50000x4_S_d0_1_2_3 : S4x16x50000x4.ReducesTo [0, 1, 2, 3] S_
  h_S_ : 0 < S_.numel
  bcast_S_S200000x2 : S_.BroadcastsInDim S200000x2 (![] : Fin 0 → Fin S200000x2.rank)
  reducesTo_S200000x2_S_d0_1 : S200000x2.ReducesTo [0, 1] S_
  bcast_S_S50000x1 : S_.BroadcastsInDim S50000x1 (![] : Fin 0 → Fin S50000x1.rank)
  reducesTo_S50000x1_S_d0_1 : S50000x1.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S32x32 : S_.BroadcastsInDim S32x32 (![] : Fin 0 → Fin S32x32.rank)
  reducesTo_S32x32_S_d0_1 : S32x32.ReducesTo [0, 1] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_
  bcast_S_S8x34 : S_.BroadcastsInDim S8x34 (![] : Fin 0 → Fin S8x34.rank)
  reducesTo_S8x34_S_d0_1 : S8x34.ReducesTo [0, 1] S_
  bcast_S_S8 : S_.BroadcastsInDim S8 (![] : Fin 0 → Fin S8.rank)
  reducesTo_S8_S_d0 : S8.ReducesTo [0] S_
  bcast_S_S2x34 : S_.BroadcastsInDim S2x34 (![] : Fin 0 → Fin S2x34.rank)
  reducesTo_S2x34_S_d0_1 : S2x34.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg19 : FVec F S8 .f32) (main_arg20 : FVec F S2x34 .f32) (main_arg21 : FVec F S2 .f32) (main_v83 : IVec S_ 1) (main_v84 : FVec F S8x34 .f32) (main_cst_32 : FVec F S_ .f32) : IVec S_ 1 :=
  let main_v85 : FVec F S8x34 .f32 := broadcastInDim S8x34 ![] bcast_S_S8x34 main_cst_32
  let main_v86 : IVec S8x34 1 := cmpf .olt main_v84 main_v85
  let main_c_33 : IVec S_ 1 := constantI S_ 1 1#1
  let main_v87 : IVec S_ 1 := (fun x v => Host.reduce IntOp.andi x v reducesTo_S8x34_S_d0_1 h_S_) main_v86 main_c_33
  let main_v88 : IVec S_ 1 := andi main_v83 main_v87
  let main_v89 : FVec F S8 .f32 := Host.absf main_arg19
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S2x34 .f32 := Host.absf main_arg20
  let main_cst_36 : FVec F S_ .f32 := constant S_ .f32 0x7F800000#32
  let main_v95 : FVec F S2x34 .f32 := broadcastInDim S2x34 ![] bcast_S_S2x34 main_cst_36
  let main_v96 : IVec S2x34 1 := cmpf .olt main_v94 main_v95
  let main_c_37 : IVec S_ 1 := constantI S_ 1 1#1
  let main_v97 : IVec S_ 1 := (fun x v => Host.reduce IntOp.andi x v reducesTo_S2x34_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v63 : IVec S_ 1) (main_v67 : IVec S_ 1) : IVec S_ 1 :=
  let main_v68 : IVec S_ 1 := andi main_v63 main_v67
  let main_v69 : FVec F S96 .f32 := Host.absf main_arg15
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S8x34 .f32 := Host.absf main_arg16
  let main_cst_28 : FVec F S_ .f32 := constant S_ .f32 0x7F800000#32
  let main_v75 : FVec F S8x34 .f32 := broadcastInDim S8x34 ![] bcast_S_S8x34 main_cst_28
  let main_v76 : IVec S8x34 1 := cmpf .olt main_v74 main_v75
  let main_c_29 : IVec S_ 1 := constantI S_ 1 1#1
  let main_v77 : IVec S_ 1 := (fun x v => Host.reduce IntOp.andi x v reducesTo_S8x34_S_d0_1 h_S_) main_v76 main_c_29
  let main_v78 : IVec S_ 1 := andi main_v73 main_v77
  let main_v79 : FVec F S8 .f32 := Host.absf main_arg17
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x34 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S96x32 .f32 := Host.absf main_arg12
  let main_cst_20 : FVec F S_ .f32 := constant S_ .f32 0x7F800000#32
  let main_v55 : FVec F S96x32 .f32 := broadcastInDim S96x32 ![] bcast_S_S96x32 main_cst_20
  let main_v56 : IVec S96x32 1 := cmpf .olt main_v54 main_v55
  let main_c_21 : IVec S_ 1 := constantI S_ 1 1#1
  let main_v57 : IVec S_ 1 := (fun x v => Host.reduce IntOp.andi x v reducesTo_S96x32_S_d0_1 h_S_) main_v56 main_c_21
  let main_v58 : IVec S_ 1 := andi main_v53 main_v57
  let main_v59 : FVec F S96x32 .f32 := Host.absf main_arg13
  let main_cst_22 : FVec F S_ .f32 := constant S_ .f32 0x7F800000#32
  let main_v60 : FVec F S96x32 .f32 := broadcastInDim S96x32 ![] bcast_S_S96x32 main_cst_22
  let main_v61 : IVec S96x32 1 := cmpf .olt main_v59 main_v60
  let main_c_23 : IVec S_ 1 := constantI S_ 1 1#1
  let main_v62 : IVec S_ 1 := (fun x v => Host.reduce IntOp.andi x v reducesTo_S96x32_S_d0_1 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg15 main_arg16 main_arg17 main_arg18 main_arg19 main_arg20 main_arg21 main_v63 main_v67

def fn_part2 {F : FTy → Type} [FloatOps F] (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x64 .f32 := Host.absf main_arg10
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S32 .f32) (main_arg6 : FVec F S1x64 .f32) (main_arg7 : FVec F S1 .f32) (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S4x16x50000x4 .f32) (main_arg1 : IVec S2x1600000 32) (main_arg2 : FVec F S200000x2 .f32) (main_arg3 : FVec F S50000x1 .f32) (main_arg4 : FVec F S32x64 .f32) (main_arg5 : FVec F S32 .f32) (main_arg6 : FVec F S1x64 .f32) (main_arg7 : FVec F S1 .f32) (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) : IVec S_ 1 :=
  let main_v0 : FVec F S4x16x50000x4 .f32 := Host.absf main_arg0
  let main_cst : FVec F S_ .f32 := constant S_ .f32 0x7F800000#32
  let main_v1 : FVec F S4x16x50000x4 .f32 := broadcastInDim S4x16x50000x4 ![] bcast_S_S4x16x50000x4 main_cst
  let main_v2 : IVec S4x16x50000x4 1 := cmpf .olt main_v0 main_v1
  let main_c : IVec S_ 1 := constantI S_ 1 1#1
  let main_v3 : IVec S_ 1 := (fun x v => Host.reduce IntOp.andi x v reducesTo_S4x16x50000x4_S_d0_1_2_3 h_S_) main_v2 main_c
  let main_v4 : FVec F S200000x2 .f32 := Host.absf main_arg2
  let main_cst_0 : FVec F S_ .f32 := constant S_ .f32 0x7F800000#32
  let main_v5 : FVec F S200000x2 .f32 := broadcastInDim S200000x2 ![] bcast_S_S200000x2 main_cst_0
  let main_v6 : IVec S200000x2 1 := cmpf .olt main_v4 main_v5
  let main_c_1 : IVec S_ 1 := constantI S_ 1 1#1
  let main_v7 : IVec S_ 1 := (fun x v => Host.reduce IntOp.andi x v reducesTo_S200000x2_S_d0_1 h_S_) main_v6 main_c_1
  let main_v8 : IVec S_ 1 := andi main_v3 main_v7
  let main_v9 : FVec F S50000x1 .f32 := Host.absf main_arg3
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S4x1x50000x1 : Shape := ⟨4, ![4, 1, 50000, 1]⟩
abbrev S4x50000 : Shape := ⟨2, ![4, 50000]⟩
abbrev S200000x1 : Shape := ⟨2, ![200000, 1]⟩
abbrev S4x50000x16x4 : Shape := ⟨4, ![4, 50000, 16, 4]⟩
abbrev S200000x64 : Shape := ⟨2, ![200000, 64]⟩
abbrev S1x1600000 : Shape := ⟨2, ![1, 1600000]⟩
abbrev S1600000 : Shape := ⟨1, ![1600000]⟩
abbrev S1x32 : Shape := ⟨2, ![1, 32]⟩
abbrev S200000x32 : Shape := ⟨2, ![200000, 32]⟩
abbrev S10000x64 : Shape := ⟨2, ![10000, 64]⟩
abbrev S10000x32 : Shape := ⟨2, ![10000, 32]⟩
abbrev S64x32 : Shape := ⟨2, ![64, 32]⟩
abbrev S_ : Shape := ⟨0, ![]⟩
abbrev S1600000x1 : Shape := ⟨2, ![1600000, 1]⟩
abbrev S1600000x32 : Shape := ⟨2, ![1600000, 32]⟩
abbrev S1x1 : Shape := ⟨2, ![1, 1]⟩
abbrev S8000x32 : Shape := ⟨2, ![8000, 32]⟩
abbrev S8000 : Shape := ⟨1, ![8000]⟩
abbrev S8000x1 : Shape := ⟨2, ![8000, 1]⟩
abbrev S1x96 : Shape := ⟨2, ![1, 96]⟩
abbrev S5000x32 : Shape := ⟨2, ![5000, 32]⟩
abbrev S32x96 : Shape := ⟨2, ![32, 96]⟩
abbrev S5000x96 : Shape := ⟨2, ![5000, 96]⟩
abbrev S50000 : Shape := ⟨1, ![50000]⟩
abbrev S1x50000 : Shape := ⟨2, ![1, 50000]⟩
abbrev S200000 : Shape := ⟨1, ![200000]⟩
abbrev S200000x5 : Shape := ⟨2, ![200000, 5]⟩
abbrev S1x8 : Shape := ⟨2, ![1, 8]⟩
abbrev S1x2 : Shape := ⟨2, ![1, 2]⟩
abbrev S200000x8x2 : Shape := ⟨3, ![200000, 8, 2]⟩
abbrev S2000x32 : Shape := ⟨2, ![2000, 32]⟩
abbrev S2000x5 : Shape := ⟨2, ![2000, 5]⟩
abbrev S2000x8x2 : Shape := ⟨3, ![2000, 8, 2]⟩
abbrev S2000x1 : Shape := ⟨2, ![2000, 1]⟩
abbrev S2000x34 : Shape := ⟨2, ![2000, 34]⟩
abbrev S34x8 : Shape := ⟨2, ![34, 8]⟩
abbrev S2000x8 : Shape := ⟨2, ![2000, 8]⟩
abbrev S34x2 : Shape := ⟨2, ![34, 2]⟩
abbrev S2000x2 : Shape := ⟨2, ![2000, 2]⟩
abbrev S2000x8x1 : Shape := ⟨3, ![2000, 8, 1]⟩

abbrev nBuf : Space → Nat
  | .hbm => 106
  | .vmem => 51
  | .smem => 0
  | _ => 0

abbrev bufTy : (tb : Table) → Fin (tcTables nBuf tb) → BufTy
  | .hbm, ⟨0, _⟩ => ⟨S4x16x50000x4, .f32⟩
  | .hbm, ⟨1, _⟩ => ⟨S2x1600000, .i32⟩
  | .hbm, ⟨2, _⟩ => ⟨S200000x2, .f32⟩
  | .hbm, ⟨3, _⟩ => ⟨S50000x1, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S1, .f32⟩
  | .hbm, ⟨8, _⟩ => ⟨S32x32, .f32⟩
  | .hbm, ⟨9, _⟩ => ⟨S32, .f32⟩
  | .hbm, ⟨10, _⟩ => ⟨S1x64, .f32⟩
  | .hbm, ⟨11, _⟩ => ⟨S1, .f32⟩
  | .hbm, ⟨12, _⟩ => ⟨S96x32, .f32⟩
  | .hbm, ⟨13, _⟩ => ⟨S96x32, .f32⟩
  | .hbm, ⟨14, _⟩ => ⟨S96, .f32⟩
  | .hbm, ⟨15, _⟩ => ⟨S96, .f32⟩
  | .hbm, ⟨16, _⟩ => ⟨S8x34, .f32⟩
  | .hbm, ⟨17, _⟩ => ⟨S8, .f32⟩
  | .hbm, ⟨18, _⟩ => ⟨S8x34, .f32⟩
  | .hbm, ⟨19, _⟩ => ⟨S8, .f32⟩
  | .hbm, ⟨20, _⟩ => ⟨S2x34, .f32⟩
  | .hbm, ⟨21, _⟩ => ⟨S2, .f32⟩
  | .hbm, ⟨22, _⟩ => ⟨S4x1x50000x1, .f32⟩
  | .hbm, ⟨23, _⟩ => ⟨S4x50000, .f32⟩
  | .hbm, ⟨24, _⟩ => ⟨S200000x1, .f32⟩
  | .hbm, ⟨25, _⟩ => ⟨S4x1x50000x1, .f32⟩
  | .hbm, ⟨26, _⟩ => ⟨S4x50000, .f32⟩
  | .hbm, ⟨27, _⟩ => ⟨S200000x1, .f32⟩
  | .hbm, ⟨28, _⟩ => ⟨S4x50000x16x4, .f32⟩
  | .hbm, ⟨29, _⟩ => ⟨S200000x64, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S1x32, .f32⟩
  | .hbm, ⟨35, _⟩ => ⟨S200000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S1x32, .f32⟩
  | .hbm, ⟨55, _⟩ => ⟨S1x32, .f32⟩
  | .hbm, ⟨56, _⟩ => ⟨S1x1, .f32⟩
  | .hbm, ⟨57, _⟩ => ⟨S1600000x32, .f32⟩
  | .hbm, ⟨58, _⟩ => ⟨S_, .f32⟩
  | .hbm, ⟨59, _⟩ => ⟨S200000x32, .f32⟩
  | .hbm, ⟨60, _⟩ => ⟨S1600000x1, .i32⟩
  | .hbm, ⟨61, _⟩ => ⟨S200000x32, .f32⟩
  | .hbm, ⟨62, _⟩ => ⟨S1x32, .f32⟩
  | .hbm, ⟨63, _⟩ => ⟨S200000x32, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x32, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x32, .f32⟩
  | .hbm, ⟨82, _⟩ => ⟨S1x32, .f32⟩
  | .hbm, ⟨83, _⟩ => ⟨S1x32, .f32⟩
  | .hbm, ⟨84, _⟩ => ⟨S1x1, .f32⟩
  | .hbm, ⟨85, _⟩ => ⟨S1600000x32, .f32⟩
  | .hbm, ⟨86, _⟩ => ⟨S_, .f32⟩
  | .hbm, ⟨87, _⟩ => ⟨S200000x32, .f32⟩
  | .hbm, ⟨88, _⟩ => ⟨S1600000x1, .i32⟩
  | .hbm, ⟨89, _⟩ => ⟨S200000x32, .f32⟩
  | .hbm, ⟨90, _⟩ => ⟨S1x96, .f32⟩
  | .hbm, ⟨91, _⟩ => ⟨S1x96, .f32⟩
  | .hbm, ⟨92, _⟩ => ⟨S200000x32, .f32⟩
  | .hbm, ⟨93, _⟩ => ⟨S50000, .f32⟩
  | .hbm, ⟨94, _⟩ => ⟨S1x50000, .f32⟩
  | .hbm, ⟨95, _⟩ => ⟨S4x50000, .f32⟩
  | .hbm, ⟨96, _⟩ => ⟨S200000, .f32⟩
  | .hbm, ⟨97, _⟩ => ⟨S200000x1, .f32⟩
  | .hbm, ⟨98, _⟩ => ⟨S200000x1, .f32⟩
  | .hbm, ⟨99, _⟩ => ⟨S200000x1, .f32⟩
  | .hbm, ⟨100, _⟩ => ⟨S200000x5, .f32⟩
  | .hbm, ⟨101, _⟩ => ⟨S1x8, .f32⟩
  | .hbm, ⟨102, _⟩ => ⟨S1x8, .f32⟩
  | .hbm, ⟨103, _⟩ => ⟨S1x2, .f32⟩
  | .hbm, ⟨104, _⟩ => ⟨S200000x8x2, .f32⟩
  | .hbm, ⟨105, _⟩ => ⟨S200000x8x2, .f32⟩
  | .local _ .vmem, ⟨0, _⟩ => ⟨S10000x64, .f32⟩
  | .local _ .vmem, ⟨1, _⟩ => ⟨S10000x64, .f32⟩
  | .local _ .vmem, ⟨2, _⟩ => ⟨S32x64, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S1x32, .f32⟩
  | .local _ .vmem, ⟨11, _⟩ => ⟨S1x32, .f32⟩
  | .local _ .vmem, ⟨12, _⟩ => ⟨S1x1, .f32⟩
  | .local _ .vmem, ⟨13, _⟩ => ⟨S8000x32, .f32⟩
  | .local _ .vmem, ⟨14, _⟩ => ⟨S8000x32, .f32⟩
  | .local _ .vmem, ⟨15, _⟩ => ⟨S10000x32, .f32⟩
  | .local _ .vmem, ⟨16, _⟩ => ⟨S10000x32, .f32⟩
  | .local _ .vmem, ⟨17, _⟩ => ⟨S32x32, .f32⟩
  | .local _ .vmem, ⟨18, _⟩ => ⟨S1x32, .f32⟩
  | .local _ .vmem, ⟨19, _⟩ => ⟨S10000x32, .f32⟩
  | .local _ .vmem, ⟨20, _⟩ => ⟨S10000x32, .f32⟩
  | .local _ .vmem, ⟨21, _⟩ => ⟨S8000x32, .f32⟩
  | .local _ .vmem, ⟨22, _⟩ => ⟨S8000x32, .f32⟩
  | .local _ .vmem, ⟨23, _⟩ => ⟨S8000x32, .f32⟩
  | .local _ .vmem, ⟨24, _⟩ => ⟨S8000x32, .f32⟩
  | .local _ .vmem, ⟨25, _⟩ => ⟨S1x32, .f32⟩
  | .local _ .vmem, ⟨26, _⟩ => ⟨S1x32, .f32⟩
  | .local _ .vmem, ⟨27, _⟩ => ⟨S1x1, .f32⟩
  | .local _ .vmem, ⟨28, _⟩ => ⟨S8000x32, .f32⟩
  | .local _ .vmem, ⟨29, _⟩ => ⟨S8000x32, .f32⟩
  | .local _ .vmem, ⟨30, _⟩ => ⟨S5000x32, .f32⟩
  | .local _ .vmem, ⟨31, _⟩ => ⟨S5000x32, .f32⟩
  | .local _ .vmem, ⟨32, _⟩ => ⟨S96x32, .f32⟩
  | .local _ .vmem, ⟨33, _⟩ => ⟨S1x96, .f32⟩
  | .local _ .vmem, ⟨34, _⟩ => ⟨S1x96, .f32⟩
  | .local _ .vmem, ⟨35, _⟩ => ⟨S5000x32, .f32⟩
  | .local _ .vmem, ⟨36, _⟩ => ⟨S5000x32, .f32⟩
  | .local _ .vmem, ⟨37, _⟩ => ⟨S2000x32, .f32⟩
  | .local _ .vmem, ⟨38, _⟩ => ⟨S2000x32, .f32⟩
  | .local _ .vmem, ⟨39, _⟩ => ⟨S2000x5, .f32⟩
  | .local _ .vmem, ⟨40, _⟩ => ⟨S2000x5, .f32⟩
  | .local _ .vmem, ⟨41, _⟩ => ⟨S8x34, .f32⟩
  | .local _ .vmem, ⟨42, _⟩ => ⟨S1x8, .f32⟩
  | .local _ .vmem, ⟨43, _⟩ => ⟨S8x34, .f32⟩
  | .local _ .vmem, ⟨44, _⟩ => ⟨S1x8, .f32⟩
  | .local _ .vmem, ⟨45, _⟩ => ⟨S2x34, .f32⟩
  | .local _ .vmem, ⟨46, _⟩ => ⟨S1x2, .f32⟩
  | .local _ .vmem, ⟨47, _⟩ => ⟨S2000x8x2, .f32⟩
  | .local _ .vmem, ⟨48, _⟩ => ⟨S2000x8x2, .f32⟩
  | .local _ .vmem, ⟨49, _⟩ => ⟨S2000x8x2, .f32⟩
  | .local _ .vmem, ⟨50, _⟩ => ⟨S2000x8x2, .f32⟩
  | _, _ => ⟨S4x16x50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_3 : Ref sig .tc := ⟨.hbm, 64, rfl⟩
abbrev main_v37 : Ref sig .tc := ⟨.hbm, 65, rfl⟩
abbrev main_v38 : Ref sig .tc := ⟨.hbm, 66, rfl⟩
abbrev main_c_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_c_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg8_0 : Ref sig .tc := ⟨.vmem, 47, rfl⟩
abbrev cc5_stg8_1 : Ref sig .tc := ⟨.vmem, 48, rfl⟩
abbrev cc5_stg9_0 : Ref sig .tc := ⟨.vmem, 49, rfl⟩
abbrev cc5_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem8_0 : DmaSem sig := 47
abbrev cc5_sem8_1 : DmaSem sig := 48
abbrev cc5_sem9_0 : DmaSem sig := 49
abbrev cc5_sem9_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x5 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x34 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x34 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S2x34 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x8x2 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2000x8x2 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S4x16x50000x4_S4x1x50000x1_0_15_0_1 : S4x16x50000x4.Slices ![0, 15, 0, 1] S4x1x50000x1
  shapeCasts_S4x1x50000x1_S4x50000 : S4x1x50000x1.ShapeCasts S4x50000
  shapeCasts_S4x50000_S200000x1 : S4x50000.ShapeCasts S200000x1
  slices_S4x16x50000x4_S4x1x50000x1_0_15_0_2 : S4x16x50000x4.Slices ![0, 15, 0, 2] S4x1x50000x1
  transposes_S4x16x50000x4_S4x50000x16x4_0_2_1_3 : S4x16x50000x4.Transposes [0, 2, 1, 3] S4x50000x16x4
  shapeCasts_S4x50000x16x4_S200000x64 : S4x50000x16x4.ShapeCasts S200000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1x64_S1x32_0_0 : S1x64.Slices ![0, 0] S1x32
  slices_S1x64_S1x32_0_32 : S1x64.Slices ![0, 32] S1x32
  shapeCasts_S1_S1x1 : S1.ShapeCasts S1x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S1x32_S8000x32 : S1x32.Broadcasts S8000x32
  reduces_S8000x32_S8000 : S8000x32.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x32 : S8000x1.Broadcasts S8000x32
  bcast_S_S200000x32 : S_.BroadcastsInDim S200000x32 (![] : Fin 0 → Fin S200000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  shapeCasts_S96_S1x96 : S96.ShapeCasts S1x96
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S96x32_S96x32_0_0 : ∀ a, (![0, 0] : Fin 2 → Nat) a + S96x32.size a ≤ S96x32.size a
  h_S96x32 : 0 < S96x32.numel
  transposes_S96x32_p1_0_S32x96 : S96x32.Transposes [1, 0] S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S5000x96_o0_0_S5000x32 : S5000x96.Slices ![0, 0] S5000x32
  slices_S1x96_o0_0_S1x32 : S1x96.Slices ![0, 0] S1x32
  broadcasts_S1x32_S5000x32 : S1x32.Broadcasts S5000x32
  slices_S5000x96_o0_32_S5000x32 : S5000x96.Slices ![0, 32] S5000x32
  slices_S1x96_o0_32_S1x32 : S1x96.Slices ![0, 32] S1x32
  slices_S5000x96_o0_64_S5000x32 : S5000x96.Slices ![0, 64] S5000x32
  slices_S1x96_o0_64_S1x32 : S1x96.Slices ![0, 64] S1x32
  shapeCasts_S50000x1_S50000 : S50000x1.ShapeCasts S50000
  shapeCasts_S50000_S1x50000 : S50000.ShapeCasts S1x50000
  bcast_S1x50000_S4x50000_0_1 : S1x50000.BroadcastsInDim S4x50000 (![0, 1] : Fin 2 → Fin S4x50000.rank)
  shapeCasts_S4x50000_S200000 : S4x50000.ShapeCasts S200000
  slices_S200000x2_S200000x1_0_0 : S200000x2.Slices ![0, 0] S200000x1
  slices_S200000x2_S200000x1_0_1 : S200000x2.Slices ![0, 1] S200000x1
  bcast_S200000_S200000x1_0 : S200000.BroadcastsInDim S200000x1 (![0] : Fin 1 → Fin S200000x1.rank)
  concatenates_S200000x1_S200000x1_S200000x1_S200000x1_S200000x1_S200000x5_d1 : Shape.Concatenates [S200000x1, S200000x1, S200000x1, S200000x1, S200000x1] S200000x5 1
  shapeCasts_S8_S1x8 : S8.ShapeCasts S1x8
  shapeCasts_S2_S1x2 : S2.ShapeCasts S1x2
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  slices_S2000x5_o0_0_S2000x1 : S2000x5.Slices ![0, 0] S2000x1
  slices_S2000x5_o0_1_S2000x1 : S2000x5.Slices ![0, 1] S2000x1
  slices_S2000x5_o0_2_S2000x1 : S2000x5.Slices ![0, 2] S2000x1
  slices_S2000x5_o0_3_S2000x1 : S2000x5.Slices ![0, 3] S2000x1
  slices_S2000x5_o0_4_S2000x1 : S2000x5.Slices ![0, 4] S2000x1
  concatenates_S2000x32_S2000x1_S2000x1_S2000x34_d1 : Shape.Concatenates [S2000x32, S2000x1, S2000x1] S2000x34 1
  inb_S8x34_S8x34_0_0 : ∀ a, (![0, 0] : Fin 2 → Nat) a + S8x34.size a ≤ S8x34.size a
  h_S8x34 : 0 < S8x34.numel
  inb_S2x34_S2x34_0_0 : ∀ a, (![0, 0] : Fin 2 → Nat) a + S2x34.size a ≤ S2x34.size a
  h_S2x34 : 0 < S2x34.numel
  transposes_S8x34_p1_0_S34x8 : S8x34.Transposes [1, 0] S34x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  transposes_S2x34_p1_0_S34x2 : S2x34.Transposes [1, 0] S34x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  slices_S2000x2_o0_0_S2000x1 : S2000x2.Slices ![0, 0] S2000x1
  slices_S2000x2_o0_1_S2000x1 : S2000x2.Slices ![0, 1] S2000x1
  concatenates_S2000x1_S2000x1_S2000x1_S2000x1_S2000x1_S2000x1_S2000x1_S2000x1_S2000x8_d1 : Shape.Concatenates [S2000x1, S2000x1, S2000x1, S2000x1, S2000x1, S2000x1, S2000x1, S2000x1] S2000x8 1
  shapeCasts_S2000x8_S2000x8x1 : S2000x8.ShapeCasts S2000x8x1
  concatenates_S2000x8x1_S2000x8x1_S2000x8x2_d2 : Shape.Concatenates [S2000x8x1, S2000x8x1] S2000x8x2 2
  inb_S2000x8x2_S2000x8x2_0_0_0 : ∀ a, (![0, 0, 0] : Fin 3 → Nat) a + S2000x8x2.size a ≤ S2000x8x2.size a
  h_S2000x8x2 : 0 < S2000x8x2.numel
  dot_S10000x64_S64x32_S10000x32_1_0_0_1_n_n_wf : DotDims.WF S10000x64 S64x32 S10000x32 [1] [0] [0] [1] [] []
  gather_S200000x32_S1600000x1_S1600000x32_1_0_n_n_0_1_132_wf : GatherDims.WF S200000x32 S1600000x1 S1600000x32 [1] [0] [] [0] [] 1 ![1, 32]
  scatter_S200000x32_S1600000x1_S1600000x32_1_0_0_1_wf : ScatterDims.WF S200000x32 S1600000x1 S1600000x32 [1] [0] [0] 1
  dot_S10000x32_S32x32_S10000x32_1_0_0_1_n_n_wf : DotDims.WF S10000x32 S32x32 S10000x32 [1] [0] [0] [1] [] []
  dot_S5000x32_S32x96_S5000x96_1_0_0_1_n_n_wf : DotDims.WF S5000x32 S32x96 S5000x96 [1] [0] [0] [1] [] []
  dot_S2000x34_S34x8_S2000x8_1_0_0_1_n_n_wf : DotDims.WF S2000x34 S34x8 S2000x8 [1] [0] [0] [1] [] []
  dot_S2000x34_S34x2_S2000x2_1_0_0_1_n_n_wf : DotDims.WF S2000x34 S34x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S200000x32.size a
  hwx0_3 : ∀ i : grid0.Coords, EltTy.bits .f32 = 32 ∨ (Rect.block (s := S200000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x32.size a ≤ S1600000x32.size a
  hwx1_5 : ∀ i : grid1.Coords, EltTy.bits .f32 = 32 ∨ (Rect.block (s := S1600000x32) S8000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S200000x32.size a
  hwx2_0 : ∀ i : grid2.Coords, EltTy.bits .f32 = 32 ∨ (Rect.block (s := S200000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S200000x32.size a
  hwx2_3 : ∀ i : grid2.Coords, EltTy.bits .f32 = 32 ∨ (Rect.block (s := S200000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S1600000x32.size a
  hwx3_0 : ∀ i : grid3.Coords, EltTy.bits .f32 = 32 ∨ (Rect.block (s := S1600000x32) S8000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S1600000x32.size a
  hwx3_1 : ∀ i : grid3.Coords, EltTy.bits .f32 = 32 ∨ (Rect.block (s := S1600000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x32.size a ≤ S1600000x32.size a
  hwx3_5 : ∀ i : grid3.Coords, EltTy.bits .f32 = 32 ∨ (Rect.block (s := S1600000x32) S8000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S200000x32.size a
  hwx4_0 : ∀ i : grid4.Coords, EltTy.bits .f32 = 32 ∨ (Rect.block (s := S200000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x32.size a ≤ S96x32.size a
  hwx4_1 : ∀ i : grid4.Coords, EltTy.bits .f32 = 32 ∨ (Rect.block (s := S96x32) S96x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S200000x32.size a
  hwx4_4 : ∀ i : grid4.Coords, EltTy.bits .f32 = 32 ∨ (Rect.block (s := S200000x32) S5000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S200000x32.size a
  hwx5_0 : ∀ i : grid5.Coords, EltTy.bits .f32 = 32 ∨ (Rect.block (s := S200000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x5.size a ≤ S200000x5.size a
  hwx5_1 : ∀ i : grid5.Coords, EltTy.bits .f32 = 32 ∨ (Rect.block (s := S200000x5) S2000x5.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x34.size a ≤ S8x34.size a
  hwx5_2 : ∀ i : grid5.Coords, EltTy.bits .f32 = 32 ∨ (Rect.block (s := S8x34) S8x34.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x8.size a ≤ S1x8.size a
  hwx5_3 : ∀ i : grid5.Coords, EltTy.bits .f32 = 32 ∨ (Rect.block (s := S1x8) S1x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x34.size a ≤ S8x34.size a
  hwx5_4 : ∀ i : grid5.Coords, EltTy.bits .f32 = 32 ∨ (Rect.block (s := S8x34) S8x34.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x8.size a ≤ S1x8.size a
  hwx5_5 : ∀ i : grid5.Coords, EltTy.bits .f32 = 32 ∨ (Rect.block (s := S1x8) S1x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S2x34.size a ≤ S2x34.size a
  hwx5_6 : ∀ i : grid5.Coords, EltTy.bits .f32 = 32 ∨ (Rect.block (s := S2x34) S2x34.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x2.size a ≤ S1x2.size a
  hwx5_7 : ∀ i : grid5.Coords, EltTy.bits .f32 = 32 ∨ (Rect.block (s := S1x2) S1x2.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x8x2.size a ≤ S200000x8x2.size a
  hwx5_8 : ∀ i : grid5.Coords, EltTy.bits .f32 = 32 ∨ (Rect.block (s := S200000x8x2) S2000x8x2.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x8x2.size a ≤ S200000x8x2.size a
  hwx5_9 : ∀ i : grid5.Coords, EltTy.bits .f32 = 32 ∨ (Rect.block (s := S200000x8x2) S2000x8x2.size (cc5_transform_9 i) (hinb5_9 i)).WholeWords (EltTy.packing .f32)

variable [Facts₀]

def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S200000x32_S1600000x1_S1600000x32_1_0_n_n_0_1_132 : GatherDims S200000x32 S1600000x1 S1600000x32 where
  offsetDims := [1]
  collapsedSliceDims := [0]
  operandBatchingDims := []
  startIndicesBatchingDims := []
  startIndexMap := [0]
  indexVectorDim := 1
  sliceSizes := ![1, 32]
  wf := gather_S200000x32_S1600000x1_S1600000x32_1_0_n_n_0_1_132_wf
def scatter_S200000x32_S1600000x1_S1600000x32_1_0_0_1 : ScatterDims S200000x32 S1600000x1 S1600000x32 where
  updateWindowDims := [1]
  insertedWindowDims := [0]
  scatterDimsToOperandDims := [0]
  indexVectorDim := 1
  wf := scatter_S200000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S5000x32_S32x96_S5000x96_1_0_0_1_n_n : DotDims S5000x32 S32x96 S5000x96 where
  lhsContracting := [1]
  rhsContracting := [0]
  lhsNonContracting := [0]
  rhsNonContracting := [1]
  lhsBatch := []
  rhsBatch := []
  wf := dot_S5000x32_S32x96_S5000x96_1_0_0_1_n_n_wf
def dot_S2000x34_S34x8_S2000x8_1_0_0_1_n_n : DotDims S2000x34 S34x8 S2000x8 where
  lhsContracting := [1]
  rhsContracting := [0]
  lhsNonContracting := [0]
  rhsNonContracting := [1]
  lhsBatch := []
  rhsBatch := []
  wf := dot_S2000x34_S34x8_S2000x8_1_0_0_1_n_n_wf
def dot_S2000x34_S34x2_S2000x2_1_0_0_1_n_n : DotDims S2000x34 S34x2 S2000x2 where
  lhsContracting := [1]
  rhsContracting := [0]
  lhsNonContracting := [0]
  rhsNonContracting := [1]
  lhsBatch := []
  rhsBatch := []
  wf := dot_S2000x34_S34x2_S2000x2_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S8000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S8000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S96x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S5000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v60) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S2000x5.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S8x34.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S8x34.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S1x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S2x34.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v71) S1x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v72_0) S2000x8x2.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v72_1) S2000x8x2.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S4x1x50000x1 : Shape := ⟨4, ![4, 1, 50000, 1]⟩
abbrev S4x50000 : Shape := ⟨2, ![4, 50000]⟩
abbrev S200000x1 : Shape := ⟨2, ![200000, 1]⟩
abbrev S4x50000x16x4 : Shape := ⟨4, ![4, 50000, 16, 4]⟩
abbrev S200000x64 : Shape := ⟨2, ![200000, 64]⟩
abbrev S1x1600000 : Shape := ⟨2, ![1, 1600000]⟩
abbrev S1600000 : Shape := ⟨1, ![1600000]⟩
abbrev S64x32 : Shape := ⟨2, ![64, 32]⟩
abbrev S200000x32 : Shape := ⟨2, ![200000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S64x1 : Shape := ⟨2, ![64, 1]⟩
abbrev S1x1 : Shape := ⟨2, ![1, 1]⟩
abbrev S32x96 : Shape := ⟨2, ![32, 96]⟩
abbrev S200000x96 : Shape := ⟨2, ![200000, 96]⟩
abbrev S1x96 : Shape := ⟨2, ![1, 96]⟩
abbrev S200000x34 : Shape := ⟨2, ![200000, 34]⟩
abbrev S34x8 : Shape := ⟨2, ![34, 8]⟩
abbrev S200000x8 : Shape := ⟨2, ![200000, 8]⟩
abbrev S1x8 : Shape := ⟨2, ![1, 8]⟩
abbrev S200000x8x1 : Shape := ⟨3, ![200000, 8, 1]⟩
abbrev S34x2 : Shape := ⟨2, ![34, 2]⟩
abbrev S1x2 : Shape := ⟨2, ![1, 2]⟩
abbrev S200000 : Shape := ⟨1, ![200000]⟩
abbrev S1x50000x1x1 : Shape := ⟨4, ![1, 50000, 1, 1]⟩
abbrev S4x50000x1x1 : Shape := ⟨4, ![4, 50000, 1, 1]⟩
abbrev S200000x8x2 : Shape := ⟨3, ![200000, 8, 2]⟩

abbrev nBuf : Space → Nat
  | .hbm => 340
  | .vmem => 0
  | .smem => 0
  | _ => 0

abbrev hbmTy0_0 (i : Nat) : BufTy := match i % 128 with
  | 0 => ⟨S4x16x50000x4, .f32⟩
  | 1 => ⟨S2x1600000, .i32⟩
  | 2 => ⟨S200000x2, .f32⟩
  | 3 => ⟨S50000x1, .f32⟩
  | 4 => ⟨S32x64, .f32⟩
  | 5 => ⟨S32, .f32⟩
  | 6 => ⟨S1x64, .f32⟩
  | 7 => ⟨S1, .f32⟩
  | 8 => ⟨S32x32, .f32⟩
  | 9 => ⟨S32, .f32⟩
  | 10 => ⟨S1x64, .f32⟩
  | 11 => ⟨S1, .f32⟩
  | 12 => ⟨S96x32, .f32⟩
  | 13 => ⟨S96x32, .f32⟩
  | 14 => ⟨S96, .f32⟩
  | 15 => ⟨S96, .f32⟩
  | 16 => ⟨S8x34, .f32⟩
  | 17 => ⟨S8, .f32⟩
  | 18 => ⟨S8x34, .f32⟩
  | 19 => ⟨S8, .f32⟩
  | 20 => ⟨S2x34, .f32⟩
  | 21 => ⟨S2, .f32⟩
  | 22 => ⟨S4x1x50000x1, .f32⟩
  | 23 => ⟨S4x50000, .f32⟩
  | 24 => ⟨S200000x1, .f32⟩
  | 25 => ⟨S4x1x50000x1, .f32⟩
  | 26 => ⟨S4x50000, .f32⟩
  | 27 => ⟨S200000x1, .f32⟩
  | 28 => ⟨S4x50000x16x4, .f32⟩
  | 29 => ⟨S200000x64, .f32⟩
  | 30 => ⟨S1x1600000, .i32⟩
  | 31 => ⟨S1600000, .i32⟩
  | 32 => ⟨S1x1600000, .i32⟩
  | 33 => ⟨S1600000, .i32⟩
  | 34 => ⟨S64x32, .f32⟩
  | 35 => ⟨S200000x32, .f32⟩
  | 36 => ⟨S1x32, .f32⟩
  | 37 => ⟨S200000x32, .f32⟩
  | 38 => ⟨S200000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x32, .f32⟩
  | 57 => ⟨S1600000x64, .f32⟩
  | 58 => ⟨S64x1, .f32⟩
  | 59 => ⟨S1600000x1, .f32⟩
  | 60 => ⟨S1x1, .f32⟩
  | 61 => ⟨S1600000x1, .f32⟩
  | 62 => ⟨S1600000x1, .f32⟩
  | 63 => ⟨S_, .f32⟩
  | 64 => ⟨S_, .f32⟩
  | 65 => ⟨S1600000x1, .f32⟩
  | 66 => ⟨S1600000x1, .i1⟩
  | 67 => ⟨S_, .f32⟩
  | 68 => ⟨S1600000x1, .f32⟩
  | 69 => ⟨S1600000x1, .f32⟩
  | 70 => ⟨S1600000x1, .f32⟩
  | 71 => ⟨S1600000x32, .f32⟩
  | 72 => ⟨S1600000x32, .f32⟩
  | 73 => ⟨S_, .f32⟩
  | 74 => ⟨S200000x32, .f32⟩
  | 75 => ⟨S1600000x1, .i32⟩
  | 76 => ⟨S200000x32, .f32⟩
  | 77 => ⟨S_, .f32⟩
  | 78 => ⟨S200000x32, .f32⟩
  | 79 => ⟨S200000x32, .i1⟩
  | 80 => ⟨S_, .f32⟩
  | 81 => ⟨S200000x32, .f32⟩
  | 82 => ⟨S200000x32, .i1⟩
  | 83 => ⟨S_, .f32⟩
  | 84 => ⟨S_, .f32⟩
  | 85 => ⟨S200000x32, .f32⟩
  | 86 => ⟨S200000x32, .f32⟩
  | 87 => ⟨S200000x32, .f32⟩
  | 88 => ⟨S_, .f32⟩
  | 89 => ⟨S200000x32, .f32⟩
  | 90 => ⟨S200000x32, .f32⟩
  | 91 => ⟨S200000x32, .f32⟩
  | 92 => ⟨S32x32, .f32⟩
  | 93 => ⟨S200000x32, .f32⟩
  | 94 => ⟨S1x32, .f32⟩
  | 95 => ⟨S200000x32, .f32⟩
  | 96 => ⟨S200000x32, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x32, .f32⟩
  | 115 => ⟨S1600000x64, .f32⟩
  | 116 => ⟨S64x1, .f32⟩
  | 117 => ⟨S1600000x1, .f32⟩
  | 118 => ⟨S1x1, .f32⟩
  | 119 => ⟨S1600000x1, .f32⟩
  | 120 => ⟨S1600000x1, .f32⟩
  | 121 => ⟨S_, .f32⟩
  | 122 => ⟨S_, .f32⟩
  | 123 => ⟨S1600000x1, .f32⟩
  | 124 => ⟨S1600000x1, .i1⟩
  | 125 => ⟨S_, .f32⟩
  | 126 => ⟨S1600000x1, .f32⟩
  | 127 => ⟨S1600000x1, .f32⟩
  | _ => ⟨S4x16x50000x4, .f32⟩

abbrev hbmTy0_1 (i : Nat) : BufTy := match i % 128 with
  | 0 => ⟨S1600000x1, .f32⟩
  | 1 => ⟨S1600000x32, .f32⟩
  | 2 => ⟨S1600000x32, .f32⟩
  | 3 => ⟨S_, .f32⟩
  | 4 => ⟨S200000x32, .f32⟩
  | 5 => ⟨S1600000x1, .i32⟩
  | 6 => ⟨S200000x32, .f32⟩
  | 7 => ⟨S_, .f32⟩
  | 8 => ⟨S200000x32, .f32⟩
  | 9 => ⟨S200000x32, .i1⟩
  | 10 => ⟨S_, .f32⟩
  | 11 => ⟨S200000x32, .f32⟩
  | 12 => ⟨S200000x32, .i1⟩
  | 13 => ⟨S_, .f32⟩
  | 14 => ⟨S_, .f32⟩
  | 15 => ⟨S200000x32, .f32⟩
  | 16 => ⟨S200000x32, .f32⟩
  | 17 => ⟨S200000x32, .f32⟩
  | 18 => ⟨S_, .f32⟩
  | 19 => ⟨S200000x32, .f32⟩
  | 20 => ⟨S200000x32, .f32⟩
  | 21 => ⟨S200000x32, .f32⟩
  | 22 => ⟨S32x96, .f32⟩
  | 23 => ⟨S200000x96, .f32⟩
  | 24 => ⟨S1x96, .f32⟩
  | 25 => ⟨S200000x96, .f32⟩
  | 26 => ⟨S200000x96, .f32⟩
  | 27 => ⟨S200000x32, .f32⟩
  | 28 => ⟨S32, .f32⟩
  | 29 => ⟨S1x32, .f32⟩
  | 30 => ⟨S200000x32, .f32⟩
  | 31 => ⟨S200000x32, .f32⟩
  | 32 => ⟨S200000x32, .f32⟩
  | 33 => ⟨S200000x32, .f32⟩
  | 34 => ⟨S_, .f32⟩
  | 35 => ⟨S200000x32, .f32⟩
  | 36 => ⟨S200000x32, .f32⟩
  | 37 => ⟨S_, .f32⟩
  | 38 => ⟨S200000x32, .f32⟩
  | 39 => ⟨S200000x32, .f32⟩
  | 40 => ⟨S200000x32, .f32⟩
  | 41 => ⟨S32, .f32⟩
  | 42 => ⟨S1x32, .f32⟩
  | 43 => ⟨S200000x32, .f32⟩
  | 44 => ⟨S200000x32, .f32⟩
  | 45 => ⟨S200000x32, .f32⟩
  | 46 => ⟨S200000x32, .f32⟩
  | 47 => ⟨S_, .f32⟩
  | 48 => ⟨S200000x32, .f32⟩
  | 49 => ⟨S200000x32, .f32⟩
  | 50 => ⟨S_, .f32⟩
  | 51 => ⟨S200000x32, .f32⟩
  | 52 => ⟨S200000x32, .f32⟩
  | 53 => ⟨S200000x32, .f32⟩
  | 54 => ⟨S32, .f32⟩
  | 55 => ⟨S1x32, .f32⟩
  | 56 => ⟨S200000x32, .f32⟩
  | 57 => ⟨S200000x32, .f32⟩
  | 58 => ⟨S200000x32, .f32⟩
  | 59 => ⟨S200000x32, .f32⟩
  | 60 => ⟨S_, .f32⟩
  | 61 => ⟨S200000x32, .f32⟩
  | 62 => ⟨S200000x32, .f32⟩
  | 63 => ⟨S200000x32, .f32⟩
  | 64 => ⟨S200000x34, .f32⟩
  | 65 => ⟨S34x8, .f32⟩
  | 66 => ⟨S200000x8, .f32⟩
  | 67 => ⟨S1x8, .f32⟩
  | 68 => ⟨S200000x8, .f32⟩
  | 69 => ⟨S200000x8, .f32⟩
  | 70 => ⟨S200000x8x1, .f32⟩
  | 71 => ⟨S34x8, .f32⟩
  | 72 => ⟨S200000x8, .f32⟩
  | 73 => ⟨S1x8, .f32⟩
  | 74 => ⟨S200000x8, .f32⟩
  | 75 => ⟨S200000x8, .f32⟩
  | 76 => ⟨S200000x8x1, .f32⟩
  | 77 => ⟨S34x2, .f32⟩
  | 78 => ⟨S200000x2, .f32⟩
  | 79 => ⟨S1x2, .f32⟩
  | 80 => ⟨S200000x2, .f32⟩
  | 81 => ⟨S200000x2, .f32⟩
  | 82 => ⟨S200000x1, .f32⟩
  | 83 => ⟨S200000, .f32⟩
  | 84 => ⟨S200000, .f32⟩
  | 85 => ⟨S200000, .f32⟩
  | 86 => ⟨S_, .f32⟩
  | 87 => ⟨S200000, .f32⟩
  | 88 => ⟨S200000, .f32⟩
  | 89 => ⟨S_, .f32⟩
  | 90 => ⟨S200000, .f32⟩
  | 91 => ⟨S200000, .f32⟩
  | 92 => ⟨S200000x1, .f32⟩
  | 93 => ⟨S200000, .f32⟩
  | 94 => ⟨S200000, .f32⟩
  | 95 => ⟨S200000, .f32⟩
  | 96 => ⟨S_, .f32⟩
  | 97 => ⟨S200000, .f32⟩
  | 98 => ⟨S200000, .f32⟩
  | 99 => ⟨S_, .f32⟩
  | 100 => ⟨S200000, .f32⟩
  | 101 => ⟨S200000, .f32⟩
  | 102 => ⟨S1x50000x1x1, .f32⟩
  | 103 => ⟨S4x50000x1x1, .f32⟩
  | 104 => ⟨S200000x1, .f32⟩
  | 105 => ⟨S200000, .f32⟩
  | 106 => ⟨S200000x1, .f32⟩
  | 107 => ⟨S200000, .f32⟩
  | 108 => ⟨S200000x1, .f32⟩
  | 109 => ⟨S200000, .f32⟩
  | 110 => ⟨S200000, .f32⟩
  | 111 => ⟨S200000, .f32⟩
  | 112 => ⟨S200000, .f32⟩
  | 113 => ⟨S200000, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000, .f32⟩
  | 123 => ⟨S200000, .f32⟩
  | 124 => ⟨S200000, .f32⟩
  | 125 => ⟨S200000, .f32⟩
  | 126 => ⟨S200000, .f32⟩
  | 127 => ⟨S200000, .f32⟩
  | _ => ⟨S4x16x50000x4, .f32⟩

abbrev hbmTy0_2 (i : Nat) : BufTy := match i % 128 with
  | 0 => ⟨S200000, .f32⟩
  | 1 => ⟨S200000, .f32⟩
  | 2 => ⟨S200000, .f32⟩
  | 3 => ⟨S200000, .f32⟩
  | 4 => ⟨S200000, .f32⟩
  | 5 => ⟨S200000, .f32⟩
  | 6 => ⟨S200000, .f32⟩
  | 7 => ⟨S200000, .f32⟩
  | 8 => ⟨S200000, .f32⟩
  | 9 => ⟨S200000, .f32⟩
  | 10 => ⟨S200000, .f32⟩
  | 11 => ⟨S200000, .f32⟩
  | 12 => ⟨S200000, .f32⟩
  | 13 => ⟨S200000, .f32⟩
  | 14 => ⟨S200000, .f32⟩
  | 15 => ⟨S200000, .f32⟩
  | 16 => ⟨S200000, .f32⟩
  | 17 => ⟨S200000, .f32⟩
  | 18 => ⟨S200000, .f32⟩
  | 19 => ⟨S200000, .f32⟩
  | 20 => ⟨S200000, .f32⟩
  | 21 => ⟨S200000, .f32⟩
  | 22 => ⟨S200000, .f32⟩
  | 23 => ⟨S200000, .f32⟩
  | 24 => ⟨S200000, .f32⟩
  | 25 => ⟨S200000, .f32⟩
  | 26 => ⟨S200000, .f32⟩
  | 27 => ⟨S200000, .f32⟩
  | 28 => ⟨S200000, .f32⟩
  | 29 => ⟨S200000, .f32⟩
  | 30 => ⟨S200000, .f32⟩
  | 31 => ⟨S200000, .f32⟩
  | 32 => ⟨S200000, .f32⟩
  | 33 => ⟨S200000, .f32⟩
  | 34 => ⟨S200000, .f32⟩
  | 35 => ⟨S200000, .f32⟩
  | 36 => ⟨S200000, .f32⟩
  | 37 => ⟨S200000, .f32⟩
  | 38 => ⟨S200000, .f32⟩
  | 39 => ⟨S200000, .f32⟩
  | 40 => ⟨S200000, .f32⟩
  | 41 => ⟨S200000, .f32⟩
  | 42 => ⟨S200000, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000x1, .f32⟩
  | 63 => ⟨S200000x1, .f32⟩
  | 64 => ⟨S200000x1, .f32⟩
  | 65 => ⟨S200000x1, .f32⟩
  | 66 => ⟨S200000x1, .f32⟩
  | 67 => ⟨S200000x1, .f32⟩
  | 68 => ⟨S200000x1, .f32⟩
  | 69 => ⟨S200000x1, .f32⟩
  | 70 => ⟨S200000x8, .f32⟩
  | 71 => ⟨S200000x8x1, .f32⟩
  | 72 => ⟨S200000x1, .f32⟩
  | 73 => ⟨S200000x1, .f32⟩
  | 74 => ⟨S200000x1, .f32⟩
  | 75 => ⟨S200000x1, .f32⟩
  | 76 => ⟨S200000x1, .f32⟩
  | 77 => ⟨S200000x1, .f32⟩
  | 78 => ⟨S200000x1, .f32⟩
  | 79 => ⟨S200000x1, .f32⟩
  | 80 => ⟨S200000x8, .f32⟩
  | 81 => ⟨S200000x8x1, .f32⟩
  | 82 => ⟨S200000x8x2, .f32⟩
  | 83 => ⟨S200000x8x2, .f32⟩
  | _ => ⟨S4x16x50000x4, .f32⟩

abbrev hbmTy (i : Nat) : BufTy := match i / 128 with
  | 0 => hbmTy0_0 i
  | 1 => hbmTy0_1 i
  | 2 => hbmTy0_2 i
  | _ => ⟨S4x16x50000x4, .f32⟩

abbrev bufTy : (tb : Table) → Fin (tcTables nBuf tb) → BufTy
  | .hbm, ⟨i, _⟩ => hbmTy i
  | _, _ => ⟨S4x16x50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_3 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_cst_1 : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_v4 : Ref sig .tc := ⟨.hbm, 86, rfl⟩
abbrev main_call1_v5 : Ref sig .tc := ⟨.hbm, 87, rfl⟩
abbrev main_call1_cst_2 : Ref sig .tc := ⟨.hbm, 88, rfl⟩
abbrev main_call1_v6 : Ref sig .tc := ⟨.hbm, 89, rfl⟩
abbrev main_call1_v7 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_4 : Ref sig .tc := ⟨.hbm, 97, rfl⟩
abbrev main_v49 : Ref sig .tc := ⟨.hbm, 98, rfl⟩
abbrev main_v50 : Ref sig .tc := ⟨.hbm, 99, rfl⟩
abbrev main_c_5 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_6 : Ref sig .tc := ⟨.hbm, 106, rfl⟩
abbrev main_v56 : Ref sig .tc := ⟨.hbm, 107, rfl⟩
abbrev main_v57 : Ref sig .tc := ⟨.hbm, 108, rfl⟩
abbrev main_c_7 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_8 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_9 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_cst_1 : Ref sig .tc := ⟨.hbm, 141, rfl⟩
abbrev main_call3_call0_v0 : Ref sig .tc := ⟨.hbm, 142, rfl⟩
abbrev main_call3_call0_v1 : Ref sig .tc := ⟨.hbm, 143, rfl⟩
abbrev main_call3_v4 : Ref sig .tc := ⟨.hbm, 144, rfl⟩
abbrev main_call3_v5 : Ref sig .tc := ⟨.hbm, 145, rfl⟩
abbrev main_call3_cst_2 : Ref sig .tc := ⟨.hbm, 146, rfl⟩
abbrev main_call3_v6 : Ref sig .tc := ⟨.hbm, 147, rfl⟩
abbrev main_call3_v7 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_10 : Ref sig .tc := ⟨.hbm, 162, rfl⟩
abbrev main_v88 : Ref sig .tc := ⟨.hbm, 163, rfl⟩
abbrev main_v89 : Ref sig .tc := ⟨.hbm, 164, rfl⟩
abbrev main_cst_11 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_12 : Ref sig .tc := ⟨.hbm, 175, rfl⟩
abbrev main_v99 : Ref sig .tc := ⟨.hbm, 176, rfl⟩
abbrev main_v100 : Ref sig .tc := ⟨.hbm, 177, rfl⟩
abbrev main_cst_13 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_14 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_15 : Ref sig .tc := ⟨.hbm, 214, rfl⟩
abbrev main_v135 : Ref sig .tc := ⟨.hbm, 215, rfl⟩
abbrev main_v136 : Ref sig .tc := ⟨.hbm, 216, rfl⟩
abbrev main_cst_16 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_17 : Ref sig .tc := ⟨.hbm, 224, rfl⟩
abbrev main_v143 : Ref sig .tc := ⟨.hbm, 225, rfl⟩
abbrev main_v144 : Ref sig .tc := ⟨.hbm, 226, rfl⟩
abbrev main_cst_18 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩

abbrev nD : Nat := 1
abbrev τ : Topo := Topo.v7x

variable {F : FTy → Type} [FloatOps F]

class Facts₀ : Prop where
  slices_S4x16x50000x4_S4x1x50000x1_0_15_0_1 : S4x16x50000x4.Slices ![0, 15, 0, 1] S4x1x50000x1
  shapeCasts_S4x1x50000x1_S4x50000 : S4x1x50000x1.ShapeCasts S4x50000
  shapeCasts_S4x50000_S200000x1 : S4x50000.ShapeCasts S200000x1
  slices_S4x16x50000x4_S4x1x50000x1_0_15_0_2 : S4x16x50000x4.Slices ![0, 15, 0, 2] S4x1x50000x1
  transposes_S4x16x50000x4_S4x50000x16x4_0_2_1_3 : S4x16x50000x4.Transposes [0, 2, 1, 3] S4x50000x16x4
  shapeCasts_S4x50000x16x4_S200000x64 : S4x50000x16x4.ShapeCasts S200000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x64_S64x32_1_0 : S32x64.Transposes [1, 0] S64x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  transposes_S1x64_S64x1_1_0 : S1x64.Transposes [1, 0] S64x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x32_0_1 : S1600000x1.BroadcastsInDim S1600000x32 (![0, 1] : Fin 2 → Fin S1600000x32.rank)
  bcast_S_S200000x32 : S_.BroadcastsInDim S200000x32 (![] : Fin 0 → Fin S200000x32.rank)
  transposes_S32x32_S32x32_1_0 : S32x32.Transposes [1, 0] S32x32
  transposes_S96x32_S32x96_1_0 : S96x32.Transposes [1, 0] S32x96
  bcast_S96_S1x96_1 : S96.BroadcastsInDim S1x96 (![1] : Fin 1 → Fin S1x96.rank)
  bcast_S1x96_S200000x96_0_1 : S1x96.BroadcastsInDim S200000x96 (![0, 1] : Fin 2 → Fin S200000x96.rank)
  slices_S200000x96_S200000x32_0_0 : S200000x96.Slices ![0, 0] S200000x32
  slices_S96_S32_0 : S96.Slices ![0] S32
  slices_S200000x96_S200000x32_0_32 : S200000x96.Slices ![0, 32] S200000x32
  slices_S96_S32_32 : S96.Slices ![32] S32
  slices_S200000x96_S200000x32_0_64 : S200000x96.Slices ![0, 64] S200000x32
  slices_S96_S32_64 : S96.Slices ![64] S32
  concatenates_S200000x32_S200000x1_S200000x1_S200000x34_d1 : Shape.Concatenates [S200000x32, S200000x1, S200000x1] S200000x34 1
  transposes_S8x34_S34x8_1_0 : S8x34.Transposes [1, 0] S34x8
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S200000x8_S200000x8x1_0_1 : S200000x8.BroadcastsInDim S200000x8x1 (![0, 1] : Fin 2 → Fin S200000x8x1.rank)
  transposes_S2x34_S34x2_1_0 : S2x34.Transposes [1, 0] S34x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  slices_S200000x2_S200000x1_0_1 : S200000x2.Slices ![0, 1] S200000x1
  shapeCasts_S50000x1_S1x50000x1x1 : S50000x1.ShapeCasts S1x50000x1x1
  bcast_S1x50000x1x1_S4x50000x1x1_0_1_2_3 : S1x50000x1x1.BroadcastsInDim S4x50000x1x1 (![0, 1, 2, 3] : Fin 4 → Fin S4x50000x1x1.rank)
  shapeCasts_S4x50000x1x1_S200000x1 : S4x50000x1x1.ShapeCasts S200000x1
  bcast_S200000_S200000x1_0 : S200000.BroadcastsInDim S200000x1 (![0] : Fin 1 → Fin S200000x1.rank)
  concatenates_S200000x1_S200000x1_S200000x1_S200000x1_S200000x1_S200000x1_S200000x1_S200000x1_S200000x8_d1 : Shape.Concatenates [S200000x1, S200000x1, S200000x1, S200000x1, S200000x1, S200000x1, S200000x1, S200000x1] S200000x8 1
  concatenates_S200000x8x1_S200000x8x1_S200000x8x2_d2 : Shape.Concatenates [S200000x8x1, S200000x8x1] S200000x8x2 2
  dot_S200000x64_S64x32_S200000x32_1_0_0_1_n_n_wf : DotDims.WF S200000x64 S64x32 S200000x32 [1] [0] [0] [1] [] []
  gather_S200000x32_S1600000x1_S1600000x32_1_0_n_n_0_1_132_wf : GatherDims.WF S200000x32 S1600000x1 S1600000x32 [1] [0] [] [0] [] 1 ![1, 32]
  dot_S1600000x64_S64x1_S1600000x1_1_0_0_1_n_n_wf : DotDims.WF S1600000x64 S64x1 S1600000x1 [1] [0] [0] [1] [] []
  scatter_S200000x32_S1600000x1_S1600000x32_1_0_0_1_wf : ScatterDims.WF S200000x32 S1600000x1 S1600000x32 [1] [0] [0] 1
  dot_S200000x32_S32x32_S200000x32_1_0_0_1_n_n_wf : DotDims.WF S200000x32 S32x32 S200000x32 [1] [0] [0] [1] [] []
  dot_S200000x32_S32x96_S200000x96_1_0_0_1_n_n_wf : DotDims.WF S200000x32 S32x96 S200000x96 [1] [0] [0] [1] [] []
  dot_S200000x34_S34x8_S200000x8_1_0_0_1_n_n_wf : DotDims.WF S200000x34 S34x8 S200000x8 [1] [0] [0] [1] [] []
  dot_S200000x34_S34x2_S200000x2_1_0_0_1_n_n_wf : DotDims.WF S200000x34 S34x2 S200000x2 [1] [0] [0] [1] [] []

variable [Facts₀]

def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S200000x32_S1600000x1_S1600000x32_1_0_n_n_0_1_132 : GatherDims S200000x32 S1600000x1 S1600000x32 where
  offsetDims := [1]
  collapsedSliceDims := [0]
  operandBatchingDims := []
  startIndicesBatchingDims := []
  startIndexMap := [0]
  indexVectorDim := 1
  sliceSizes := ![1, 32]
  wf := gather_S200000x32_S1600000x1_S1600000x32_1_0_n_n_0_1_132_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S200000x32_S1600000x1_S1600000x32_1_0_0_1 : ScatterDims S200000x32 S1600000x1 S1600000x32 where
  updateWindowDims := [1]
  insertedWindowDims := [0]
  scatterDimsToOperandDims := [0]
  indexVectorDim := 1
  wf := scatter_S200000x32_S1600000x1_S1600000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x96_S200000x96_1_0_0_1_n_n : DotDims S200000x32 S32x96 S200000x96 where
  lhsContracting := [1]
  rhsContracting := [0]
  lhsNonContracting := [0]
  rhsNonContracting := [1]
  lhsBatch := []
  rhsBatch := []
  wf := dot_S200000x32_S32x96_S200000x96_1_0_0_1_n_n_wf
def dot_S200000x34_S34x8_S200000x8_1_0_0_1_n_n : DotDims S200000x34 S34x8 S200000x8 where
  lhsContracting := [1]
  rhsContracting := [0]
  lhsNonContracting := [0]
  rhsNonContracting := [1]
  lhsBatch := []
  rhsBatch := []
  wf := dot_S200000x34_S34x8_S200000x8_1_0_0_1_n_n_wf
def dot_S200000x34_S34x2_S200000x2_1_0_0_1_n_n : DotDims S200000x34 S34x2 S200000x2 where
  lhsContracting := [1]
  rhsContracting := [0]
  lhsNonContracting := [0]
  rhsNonContracting := [1]
  lhsBatch := []
  rhsBatch := []
  wf := dot_S200000x34_S34x2_S200000x2_1_0_0_1_n_n_wf

class Facts : Prop extends Facts₀ where

variable [Facts]
-- ==== Proof.K.Region0.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region0

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S10000x64 := Rect.unit (s := S10000x64) ![0, 0] S10000x64.size inb_S10000x64_S10000x64_0_0
abbrev rW : Rect S32x64 := Rect.unit (s := S32x64) ![0, 0] S32x64.size inb_S32x64_S32x64_0_0
abbrev rB : Rect S1x32 := Rect.unit (s := S1x32) ![0, 0] S1x32.size inb_S1x32_S1x32_0_0
abbrev rZ : Rect S10000x32 := Rect.unit (s := S10000x32) ![0, 0] S10000x32.size inb_S10000x32_S10000x32_0_0

def zBlock (x : Vec F S10000x64 .f32) (w : Vec F S32x64 .f32) (b : Vec F S1x32 .f32) : Vec F S10000x32 .f32 :=
  View.canon [⟨rZ, k0_pay1 (View.ld x rX) (View.ld w rW) (View.ld b rB)⟩]

set_option maxHeartbeats 1000000 in
theorem body_runs (c : Dev nD) (E : Set ℕ) (i : grid0.Coords)
    (a1 : Memref sig .tc .vmem S10000x64 .f32) (h1 : a1.IsWhole) (a2 : Memref sig .tc .vmem S32x64 .f32) (h2 : a2.IsWhole)
    (a3 : Memref sig .tc .vmem S1x32 .f32) (h3 : a3.IsWhole) (a4 : Memref sig .tc .vmem S10000x32 .f32) (h4 : a4.IsWhole)
    (x : Vec F S10000x64 .f32) (w : Vec F S32x64 .f32) (b : Vec F S1x32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (zBlock x w b)) -∗ K ⟨⟩))
      ⊢ wp frame (wpE (defs₀ (F := F)) Variants.none c none) E (cc0_kernel i a1 h1 a2 h2 a3 h3 a4 h4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x32.size (by rfl))

def data (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => zBlock (blk V c 0 t) (blk V c 1 t) (blk V c 2 t)
  Φ _ := Pipeline.ΦA spec0 c
  q _ := fullShare
  owed _ := 0

theorem data_A (c : Dev nD) (w : Fin cfg0.W) : (data V c).A w = V c (Pipeline.arrRef spec0 w) := by
  dsimp only [data]

theorem after_3 (c : Dev nD) (t : Fin cfg0.N) :
    (data V c).after 3 t = zBlock (blk V c 0 t) (blk V c 1 t) (blk V c 2 t) := by dsimp only [data]

theorem before_in (c : Dev nD) (w : Fin cfg0.W) (hw : (cfg0.win w).isOut = false) (t : Fin cfg0.N) (d) :
    (data V c).before w t d = (data V c).after w t :=
  match w, hw with
  | ⟨0, _⟩, _ | ⟨1, _⟩, _ | ⟨2, _⟩, _ =>
    (data V c).before_in_eq_fetched _ rfl (fun _ => rfl) (fun _ _ _ => rfl) (fun _ => rfl) t d
  | ⟨3, _⟩, h => Bool.noConfusion h

theorem obligation (c : Dev nD) : BodyObligation (data (F := F) V c) (defs₀ (F := F)) Variants.none () Set.univ := fun t => by
  rw [bigSep_W0, bigSep_W0]
  show _ ⊢ wp _ _ _ (bodyAt0 t) _
  simp (disch := exact rfl) only [before_in]
  dsimp only [data]
  iintro ⟨HΦ, Ho, ⟨%_, H0⟩, ⟨%_, H1⟩, ⟨%_, H2⟩, ⟨%_, H3⟩⟩
  iapply body_runs c Set.univ
  iframe
  isplitl [H3]; · iexists _; iexact H3
  iintro ⟨H0, H1, H2, H3⟩
  iframe
  iexact Ho

end Cert.Kernel.Region0

end
-- ==== Proof.K.Region1.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region1

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rE : Rect S8000x32 := Rect.unit (s := S8000x32) ![0, 0] S8000x32.size inb_S8000x32_S8000x32_0_0
abbrev rA : Rect S1x32 := Rect.unit (s := S1x32) ![0, 0] S1x32.size inb_S1x32_S1x32_0_0
abbrev rS : Rect S1x1 := Rect.unit (s := S1x1) ![0, 0] S1x1.size inb_S1x1_S1x1_0_0

def msgBlock (zs : Vec F S8000x32 .f32) (zd : Vec F S8000x32 .f32) (ws : Vec F S1x32 .f32) (wd : Vec F S1x32 .f32) (ab : Vec F S1x1 .f32) :
    Vec F S8000x32 .f32 :=
  View.canon [⟨rE, k1_pay1 (View.ld zs rE) (View.ld zd rE) (View.ld ws rA) (View.ld wd rA) (View.ld ab rS)⟩]

set_option maxHeartbeats 1000000 in
theorem body_runs (c : Dev nD) (E : Set ℕ) (i : grid1.Coords)
    (a1 : Memref sig .tc .vmem S8000x32 .f32) (h1 : a1.IsWhole) (a2 : Memref sig .tc .vmem S8000x32 .f32) (h2 : a2.IsWhole)
    (a3 : Memref sig .tc .vmem S1x32 .f32) (h3 : a3.IsWhole) (a4 : Memref sig .tc .vmem S1x32 .f32) (h4 : a4.IsWhole)
    (a5 : Memref sig .tc .vmem S1x1 .f32) (h5 : a5.IsWhole) (a6 : Memref sig .tc .vmem S8000x32 .f32) (h6 : a6.IsWhole)
    (zs : Vec F S8000x32 .f32) (zd : Vec F S8000x32 .f32) (ws : Vec F S1x32 .f32) (wd : Vec F S1x32 .f32) (ab : Vec F S1x1 .f32)
    (K : PUnit → sProp 𝕄) :
    iprop(owns (c : Thread nD τ) a1 fullShare zs ∗ owns (c : Thread nD τ) a2 fullShare zd ∗ owns (c : Thread nD τ) a3 fullShare ws
        ∗ owns (c : Thread nD τ) a4 fullShare wd ∗ owns (c : Thread nD τ) a5 fullShare ab
        ∗ (∃ d, owns (c : Thread nD τ) a6 fullShare d)
        ∗ (iprop(owns (c : Thread nD τ) a1 fullShare zs ∗ owns (c : Thread nD τ) a2 fullShare zd ∗ owns (c : Thread nD τ) a3 fullShare ws
            ∗ owns (c : Thread nD τ) a4 fullShare wd ∗ owns (c : Thread nD τ) a5 fullShare ab
            ∗ owns (c : Thread nD τ) a6 fullShare (msgBlock zs zd ws wd ab)) -∗ K ⟨⟩))
      ⊢ wp frame (wpE (defs₀ (F := F)) Variants.none c none) E (cc1__edge_kernel i a1 h1 a2 h2 a3 h3 a4 h4 a5 h5 a6 h6) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x32.size (by rfl))

def data (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => msgBlock (blk V c 0 t) (blk V c 1 t) (blk V c 2 t) (blk V c 3 t) (blk V c 4 t)
  Φ _ := Pipeline.ΦA spec1 c
  q _ := fullShare
  owed _ := 0

theorem data_A (c : Dev nD) (w : Fin cfg1.W) : (data V c).A w = V c (Pipeline.arrRef spec1 w) := by
  dsimp only [data]

theorem after_5 (c : Dev nD) (t : Fin cfg1.N) :
    (data V c).after 5 t = msgBlock (blk V c 0 t) (blk V c 1 t) (blk V c 2 t) (blk V c 3 t) (blk V c 4 t) := by dsimp only [data]

theorem before_in (c : Dev nD) (w : Fin cfg1.W) (hw : (cfg1.win w).isOut = false) (t : Fin cfg1.N) (d) :
    (data V c).before w t d = (data V c).after w t :=
  match w, hw with
  | ⟨0, _⟩, _ | ⟨1, _⟩, _ | ⟨2, _⟩, _ | ⟨3, _⟩, _ | ⟨4, _⟩, _ =>
    (data V c).before_in_eq_fetched _ rfl (fun _ => rfl) (fun _ _ _ => rfl) (fun _ => rfl) t d
  | ⟨5, _⟩, h => Bool.noConfusion h

theorem obligation (c : Dev nD) : BodyObligation (data (F := F) V c) (defs₀ (F := F)) Variants.none () Set.univ := fun t => by
  rw [bigSep_W1, bigSep_W1]
  show _ ⊢ wp _ _ _ (bodyAt1 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩⟩
  iapply body_runs c Set.univ
  iframe
  isplitl [H5]; · iexists _; iexact H5
  iintro ⟨H0, H1, H2, H3, H4, H5⟩
  iframe
  iexact Ho

end Cert.Kernel.Region1

end
-- ==== Proof.K.Region2.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region2

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S10000x32 := Rect.unit (s := S10000x32) ![0, 0] S10000x32.size inb_S10000x32_S10000x32_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rZ : Rect S10000x32 := Rect.unit (s := S10000x32) ![0, 0] S10000x32.size inb_S10000x32_S10000x32_0_0

def zBlock (x : Vec F S10000x32 .f32) (w : Vec F S32x32 .f32) (b : Vec F S1x32 .f32) : Vec F S10000x32 .f32 :=
  View.canon [⟨rZ, k2_pay1 (View.ld x rX) (View.ld w rW) (View.ld b rB)⟩]

set_option maxHeartbeats 1000000 in
theorem body_runs (c : Dev nD) (E : Set ℕ) (i : grid2.Coords)
    (a1 : Memref sig .tc .vmem S10000x32 .f32) (h1 : a1.IsWhole) (a2 : Memref sig .tc .vmem S32x32 .f32) (h2 : a2.IsWhole)
    (a3 : Memref sig .tc .vmem S1x32 .f32) (h3 : a3.IsWhole) (a4 : Memref sig .tc .vmem S10000x32 .f32) (h4 : a4.IsWhole)
    (x : Vec F S10000x32 .f32) (w : Vec F S32x32 .f32) (b : Vec F S1x32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (zBlock x w b)) -∗ K ⟨⟩))
      ⊢ wp frame (wpE (defs₀ (F := F)) Variants.none c none) E (cc2_kernel i a1 h1 a2 h2 a3 h3 a4 h4) K := by
  simp only [cc2_kernel_eq_skeleton]; unfold cc2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x32.size (by rfl))

def data (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => zBlock (blk V c 0 t) (blk V c 1 t) (blk V c 2 t)
  Φ _ := Pipeline.ΦA spec2 c
  q _ := fullShare
  owed _ := 0

theorem data_A (c : Dev nD) (w : Fin cfg2.W) : (data V c).A w = V c (Pipeline.arrRef spec2 w) := by
  dsimp only [data]

theorem after_3 (c : Dev nD) (t : Fin cfg2.N) :
    (data V c).after 3 t = zBlock (blk V c 0 t) (blk V c 1 t) (blk V c 2 t) := by dsimp only [data]

theorem before_in (c : Dev nD) (w : Fin cfg2.W) (hw : (cfg2.win w).isOut = false) (t : Fin cfg2.N) (d) :
    (data V c).before w t d = (data V c).after w t :=
  match w, hw with
  | ⟨0, _⟩, _ | ⟨1, _⟩, _ | ⟨2, _⟩, _ =>
    (data V c).before_in_eq_fetched _ rfl (fun _ => rfl) (fun _ _ _ => rfl) (fun _ => rfl) t d
  | ⟨3, _⟩, h => Bool.noConfusion h

theorem obligation (c : Dev nD) : BodyObligation (data (F := F) V c) (defs₀ (F := F)) Variants.none () Set.univ := fun t => by
  rw [bigSep_W2, bigSep_W2]
  show _ ⊢ wp _ _ _ (bodyAt2 t) _
  simp (disch := exact rfl) only [before_in]
  dsimp only [data]
  iintro ⟨HΦ, Ho, ⟨%_, H0⟩, ⟨%_, H1⟩, ⟨%_, H2⟩, ⟨%_, H3⟩⟩
  iapply body_runs c Set.univ
  iframe
  isplitl [H3]; · iexists _; iexact H3
  iintro ⟨H0, H1, H2, H3⟩
  iframe
  iexact Ho

end Cert.Kernel.Region2

end
-- ==== Proof.K.Region3.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region3

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rE : Rect S8000x32 := Rect.unit (s := S8000x32) ![0, 0] S8000x32.size inb_S8000x32_S8000x32_0_0
abbrev rA : Rect S1x32 := Rect.unit (s := S1x32) ![0, 0] S1x32.size inb_S1x32_S1x32_0_0
abbrev rS : Rect S1x1 := Rect.unit (s := S1x1) ![0, 0] S1x1.size inb_S1x1_S1x1_0_0

def msgBlock (zs : Vec F S8000x32 .f32) (zd : Vec F S8000x32 .f32) (ws : Vec F S1x32 .f32) (wd : Vec F S1x32 .f32) (ab : Vec F S1x1 .f32) :
    Vec F S8000x32 .f32 :=
  View.canon [⟨rE, k3_pay1 (View.ld zs rE) (View.ld zd rE) (View.ld ws rA) (View.ld wd rA) (View.ld ab rS)⟩]

set_option maxHeartbeats 1000000 in
theorem body_runs (c : Dev nD) (E : Set ℕ) (i : grid3.Coords)
    (a1 : Memref sig .tc .vmem S8000x32 .f32) (h1 : a1.IsWhole) (a2 : Memref sig .tc .vmem S8000x32 .f32) (h2 : a2.IsWhole)
    (a3 : Memref sig .tc .vmem S1x32 .f32) (h3 : a3.IsWhole) (a4 : Memref sig .tc .vmem S1x32 .f32) (h4 : a4.IsWhole)
    (a5 : Memref sig .tc .vmem S1x1 .f32) (h5 : a5.IsWhole) (a6 : Memref sig .tc .vmem S8000x32 .f32) (h6 : a6.IsWhole)
    (zs : Vec F S8000x32 .f32) (zd : Vec F S8000x32 .f32) (ws : Vec F S1x32 .f32) (wd : Vec F S1x32 .f32) (ab : Vec F S1x1 .f32)
    (K : PUnit → sProp 𝕄) :
    iprop(owns (c : Thread nD τ) a1 fullShare zs ∗ owns (c : Thread nD τ) a2 fullShare zd ∗ owns (c : Thread nD τ) a3 fullShare ws
        ∗ owns (c : Thread nD τ) a4 fullShare wd ∗ owns (c : Thread nD τ) a5 fullShare ab
        ∗ (∃ d, owns (c : Thread nD τ) a6 fullShare d)
        ∗ (iprop(owns (c : Thread nD τ) a1 fullShare zs ∗ owns (c : Thread nD τ) a2 fullShare zd ∗ owns (c : Thread nD τ) a3 fullShare ws
            ∗ owns (c : Thread nD τ) a4 fullShare wd ∗ owns (c : Thread nD τ) a5 fullShare ab
            ∗ owns (c : Thread nD τ) a6 fullShare (msgBlock zs zd ws wd ab)) -∗ K ⟨⟩))
      ⊢ wp frame (wpE (defs₀ (F := F)) Variants.none c none) E (cc3__edge_kernel i a1 h1 a2 h2 a3 h3 a4 h4 a5 h5 a6 h6) K := by
  simp only [cc3__edge_kernel_eq_skeleton]; unfold cc3__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x32.size (by rfl))

def data (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => msgBlock (blk V c 0 t) (blk V c 1 t) (blk V c 2 t) (blk V c 3 t) (blk V c 4 t)
  Φ _ := Pipeline.ΦA spec3 c
  q _ := fullShare
  owed _ := 0

theorem data_A (c : Dev nD) (w : Fin cfg3.W) : (data V c).A w = V c (Pipeline.arrRef spec3 w) := by
  dsimp only [data]

theorem after_5 (c : Dev nD) (t : Fin cfg3.N) :
    (data V c).after 5 t = msgBlock (blk V c 0 t) (blk V c 1 t) (blk V c 2 t) (blk V c 3 t) (blk V c 4 t) := by dsimp only [data]

theorem before_in (c : Dev nD) (w : Fin cfg3.W) (hw : (cfg3.win w).isOut = false) (t : Fin cfg3.N) (d) :
    (data V c).before w t d = (data V c).after w t :=
  match w, hw with
  | ⟨0, _⟩, _ | ⟨1, _⟩, _ | ⟨2, _⟩, _ | ⟨3, _⟩, _ | ⟨4, _⟩, _ =>
    (data V c).before_in_eq_fetched _ rfl (fun _ => rfl) (fun _ _ _ => rfl) (fun _ => rfl) t d
  | ⟨5, _⟩, h => Bool.noConfusion h

theorem obligation (c : Dev nD) : BodyObligation (data (F := F) V c) (defs₀ (F := F)) Variants.none () Set.univ := fun t => by
  rw [bigSep_W3, bigSep_W3]
  show _ ⊢ wp _ _ _ (bodyAt3 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩⟩
  iapply body_runs c Set.univ
  iframe
  isplitl [H5]; · iexists _; iexact H5
  iintro ⟨H0, H1, H2, H3, H4, H5⟩
  iframe
  iexact Ho

end Cert.Kernel.Region3

end
-- ==== Proof.K.Region4.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region4

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rH : Rect S5000x32 := Rect.unit (s := S5000x32) ![0, 0] S5000x32.size inb_S5000x32_S5000x32_0_0
abbrev rW : Rect S96x32 := Rect.unit (s := S96x32) ![0, 0] S96x32.size inb_S96x32_S96x32_0_0
abbrev rB : Rect S1x96 := Rect.unit (s := S1x96) ![0, 0] S1x96.size inb_S1x96_S1x96_0_0

def hBlock (x : Vec F S5000x32 .f32) (w : Vec F S96x32 .f32) (bi : Vec F S1x96 .f32) (bh : Vec F S1x96 .f32) : Vec F S5000x32 .f32 :=
  View.canon [⟨rH, k4_pay1 (View.ld x rH) (View.ld w rW) (View.ld bi rB) (View.ld bh rB)⟩]

set_option maxHeartbeats 1000000 in
theorem body_runs (c : Dev nD) (E : Set ℕ) (i : grid4.Coords)
    (a1 : Memref sig .tc .vmem S5000x32 .f32) (h1 : a1.IsWhole) (a2 : Memref sig .tc .vmem S96x32 .f32) (h2 : a2.IsWhole)
    (a3 : Memref sig .tc .vmem S1x96 .f32) (h3 : a3.IsWhole) (a4 : Memref sig .tc .vmem S1x96 .f32) (h4 : a4.IsWhole)
    (a5 : Memref sig .tc .vmem S5000x32 .f32) (h5 : a5.IsWhole)
    (x : Vec F S5000x32 .f32) (w : Vec F S96x32 .f32) (bi : Vec F S1x96 .f32) (bh : Vec F S1x96 .f32) (K : PUnit → sProp 𝕄) :
    iprop(owns (c : Thread nD τ) a1 fullShare x ∗ owns (c : Thread nD τ) a2 fullShare w ∗ owns (c : Thread nD τ) a3 fullShare bi
        ∗ owns (c : Thread nD τ) a4 fullShare bh
        ∗ (∃ d, owns (c : Thread nD τ) a5 fullShare d)
        ∗ (iprop(owns (c : Thread nD τ) a1 fullShare x ∗ owns (c : Thread nD τ) a2 fullShare w ∗ owns (c : Thread nD τ) a3 fullShare bi
            ∗ owns (c : Thread nD τ) a4 fullShare bh
            ∗ owns (c : Thread nD τ) a5 fullShare (hBlock x w bi bh)) -∗ K ⟨⟩))
      ⊢ wp frame (wpE (defs₀ (F := F)) Variants.none c none) E (cc4__gru_kernel i a1 h1 a2 h2 a3 h3 a4 h4 a5 h5) K := by
  simp only [cc4__gru_kernel_eq_skeleton]; unfold cc4__gru_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x32.size (by rfl))

def data (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => hBlock (blk V c 0 t) (blk V c 1 t) (blk V c 2 t) (blk V c 3 t)
  Φ _ := Pipeline.ΦA spec4 c
  q _ := fullShare
  owed _ := 0

theorem data_A (c : Dev nD) (w : Fin cfg4.W) : (data V c).A w = V c (Pipeline.arrRef spec4 w) := by
  dsimp only [data]

theorem after_4 (c : Dev nD) (t : Fin cfg4.N) :
    (data V c).after 4 t = hBlock (blk V c 0 t) (blk V c 1 t) (blk V c 2 t) (blk V c 3 t) := by dsimp only [data]

theorem before_in (c : Dev nD) (w : Fin cfg4.W) (hw : (cfg4.win w).isOut = false) (t : Fin cfg4.N) (d) :
    (data V c).before w t d = (data V c).after w t :=
  match w, hw with
  | ⟨0, _⟩, _ | ⟨1, _⟩, _ | ⟨2, _⟩, _ | ⟨3, _⟩, _ =>
    (data V c).before_in_eq_fetched _ rfl (fun _ => rfl) (fun _ _ _ => rfl) (fun _ => rfl) t d
  | ⟨4, _⟩, h => Bool.noConfusion h

theorem obligation (c : Dev nD) : BodyObligation (data (F := F) V c) (defs₀ (F := F)) Variants.none () Set.univ := fun t => by
  rw [bigSep_W4, bigSep_W4]
  show _ ⊢ wp _ _ _ (bodyAt4 t) _
  simp (disch := exact rfl) only [before_in]
  dsimp only [data]
  iintro ⟨HΦ, Ho, ⟨%_, H0⟩, ⟨%_, H1⟩, ⟨%_, H2⟩, ⟨%_, H3⟩, ⟨%_, H4⟩⟩
  iapply body_runs c Set.univ
  iframe
  isplitl [H4]; · iexists _; iexact H4
  iintro ⟨H0, H1, H2, H3, H4⟩
  iframe
  iexact Ho

end Cert.Kernel.Region4

end
-- ==== Proof.K.Region5.lean ====
import proofs.«112250_j2224793059992_2_alg».proof.Proof.Gen.Kernel.Launch
import proofs.«112250_j2224793059992_2_alg».proof.Proof.Gen.Kernel.Skeleton
import proofs.«112250_j2224793059992_2_alg».proof.Proof.Gen.Kernel.Points
import Idealize.ShloMosaic.Lib.Pipeline.FrameBody
import Idealize.ShloMosaic.Lib.Tactic

set_option maxRecDepth 16384

noncomputable section

namespace Cert.Kernel.Region5

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rH : Rect S2000x32 := Rect.unit (s := S2000x32) ![0, 0] S2000x32.size inb_S2000x32_S2000x32_0_0
abbrev rE : Rect S2000x5 := Rect.unit (s := S2000x5) ![0, 0] S2000x5.size inb_S2000x5_S2000x5_0_0
abbrev rW8 : Rect S8x34 := Rect.unit (s := S8x34) ![0, 0] S8x34.size inb_S8x34_S8x34_0_0
abbrev rB8 : Rect S1x8 := Rect.unit (s := S1x8) ![0, 0] S1x8.size inb_S1x8_S1x8_0_0
abbrev rW2 : Rect S2x34 := Rect.unit (s := S2x34) ![0, 0] S2x34.size inb_S2x34_S2x34_0_0
abbrev rB2 : Rect S1x2 := Rect.unit (s := S1x2) ![0, 0] S1x2.size inb_S1x2_S1x2_0_0
abbrev rO : Rect S2000x8x2 := Rect.unit (s := S2000x8x2) ![0, 0, 0] S2000x8x2.size inb_S2000x8x2_S2000x8x2_0_0_0

def predBlock (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) : Vec F S2000x8x2 .f32 :=
  View.canon [⟨rO, k5_pay5 (k5_pay12 (View.ld h rH) (View.ld e rE) (View.ld wI rW8) (View.ld bI rB8))
    (k5_pay13 (View.ld h rH) (View.ld e rE) (View.ld wR rW8) (View.ld bR rB8))⟩]

def phyBlock (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) : Vec F S2000x8x2 .f32 :=
  let i : FVec F S2000x1 .f32 := k5_pay8 (View.ld e rE)
  let r : FVec F S2000x1 .f32 := k5_pay9 (View.ld e rE)
  let n : FVec F S2000x1 .f32 := k5_pay10 (View.ld e rE)
  let β : FVec F S2000x1 .f32 := k5_pay15 (View.ld h rH) (View.ld e rE) (View.ld wS rW2) (View.ld bS rB2)
  let γ : FVec F S2000x1 .f32 := k5_pay16 (View.ld h rH) (View.ld e rE) (View.ld wS rW2) (View.ld bS rB2)
  let s : FVec F S2000x1 .f32 := k5_pay17 (View.ld e rE)
  let i₆ : FVec F S2000x1 .f32 := k5_pay40 i r n β γ s
  let r₆ : FVec F S2000x1 .f32 := k5_pay41 i r n β γ s
  let s₆ : FVec F S2000x1 .f32 := k5_pay42 i r n β γ s
  let di₆ : FVec F S2000x1 .f32 := k5_pay1 n β γ i₆ r₆ s₆
  let drs : FVec F S2000x8 .f32 := k5_pay4 γ (k5_pay19 i γ) (k5_pay23 i r n β γ s) (k5_pay27 i r n β γ s) (k5_pay31 i r n β γ s)
    (k5_pay35 i r n β γ s) (k5_pay39 i r n β γ s) i₆ di₆
  View.canon [⟨rO, k5_pay6 n β γ (k5_pay18 i r n β γ s) (k5_pay22 i r n β γ s) (k5_pay26 i r n β γ s) (k5_pay30 i r n β γ s)
    (k5_pay34 i r n β γ s) (k5_pay38 i r n β γ s) i₆ r₆ di₆ drs⟩]

set_option maxHeartbeats 4000000 in
theorem body_runs (c : Dev nD) (E : Set ℕ) (i : grid5.Coords)
    (a1 : Memref sig .tc .vmem S2000x32 .f32) (h1 : a1.IsWhole) (a2 : Memref sig .tc .vmem S2000x5 .f32) (h2 : a2.IsWhole)
    (a3 : Memref sig .tc .vmem S8x34 .f32) (h3 : a3.IsWhole) (a4 : Memref sig .tc .vmem S1x8 .f32) (h4 : a4.IsWhole)
    (a5 : Memref sig .tc .vmem S8x34 .f32) (h5 : a5.IsWhole) (a6 : Memref sig .tc .vmem S1x8 .f32) (h6 : a6.IsWhole)
    (a7 : Memref sig .tc .vmem S2x34 .f32) (h7 : a7.IsWhole) (a8 : Memref sig .tc .vmem S1x2 .f32) (h8 : a8.IsWhole)
    (a9 : Memref sig .tc .vmem S2000x8x2 .f32) (h9 : a9.IsWhole) (a10 : Memref sig .tc .vmem S2000x8x2 .f32) (h10 : a10.IsWhole)
    (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) (K : PUnit → sProp 𝕄) :
    iprop(owns (c : Thread nD τ) a1 fullShare h ∗ owns (c : Thread nD τ) a2 fullShare e
        ∗ owns (c : Thread nD τ) a3 fullShare wI ∗ owns (c : Thread nD τ) a4 fullShare bI
        ∗ owns (c : Thread nD τ) a5 fullShare wR ∗ owns (c : Thread nD τ) a6 fullShare bR
        ∗ owns (c : Thread nD τ) a7 fullShare wS ∗ owns (c : Thread nD τ) a8 fullShare bS
        ∗ (∃ d, owns (c : Thread nD τ) a9 fullShare d) ∗ (∃ d, owns (c : Thread nD τ) a10 fullShare d)
        ∗ (iprop(owns (c : Thread nD τ) a1 fullShare h ∗ owns (c : Thread nD τ) a2 fullShare e
            ∗ owns (c : Thread nD τ) a3 fullShare wI ∗ owns (c : Thread nD τ) a4 fullShare bI
            ∗ owns (c : Thread nD τ) a5 fullShare wR ∗ owns (c : Thread nD τ) a6 fullShare bR
            ∗ owns (c : Thread nD τ) a7 fullShare wS ∗ owns (c : Thread nD τ) a8 fullShare bS
            ∗ owns (c : Thread nD τ) a9 fullShare (predBlock h e wI bI wR bR wS bS)
            ∗ owns (c : Thread nD τ) a10 fullShare (phyBlock h e wI bI wR bR wS bS)) -∗ K ⟨⟩))
      ⊢ wp frame (wpE (defs₀ (F := F)) Variants.none c none) E (cc5__outhead_kernel i a1 h1 a2 h2 a3 h3 a4 h4 a5 h5 a6 h6 a7 h7 a8 h8 a9 h9 a10 h10) K := by
  simp only [cc5__outhead_kernel_eq_skeleton]; unfold cc5__outhead_kernel_skel
  simp only [k5_part1_eq_skeleton, k5_part2_eq_skeleton]; unfold k5_part1_skel k5_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, Hk⟩
  subst hf1; subst hf2; subst hf3; subst hf4; subst hf5; subst hf6; subst hf7; subst hf8
  sl_exec
  simp only [View.readAt_eq_ld]
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (View.cover_of_tiled _ S2000x8x2.size (by rfl))
  iexists _; isplitr
  swap; · iexact H10
  ipureintro
  exact View.read_writes_eq_canon _ _ _ (View.cover_of_tiled _ S2000x8x2.size (by rfl))

def data (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => predBlock (blk V c 0 t) (blk V c 1 t) (blk V c 2 t) (blk V c 3 t) (blk V c 4 t) (blk V c 5 t) (blk V c 6 t) (blk V c 7 t)
    | ⟨9, _⟩ => phyBlock (blk V c 0 t) (blk V c 1 t) (blk V c 2 t) (blk V c 3 t) (blk V c 4 t) (blk V c 5 t) (blk V c 6 t) (blk V c 7 t)
  Φ _ := Pipeline.ΦA spec5 c
  q _ := fullShare
  owed _ := 0

theorem data_A (c : Dev nD) (w : Fin cfg5.W) : (data V c).A w = V c (Pipeline.arrRef spec5 w) := by
  dsimp only [data]

theorem after_8 (c : Dev nD) (t : Fin cfg5.N) :
    (data V c).after 8 t = predBlock (blk V c 0 t) (blk V c 1 t) (blk V c 2 t) (blk V c 3 t) (blk V c 4 t) (blk V c 5 t) (blk V c 6 t) (blk V c 7 t) := by
  dsimp only [data]
theorem after_9 (c : Dev nD) (t : Fin cfg5.N) :
    (data V c).after 9 t = phyBlock (blk V c 0 t) (blk V c 1 t) (blk V c 2 t) (blk V c 3 t) (blk V c 4 t) (blk V c 5 t) (blk V c 6 t) (blk V c 7 t) := by
  dsimp only [data]

theorem before_in (c : Dev nD) (w : Fin cfg5.W) (hw : (cfg5.win w).isOut = false) (t : Fin cfg5.N) (d) :
    (data V c).before w t d = (data V c).after w t :=
  match w, hw with
  | ⟨0, _⟩, _ | ⟨1, _⟩, _ | ⟨2, _⟩, _ | ⟨3, _⟩, _ | ⟨4, _⟩, _ | ⟨5, _⟩, _ | ⟨6, _⟩, _ | ⟨7, _⟩, _ =>
    (data V c).before_in_eq_fetched _ rfl (fun _ => rfl) (fun _ _ _ => rfl) (fun _ => rfl) t d
  | ⟨8, _⟩, h | ⟨9, _⟩, h => Bool.noConfusion h

theorem obligation (c : Dev nD) : BodyObligation (data (F := F) V c) (defs₀ (F := F)) Variants.none () Set.univ := fun t => by
  rw [bigSep_W5, bigSep_W5]
  show _ ⊢ wp _ _ _ (bodyAt5 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply body_runs c Set.univ
  iframe
  isplitl [H8]; · iexists _; iexact H8
  isplitl [H9]; · iexists _; iexact H9
  iintro ⟨H0, H1, H2, H3, H4, H5, H6, H7, H8, H9⟩
  iframe
  iexact Ho

end Cert.Kernel.Region5

end
-- ==== Proof.K.Fold.lean ====
import proofs.«112250_j2224793059992_2_alg».proof.Proof.K.Region0
import proofs.«112250_j2224793059992_2_alg».proof.Proof.K.Region1
import proofs.«112250_j2224793059992_2_alg».proof.Proof.K.Region2
import proofs.«112250_j2224793059992_2_alg».proof.Proof.K.Region3
import proofs.«112250_j2224793059992_2_alg».proof.Proof.K.Region4
import proofs.«112250_j2224793059992_2_alg».proof.Proof.K.Region5
import proofs.«112250_j2224793059992_2_alg».proof.Proof.Gen.Kernel.Regions
import Idealize.ShloMosaic.Lib.Pipeline.Cells

noncomputable section

namespace Cert.Kernel.Fold

open Cert.Kernel Cert.Kernel.Gen
open Idealize.ShloMosaic Idealize.ShloMosaic.TcCoe
open Idealize.SL Idealize.SL.Sem
open Idealize.ShloMosaic.Pipeline (Dat Cfg)

variable {F : FTy → Type} [FloatOps F]
variable (m : (ℓ : Loc nD τ sig) → Buf (Elt F) ℓ)

abbrev atTc (T : Dev nD → Valuation τ sig (Elt F)) : (c : Dev nD) → (b : Ref sig .tc) → Buf (Elt F) ((c : Thread nD τ).loc b) :=
  fun c b => T c b

section
variable {cfg : Cfg sig Λ₀} {c : Dev nD} (dat : Dat τ (Elt F) Unit ℕ (UR sig nD τ) ℕ cfg c) (T : Valuation τ sig (Elt F))

theorem arr_in (w : Fin cfg.W) (hw : (cfg.win w).isOut = false) (hA : dat.A w = T (Proc.devRef .tc (Pipeline.arrRef cfg.spec w))) :
    dat.arrAt w cfg.N = T (Proc.devRef .tc (Pipeline.arrRef cfg.spec w)) :=
  (dat.arrAt_in w hw cfg.N).trans hA

theorem arr_upd (hinj : Function.Injective (Pipeline.arrRef cfg.spec)) (o w : Fin cfg.W)
    (h : w ≠ o → dat.arrAt w cfg.N = T (Proc.devRef .tc (Pipeline.arrRef cfg.spec w))) :
    dat.arrAt w cfg.N = Function.update T (Proc.devRef .tc (Pipeline.arrRef cfg.spec o)) (dat.arrAt o cfg.N) (Proc.devRef .tc (Pipeline.arrRef cfg.spec w)) := by
  by_cases hw : w = o
  · subst hw; exact (Function.update_self _ _ T).symm
  · exact (h hw).trans (Function.update_of_ne (fun e => hw (hinj (Proc.devRef_injective _ e))) _ T).symm
end

theorem rest_upd {gr W : ℕ} (win : Fin W → Pipeline.WinSpec sig gr) (T : Valuation τ sig (Elt F)) (o : Fin W)
    (v : (Proc.devRef .tc (Pipeline.arrRef win o) : DevRef τ sig).ty.Contents (Elt F)) (b : Ref sig .tc)
    (hb : b ∉ Finset.univ.image (Pipeline.arrRef win)) :
    Function.update T (Proc.devRef .tc (Pipeline.arrRef win o)) v (Proc.devRef .tc b) = T (Proc.devRef .tc b) :=
  Function.update_of_ne (fun e => hb (Finset.mem_image.mpr ⟨o, Finset.mem_univ _, (Proc.devRef_injective _ e).symm⟩)) _ _

abbrev T1 : Dev nD → Valuation τ sig (Elt F) := fun c => Gen.V1 m c
def z1 (c : Dev nD) : Buf (Elt F) ((c : Thread nD τ).loc main_v13) := (Region0.data (atTc (T1 m)) c).arrAt 3 cfg0.N
abbrev T2 : Dev nD → Valuation τ sig (Elt F) := fun c => Function.update (T1 m c) main_v13 (z1 m c)
abbrev T3 : Dev nD → Valuation τ sig (Elt F) := fun c => StableHlo.after hostOps1 (T2 m c)
def msg1 (c : Dev nD) : Buf (Elt F) ((c : Thread nD τ).loc main_v31) := (Region1.data (atTc (T3 m)) c).arrAt 5 cfg1.N
abbrev T4 : Dev nD → Valuation τ sig (Elt F) := fun c => Function.update (T3 m c) main_v31 (msg1 m c)
abbrev T5 : Dev nD → Valuation τ sig (Elt F) := fun c => StableHlo.after hostOps2 (T4 m c)
def z2 (c : Dev nD) : Buf (Elt F) ((c : Thread nD τ).loc main_v36) := (Region2.data (atTc (T5 m)) c).arrAt 3 cfg2.N
abbrev T6 : Dev nD → Valuation τ sig (Elt F) := fun c => Function.update (T5 m c) main_v36 (z2 m c)
abbrev T7 : Dev nD → Valuation τ sig (Elt F) := fun c => StableHlo.after hostOps3 (T6 m c)
def msg2 (c : Dev nD) : Buf (Elt F) ((c : Thread nD τ).loc main_v54) := (Region3.data (atTc (T7 m)) c).arrAt 5 cfg3.N
abbrev T8 : Dev nD → Valuation τ sig (Elt F) := fun c => Function.update (T7 m c) main_v54 (msg2 m c)
abbrev T9 : Dev nD → Valuation τ sig (Elt F) := fun c => StableHlo.after hostOps4 (T8 m c)
def gate (c : Dev nD) : Buf (Elt F) ((c : Thread nD τ).loc main_v60) := (Region4.data (atTc (T9 m)) c).arrAt 4 cfg4.N
abbrev T10 : Dev nD → Valuation τ sig (Elt F) := fun c => Function.update (T9 m c) main_v60 (gate m c)
abbrev T11 : Dev nD → Valuation τ sig (Elt F) := fun c => StableHlo.after hostOps5 (T10 m c)
def pred (c : Dev nD) : Buf (Elt F) ((c : Thread nD τ).loc main_v72_0) := (Region5.data (atTc (T11 m)) c).arrAt 8 cfg5.N
def phy (c : Dev nD) : Buf (Elt F) ((c : Thread nD τ).loc main_v72_1) := (Region5.data (atTc (T11 m)) c).arrAt 9 cfg5.N
abbrev T12 : Dev nD → Valuation τ sig (Elt F) := fun c =>
  Function.update (Function.update (T11 m c) main_v72_0 (pred m c)) main_v72_1 (phy m c)

def outs : Gen.Outs (F := F) := fun n r c => match n with
  | 2 => T2 m c r
  | 4 => T4 m c r
  | 6 => T6 m c r
  | 8 => T8 m c r
  | 10 => T10 m c r
  | _ => T12 m c r

theorem upd_eq {f g : Valuation τ sig (Elt F)} (h : f = g) (r : DevRef τ sig) (z : r.ty.Contents (Elt F)) :
    Function.update f r (Function.update g r z r) = Function.update g r z := by
  rw [h, Function.update_self]
theorem V2_eq (c : Dev nD) : Gen.V2 m (outs m) c = T2 m c := upd_eq rfl _ _
theorem V3_eq (c : Dev nD) : Gen.V3 m (outs m) c = T3 m c := congrArg (StableHlo.after hostOps1) (V2_eq m c)
theorem V4_eq (c : Dev nD) : Gen.V4 m (outs m) c = T4 m c := upd_eq (V3_eq m c) _ _
theorem V5_eq (c : Dev nD) : Gen.V5 m (outs m) c = T5 m c := congrArg (StableHlo.after hostOps2) (V4_eq m c)
theorem V6_eq (c : Dev nD) : Gen.V6 m (outs m) c = T6 m c := upd_eq (V5_eq m c) _ _
theorem V7_eq (c : Dev nD) : Gen.V7 m (outs m) c = T7 m c := congrArg (StableHlo.after hostOps3) (V6_eq m c)
theorem V8_eq (c : Dev nD) : Gen.V8 m (outs m) c = T8 m c := upd_eq (V7_eq m c) _ _
theorem V9_eq (c : Dev nD) : Gen.V9 m (outs m) c = T9 m c := congrArg (StableHlo.after hostOps4) (V8_eq m c)
theorem V10_eq (c : Dev nD) : Gen.V10 m (outs m) c = T10 m c := upd_eq (V9_eq m c) _ _
theorem V11_eq (c : Dev nD) : Gen.V11 m (outs m) c = T11 m c := congrArg (StableHlo.after hostOps5) (V10_eq m c)
theorem T12_pred (c : Dev nD) : T12 m c main_v72_0 = pred m c :=
  (Function.update_of_ne (by decide) _ _).trans (Function.update_self ..)
theorem T12_phy (c : Dev nD) : T12 m c main_v72_1 = phy m c := Function.update_self ..
theorem V12_eq (c : Dev nD) : Gen.V12 m (outs m) c = T12 m c := by
  show Function.update (Function.update (Gen.V11 m (outs m) c) main_v72_0 (T12 m c main_v72_0)) main_v72_1 (T12 m c main_v72_1) = T12 m c
  rw [V11_eq, T12_pred, T12_phy]

theorem exit0_arr (c : Dev nD) (w : Fin cfg0.W) :
    (Region0.data (atTc (T1 m)) c).arrAt w cfg0.N = atTc (T2 m) c (Pipeline.arrRef spec0 w) :=
  arr_upd _ _ launch0.win.arr_inj 3 w fun h0 =>
    arr_in _ _ w ((by decide : ∀ w : Fin cfg0.W, w ≠ 3 → (cfg0.win w).isOut = false) w h0) (Region0.data_A _ c w)
theorem exit0_rest (c : Dev nD) : ∀ b, b ∉ Finset.univ.image (Pipeline.arrRef spec0) → atTc (T2 m) c b = atTc (T1 m) c b :=
  fun b hb => rest_upd spec0 _ 3 _ b hb

theorem exit1_arr (c : Dev nD) (w : Fin cfg1.W) :
    (Region1.data (atTc (T3 m)) c).arrAt w cfg1.N = atTc (T4 m) c (Pipeline.arrRef spec1 w) :=
  arr_upd _ _ launch1.win.arr_inj 5 w fun h0 =>
    arr_in _ _ w ((by decide : ∀ w : Fin cfg1.W, w ≠ 5 → (cfg1.win w).isOut = false) w h0) (Region1.data_A _ c w)
theorem exit1_rest (c : Dev nD) : ∀ b, b ∉ Finset.univ.image (Pipeline.arrRef spec1) → atTc (T4 m) c b = atTc (T3 m) c b :=
  fun b hb => rest_upd spec1 _ 5 _ b hb

theorem exit2_arr (c : Dev nD) (w : Fin cfg2.W) :
    (Region2.data (atTc (T5 m)) c).arrAt w cfg2.N = atTc (T6 m) c (Pipeline.arrRef spec2 w) :=
  arr_upd _ _ launch2.win.arr_inj 3 w fun h0 =>
    arr_in _ _ w ((by decide : ∀ w : Fin cfg2.W, w ≠ 3 → (cfg2.win w).isOut = false) w h0) (Region2.data_A _ c w)
theorem exit2_rest (c : Dev nD) : ∀ b, b ∉ Finset.univ.image (Pipeline.arrRef spec2) → atTc (T6 m) c b = atTc (T5 m) c b :=
  fun b hb => rest_upd spec2 _ 3 _ b hb

theorem exit3_arr (c : Dev nD) (w : Fin cfg3.W) :
    (Region3.data (atTc (T7 m)) c).arrAt w cfg3.N = atTc (T8 m) c (Pipeline.arrRef spec3 w) :=
  arr_upd _ _ launch3.win.arr_inj 5 w fun h0 =>
    arr_in _ _ w ((by decide : ∀ w : Fin cfg3.W, w ≠ 5 → (cfg3.win w).isOut = false) w h0) (Region3.data_A _ c w)
theorem exit3_rest (c : Dev nD) : ∀ b, b ∉ Finset.univ.image (Pipeline.arrRef spec3) → atTc (T8 m) c b = atTc (T7 m) c b :=
  fun b hb => rest_upd spec3 _ 5 _ b hb

theorem exit4_arr (c : Dev nD) (w : Fin cfg4.W) :
    (Region4.data (atTc (T9 m)) c).arrAt w cfg4.N = atTc (T10 m) c (Pipeline.arrRef spec4 w) :=
  arr_upd _ _ launch4.win.arr_inj 4 w fun h0 =>
    arr_in _ _ w ((by decide : ∀ w : Fin cfg4.W, w ≠ 4 → (cfg4.win w).isOut = false) w h0) (Region4.data_A _ c w)
theorem exit4_rest (c : Dev nD) : ∀ b, b ∉ Finset.univ.image (Pipeline.arrRef spec4) → atTc (T10 m) c b = atTc (T9 m) c b :=
  fun b hb => rest_upd spec4 _ 4 _ b hb

theorem exit5_arr (c : Dev nD) (w : Fin cfg5.W) :
    (Region5.data (atTc (T11 m)) c).arrAt w cfg5.N = atTc (T12 m) c (Pipeline.arrRef spec5 w) :=
  arr_upd _ _ launch5.win.arr_inj 9 w fun h0 =>
    arr_upd _ _ launch5.win.arr_inj 8 w fun h1 =>
    arr_in _ _ w ((by decide : ∀ w : Fin cfg5.W, w ≠ 9 → w ≠ 8 → (cfg5.win w).isOut = false) w h0 h1) (Region5.data_A _ c w)
theorem exit5_rest (c : Dev nD) : ∀ b, b ∉ Finset.univ.image (Pipeline.arrRef spec5) → atTc (T12 m) c b = atTc (T11 m) c b :=
  fun b hb => (rest_upd spec5 _ 9 _ b hb).trans (rest_upd spec5 _ 8 _ b hb)

end Cert.Kernel.Fold

end
-- ==== Proof.K.Records.lean ====
import proofs.«112250_j2224793059992_2_alg».proof.Proof.K.Fold
import Idealize.ShloMosaic.Lib.Pipeline.RegionsLoop
import Idealize.ShloMosaic.Lib.Pipeline.Frame
import Idealize.ShloMosaic.Lib.Tactic

set_option maxRecDepth 16384

noncomputable section

namespace Cert.Kernel.Records

open Cert.Kernel Cert.Kernel.Gen Cert.Kernel.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

def pdats : (p : Fin 6) → (c : Dev nD) → Dat τ (Elt F) Unit ℕ (UR sig nD τ) ℕ (cfgs p) c
  | ⟨0, _⟩ => fun c => Region0.data (atTc (T1 m)) c
  | ⟨1, _⟩ => fun c => Region1.data (atTc (T3 m)) c
  | ⟨2, _⟩ => fun c => Region2.data (atTc (T5 m)) c
  | ⟨3, _⟩ => fun c => Region3.data (atTc (T7 m)) c
  | ⟨4, _⟩ => fun c => Region4.data (atTc (T9 m)) c
  | ⟨5, _⟩ => fun c => Region5.data (atTc (T11 m)) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section
variable {cfg : Pipeline.Cfg sig Λ₀} {c : Dev nD} (dat : Dat τ (Elt F) Unit ℕ (UR sig nD τ) ℕ cfg c)

theorem entry {Q : sProp 𝕄} {T : Valuation τ sig (Elt F)} {pre : Pipeline.Prefetch sig} {tbl : pre.Contents (Elt F)}
    (hK : pre.K = 0) (h0 : dat.owed 0 = 0) (hB : dat.recorded 0 = Set.univ)
    (hsplit : (unscopedBufs c (fun b => T b) : sProp 𝕄) ⊢ iprop(dat.arrays (dat.arrAt · 0) ∗ Q)) :
    iprop((StableHlo.held (c : Thread nD τ) (Pipeline.ucRefs τ sig) T ∗ R c) ∗ Pipeline.ownSems0 (fun k : PEmpty => k.elim) c ∗ levAts L lv)
      ⊢ |={Set.univ}=> iprop(dat.arrays (dat.arrAt · 0) ∗ Pipeline.prefHeld pre c (fun _ => fullShare) tbl
        ∗ dat.owesAt () 0 ∗ (∃ r, prngReg c r) ∗ Q) := by
  haveI : IsEmpty (Fin pre.K) := by rw [hK]; infer_instance
  rw [Pipeline.ownSems0_none]
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [Finset.univ_eq_empty, BI.bigSep_empty]; iempintro
  isplitl [HO]
  · unfold Pipeline.Dat.owesAt Pipeline.owesWithin
    icases HO with ⟨%W, HO⟩; iexists W; isplitr; · ipureintro; exact fun x _ => Or.inl (hB ▸ trivial)
    rw [h0]; iexact HO
  isplitl [Hp]; · iexact Hp
  iexact Hrest

theorem exit {Q : sProp 𝕄} {T : Valuation τ sig (Elt F)} (hN : dat.owed (Fin.last cfg.N) = 0)
    (hjoin : iprop(dat.arrays (dat.arrAt · cfg.N) ∗ Q) ⊢ (unscopedBufs c (fun b => T b) : sProp 𝕄)) :
    iprop(dat.arrays (dat.arrAt · cfg.N) ∗ dat.owesAt () (Fin.last cfg.N) ∗ (∃ r, prngReg c r) ∗ Q)
      ⊢ |={Set.univ}=> iprop(StableHlo.held (c : Thread nD τ) (Pipeline.ucRefs τ sig) T ∗ R c) := by
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%W, -, HO⟩; iexists W; rw [hN]; iexact HO
end

theorem inv_in {gr W : ℕ} (win : Fin W → Pipeline.WinSpec sig gr) (c : Dev nD) (Q : sProp 𝕄) :
    iprop((∃ r, prngReg c r) ∗ Q ∗ Pipeline.scopedRest win c) ⊢ (Pipeline.ΦA win c : sProp 𝕄) := by
  unfold Pipeline.ΦA
  iintro ⟨Hp, -, Hr⟩
  isplitl [Hr]; · iexact Hr
  iexact Hp
theorem inv_out {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

-- A region's segment from what varies between the six: launch facts, entry and exit contents, body obligation.
set_option backward.isDefEq.respectTransparency.types false in
def seg (p : Fin 6) (la : Pipeline.LaunchFacts (nD := nD) (τ := τ) cfgs p) (T T' : Dev nD → Valuation τ sig (Elt F))
    (hb : ∀ c, Pipeline.BodyObligationLoose (pdats m p c) defs₀ 𝒱₀ () Set.univ)
    (h0 : ∀ c t, (pdats m p c).owed t = 0) (hK : (pcfgs (F := F) p).pre.K = 0)
    (hΦ : ∀ c t, (pdats m p c).Φ t = Pipeline.ΦA (pcfgs (F := F) p).spec c)
    (hq : ∀ c w, (pdats m p c).q w = fullShare) (hB : ∀ c, (pdats m p c).recorded 0 = Set.univ)
    (hA : ∀ c w, (pdats m p c).A w = atTc T c (Pipeline.arrRef (pcfgs (F := F) p).spec w))
    (hF : ∀ c w, (pdats m p c).arrAt w (cfgs p).N = atTc T' c (Pipeline.arrRef (pcfgs (F := F) p).spec w))
    (hrest : ∀ c b, b ∉ Finset.univ.image (Pipeline.arrRef (pcfgs (F := F) p).spec) → atTc T' c b = atTc T c b) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (T c) ∗ R c)
  post c := iprop(StableHlo.held (c : Thread nD τ) (Pipeline.ucRefs τ sig) (T' c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc T c)
  hentry c := by
    have h := Pipeline.arrays_of_unscopedBufs (pcfgs (F := F)) adm (pdats m) la.win la.arr_whole c
      ((pdats m p c).share_full (hq c)) (atTc T c) (hA c)
    exact entry _ hK (h0 c 0) (hB c) h
  hin c := by rw [hΦ]; exact inv_in _ c _
  hout c := by rw [hΦ]; exact inv_out _ c
  hexit c := by
    have h := Pipeline.unscopedBufs_of_arrays (pcfgs (F := F)) adm (Ix := Unit) (Name := ℕ) (U := UR sig nD τ) (Lvl := ℕ)
      la.win la.arr_whole c (pdats m) ((pdats m p c).share_full (hq c)) (atTc T c) (atTc T' c)
      ((pdats m p c).arrAt · (cfgs p).N) (hF c) (hrest c)
    exact exit _ (h0 c _) h

def reg0 : Pipeline.RegionSeg (pcfgs (F := F)) adm (pdats m) () defs₀ 𝒱₀ L lv 0 :=
  seg m 0 launch0 (T1 m) (T2 m) (fun c => (Region0.obligation (atTc (T1 m)) c).loose) (fun _ _ => rfl) rfl
    (fun _ _ => rfl) (fun _ _ => rfl) (fun _ => rfl) (fun _ _ => rfl) (exit0_arr m) (exit0_rest m)

def reg1 : Pipeline.RegionSeg (pcfgs (F := F)) adm (pdats m) () defs₀ 𝒱₀ L lv 1 :=
  seg m 1 launch1 (T3 m) (T4 m) (fun c => (Region1.obligation (atTc (T3 m)) c).loose) (fun _ _ => rfl) rfl
    (fun _ _ => rfl) (fun _ _ => rfl) (fun _ => rfl) (fun _ _ => rfl) (exit1_arr m) (exit1_rest m)

def reg2 : Pipeline.RegionSeg (pcfgs (F := F)) adm (pdats m) () defs₀ 𝒱₀ L lv 2 :=
  seg m 2 launch2 (T5 m) (T6 m) (fun c => (Region2.obligation (atTc (T5 m)) c).loose) (fun _ _ => rfl) rfl
    (fun _ _ => rfl) (fun _ _ => rfl) (fun _ => rfl) (fun _ _ => rfl) (exit2_arr m) (exit2_rest m)

def reg3 : Pipeline.RegionSeg (pcfgs (F := F)) adm (pdats m) () defs₀ 𝒱₀ L lv 3 :=
  seg m 3 launch3 (T7 m) (T8 m) (fun c => (Region3.obligation (atTc (T7 m)) c).loose) (fun _ _ => rfl) rfl
    (fun _ _ => rfl) (fun _ _ => rfl) (fun _ => rfl) (fun _ _ => rfl) (exit3_arr m) (exit3_rest m)

def reg4 : Pipeline.RegionSeg (pcfgs (F := F)) adm (pdats m) () defs₀ 𝒱₀ L lv 4 :=
  seg m 4 launch4 (T9 m) (T10 m) (fun c => (Region4.obligation (atTc (T9 m)) c).loose) (fun _ _ => rfl) rfl
    (fun _ _ => rfl) (fun _ _ => rfl) (fun _ => rfl) (fun _ _ => rfl) (exit4_arr m) (exit4_rest m)

def reg5 : Pipeline.RegionSeg (pcfgs (F := F)) adm (pdats m) () defs₀ 𝒱₀ L lv 5 :=
  seg m 5 launch5 (T11 m) (T12 m) (fun c => (Region5.obligation (atTc (T11 m)) c).loose) (fun _ _ => rfl) rfl
    (fun _ _ => rfl) (fun _ _ => rfl) (fun _ => rfl) (fun _ _ => rfl) (exit5_arr m) (exit5_rest m)

end Cert.Kernel.Records

end
-- ==== Proof.K.Run.lean ====
import proofs.«112250_j2224793059992_2_alg».proof.Proof.K.Records

set_option maxRecDepth 16384

noncomputable section

namespace Cert.Kernel.Run

open Cert.Kernel Cert.Kernel.Gen Cert.Kernel.Fold Cert.Kernel.Records
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem riding_init (ρ : Dev nD → PrngReg) (c : Dev nD) :
    iprop((unscopedSems0 c ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv) ⊢ (|={Set.univ}=> R c : sProp 𝕄) := by
  iintro ⟨⟨-, HO, -, Hp, -⟩, -⟩
  imodintro
  isplitl [Hp]; · iexists _; iexact Hp
  iexists ∅; iexact HO

theorem riding_end (c : Dev nD) : (R c : sProp 𝕄) ⊢ iprop(∃ W, owes (c : Thread nD τ) (0 : CellTallies nD τ sig Unit) W) := by
  iintro ⟨-, HO⟩; iexact HO

variable (m : (ℓ : Loc nD τ sig) → Buf (Elt F) ℓ) (ρ : Dev nD → PrngReg)

theorem pre0 (c : Dev nD) : iprop(StableHlo.held (c : Thread nD τ) (Pipeline.ucRefs τ sig) (V1 m c) ∗ R c) ⊢ (reg0 m).pre c := .rfl
theorem post0 (c : Dev nD) : (reg0 m).post c ⊢ iprop(StableHlo.held (c : Thread nD τ) (Pipeline.ucRefs τ sig) (V2 m (outs m) c) ∗ R c) := by rw [V2_eq]; exact .rfl
theorem pre1 (c : Dev nD) : iprop(StableHlo.held (c : Thread nD τ) (Pipeline.ucRefs τ sig) (V3 m (outs m) c) ∗ R c) ⊢ (reg1 m).pre c := by rw [V3_eq]; exact .rfl
theorem post1 (c : Dev nD) : (reg1 m).post c ⊢ iprop(StableHlo.held (c : Thread nD τ) (Pipeline.ucRefs τ sig) (V4 m (outs m) c) ∗ R c) := by rw [V4_eq]; exact .rfl
theorem pre2 (c : Dev nD) : iprop(StableHlo.held (c : Thread nD τ) (Pipeline.ucRefs τ sig) (V5 m (outs m) c) ∗ R c) ⊢ (reg2 m).pre c := by rw [V5_eq]; exact .rfl
theorem post2 (c : Dev nD) : (reg2 m).post c ⊢ iprop(StableHlo.held (c : Thread nD τ) (Pipeline.ucRefs τ sig) (V6 m (outs m) c) ∗ R c) := by rw [V6_eq]; exact .rfl
theorem pre3 (c : Dev nD) : iprop(StableHlo.held (c : Thread nD τ) (Pipeline.ucRefs τ sig) (V7 m (outs m) c) ∗ R c) ⊢ (reg3 m).pre c := by rw [V7_eq]; exact .rfl
theorem post3 (c : Dev nD) : (reg3 m).post c ⊢ iprop(StableHlo.held (c : Thread nD τ) (Pipeline.ucRefs τ sig) (V8 m (outs m) c) ∗ R c) := by rw [V8_eq]; exact .rfl
theorem pre4 (c : Dev nD) : iprop(StableHlo.held (c : Thread nD τ) (Pipeline.ucRefs τ sig) (V9 m (outs m) c) ∗ R c) ⊢ (reg4 m).pre c := by rw [V9_eq]; exact .rfl
theorem post4 (c : Dev nD) : (reg4 m).post c ⊢ iprop(StableHlo.held (c : Thread nD τ) (Pipeline.ucRefs τ sig) (V10 m (outs m) c) ∗ R c) := by rw [V10_eq]; exact .rfl
theorem pre5 (c : Dev nD) : iprop(StableHlo.held (c : Thread nD τ) (Pipeline.ucRefs τ sig) (V11 m (outs m) c) ∗ R c) ⊢ (reg5 m).pre c := by rw [V11_eq]; exact .rfl
theorem post5 (c : Dev nD) : (reg5 m).post c ⊢ iprop(StableHlo.held (c : Thread nD τ) (Pipeline.ucRefs τ sig) (V12 m (outs m) c) ∗ R c) := by rw [V12_eq]; exact .rfl

theorem launch_state (E0 : Dev nD → sProp 𝕄)
    (hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = T12 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show (segs m (outs m) 𝒱₀ L lv (fun _ c => R c) () (pdats m) (reg0 m) (reg1 m) (reg2 m) (reg3 m) (reg4 m) (reg5 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_elem
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, pre0 m c, post0 m c, pre1 m c, post1 m c, pre2 m c, post2 m c, pre3 m c, post3 m c,
      pre4 m c, post4 m c, pre5 m c, (post5 m c).trans (sep_mono .rfl (riding_end c))⟩)
    (hinit := launch_state m ρ (fun c => R c) (Pipeline.initEach L lv fun c => riding_init ρ c))
    (QY := fun c s => ∀ b ∈ Pipeline.ucRefs τ sig, s.mem (((c : Thread nD τ)).1, b) = T12 m c b)
    (hfin := fun c s' => ?_) (hQ := fun _ h => h)
  ·
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      intro b hb
      exact (h b hb).trans (congrFun (V12_eq m c) b)
    · iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_results : θ_run defs (onTc (τ := τ) (main (F := F))) ⟨m, fun _ => 0, ρ⟩ (fun r => ∀ c : Dev nD,
      r.2.mem ((c.tc : Thread nD τ).loc main_v72_0) = pred m c
      ∧ r.2.mem ((c.tc : Thread nD τ).loc main_v72_1) = phy m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    have e (b : Ref sig .tc) hb := (h c _ (mem_uc b hb)).trans (congrFun (V12_eq m c) _).symm
    ⟨(h c _ (mem_uc main_v72_0 (by decide))).trans (T12_pred m c),
      (h c _ (mem_uc main_v72_1 (by decide))).trans (T12_phy m c),
      (e main_arg0 (by decide)).trans (V12_main_arg0 m (outs m) c),
      (e main_arg1 (by decide)).trans (V12_main_arg1 m (outs m) c),
      (e main_arg2 (by decide)).trans (V12_main_arg2 m (outs m) c),
      (e main_arg3 (by decide)).trans (V12_main_arg3 m (outs m) c),
      (e main_arg4 (by decide)).trans (V12_main_arg4 m (outs m) c),
      (e main_arg5 (by decide)).trans (V12_main_arg5 m (outs m) c),
      (e main_arg6 (by decide)).trans (V12_main_arg6 m (outs m) c),
      (e main_arg7 (by decide)).trans (V12_main_arg7 m (outs m) c),
      (e main_arg8 (by decide)).trans (V12_main_arg8 m (outs m) c),
      (e main_arg9 (by decide)).trans (V12_main_arg9 m (outs m) c),
      (e main_arg10 (by decide)).trans (V12_main_arg10 m (outs m) c),
      (e main_arg11 (by decide)).trans (V12_main_arg11 m (outs m) c),
      (e main_arg12 (by decide)).trans (V12_main_arg12 m (outs m) c),
      (e main_arg13 (by decide)).trans (V12_main_arg13 m (outs m) c),
      (e main_arg14 (by decide)).trans (V12_main_arg14 m (outs m) c),
      (e main_arg15 (by decide)).trans (V12_main_arg15 m (outs m) c),
      (e main_arg16 (by decide)).trans (V12_main_arg16 m (outs m) c),
      (e main_arg17 (by decide)).trans (V12_main_arg17 m (outs m) c),
      (e main_arg18 (by decide)).trans (V12_main_arg18 m (outs m) c),
      (e main_arg19 (by decide)).trans (V12_main_arg19 m (outs m) c),
      (e main_arg20 (by decide)).trans (V12_main_arg20 m (outs m) c),
      (e main_arg21 (by decide)).trans (V12_main_arg21 m (outs m) c)⟩)
    (run_all m ρ)

end Cert.Kernel.Run

end
-- ==== Proof.KI.Region0.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S10000x64 := Rect.unit (s := S10000x64) ![0, 0] S10000x64.size inb_S10000x64_S10000x64_0_0
abbrev rW : Rect S32x64 := Rect.unit (s := S32x64) ![0, 0] S32x64.size inb_S32x64_S32x64_0_0
abbrev rB : Rect S1x32 := Rect.unit (s := S1x32) ![0, 0] S1x32.size inb_S1x32_S1x32_0_0
abbrev rZ : Rect S10000x32 := Rect.unit (s := S10000x32) ![0, 0] S10000x32.size inb_S10000x32_S10000x32_0_0

def zBlock (x : Vec F S10000x64 .f32) (w : Vec F S32x64 .f32) (b : Vec F S1x32 .f32) : Vec F S10000x32 .f32 :=
  View.canon [⟨rZ, k0_pay1 (View.ld x rX) (View.ld w rW) (View.ld b rB)⟩]

set_option maxHeartbeats 1000000 in
theorem body_runs (c : Dev nD) (E : Set ℕ) (i : grid0.Coords)
    (a1 : Memref sig .tc .vmem S10000x64 .f32) (h1 : a1.IsWhole) (a2 : Memref sig .tc .vmem S32x64 .f32) (h2 : a2.IsWhole)
    (a3 : Memref sig .tc .vmem S1x32 .f32) (h3 : a3.IsWhole) (a4 : Memref sig .tc .vmem S10000x32 .f32) (h4 : a4.IsWhole)
    (x : Vec F S10000x64 .f32) (w : Vec F S32x64 .f32) (b : Vec F S1x32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (zBlock x w b)) -∗ K ⟨⟩))
      ⊢ wp frame (wpE (defs₀ (F := F)) Variants.none c none) E (cc0_kernel i a1 h1 a2 h2 a3 h3 a4 h4) K := by
  simp only [cc0_kernel_eq_skeleton]; unfold cc0_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x32.size (by rfl))

def data (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => zBlock (blk V c 0 t) (blk V c 1 t) (blk V c 2 t)
  Φ _ := Pipeline.ΦA spec0 c
  q _ := fullShare
  owed _ := 0

theorem data_A (c : Dev nD) (w : Fin cfg0.W) : (data V c).A w = V c (Pipeline.arrRef spec0 w) := by
  dsimp only [data]

theorem after_3 (c : Dev nD) (t : Fin cfg0.N) :
    (data V c).after 3 t = zBlock (blk V c 0 t) (blk V c 1 t) (blk V c 2 t) := by dsimp only [data]

theorem before_in (c : Dev nD) (w : Fin cfg0.W) (hw : (cfg0.win w).isOut = false) (t : Fin cfg0.N) (d) :
    (data V c).before w t d = (data V c).after w t :=
  match w, hw with
  | ⟨0, _⟩, _ | ⟨1, _⟩, _ | ⟨2, _⟩, _ =>
    (data V c).before_in_eq_fetched _ rfl (fun _ => rfl) (fun _ _ _ => rfl) (fun _ => rfl) t d
  | ⟨3, _⟩, h => Bool.noConfusion h

theorem obligation (c : Dev nD) : BodyObligation (data (F := F) V c) (defs₀ (F := F)) Variants.none () Set.univ := fun t => by
  rw [bigSep_W0, bigSep_W0]
  show _ ⊢ wp _ _ _ (bodyAt0 t) _
  simp (disch := exact rfl) only [before_in]
  dsimp only [data]
  iintro ⟨HΦ, Ho, ⟨%_, H0⟩, ⟨%_, H1⟩, ⟨%_, H2⟩, ⟨%_, H3⟩⟩
  iapply body_runs c Set.univ
  iframe
  isplitl [H3]; · iexists _; iexact H3
  iintro ⟨H0, H1, H2, H3⟩
  iframe
  iexact Ho

end Cert.KernelIdeal.Region0

end
-- ==== Proof.KI.Region1.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rE : Rect S8000x32 := Rect.unit (s := S8000x32) ![0, 0] S8000x32.size inb_S8000x32_S8000x32_0_0
abbrev rA : Rect S1x32 := Rect.unit (s := S1x32) ![0, 0] S1x32.size inb_S1x32_S1x32_0_0
abbrev rS : Rect S1x1 := Rect.unit (s := S1x1) ![0, 0] S1x1.size inb_S1x1_S1x1_0_0

def msgBlock (zs : Vec F S8000x32 .f32) (zd : Vec F S8000x32 .f32) (ws : Vec F S1x32 .f32) (wd : Vec F S1x32 .f32) (ab : Vec F S1x1 .f32) :
    Vec F S8000x32 .f32 :=
  View.canon [⟨rE, k1_pay1 (View.ld zs rE) (View.ld zd rE) (View.ld ws rA) (View.ld wd rA) (View.ld ab rS)⟩]

set_option maxHeartbeats 1000000 in
theorem body_runs (c : Dev nD) (E : Set ℕ) (i : grid1.Coords)
    (a1 : Memref sig .tc .vmem S8000x32 .f32) (h1 : a1.IsWhole) (a2 : Memref sig .tc .vmem S8000x32 .f32) (h2 : a2.IsWhole)
    (a3 : Memref sig .tc .vmem S1x32 .f32) (h3 : a3.IsWhole) (a4 : Memref sig .tc .vmem S1x32 .f32) (h4 : a4.IsWhole)
    (a5 : Memref sig .tc .vmem S1x1 .f32) (h5 : a5.IsWhole) (a6 : Memref sig .tc .vmem S8000x32 .f32) (h6 : a6.IsWhole)
    (zs : Vec F S8000x32 .f32) (zd : Vec F S8000x32 .f32) (ws : Vec F S1x32 .f32) (wd : Vec F S1x32 .f32) (ab : Vec F S1x1 .f32)
    (K : PUnit → sProp 𝕄) :
    iprop(owns (c : Thread nD τ) a1 fullShare zs ∗ owns (c : Thread nD τ) a2 fullShare zd ∗ owns (c : Thread nD τ) a3 fullShare ws
        ∗ owns (c : Thread nD τ) a4 fullShare wd ∗ owns (c : Thread nD τ) a5 fullShare ab
        ∗ (∃ d, owns (c : Thread nD τ) a6 fullShare d)
        ∗ (iprop(owns (c : Thread nD τ) a1 fullShare zs ∗ owns (c : Thread nD τ) a2 fullShare zd ∗ owns (c : Thread nD τ) a3 fullShare ws
            ∗ owns (c : Thread nD τ) a4 fullShare wd ∗ owns (c : Thread nD τ) a5 fullShare ab
            ∗ owns (c : Thread nD τ) a6 fullShare (msgBlock zs zd ws wd ab)) -∗ K ⟨⟩))
      ⊢ wp frame (wpE (defs₀ (F := F)) Variants.none c none) E (cc1__edge_kernel i a1 h1 a2 h2 a3 h3 a4 h4 a5 h5 a6 h6) K := by
  simp only [cc1__edge_kernel_eq_skeleton]; unfold cc1__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x32.size (by rfl))

def data (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => msgBlock (blk V c 0 t) (blk V c 1 t) (blk V c 2 t) (blk V c 3 t) (blk V c 4 t)
  Φ _ := Pipeline.ΦA spec1 c
  q _ := fullShare
  owed _ := 0

theorem data_A (c : Dev nD) (w : Fin cfg1.W) : (data V c).A w = V c (Pipeline.arrRef spec1 w) := by
  dsimp only [data]

theorem after_5 (c : Dev nD) (t : Fin cfg1.N) :
    (data V c).after 5 t = msgBlock (blk V c 0 t) (blk V c 1 t) (blk V c 2 t) (blk V c 3 t) (blk V c 4 t) := by dsimp only [data]

theorem before_in (c : Dev nD) (w : Fin cfg1.W) (hw : (cfg1.win w).isOut = false) (t : Fin cfg1.N) (d) :
    (data V c).before w t d = (data V c).after w t :=
  match w, hw with
  | ⟨0, _⟩, _ | ⟨1, _⟩, _ | ⟨2, _⟩, _ | ⟨3, _⟩, _ | ⟨4, _⟩, _ =>
    (data V c).before_in_eq_fetched _ rfl (fun _ => rfl) (fun _ _ _ => rfl) (fun _ => rfl) t d
  | ⟨5, _⟩, h => Bool.noConfusion h

theorem obligation (c : Dev nD) : BodyObligation (data (F := F) V c) (defs₀ (F := F)) Variants.none () Set.univ := fun t => by
  rw [bigSep_W1, bigSep_W1]
  show _ ⊢ wp _ _ _ (bodyAt1 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩⟩
  iapply body_runs c Set.univ
  iframe
  isplitl [H5]; · iexists _; iexact H5
  iintro ⟨H0, H1, H2, H3, H4, H5⟩
  iframe
  iexact Ho

end Cert.KernelIdeal.Region1

end
-- ==== Proof.KI.Region2.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S10000x32 := Rect.unit (s := S10000x32) ![0, 0] S10000x32.size inb_S10000x32_S10000x32_0_0
abbrev rW : Rect S32x32 := Rect.unit (s := S32x32) ![0, 0] S32x32.size inb_S32x32_S32x32_0_0
abbrev rB : Rect S1x32 := Rect.unit (s := S1x32) ![0, 0] S1x32.size inb_S1x32_S1x32_0_0
abbrev rZ : Rect S10000x32 := Rect.unit (s := S10000x32) ![0, 0] S10000x32.size inb_S10000x32_S10000x32_0_0

def zBlock (x : Vec F S10000x32 .f32) (w : Vec F S32x32 .f32) (b : Vec F S1x32 .f32) : Vec F S10000x32 .f32 :=
  View.canon [⟨rZ, k2_pay1 (View.ld x rX) (View.ld w rW) (View.ld b rB)⟩]

set_option maxHeartbeats 1000000 in
theorem body_runs (c : Dev nD) (E : Set ℕ) (i : grid2.Coords)
    (a1 : Memref sig .tc .vmem S10000x32 .f32) (h1 : a1.IsWhole) (a2 : Memref sig .tc .vmem S32x32 .f32) (h2 : a2.IsWhole)
    (a3 : Memref sig .tc .vmem S1x32 .f32) (h3 : a3.IsWhole) (a4 : Memref sig .tc .vmem S10000x32 .f32) (h4 : a4.IsWhole)
    (x : Vec F S10000x32 .f32) (w : Vec F S32x32 .f32) (b : Vec F S1x32 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (zBlock x w b)) -∗ K ⟨⟩))
      ⊢ wp frame (wpE (defs₀ (F := F)) Variants.none c none) E (cc2_kernel i a1 h1 a2 h2 a3 h3 a4 h4) K := by
  simp only [cc2_kernel_eq_skeleton]; unfold cc2_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x32.size (by rfl))

def data (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => zBlock (blk V c 0 t) (blk V c 1 t) (blk V c 2 t)
  Φ _ := Pipeline.ΦA spec2 c
  q _ := fullShare
  owed _ := 0

theorem data_A (c : Dev nD) (w : Fin cfg2.W) : (data V c).A w = V c (Pipeline.arrRef spec2 w) := by
  dsimp only [data]

theorem after_3 (c : Dev nD) (t : Fin cfg2.N) :
    (data V c).after 3 t = zBlock (blk V c 0 t) (blk V c 1 t) (blk V c 2 t) := by dsimp only [data]

theorem before_in (c : Dev nD) (w : Fin cfg2.W) (hw : (cfg2.win w).isOut = false) (t : Fin cfg2.N) (d) :
    (data V c).before w t d = (data V c).after w t :=
  match w, hw with
  | ⟨0, _⟩, _ | ⟨1, _⟩, _ | ⟨2, _⟩, _ =>
    (data V c).before_in_eq_fetched _ rfl (fun _ => rfl) (fun _ _ _ => rfl) (fun _ => rfl) t d
  | ⟨3, _⟩, h => Bool.noConfusion h

theorem obligation (c : Dev nD) : BodyObligation (data (F := F) V c) (defs₀ (F := F)) Variants.none () Set.univ := fun t => by
  rw [bigSep_W2, bigSep_W2]
  show _ ⊢ wp _ _ _ (bodyAt2 t) _
  simp (disch := exact rfl) only [before_in]
  dsimp only [data]
  iintro ⟨HΦ, Ho, ⟨%_, H0⟩, ⟨%_, H1⟩, ⟨%_, H2⟩, ⟨%_, H3⟩⟩
  iapply body_runs c Set.univ
  iframe
  isplitl [H3]; · iexists _; iexact H3
  iintro ⟨H0, H1, H2, H3⟩
  iframe
  iexact Ho

end Cert.KernelIdeal.Region2

end
-- ==== Proof.KI.Region3.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region3

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rE : Rect S8000x32 := Rect.unit (s := S8000x32) ![0, 0] S8000x32.size inb_S8000x32_S8000x32_0_0
abbrev rA : Rect S1x32 := Rect.unit (s := S1x32) ![0, 0] S1x32.size inb_S1x32_S1x32_0_0
abbrev rS : Rect S1x1 := Rect.unit (s := S1x1) ![0, 0] S1x1.size inb_S1x1_S1x1_0_0

def msgBlock (zs : Vec F S8000x32 .f32) (zd : Vec F S8000x32 .f32) (ws : Vec F S1x32 .f32) (wd : Vec F S1x32 .f32) (ab : Vec F S1x1 .f32) :
    Vec F S8000x32 .f32 :=
  View.canon [⟨rE, k3_pay1 (View.ld zs rE) (View.ld zd rE) (View.ld ws rA) (View.ld wd rA) (View.ld ab rS)⟩]

set_option maxHeartbeats 1000000 in
theorem body_runs (c : Dev nD) (E : Set ℕ) (i : grid3.Coords)
    (a1 : Memref sig .tc .vmem S8000x32 .f32) (h1 : a1.IsWhole) (a2 : Memref sig .tc .vmem S8000x32 .f32) (h2 : a2.IsWhole)
    (a3 : Memref sig .tc .vmem S1x32 .f32) (h3 : a3.IsWhole) (a4 : Memref sig .tc .vmem S1x32 .f32) (h4 : a4.IsWhole)
    (a5 : Memref sig .tc .vmem S1x1 .f32) (h5 : a5.IsWhole) (a6 : Memref sig .tc .vmem S8000x32 .f32) (h6 : a6.IsWhole)
    (zs : Vec F S8000x32 .f32) (zd : Vec F S8000x32 .f32) (ws : Vec F S1x32 .f32) (wd : Vec F S1x32 .f32) (ab : Vec F S1x1 .f32)
    (K : PUnit → sProp 𝕄) :
    iprop(owns (c : Thread nD τ) a1 fullShare zs ∗ owns (c : Thread nD τ) a2 fullShare zd ∗ owns (c : Thread nD τ) a3 fullShare ws
        ∗ owns (c : Thread nD τ) a4 fullShare wd ∗ owns (c : Thread nD τ) a5 fullShare ab
        ∗ (∃ d, owns (c : Thread nD τ) a6 fullShare d)
        ∗ (iprop(owns (c : Thread nD τ) a1 fullShare zs ∗ owns (c : Thread nD τ) a2 fullShare zd ∗ owns (c : Thread nD τ) a3 fullShare ws
            ∗ owns (c : Thread nD τ) a4 fullShare wd ∗ owns (c : Thread nD τ) a5 fullShare ab
            ∗ owns (c : Thread nD τ) a6 fullShare (msgBlock zs zd ws wd ab)) -∗ K ⟨⟩))
      ⊢ wp frame (wpE (defs₀ (F := F)) Variants.none c none) E (cc3__edge_kernel i a1 h1 a2 h2 a3 h3 a4 h4 a5 h5 a6 h6) K := by
  simp only [cc3__edge_kernel_eq_skeleton]; unfold cc3__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x32.size (by rfl))

def data (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => msgBlock (blk V c 0 t) (blk V c 1 t) (blk V c 2 t) (blk V c 3 t) (blk V c 4 t)
  Φ _ := Pipeline.ΦA spec3 c
  q _ := fullShare
  owed _ := 0

theorem data_A (c : Dev nD) (w : Fin cfg3.W) : (data V c).A w = V c (Pipeline.arrRef spec3 w) := by
  dsimp only [data]

theorem after_5 (c : Dev nD) (t : Fin cfg3.N) :
    (data V c).after 5 t = msgBlock (blk V c 0 t) (blk V c 1 t) (blk V c 2 t) (blk V c 3 t) (blk V c 4 t) := by dsimp only [data]

theorem before_in (c : Dev nD) (w : Fin cfg3.W) (hw : (cfg3.win w).isOut = false) (t : Fin cfg3.N) (d) :
    (data V c).before w t d = (data V c).after w t :=
  match w, hw with
  | ⟨0, _⟩, _ | ⟨1, _⟩, _ | ⟨2, _⟩, _ | ⟨3, _⟩, _ | ⟨4, _⟩, _ =>
    (data V c).before_in_eq_fetched _ rfl (fun _ => rfl) (fun _ _ _ => rfl) (fun _ => rfl) t d
  | ⟨5, _⟩, h => Bool.noConfusion h

theorem obligation (c : Dev nD) : BodyObligation (data (F := F) V c) (defs₀ (F := F)) Variants.none () Set.univ := fun t => by
  rw [bigSep_W3, bigSep_W3]
  show _ ⊢ wp _ _ _ (bodyAt3 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩⟩
  iapply body_runs c Set.univ
  iframe
  isplitl [H5]; · iexists _; iexact H5
  iintro ⟨H0, H1, H2, H3, H4, H5⟩
  iframe
  iexact Ho

end Cert.KernelIdeal.Region3

end
-- ==== Proof.KI.Region4.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region4

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rH : Rect S5000x32 := Rect.unit (s := S5000x32) ![0, 0] S5000x32.size inb_S5000x32_S5000x32_0_0
abbrev rW : Rect S96x32 := Rect.unit (s := S96x32) ![0, 0] S96x32.size inb_S96x32_S96x32_0_0
abbrev rB : Rect S1x96 := Rect.unit (s := S1x96) ![0, 0] S1x96.size inb_S1x96_S1x96_0_0

def hBlock (x : Vec F S5000x32 .f32) (w : Vec F S96x32 .f32) (bi : Vec F S1x96 .f32) (bh : Vec F S1x96 .f32) : Vec F S5000x32 .f32 :=
  View.canon [⟨rH, k4_pay1 (View.ld x rH) (View.ld w rW) (View.ld bi rB) (View.ld bh rB)⟩]

set_option maxHeartbeats 1000000 in
theorem body_runs (c : Dev nD) (E : Set ℕ) (i : grid4.Coords)
    (a1 : Memref sig .tc .vmem S5000x32 .f32) (h1 : a1.IsWhole) (a2 : Memref sig .tc .vmem S96x32 .f32) (h2 : a2.IsWhole)
    (a3 : Memref sig .tc .vmem S1x96 .f32) (h3 : a3.IsWhole) (a4 : Memref sig .tc .vmem S1x96 .f32) (h4 : a4.IsWhole)
    (a5 : Memref sig .tc .vmem S5000x32 .f32) (h5 : a5.IsWhole)
    (x : Vec F S5000x32 .f32) (w : Vec F S96x32 .f32) (bi : Vec F S1x96 .f32) (bh : Vec F S1x96 .f32) (K : PUnit → sProp 𝕄) :
    iprop(owns (c : Thread nD τ) a1 fullShare x ∗ owns (c : Thread nD τ) a2 fullShare w ∗ owns (c : Thread nD τ) a3 fullShare bi
        ∗ owns (c : Thread nD τ) a4 fullShare bh
        ∗ (∃ d, owns (c : Thread nD τ) a5 fullShare d)
        ∗ (iprop(owns (c : Thread nD τ) a1 fullShare x ∗ owns (c : Thread nD τ) a2 fullShare w ∗ owns (c : Thread nD τ) a3 fullShare bi
            ∗ owns (c : Thread nD τ) a4 fullShare bh
            ∗ owns (c : Thread nD τ) a5 fullShare (hBlock x w bi bh)) -∗ K ⟨⟩))
      ⊢ wp frame (wpE (defs₀ (F := F)) Variants.none c none) E (cc4__gru_kernel i a1 h1 a2 h2 a3 h3 a4 h4 a5 h5) K := by
  simp only [cc4__gru_kernel_eq_skeleton]; unfold cc4__gru_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x32.size (by rfl))

def data (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => hBlock (blk V c 0 t) (blk V c 1 t) (blk V c 2 t) (blk V c 3 t)
  Φ _ := Pipeline.ΦA spec4 c
  q _ := fullShare
  owed _ := 0

theorem data_A (c : Dev nD) (w : Fin cfg4.W) : (data V c).A w = V c (Pipeline.arrRef spec4 w) := by
  dsimp only [data]

theorem after_4 (c : Dev nD) (t : Fin cfg4.N) :
    (data V c).after 4 t = hBlock (blk V c 0 t) (blk V c 1 t) (blk V c 2 t) (blk V c 3 t) := by dsimp only [data]

theorem before_in (c : Dev nD) (w : Fin cfg4.W) (hw : (cfg4.win w).isOut = false) (t : Fin cfg4.N) (d) :
    (data V c).before w t d = (data V c).after w t :=
  match w, hw with
  | ⟨0, _⟩, _ | ⟨1, _⟩, _ | ⟨2, _⟩, _ | ⟨3, _⟩, _ =>
    (data V c).before_in_eq_fetched _ rfl (fun _ => rfl) (fun _ _ _ => rfl) (fun _ => rfl) t d
  | ⟨4, _⟩, h => Bool.noConfusion h

theorem obligation (c : Dev nD) : BodyObligation (data (F := F) V c) (defs₀ (F := F)) Variants.none () Set.univ := fun t => by
  rw [bigSep_W4, bigSep_W4]
  show _ ⊢ wp _ _ _ (bodyAt4 t) _
  simp (disch := exact rfl) only [before_in]
  dsimp only [data]
  iintro ⟨HΦ, Ho, ⟨%_, H0⟩, ⟨%_, H1⟩, ⟨%_, H2⟩, ⟨%_, H3⟩, ⟨%_, H4⟩⟩
  iapply body_runs c Set.univ
  iframe
  isplitl [H4]; · iexists _; iexact H4
  iintro ⟨H0, H1, H2, H3, H4⟩
  iframe
  iexact Ho

end Cert.KernelIdeal.Region4

end
-- ==== Proof.KI.Region5.lean ====
import proofs.«112250_j2224793059992_2_alg».proof.Proof.Gen.KernelIdeal.Launch
import proofs.«112250_j2224793059992_2_alg».proof.Proof.Gen.KernelIdeal.Skeleton
import proofs.«112250_j2224793059992_2_alg».proof.Proof.Gen.KernelIdeal.Points
import Idealize.ShloMosaic.Lib.Pipeline.FrameBody
import Idealize.ShloMosaic.Lib.Tactic

set_option maxRecDepth 16384

noncomputable section

namespace Cert.KernelIdeal.Region5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rH : Rect S2000x32 := Rect.unit (s := S2000x32) ![0, 0] S2000x32.size inb_S2000x32_S2000x32_0_0
abbrev rE : Rect S2000x5 := Rect.unit (s := S2000x5) ![0, 0] S2000x5.size inb_S2000x5_S2000x5_0_0
abbrev rW8 : Rect S8x34 := Rect.unit (s := S8x34) ![0, 0] S8x34.size inb_S8x34_S8x34_0_0
abbrev rB8 : Rect S1x8 := Rect.unit (s := S1x8) ![0, 0] S1x8.size inb_S1x8_S1x8_0_0
abbrev rW2 : Rect S2x34 := Rect.unit (s := S2x34) ![0, 0] S2x34.size inb_S2x34_S2x34_0_0
abbrev rB2 : Rect S1x2 := Rect.unit (s := S1x2) ![0, 0] S1x2.size inb_S1x2_S1x2_0_0
abbrev rO : Rect S2000x8x2 := Rect.unit (s := S2000x8x2) ![0, 0, 0] S2000x8x2.size inb_S2000x8x2_S2000x8x2_0_0_0

def predBlock (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) : Vec F S2000x8x2 .f32 :=
  View.canon [⟨rO, k5_pay5 (k5_pay12 (View.ld h rH) (View.ld e rE) (View.ld wI rW8) (View.ld bI rB8))
    (k5_pay13 (View.ld h rH) (View.ld e rE) (View.ld wR rW8) (View.ld bR rB8))⟩]

def phyBlock (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) : Vec F S2000x8x2 .f32 :=
  let i : FVec F S2000x1 .f32 := k5_pay8 (View.ld e rE)
  let r : FVec F S2000x1 .f32 := k5_pay9 (View.ld e rE)
  let n : FVec F S2000x1 .f32 := k5_pay10 (View.ld e rE)
  let β : FVec F S2000x1 .f32 := k5_pay15 (View.ld h rH) (View.ld e rE) (View.ld wS rW2) (View.ld bS rB2)
  let γ : FVec F S2000x1 .f32 := k5_pay16 (View.ld h rH) (View.ld e rE) (View.ld wS rW2) (View.ld bS rB2)
  let s : FVec F S2000x1 .f32 := k5_pay17 (View.ld e rE)
  let i₆ : FVec F S2000x1 .f32 := k5_pay40 i r n β γ s
  let r₆ : FVec F S2000x1 .f32 := k5_pay41 i r n β γ s
  let s₆ : FVec F S2000x1 .f32 := k5_pay42 i r n β γ s
  let di₆ : FVec F S2000x1 .f32 := k5_pay1 n β γ i₆ r₆ s₆
  let drs : FVec F S2000x8 .f32 := k5_pay4 γ (k5_pay19 i γ) (k5_pay23 i r n β γ s) (k5_pay27 i r n β γ s) (k5_pay31 i r n β γ s)
    (k5_pay35 i r n β γ s) (k5_pay39 i r n β γ s) i₆ di₆
  View.canon [⟨rO, k5_pay6 n β γ (k5_pay18 i r n β γ s) (k5_pay22 i r n β γ s) (k5_pay26 i r n β γ s) (k5_pay30 i r n β γ s)
    (k5_pay34 i r n β γ s) (k5_pay38 i r n β γ s) i₆ r₆ di₆ drs⟩]

set_option maxHeartbeats 4000000 in
theorem body_runs (c : Dev nD) (E : Set ℕ) (i : grid5.Coords)
    (a1 : Memref sig .tc .vmem S2000x32 .f32) (h1 : a1.IsWhole) (a2 : Memref sig .tc .vmem S2000x5 .f32) (h2 : a2.IsWhole)
    (a3 : Memref sig .tc .vmem S8x34 .f32) (h3 : a3.IsWhole) (a4 : Memref sig .tc .vmem S1x8 .f32) (h4 : a4.IsWhole)
    (a5 : Memref sig .tc .vmem S8x34 .f32) (h5 : a5.IsWhole) (a6 : Memref sig .tc .vmem S1x8 .f32) (h6 : a6.IsWhole)
    (a7 : Memref sig .tc .vmem S2x34 .f32) (h7 : a7.IsWhole) (a8 : Memref sig .tc .vmem S1x2 .f32) (h8 : a8.IsWhole)
    (a9 : Memref sig .tc .vmem S2000x8x2 .f32) (h9 : a9.IsWhole) (a10 : Memref sig .tc .vmem S2000x8x2 .f32) (h10 : a10.IsWhole)
    (h : Vec F S2000x32 .f32) (e : Vec F S2000x5 .f32) (wI : Vec F S8x34 .f32) (bI : Vec F S1x8 .f32)
    (wR : Vec F S8x34 .f32) (bR : Vec F S1x8 .f32) (wS : Vec F S2x34 .f32) (bS : Vec F S1x2 .f32) (K : PUnit → sProp 𝕄) :
    iprop(owns (c : Thread nD τ) a1 fullShare h ∗ owns (c : Thread nD τ) a2 fullShare e
        ∗ owns (c : Thread nD τ) a3 fullShare wI ∗ owns (c : Thread nD τ) a4 fullShare bI
        ∗ owns (c : Thread nD τ) a5 fullShare wR ∗ owns (c : Thread nD τ) a6 fullShare bR
        ∗ owns (c : Thread nD τ) a7 fullShare wS ∗ owns (c : Thread nD τ) a8 fullShare bS
        ∗ (∃ d, owns (c : Thread nD τ) a9 fullShare d) ∗ (∃ d, owns (c : Thread nD τ) a10 fullShare d)
        ∗ (iprop(owns (c : Thread nD τ) a1 fullShare h ∗ owns (c : Thread nD τ) a2 fullShare e
            ∗ owns (c : Thread nD τ) a3 fullShare wI ∗ owns (c : Thread nD τ) a4 fullShare bI
            ∗ owns (c : Thread nD τ) a5 fullShare wR ∗ owns (c : Thread nD τ) a6 fullShare bR
            ∗ owns (c : Thread nD τ) a7 fullShare wS ∗ owns (c : Thread nD τ) a8 fullShare bS
            ∗ owns (c : Thread nD τ) a9 fullShare (predBlock h e wI bI wR bR wS bS)
            ∗ owns (c : Thread nD τ) a10 fullShare (phyBlock h e wI bI wR bR wS bS)) -∗ K ⟨⟩))
      ⊢ wp frame (wpE (defs₀ (F := F)) Variants.none c none) E (cc5__outhead_kernel i a1 h1 a2 h2 a3 h3 a4 h4 a5 h5 a6 h6 a7 h7 a8 h8 a9 h9 a10 h10) K := by
  simp only [cc5__outhead_kernel_eq_skeleton]; unfold cc5__outhead_kernel_skel
  simp only [k5_part1_eq_skeleton, k5_part2_eq_skeleton]; unfold k5_part1_skel k5_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, Hk⟩
  subst hf1; subst hf2; subst hf3; subst hf4; subst hf5; subst hf6; subst hf7; subst hf8
  sl_exec
  simp only [View.readAt_eq_ld]
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (View.cover_of_tiled _ S2000x8x2.size (by rfl))
  iexists _; isplitr
  swap; · iexact H10
  ipureintro
  exact View.read_writes_eq_canon _ _ _ (View.cover_of_tiled _ S2000x8x2.size (by rfl))

def data (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => predBlock (blk V c 0 t) (blk V c 1 t) (blk V c 2 t) (blk V c 3 t) (blk V c 4 t) (blk V c 5 t) (blk V c 6 t) (blk V c 7 t)
    | ⟨9, _⟩ => phyBlock (blk V c 0 t) (blk V c 1 t) (blk V c 2 t) (blk V c 3 t) (blk V c 4 t) (blk V c 5 t) (blk V c 6 t) (blk V c 7 t)
  Φ _ := Pipeline.ΦA spec5 c
  q _ := fullShare
  owed _ := 0

theorem data_A (c : Dev nD) (w : Fin cfg5.W) : (data V c).A w = V c (Pipeline.arrRef spec5 w) := by
  dsimp only [data]

theorem after_8 (c : Dev nD) (t : Fin cfg5.N) :
    (data V c).after 8 t = predBlock (blk V c 0 t) (blk V c 1 t) (blk V c 2 t) (blk V c 3 t) (blk V c 4 t) (blk V c 5 t) (blk V c 6 t) (blk V c 7 t) := by
  dsimp only [data]
theorem after_9 (c : Dev nD) (t : Fin cfg5.N) :
    (data V c).after 9 t = phyBlock (blk V c 0 t) (blk V c 1 t) (blk V c 2 t) (blk V c 3 t) (blk V c 4 t) (blk V c 5 t) (blk V c 6 t) (blk V c 7 t) := by
  dsimp only [data]

theorem before_in (c : Dev nD) (w : Fin cfg5.W) (hw : (cfg5.win w).isOut = false) (t : Fin cfg5.N) (d) :
    (data V c).before w t d = (data V c).after w t :=
  match w, hw with
  | ⟨0, _⟩, _ | ⟨1, _⟩, _ | ⟨2, _⟩, _ | ⟨3, _⟩, _ | ⟨4, _⟩, _ | ⟨5, _⟩, _ | ⟨6, _⟩, _ | ⟨7, _⟩, _ =>
    (data V c).before_in_eq_fetched _ rfl (fun _ => rfl) (fun _ _ _ => rfl) (fun _ => rfl) t d
  | ⟨8, _⟩, h | ⟨9, _⟩, h => Bool.noConfusion h

theorem obligation (c : Dev nD) : BodyObligation (data (F := F) V c) (defs₀ (F := F)) Variants.none () Set.univ := fun t => by
  rw [bigSep_W5, bigSep_W5]
  show _ ⊢ wp _ _ _ (bodyAt5 t) _
  simp (disch := exact rfl) only [before_in]
  dsimp only [data]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩⟩
  iapply body_runs c Set.univ
  iframe
  isplitl [H8]; · iexists _; iexact H8
  isplitl [H9]; · iexists _; iexact H9
  iintro ⟨H0, H1, H2, H3, H4, H5, H6, H7, H8, H9⟩
  iframe
  iexact Ho

end Cert.KernelIdeal.Region5

end
-- ==== Proof.KI.Fold.lean ====
import proofs.«112250_j2224793059992_2_alg».proof.Proof.KI.Region0
import proofs.«112250_j2224793059992_2_alg».proof.Proof.KI.Region1
import proofs.«112250_j2224793059992_2_alg».proof.Proof.KI.Region2
import proofs.«112250_j2224793059992_2_alg».proof.Proof.KI.Region3
import proofs.«112250_j2224793059992_2_alg».proof.Proof.KI.Region4
import proofs.«112250_j2224793059992_2_alg».proof.Proof.KI.Region5
import proofs.«112250_j2224793059992_2_alg».proof.Proof.Gen.KernelIdeal.Regions
import Idealize.ShloMosaic.Lib.Pipeline.Cells

noncomputable section

namespace Cert.KernelIdeal.Fold

open Cert.KernelIdeal Cert.KernelIdeal.Gen
open Idealize.ShloMosaic Idealize.ShloMosaic.TcCoe
open Idealize.SL Idealize.SL.Sem
open Idealize.ShloMosaic.Pipeline (Dat Cfg)

variable {F : FTy → Type} [FloatOps F]
variable (m : (ℓ : Loc nD τ sig) → Buf (Elt F) ℓ)

abbrev atTc (T : Dev nD → Valuation τ sig (Elt F)) : (c : Dev nD) → (b : Ref sig .tc) → Buf (Elt F) ((c : Thread nD τ).loc b) :=
  fun c b => T c b

section
variable {cfg : Cfg sig Λ₀} {c : Dev nD} (dat : Dat τ (Elt F) Unit ℕ (UR sig nD τ) ℕ cfg c) (T : Valuation τ sig (Elt F))

theorem arr_in (w : Fin cfg.W) (hw : (cfg.win w).isOut = false) (hA : dat.A w = T (Proc.devRef .tc (Pipeline.arrRef cfg.spec w))) :
    dat.arrAt w cfg.N = T (Proc.devRef .tc (Pipeline.arrRef cfg.spec w)) :=
  (dat.arrAt_in w hw cfg.N).trans hA

theorem arr_upd (hinj : Function.Injective (Pipeline.arrRef cfg.spec)) (o w : Fin cfg.W)
    (h : w ≠ o → dat.arrAt w cfg.N = T (Proc.devRef .tc (Pipeline.arrRef cfg.spec w))) :
    dat.arrAt w cfg.N = Function.update T (Proc.devRef .tc (Pipeline.arrRef cfg.spec o)) (dat.arrAt o cfg.N) (Proc.devRef .tc (Pipeline.arrRef cfg.spec w)) := by
  by_cases hw : w = o
  · subst hw; exact (Function.update_self _ _ T).symm
  · exact (h hw).trans (Function.update_of_ne (fun e => hw (hinj (Proc.devRef_injective _ e))) _ T).symm
end

theorem rest_upd {gr W : ℕ} (win : Fin W → Pipeline.WinSpec sig gr) (T : Valuation τ sig (Elt F)) (o : Fin W)
    (v : (Proc.devRef .tc (Pipeline.arrRef win o) : DevRef τ sig).ty.Contents (Elt F)) (b : Ref sig .tc)
    (hb : b ∉ Finset.univ.image (Pipeline.arrRef win)) :
    Function.update T (Proc.devRef .tc (Pipeline.arrRef win o)) v (Proc.devRef .tc b) = T (Proc.devRef .tc b) :=
  Function.update_of_ne (fun e => hb (Finset.mem_image.mpr ⟨o, Finset.mem_univ _, (Proc.devRef_injective _ e).symm⟩)) _ _

abbrev T1 : Dev nD → Valuation τ sig (Elt F) := fun c => Gen.V1 m c
def z1 (c : Dev nD) : Buf (Elt F) ((c : Thread nD τ).loc main_v13) := (Region0.data (atTc (T1 m)) c).arrAt 3 cfg0.N
abbrev T2 : Dev nD → Valuation τ sig (Elt F) := fun c => Function.update (T1 m c) main_v13 (z1 m c)
abbrev T3 : Dev nD → Valuation τ sig (Elt F) := fun c => StableHlo.after hostOps1 (T2 m c)
def msg1 (c : Dev nD) : Buf (Elt F) ((c : Thread nD τ).loc main_v31) := (Region1.data (atTc (T3 m)) c).arrAt 5 cfg1.N
abbrev T4 : Dev nD → Valuation τ sig (Elt F) := fun c => Function.update (T3 m c) main_v31 (msg1 m c)
abbrev T5 : Dev nD → Valuation τ sig (Elt F) := fun c => StableHlo.after hostOps2 (T4 m c)
def z2 (c : Dev nD) : Buf (Elt F) ((c : Thread nD τ).loc main_v36) := (Region2.data (atTc (T5 m)) c).arrAt 3 cfg2.N
abbrev T6 : Dev nD → Valuation τ sig (Elt F) := fun c => Function.update (T5 m c) main_v36 (z2 m c)
abbrev T7 : Dev nD → Valuation τ sig (Elt F) := fun c => StableHlo.after hostOps3 (T6 m c)
def msg2 (c : Dev nD) : Buf (Elt F) ((c : Thread nD τ).loc main_v54) := (Region3.data (atTc (T7 m)) c).arrAt 5 cfg3.N
abbrev T8 : Dev nD → Valuation τ sig (Elt F) := fun c => Function.update (T7 m c) main_v54 (msg2 m c)
abbrev T9 : Dev nD → Valuation τ sig (Elt F) := fun c => StableHlo.after hostOps4 (T8 m c)
def gate (c : Dev nD) : Buf (Elt F) ((c : Thread nD τ).loc main_v60) := (Region4.data (atTc (T9 m)) c).arrAt 4 cfg4.N
abbrev T10 : Dev nD → Valuation τ sig (Elt F) := fun c => Function.update (T9 m c) main_v60 (gate m c)
abbrev T11 : Dev nD → Valuation τ sig (Elt F) := fun c => StableHlo.after hostOps5 (T10 m c)
def pred (c : Dev nD) : Buf (Elt F) ((c : Thread nD τ).loc main_v72_0) := (Region5.data (atTc (T11 m)) c).arrAt 8 cfg5.N
def phy (c : Dev nD) : Buf (Elt F) ((c : Thread nD τ).loc main_v72_1) := (Region5.data (atTc (T11 m)) c).arrAt 9 cfg5.N
abbrev T12 : Dev nD → Valuation τ sig (Elt F) := fun c =>
  Function.update (Function.update (T11 m c) main_v72_0 (pred m c)) main_v72_1 (phy m c)

def outs : Gen.Outs (F := F) := fun n r c => match n with
  | 2 => T2 m c r
  | 4 => T4 m c r
  | 6 => T6 m c r
  | 8 => T8 m c r
  | 10 => T10 m c r
  | _ => T12 m c r

theorem upd_eq {f g : Valuation τ sig (Elt F)} (h : f = g) (r : DevRef τ sig) (z : r.ty.Contents (Elt F)) :
    Function.update f r (Function.update g r z r) = Function.update g r z := by
  rw [h, Function.update_self]
theorem V2_eq (c : Dev nD) : Gen.V2 m (outs m) c = T2 m c := upd_eq rfl _ _
theorem V3_eq (c : Dev nD) : Gen.V3 m (outs m) c = T3 m c := congrArg (StableHlo.after hostOps1) (V2_eq m c)
theorem V4_eq (c : Dev nD) : Gen.V4 m (outs m) c = T4 m c := upd_eq (V3_eq m c) _ _
theorem V5_eq (c : Dev nD) : Gen.V5 m (outs m) c = T5 m c := congrArg (StableHlo.after hostOps2) (V4_eq m c)
theorem V6_eq (c : Dev nD) : Gen.V6 m (outs m) c = T6 m c := upd_eq (V5_eq m c) _ _
theorem V7_eq (c : Dev nD) : Gen.V7 m (outs m) c = T7 m c := congrArg (StableHlo.after hostOps3) (V6_eq m c)
theorem V8_eq (c : Dev nD) : Gen.V8 m (outs m) c = T8 m c := upd_eq (V7_eq m c) _ _
theorem V9_eq (c : Dev nD) : Gen.V9 m (outs m) c = T9 m c := congrArg (StableHlo.after hostOps4) (V8_eq m c)
theorem V10_eq (c : Dev nD) : Gen.V10 m (outs m) c = T10 m c := upd_eq (V9_eq m c) _ _
theorem V11_eq (c : Dev nD) : Gen.V11 m (outs m) c = T11 m c := congrArg (StableHlo.after hostOps5) (V10_eq m c)
theorem T12_pred (c : Dev nD) : T12 m c main_v72_0 = pred m c :=
  (Function.update_of_ne (by decide) _ _).trans (Function.update_self ..)
theorem T12_phy (c : Dev nD) : T12 m c main_v72_1 = phy m c := Function.update_self ..
theorem V12_eq (c : Dev nD) : Gen.V12 m (outs m) c = T12 m c := by
  show Function.update (Function.update (Gen.V11 m (outs m) c) main_v72_0 (T12 m c main_v72_0)) main_v72_1 (T12 m c main_v72_1) = T12 m c
  rw [V11_eq, T12_pred, T12_phy]

theorem exit0_arr (c : Dev nD) (w : Fin cfg0.W) :
    (Region0.data (atTc (T1 m)) c).arrAt w cfg0.N = atTc (T2 m) c (Pipeline.arrRef spec0 w) :=
  arr_upd _ _ launch0.win.arr_inj 3 w fun h0 =>
    arr_in _ _ w ((by decide : ∀ w : Fin cfg0.W, w ≠ 3 → (cfg0.win w).isOut = false) w h0) (Region0.data_A _ c w)
theorem exit0_rest (c : Dev nD) : ∀ b, b ∉ Finset.univ.image (Pipeline.arrRef spec0) → atTc (T2 m) c b = atTc (T1 m) c b :=
  fun b hb => rest_upd spec0 _ 3 _ b hb

theorem exit1_arr (c : Dev nD) (w : Fin cfg1.W) :
    (Region1.data (atTc (T3 m)) c).arrAt w cfg1.N = atTc (T4 m) c (Pipeline.arrRef spec1 w) :=
  arr_upd _ _ launch1.win.arr_inj 5 w fun h0 =>
    arr_in _ _ w ((by decide : ∀ w : Fin cfg1.W, w ≠ 5 → (cfg1.win w).isOut = false) w h0) (Region1.data_A _ c w)
theorem exit1_rest (c : Dev nD) : ∀ b, b ∉ Finset.univ.image (Pipeline.arrRef spec1) → atTc (T4 m) c b = atTc (T3 m) c b :=
  fun b hb => rest_upd spec1 _ 5 _ b hb

theorem exit2_arr (c : Dev nD) (w : Fin cfg2.W) :
    (Region2.data (atTc (T5 m)) c).arrAt w cfg2.N = atTc (T6 m) c (Pipeline.arrRef spec2 w) :=
  arr_upd _ _ launch2.win.arr_inj 3 w fun h0 =>
    arr_in _ _ w ((by decide : ∀ w : Fin cfg2.W, w ≠ 3 → (cfg2.win w).isOut = false) w h0) (Region2.data_A _ c w)
theorem exit2_rest (c : Dev nD) : ∀ b, b ∉ Finset.univ.image (Pipeline.arrRef spec2) → atTc (T6 m) c b = atTc (T5 m) c b :=
  fun b hb => rest_upd spec2 _ 3 _ b hb

theorem exit3_arr (c : Dev nD) (w : Fin cfg3.W) :
    (Region3.data (atTc (T7 m)) c).arrAt w cfg3.N = atTc (T8 m) c (Pipeline.arrRef spec3 w) :=
  arr_upd _ _ launch3.win.arr_inj 5 w fun h0 =>
    arr_in _ _ w ((by decide : ∀ w : Fin cfg3.W, w ≠ 5 → (cfg3.win w).isOut = false) w h0) (Region3.data_A _ c w)
theorem exit3_rest (c : Dev nD) : ∀ b, b ∉ Finset.univ.image (Pipeline.arrRef spec3) → atTc (T8 m) c b = atTc (T7 m) c b :=
  fun b hb => rest_upd spec3 _ 5 _ b hb

theorem exit4_arr (c : Dev nD) (w : Fin cfg4.W) :
    (Region4.data (atTc (T9 m)) c).arrAt w cfg4.N = atTc (T10 m) c (Pipeline.arrRef spec4 w) :=
  arr_upd _ _ launch4.win.arr_inj 4 w fun h0 =>
    arr_in _ _ w ((by decide : ∀ w : Fin cfg4.W, w ≠ 4 → (cfg4.win w).isOut = false) w h0) (Region4.data_A _ c w)
theorem exit4_rest (c : Dev nD) : ∀ b, b ∉ Finset.univ.image (Pipeline.arrRef spec4) → atTc (T10 m) c b = atTc (T9 m) c b :=
  fun b hb => rest_upd spec4 _ 4 _ b hb

theorem exit5_arr (c : Dev nD) (w : Fin cfg5.W) :
    (Region5.data (atTc (T11 m)) c).arrAt w cfg5.N = atTc (T12 m) c (Pipeline.arrRef spec5 w) :=
  arr_upd _ _ launch5.win.arr_inj 9 w fun h0 =>
    arr_upd _ _ launch5.win.arr_inj 8 w fun h1 =>
    arr_in _ _ w ((by decide : ∀ w : Fin cfg5.W, w ≠ 9 → w ≠ 8 → (cfg5.win w).isOut = false) w h0 h1) (Region5.data_A _ c w)
theorem exit5_rest (c : Dev nD) : ∀ b, b ∉ Finset.univ.image (Pipeline.arrRef spec5) → atTc (T12 m) c b = atTc (T11 m) c b :=
  fun b hb => (rest_upd spec5 _ 9 _ b hb).trans (rest_upd spec5 _ 8 _ b hb)

end Cert.KernelIdeal.Fold

end
-- ==== Proof.KI.Records.lean ====
import proofs.«112250_j2224793059992_2_alg».proof.Proof.KI.Fold
import Idealize.ShloMosaic.Lib.Pipeline.RegionsLoop
import Idealize.ShloMosaic.Lib.Pipeline.Frame
import Idealize.ShloMosaic.Lib.Tactic

set_option maxRecDepth 16384

noncomputable section

namespace Cert.KernelIdeal.Records

open Cert.KernelIdeal Cert.KernelIdeal.Gen Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

def pdats : (p : Fin 6) → (c : Dev nD) → Dat τ (Elt F) Unit ℕ (UR sig nD τ) ℕ (cfgs p) c
  | ⟨0, _⟩ => fun c => Region0.data (atTc (T1 m)) c
  | ⟨1, _⟩ => fun c => Region1.data (atTc (T3 m)) c
  | ⟨2, _⟩ => fun c => Region2.data (atTc (T5 m)) c
  | ⟨3, _⟩ => fun c => Region3.data (atTc (T7 m)) c
  | ⟨4, _⟩ => fun c => Region4.data (atTc (T9 m)) c
  | ⟨5, _⟩ => fun c => Region5.data (atTc (T11 m)) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section
variable {cfg : Pipeline.Cfg sig Λ₀} {c : Dev nD} (dat : Dat τ (Elt F) Unit ℕ (UR sig nD τ) ℕ cfg c)

theorem entry {Q : sProp 𝕄} {T : Valuation τ sig (Elt F)} {pre : Pipeline.Prefetch sig} {tbl : pre.Contents (Elt F)}
    (hK : pre.K = 0) (h0 : dat.owed 0 = 0) (hB : dat.recorded 0 = Set.univ)
    (hsplit : (unscopedBufs c (fun b => T b) : sProp 𝕄) ⊢ iprop(dat.arrays (dat.arrAt · 0) ∗ Q)) :
    iprop((StableHlo.held (c : Thread nD τ) (Pipeline.ucRefs τ sig) T ∗ R c) ∗ Pipeline.ownSems0 (fun k : PEmpty => k.elim) c ∗ levAts L lv)
      ⊢ |={Set.univ}=> iprop(dat.arrays (dat.arrAt · 0) ∗ Pipeline.prefHeld pre c (fun _ => fullShare) tbl
        ∗ dat.owesAt () 0 ∗ (∃ r, prngReg c r) ∗ Q) := by
  haveI : IsEmpty (Fin pre.K) := by rw [hK]; infer_instance
  rw [Pipeline.ownSems0_none]
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [Finset.univ_eq_empty, BI.bigSep_empty]; iempintro
  isplitl [HO]
  · unfold Pipeline.Dat.owesAt Pipeline.owesWithin
    icases HO with ⟨%W, HO⟩; iexists W; isplitr; · ipureintro; exact fun x _ => Or.inl (hB ▸ trivial)
    rw [h0]; iexact HO
  isplitl [Hp]; · iexact Hp
  iexact Hrest

theorem exit {Q : sProp 𝕄} {T : Valuation τ sig (Elt F)} (hN : dat.owed (Fin.last cfg.N) = 0)
    (hjoin : iprop(dat.arrays (dat.arrAt · cfg.N) ∗ Q) ⊢ (unscopedBufs c (fun b => T b) : sProp 𝕄)) :
    iprop(dat.arrays (dat.arrAt · cfg.N) ∗ dat.owesAt () (Fin.last cfg.N) ∗ (∃ r, prngReg c r) ∗ Q)
      ⊢ |={Set.univ}=> iprop(StableHlo.held (c : Thread nD τ) (Pipeline.ucRefs τ sig) T ∗ R c) := by
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%W, -, HO⟩; iexists W; rw [hN]; iexact HO
end

theorem inv_in {gr W : ℕ} (win : Fin W → Pipeline.WinSpec sig gr) (c : Dev nD) (Q : sProp 𝕄) :
    iprop((∃ r, prngReg c r) ∗ Q ∗ Pipeline.scopedRest win c) ⊢ (Pipeline.ΦA win c : sProp 𝕄) := by
  unfold Pipeline.ΦA
  iintro ⟨Hp, -, Hr⟩
  isplitl [Hr]; · iexact Hr
  iexact Hp
theorem inv_out {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

-- A region's segment from what varies between the six: launch facts, entry and exit contents, body obligation.
set_option backward.isDefEq.respectTransparency.types false in
def seg (p : Fin 6) (la : Pipeline.LaunchFacts (nD := nD) (τ := τ) cfgs p) (T T' : Dev nD → Valuation τ sig (Elt F))
    (hb : ∀ c, Pipeline.BodyObligationLoose (pdats m p c) defs₀ 𝒱₀ () Set.univ)
    (h0 : ∀ c t, (pdats m p c).owed t = 0) (hK : (pcfgs (F := F) p).pre.K = 0)
    (hΦ : ∀ c t, (pdats m p c).Φ t = Pipeline.ΦA (pcfgs (F := F) p).spec c)
    (hq : ∀ c w, (pdats m p c).q w = fullShare) (hB : ∀ c, (pdats m p c).recorded 0 = Set.univ)
    (hA : ∀ c w, (pdats m p c).A w = atTc T c (Pipeline.arrRef (pcfgs (F := F) p).spec w))
    (hF : ∀ c w, (pdats m p c).arrAt w (cfgs p).N = atTc T' c (Pipeline.arrRef (pcfgs (F := F) p).spec w))
    (hrest : ∀ c b, b ∉ Finset.univ.image (Pipeline.arrRef (pcfgs (F := F) p).spec) → atTc T' c b = atTc T c b) :
    Pipeline.RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody := hb
  hwaits := Pipeline.hwaits_of_owed_zero _ _ _ _ L lv p h0
  pre c := iprop(StableHlo.held (c : Thread nD τ) (Pipeline.ucRefs τ sig) (T c) ∗ R c)
  post c := iprop(StableHlo.held (c : Thread nD τ) (Pipeline.ucRefs τ sig) (T' c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (atTc T c)
  hentry c := by
    have h := Pipeline.arrays_of_unscopedBufs (pcfgs (F := F)) adm (pdats m) la.win la.arr_whole c
      ((pdats m p c).share_full (hq c)) (atTc T c) (hA c)
    exact entry _ hK (h0 c 0) (hB c) h
  hin c := by rw [hΦ]; exact inv_in _ c _
  hout c := by rw [hΦ]; exact inv_out _ c
  hexit c := by
    have h := Pipeline.unscopedBufs_of_arrays (pcfgs (F := F)) adm (Ix := Unit) (Name := ℕ) (U := UR sig nD τ) (Lvl := ℕ)
      la.win la.arr_whole c (pdats m) ((pdats m p c).share_full (hq c)) (atTc T c) (atTc T' c)
      ((pdats m p c).arrAt · (cfgs p).N) (hF c) (hrest c)
    exact exit _ (h0 c _) h

def reg0 : Pipeline.RegionSeg (pcfgs (F := F)) adm (pdats m) () defs₀ 𝒱₀ L lv 0 :=
  seg m 0 launch0 (T1 m) (T2 m) (fun c => (Region0.obligation (atTc (T1 m)) c).loose) (fun _ _ => rfl) rfl
    (fun _ _ => rfl) (fun _ _ => rfl) (fun _ => rfl) (fun _ _ => rfl) (exit0_arr m) (exit0_rest m)

def reg1 : Pipeline.RegionSeg (pcfgs (F := F)) adm (pdats m) () defs₀ 𝒱₀ L lv 1 :=
  seg m 1 launch1 (T3 m) (T4 m) (fun c => (Region1.obligation (atTc (T3 m)) c).loose) (fun _ _ => rfl) rfl
    (fun _ _ => rfl) (fun _ _ => rfl) (fun _ => rfl) (fun _ _ => rfl) (exit1_arr m) (exit1_rest m)

def reg2 : Pipeline.RegionSeg (pcfgs (F := F)) adm (pdats m) () defs₀ 𝒱₀ L lv 2 :=
  seg m 2 launch2 (T5 m) (T6 m) (fun c => (Region2.obligation (atTc (T5 m)) c).loose) (fun _ _ => rfl) rfl
    (fun _ _ => rfl) (fun _ _ => rfl) (fun _ => rfl) (fun _ _ => rfl) (exit2_arr m) (exit2_rest m)

def reg3 : Pipeline.RegionSeg (pcfgs (F := F)) adm (pdats m) () defs₀ 𝒱₀ L lv 3 :=
  seg m 3 launch3 (T7 m) (T8 m) (fun c => (Region3.obligation (atTc (T7 m)) c).loose) (fun _ _ => rfl) rfl
    (fun _ _ => rfl) (fun _ _ => rfl) (fun _ => rfl) (fun _ _ => rfl) (exit3_arr m) (exit3_rest m)

def reg4 : Pipeline.RegionSeg (pcfgs (F := F)) adm (pdats m) () defs₀ 𝒱₀ L lv 4 :=
  seg m 4 launch4 (T9 m) (T10 m) (fun c => (Region4.obligation (atTc (T9 m)) c).loose) (fun _ _ => rfl) rfl
    (fun _ _ => rfl) (fun _ _ => rfl) (fun _ => rfl) (fun _ _ => rfl) (exit4_arr m) (exit4_rest m)

def reg5 : Pipeline.RegionSeg (pcfgs (F := F)) adm (pdats m) () defs₀ 𝒱₀ L lv 5 :=
  seg m 5 launch5 (T11 m) (T12 m) (fun c => (Region5.obligation (atTc (T11 m)) c).loose) (fun _ _ => rfl) rfl
    (fun _ _ => rfl) (fun _ _ => rfl) (fun _ => rfl) (fun _ _ => rfl) (exit5_arr m) (exit5_rest m)

end Cert.KernelIdeal.Records

end
-- ==== Proof.KI.Run.lean ====
import proofs.«112250_j2224793059992_2_alg».proof.Proof.KI.Records

set_option maxRecDepth 16384

noncomputable section

namespace Cert.KernelIdeal.Run

open Cert.KernelIdeal Cert.KernelIdeal.Gen Cert.KernelIdeal.Fold Cert.KernelIdeal.Records
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

theorem launch_elem :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem riding_init (ρ : Dev nD → PrngReg) (c : Dev nD) :
    iprop((unscopedSems0 c ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv) ⊢ (|={Set.univ}=> R c : sProp 𝕄) := by
  iintro ⟨⟨-, HO, -, Hp, -⟩, -⟩
  imodintro
  isplitl [Hp]; · iexists _; iexact Hp
  iexists ∅; iexact HO

theorem riding_end (c : Dev nD) : (R c : sProp 𝕄) ⊢ iprop(∃ W, owes (c : Thread nD τ) (0 : CellTallies nD τ sig Unit) W) := by
  iintro ⟨-, HO⟩; iexact HO

variable (m : (ℓ : Loc nD τ sig) → Buf (Elt F) ℓ) (ρ : Dev nD → PrngReg)

theorem pre0 (c : Dev nD) : iprop(StableHlo.held (c : Thread nD τ) (Pipeline.ucRefs τ sig) (V1 m c) ∗ R c) ⊢ (reg0 m).pre c := .rfl
theorem post0 (c : Dev nD) : (reg0 m).post c ⊢ iprop(StableHlo.held (c : Thread nD τ) (Pipeline.ucRefs τ sig) (V2 m (outs m) c) ∗ R c) := by rw [V2_eq]; exact .rfl
theorem pre1 (c : Dev nD) : iprop(StableHlo.held (c : Thread nD τ) (Pipeline.ucRefs τ sig) (V3 m (outs m) c) ∗ R c) ⊢ (reg1 m).pre c := by rw [V3_eq]; exact .rfl
theorem post1 (c : Dev nD) : (reg1 m).post c ⊢ iprop(StableHlo.held (c : Thread nD τ) (Pipeline.ucRefs τ sig) (V4 m (outs m) c) ∗ R c) := by rw [V4_eq]; exact .rfl
theorem pre2 (c : Dev nD) : iprop(StableHlo.held (c : Thread nD τ) (Pipeline.ucRefs τ sig) (V5 m (outs m) c) ∗ R c) ⊢ (reg2 m).pre c := by rw [V5_eq]; exact .rfl
theorem post2 (c : Dev nD) : (reg2 m).post c ⊢ iprop(StableHlo.held (c : Thread nD τ) (Pipeline.ucRefs τ sig) (V6 m (outs m) c) ∗ R c) := by rw [V6_eq]; exact .rfl
theorem pre3 (c : Dev nD) : iprop(StableHlo.held (c : Thread nD τ) (Pipeline.ucRefs τ sig) (V7 m (outs m) c) ∗ R c) ⊢ (reg3 m).pre c := by rw [V7_eq]; exact .rfl
theorem post3 (c : Dev nD) : (reg3 m).post c ⊢ iprop(StableHlo.held (c : Thread nD τ) (Pipeline.ucRefs τ sig) (V8 m (outs m) c) ∗ R c) := by rw [V8_eq]; exact .rfl
theorem pre4 (c : Dev nD) : iprop(StableHlo.held (c : Thread nD τ) (Pipeline.ucRefs τ sig) (V9 m (outs m) c) ∗ R c) ⊢ (reg4 m).pre c := by rw [V9_eq]; exact .rfl
theorem post4 (c : Dev nD) : (reg4 m).post c ⊢ iprop(StableHlo.held (c : Thread nD τ) (Pipeline.ucRefs τ sig) (V10 m (outs m) c) ∗ R c) := by rw [V10_eq]; exact .rfl
theorem pre5 (c : Dev nD) : iprop(StableHlo.held (c : Thread nD τ) (Pipeline.ucRefs τ sig) (V11 m (outs m) c) ∗ R c) ⊢ (reg5 m).pre c := by rw [V11_eq]; exact .rfl
theorem post5 (c : Dev nD) : (reg5 m).post c ⊢ iprop(StableHlo.held (c : Thread nD τ) (Pipeline.ucRefs τ sig) (V12 m (outs m) c) ∗ R c) := by rw [V12_eq]; exact .rfl

theorem launch_state (E0 : Dev nD → sProp 𝕄)
    (hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (Pipeline.ucRefs τ sig) (V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = T12 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m))
    (fun c Q => by
      rewrite [main_chain c, Seg.run_eq_chain,
        show (segs m (outs m) 𝒱₀ L lv (fun _ c => R c) () (pdats m) (reg0 m) (reg1 m) (reg2 m) (reg3 m) (reg4 m) (reg5 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_elem
    (T₀ := fun c => iprop(StableHlo.held (c : Thread nD τ) (Pipeline.ucRefs τ sig) (V0 m c) ∗ R c))
    (Tₙ := fun c => StableHlo.held (c : Thread nD τ) (Pipeline.ucRefs τ sig) (V12 m (outs m) c))
    (hch := fun c => ⟨.rfl, pre0 m c, post0 m c, pre1 m c, post1 m c, pre2 m c, post2 m c, pre3 m c, post3 m c,
      pre4 m c, post4 m c, pre5 m c, (post5 m c).trans (sep_mono .rfl (riding_end c))⟩)
    (hinit := launch_state m ρ (fun c => R c) (Pipeline.initEach L lv fun c => riding_init ρ c))
    (QY := fun c s => ∀ b ∈ Pipeline.ucRefs τ sig, s.mem (((c : Thread nD τ)).1, b) = T12 m c b)
    (hfin := fun c s' => ?_) (hQ := fun _ h => h)
  ·
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      intro b hb
      exact (h b hb).trans (congrFun (V12_eq m c) b)
    · iexact HSI

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_results : θ_run defs (onTc (τ := τ) (main (F := F))) ⟨m, fun _ => 0, ρ⟩ (fun r => ∀ c : Dev nD,
      r.2.mem ((c.tc : Thread nD τ).loc main_v72_0) = pred m c
      ∧ r.2.mem ((c.tc : Thread nD τ).loc main_v72_1) = phy m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    have e (b : Ref sig .tc) hb := (h c _ (mem_uc b hb)).trans (congrFun (V12_eq m c) _).symm
    ⟨(h c _ (mem_uc main_v72_0 (by decide))).trans (T12_pred m c),
      (h c _ (mem_uc main_v72_1 (by decide))).trans (T12_phy m c),
      (e main_arg0 (by decide)).trans (V12_main_arg0 m (outs m) c),
      (e main_arg1 (by decide)).trans (V12_main_arg1 m (outs m) c),
      (e main_arg2 (by decide)).trans (V12_main_arg2 m (outs m) c),
      (e main_arg3 (by decide)).trans (V12_main_arg3 m (outs m) c),
      (e main_arg4 (by decide)).trans (V12_main_arg4 m (outs m) c),
      (e main_arg5 (by decide)).trans (V12_main_arg5 m (outs m) c),
      (e main_arg6 (by decide)).trans (V12_main_arg6 m (outs m) c),
      (e main_arg7 (by decide)).trans (V12_main_arg7 m (outs m) c),
      (e main_arg8 (by decide)).trans (V12_main_arg8 m (outs m) c),
      (e main_arg9 (by decide)).trans (V12_main_arg9 m (outs m) c),
      (e main_arg10 (by decide)).trans (V12_main_arg10 m (outs m) c),
      (e main_arg11 (by decide)).trans (V12_main_arg11 m (outs m) c),
      (e main_arg12 (by decide)).trans (V12_main_arg12 m (outs m) c),
      (e main_arg13 (by decide)).trans (V12_main_arg13 m (outs m) c),
      (e main_arg14 (by decide)).trans (V12_main_arg14 m (outs m) c),
      (e main_arg15 (by decide)).trans (V12_main_arg15 m (outs m) c),
      (e main_arg16 (by decide)).trans (V12_main_arg16 m (outs m) c),
      (e main_arg17 (by decide)).trans (V12_main_arg17 m (outs m) c),
      (e main_arg18 (by decide)).trans (V12_main_arg18 m (outs m) c),
      (e main_arg19 (by decide)).trans (V12_main_arg19 m (outs m) c),
      (e main_arg20 (by decide)).trans (V12_main_arg20 m (outs m) c),
      (e main_arg21 (by decide)).trans (V12_main_arg21 m (outs m) c)⟩)
    (run_all m ρ)

end Cert.KernelIdeal.Run

end
-- ==== Proof.Stages.lean ====
import proofs.«112250_j2224793059992_2_alg».proof.ReferenceIdeal
import proofs.«112250_j2224793059992_2_alg».proof.Proof.Gen.ReferenceIdeal

noncomputable section

namespace Cert.ReferenceIdeal.Stages

open Cert.ReferenceIdeal Cert.ReferenceIdeal.Gen Idealize.ShloMosaic

variable {F : FTy → Type} [FloatOps F]

abbrev Fl (F : FTy → Type) [FloatOps F] (S : Shape) : Type := (⟨S, .f32⟩ : BufTy).Contents (Elt F)
abbrev In (F : FTy → Type) [FloatOps F] (S : Shape) : Type := (⟨S, .i32⟩ : BufTy).Contents (Elt F)

def lastDiffI (X : Fl F S4x16x50000x4) : Fl F S200000x1 :=
  shapeCast S200000x1 (shapeCast S4x50000 (extractStridedSlice S4x1x50000x1 ![0, 15, 0, 1] X slices_S4x16x50000x4_S4x1x50000x1_0_15_0_1)
    shapeCasts_S4x1x50000x1_S4x50000) shapeCasts_S4x50000_S200000x1
def lastDiffR (X : Fl F S4x16x50000x4) : Fl F S200000x1 :=
  shapeCast S200000x1 (shapeCast S4x50000 (extractStridedSlice S4x1x50000x1 ![0, 15, 0, 2] X slices_S4x16x50000x4_S4x1x50000x1_0_15_0_2)
    shapeCasts_S4x1x50000x1_S4x50000) shapeCasts_S4x50000_S200000x1

def feats (X : Fl F S4x16x50000x4) : Fl F S200000x64 :=
  shapeCast S200000x64 (transpose S4x50000x16x4 [0, 2, 1, 3] X transposes_S4x16x50000x4_S4x50000x16x4_0_2_1_3) shapeCasts_S4x50000x16x4_S200000x64

def src (A : In F S2x1600000) : In F S1600000 :=
  shapeCast S1600000 (extractStridedSlice S1x1600000 ![0, 0] A slices_S2x1600000_S1x1600000_0_0) shapeCasts_S1x1600000_S1600000
def dst (A : In F S2x1600000) : In F S1600000 :=
  shapeCast S1600000 (extractStridedSlice S1x1600000 ![1, 0] A slices_S2x1600000_S1x1600000_1_0) shapeCasts_S1x1600000_S1600000

def lin1 (x : Fl F S200000x64) (W : Fl F S32x64) (b : Fl F S32) : Fl F S200000x32 :=
  addf (Host.dotGeneral dot_S200000x64_S64x32_S200000x32_1_0_0_1_n_n none x (transpose S64x32 [1, 0] W transposes_S32x64_S64x32_1_0))
    (broadcastInDim S200000x32 ![0, 1] bcast_S1x32_S200000x32_0_1 (broadcastInDim S1x32 ![1] bcast_S32_S1x32_1 b))

def lin2 (x : Fl F S200000x32) (W : Fl F S32x32) (b : Fl F S32) : Fl F S200000x32 :=
  addf (Host.dotGeneral dot_S200000x32_S32x32_S200000x32_1_0_0_1_n_n none x (transpose S32x32 [1, 0] W transposes_S32x32_S32x32_1_0))
    (broadcastInDim S200000x32 ![0, 1] bcast_S1x32_S200000x32_0_1 (broadcastInDim S1x32 ![1] bcast_S32_S1x32_1 b))

def wrap (i : In F S1600000) : In F S1600000 :=
  select (cmpi .slt i (broadcastInDim S1600000 ![] bcast_S_S1600000 (constantI S_ 32 0#32)))
    (addi i (broadcastInDim S1600000 ![] bcast_S_S1600000 (constantI S_ 32 200000#32))) i

def rows (z : Fl F S200000x32) (i : In F S1600000) : Fl F S1600000x32 :=
  Host.gather gather_S200000x32_S1600000x1_S1600000x32_1_0_n_n_0_1_132 z (broadcastInDim S1600000x1 ![0] bcast_S1600000_S1600000x1_0 (wrap i))

def leaky (x : Fl F S1600000x1) (slope : Fl F S_) : Fl F S1600000x1 :=
  select (cmpf .oge x (broadcastInDim S1600000x1 ![] bcast_S_S1600000x1 (constant S_ .f32 0x00000000#32))) x
    (mulf (broadcastInDim S1600000x1 ![] bcast_S_S1600000x1 (id slope)) x)

def score (zs zd : Fl F S1600000x32) (aW : Fl F S1x64) (ab : Fl F S1) : Fl F S1600000x1 :=
  addf (Host.dotGeneral dot_S1600000x64_S64x1_S1600000x1_1_0_0_1_n_n none
      (concatenate S1600000x64 1 [⟨S1600000x32, zs⟩, ⟨S1600000x32, zd⟩] concatenates_S1600000x32_S1600000x32_S1600000x64_d1)
      (transpose S64x1 [1, 0] aW transposes_S1x64_S64x1_1_0))
    (broadcastInDim S1600000x1 ![0, 1] bcast_S1x1_S1600000x1_0_1 (broadcastInDim S1x1 ![1] bcast_S1_S1x1_1 ab))

def msg (zs zd : Fl F S1600000x32) (aW : Fl F S1x64) (ab : Fl F S1) : Fl F S1600000x32 :=
  mulf zs (broadcastInDim S1600000x32 ![0, 1] bcast_S1600000x1_S1600000x32_0_1 (leaky (score zs zd aW ab) (constant S_ .f32 0x3C23D70A#32)))

def agg (ms : Fl F S1600000x32) (d : In F S1600000) : Fl F S200000x32 :=
  Host.scatterAdd scatter_S200000x32_S1600000x1_S1600000x32_1_0_0_1
    (broadcastInDim S200000x32 ![] bcast_S_S200000x32 (constant S_ .f32 0x00000000#32))
    (broadcastInDim S1600000x1 ![0] bcast_S1600000_S1600000x1_0 d) ms

def elu (h : Fl F S200000x32) : Fl F S200000x32 :=
  select (cmpf .ogt h (broadcastInDim S200000x32 ![] bcast_S_S200000x32 (constant S_ .f32 0x00000000#32))) h
    (mulf (broadcastInDim S200000x32 ![] bcast_S_S200000x32 (constant S_ .f32 0x3F800000#32))
      (Host.expm1 (select (cmpf .ogt h (broadcastInDim S200000x32 ![] bcast_S_S200000x32 (constant S_ .f32 0x00000000#32)))
        (broadcastInDim S200000x32 ![] bcast_S_S200000x32 (id (constant S_ .f32 0x00000000#32))) h)))

def layer (z : Fl F S200000x32) (A : In F S2x1600000) (aW : Fl F S1x64) (ab : Fl F S1) : Fl F S200000x32 :=
  agg (msg (rows z (src A)) (rows z (dst A)) aW ab) (dst A)

def ones32 : Fl F S200000x32 := broadcastInDim S200000x32 ![] bcast_S_S200000x32 (constant S_ .f32 0x3F800000#32)

def sig32 (y : Fl F S200000x32) : Fl F S200000x32 := Host.divf ones32 (addf ones32 (Host.exp (Host.negf y)))

def gates (x : Fl F S200000x32) (Wih : Fl F S96x32) (bih : Fl F S96) : Fl F S200000x96 :=
  addf (Host.dotGeneral dot_S200000x32_S32x96_S200000x96_1_0_0_1_n_n none x (transpose S32x96 [1, 0] Wih transposes_S96x32_S32x96_1_0))
    (broadcastInDim S200000x96 ![0, 1] bcast_S1x96_S200000x96_0_1 (broadcastInDim S1x96 ![1] bcast_S96_S1x96_1 bih))

def hb0 (bhh : Fl F S96) : Fl F S200000x32 :=
  broadcastInDim S200000x32 ![0, 1] bcast_S1x32_S200000x32_0_1 (broadcastInDim S1x32 ![1] bcast_S32_S1x32_1 (extractStridedSlice S32 ![0] bhh slices_S96_S32_0))
def hb1 (bhh : Fl F S96) : Fl F S200000x32 :=
  broadcastInDim S200000x32 ![0, 1] bcast_S1x32_S200000x32_0_1 (broadcastInDim S1x32 ![1] bcast_S32_S1x32_1 (extractStridedSlice S32 ![32] bhh slices_S96_S32_32))
def hb2 (bhh : Fl F S96) : Fl F S200000x32 :=
  broadcastInDim S200000x32 ![0, 1] bcast_S1x32_S200000x32_0_1 (broadcastInDim S1x32 ![1] bcast_S32_S1x32_1 (extractStridedSlice S32 ![64] bhh slices_S96_S32_64))

def gru (x : Fl F S200000x32) (Wih : Fl F S96x32) (bih bhh : Fl F S96) : Fl F S200000x32 :=
  mulf (subf ones32 (sig32 (addf (extractStridedSlice S200000x32 ![0, 32] (gates x Wih bih) slices_S200000x96_S200000x32_0_32) (hb1 bhh))))
    (Host.tanh (addf (extractStridedSlice S200000x32 ![0, 64] (gates x Wih bih) slices_S200000x96_S200000x32_0_64)
      (mulf (sig32 (addf (extractStridedSlice S200000x32 ![0, 0] (gates x Wih bih) slices_S200000x96_S200000x32_0_0) (hb0 bhh))) (hb2 bhh))))

def joined (h : Fl F S200000x32) (dI dR : Fl F S200000x1) : Fl F S200000x34 :=
  concatenate S200000x34 1 [⟨S200000x32, h⟩, ⟨S200000x1, dI⟩, ⟨S200000x1, dR⟩] concatenates_S200000x32_S200000x1_S200000x1_S200000x34_d1

def head8 (hc : Fl F S200000x34) (W : Fl F S8x34) (b : Fl F S8) : Fl F S200000x8 :=
  addf (Host.dotGeneral dot_S200000x34_S34x8_S200000x8_1_0_0_1_n_n none hc (transpose S34x8 [1, 0] W transposes_S8x34_S34x8_1_0))
    (broadcastInDim S200000x8 ![0, 1] bcast_S1x8_S200000x8_0_1 (broadcastInDim S1x8 ![1] bcast_S8_S1x8_1 b))

def pair (a b : Fl F S200000x8) : Fl F S200000x8x2 :=
  concatenate S200000x8x2 2 [⟨S200000x8x1, broadcastInDim S200000x8x1 ![0, 1] bcast_S200000x8_S200000x8x1_0_1 a⟩,
    ⟨S200000x8x1, broadcastInDim S200000x8x1 ![0, 1] bcast_S200000x8_S200000x8x1_0_1 b⟩] concatenates_S200000x8x1_S200000x8x1_S200000x8x2_d2

def pred (h : Fl F S200000x32) (dI dR : Fl F S200000x1) (WI : Fl F S8x34) (bI : Fl F S8) (WR : Fl F S8x34) (bR : Fl F S8) : Fl F S200000x8x2 :=
  pair (head8 (joined h dI dR) WI bI) (head8 (joined h dI dR) WR bR)

def ones1 : Fl F S200000 := broadcastInDim S200000 ![] bcast_S_S200000 (constant S_ .f32 0x3F800000#32)
def sig1 (y : Fl F S200000) : Fl F S200000 := Host.divf ones1 (addf ones1 (Host.exp (Host.negf y)))

def rates (hc : Fl F S200000x34) (Wsir : Fl F S2x34) (bsir : Fl F S2) : Fl F S200000x2 :=
  addf (Host.dotGeneral dot_S200000x34_S34x2_S200000x2_1_0_0_1_n_n none hc (transpose S34x2 [1, 0] Wsir transposes_S2x34_S34x2_1_0))
    (broadcastInDim S200000x2 ![0, 1] bcast_S1x2_S200000x2_0_1 (broadcastInDim S1x2 ![1] bcast_S2_S1x2_1 bsir))
def alpha (r : Fl F S200000x2) : Fl F S200000 :=
  sig1 (shapeCast S200000 (extractStridedSlice S200000x1 ![0, 0] r slices_S200000x2_S200000x1_0_0) shapeCasts_S200000x1_S200000)
def beta (r : Fl F S200000x2) : Fl F S200000 :=
  sig1 (shapeCast S200000 (extractStridedSlice S200000x1 ![0, 1] r slices_S200000x2_S200000x1_0_1) shapeCasts_S200000x1_S200000)

def popul (N : Fl F S50000x1) : Fl F S200000 :=
  shapeCast S200000 (shapeCast S200000x1 (broadcastInDim S4x50000x1x1 ![0, 1, 2, 3] bcast_S1x50000x1x1_S4x50000x1x1_0_1_2_3
    (shapeCast S1x50000x1x1 N shapeCasts_S50000x1_S1x50000x1x1)) shapeCasts_S4x50000x1x1_S200000x1) shapeCasts_S200000x1_S200000

def infected0 (st : Fl F S200000x2) : Fl F S200000 :=
  shapeCast S200000 (extractStridedSlice S200000x1 ![0, 0] st slices_S200000x2_S200000x1_0_0) shapeCasts_S200000x1_S200000
def recovered0 (st : Fl F S200000x2) : Fl F S200000 :=
  shapeCast S200000 (extractStridedSlice S200000x1 ![0, 1] st slices_S200000x2_S200000x1_0_1) shapeCasts_S200000x1_S200000

def newI (al be n : Fl F S200000) (s : Fl F S200000 × Fl F S200000) : Fl F S200000 :=
  subf (mulf (mulf al s.1) (Host.divf (subf (subf n s.1) s.2) n)) (mulf be s.1)
def newR (be : Fl F S200000) (s : Fl F S200000 × Fl F S200000) : Fl F S200000 := mulf be s.1

def counts (al be n i0 r0 : Fl F S200000) : Nat → Fl F S200000 × Fl F S200000
  | 0 => (i0, r0)
  | k + 1 => (addf (counts al be n i0 r0 k).1 (newI al be n (counts al be n i0 r0 k)),
              addf (counts al be n i0 r0 k).2 (newR be (counts al be n i0 r0 k)))

def col (x : Fl F S200000) : Fl F S200000x1 := broadcastInDim S200000x1 ![0] bcast_S200000_S200000x1_0 x

def cols8 (f : Nat → Fl F S200000) : Fl F S200000x8 :=
  concatenate S200000x8 1 [⟨S200000x1, col (f 0)⟩, ⟨S200000x1, col (f 1)⟩, ⟨S200000x1, col (f 2)⟩, ⟨S200000x1, col (f 3)⟩,
    ⟨S200000x1, col (f 4)⟩, ⟨S200000x1, col (f 5)⟩, ⟨S200000x1, col (f 6)⟩, ⟨S200000x1, col (f 7)⟩]
    concatenates_S200000x1_S200000x1_S200000x1_S200000x1_S200000x1_S200000x1_S200000x1_S200000x1_S200000x8_d1

def phy (h : Fl F S200000x32) (dI dR : Fl F S200000x1) (Wsir : Fl F S2x34) (bsir : Fl F S2) (st : Fl F S200000x2) (N : Fl F S50000x1) :
    Fl F S200000x8x2 :=
  pair (cols8 fun k => newI (alpha (rates (joined h dI dR) Wsir bsir)) (beta (rates (joined h dI dR) Wsir bsir)) (popul N)
          (counts (alpha (rates (joined h dI dR) Wsir bsir)) (beta (rates (joined h dI dR) Wsir bsir)) (popul N) (infected0 st) (recovered0 st) k))
       (cols8 fun k => newR (beta (rates (joined h dI dR) Wsir bsir))
          (counts (alpha (rates (joined h dI dR) Wsir bsir)) (beta (rates (joined h dI dR) Wsir bsir)) (popul N) (infected0 st) (recovered0 st) k))

def hidden (X : Fl F S4x16x50000x4) (A : In F S2x1600000) (W1 : Fl F S32x64) (b1 : Fl F S32) (aW1 : Fl F S1x64) (ab1 : Fl F S1)
    (W2 : Fl F S32x32) (b2 : Fl F S32) (aW2 : Fl F S1x64) (ab2 : Fl F S1) (Wih : Fl F S96x32) (bih bhh : Fl F S96) : Fl F S200000x32 :=
  gru (elu (layer (lin2 (elu (layer (lin1 (feats X) W1 b1) A aW1 ab1)) W2 b2) A aW2 ab2)) Wih bih bhh

end Cert.ReferenceIdeal.Stages

end
-- ==== Proof.LibNary5.lean ====
import Idealize.ShloMosaic.Lib.StableHlo.Run

namespace Idealize.ShloMosaic.StableHlo

variable {τ : Topo} {sig : RefSig} {Val : EltTy → Type} {x a b c d y : Ref sig .tc}

theorem nary5_result
    (f : ((k : Fin 5) → ((![x, a, b, c, d] : Fin 5 → Ref sig .tc) k).ty.Contents Val) → y.ty.Contents Val) (hxs hy)
    (G : Valuation τ sig Val) :
    (nary (τ := τ) ![x, a, b, c, d] y f hxs hy).result G (Proc.devRef .tc y)
      = f (Fin.cons (G (Proc.devRef .tc x)) (Fin.cons (G (Proc.devRef .tc a)) (Fin.cons (G (Proc.devRef .tc b))
          (Fin.cons (G (Proc.devRef .tc c)) (Fin.cons (G (Proc.devRef .tc d)) (fun i => i.elim0)))))) := by
  rw [nary_result]; congr 1; funext k; fin_cases k <;> rfl

theorem nary5_result'
    (f : ((k : Fin 5) → ((![x, a, b, c, d] : Fin 5 → Ref sig .tc) k).ty.Contents Val) → y.ty.Contents Val) (hxs hy)
    (G : Valuation τ sig Val) :
    (nary (τ := τ) ![x, a, b, c, d] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc d)) (fun i => i.elim0)))))) :=
  nary5_result f hxs hy G

end Idealize.ShloMosaic.StableHlo
-- ==== Proof.KI.KernelValueHost.lean ====
import proofs.«112250_j2224793059992_2_alg».proof.Proof.Gen.KernelIdeal.Launch
import proofs.«112250_j2224793059992_2_alg».proof.Proof.Stages
import proofs.«112250_j2224793059992_2_alg».proof.Proof.LibNary5
import Idealize.ShloMosaic.Lib.StableHlo.Run

noncomputable section

namespace Cert.KernelIdeal.KernelValue

open Cert.KernelIdeal Cert.KernelIdeal.Gen Idealize.ShloMosaic Idealize.ShloMosaic.TcCoe

variable {F : FTy → Type} [FloatOps F] (T : Valuation τ sig (Elt F))

theorem ops0_v7 : (StableHlo.after hostOps0 T (no_index (Proc.devRef .tc main_v7)) : Cert.ReferenceIdeal.Stages.Fl F S200000x64)
    = Cert.ReferenceIdeal.Stages.feats (T (Proc.devRef .tc main_arg0)) := by
  after_results
  rfl

theorem ops0_v12 : (StableHlo.after hostOps0 T (no_index (Proc.devRef .tc main_v12)) : Cert.ReferenceIdeal.Stages.Fl F S1x32)
    = shapeCast S1x32 (T (Proc.devRef .tc main_arg5) : Cert.ReferenceIdeal.Stages.Fl F S32) shapeCasts_S32_S1x32 := by
  after_results
  rfl

theorem ops0_v2 : (StableHlo.after hostOps0 T (no_index (Proc.devRef .tc main_v2)) : Cert.ReferenceIdeal.Stages.Fl F S200000x1)
    = Cert.ReferenceIdeal.Stages.lastDiffI (T (Proc.devRef .tc main_arg0)) := by
  after_results
  rfl
theorem ops0_v5 : (StableHlo.after hostOps0 T (no_index (Proc.devRef .tc main_v5)) : Cert.ReferenceIdeal.Stages.Fl F S200000x1)
    = Cert.ReferenceIdeal.Stages.lastDiffR (T (Proc.devRef .tc main_arg0)) := by
  after_results
  rfl

theorem ops0_v9 : (StableHlo.after hostOps0 T (no_index (Proc.devRef .tc main_v9)) : Cert.ReferenceIdeal.Stages.In F S1600000)
    = Cert.ReferenceIdeal.Stages.src (T (Proc.devRef .tc main_arg1)) := by
  after_results
  rfl
theorem ops0_v11 : (StableHlo.after hostOps0 T (no_index (Proc.devRef .tc main_v11)) : Cert.ReferenceIdeal.Stages.In F S1600000)
    = Cert.ReferenceIdeal.Stages.dst (T (Proc.devRef .tc main_arg1)) := by
  after_results
  rfl

theorem ops1_v20 : (StableHlo.after hostOps1 T (no_index (Proc.devRef .tc main_v20)) : Cert.ReferenceIdeal.Stages.Fl F S1600000x32)
    = Cert.ReferenceIdeal.Stages.rows (T (Proc.devRef .tc main_v13)) (T (Proc.devRef .tc main_v9)) := by
  after_results_simp
  rfl
theorem ops1_v27 : (StableHlo.after hostOps1 T (no_index (Proc.devRef .tc main_v27)) : Cert.ReferenceIdeal.Stages.Fl F S1600000x32)
    = Cert.ReferenceIdeal.Stages.rows (T (Proc.devRef .tc main_v13)) (T (Proc.devRef .tc main_v11)) := by
  after_results_simp
  rfl

theorem ops1_v28 : (StableHlo.after hostOps1 T (no_index (Proc.devRef .tc main_v28)) : Cert.ReferenceIdeal.Stages.Fl F S1x32)
    = extractStridedSlice S1x32 ![0, 0] (T (Proc.devRef .tc main_arg6) : Cert.ReferenceIdeal.Stages.Fl F S1x64) slices_S1x64_S1x32_0_0 := by
  after_results
theorem ops1_v29 : (StableHlo.after hostOps1 T (no_index (Proc.devRef .tc main_v29)) : Cert.ReferenceIdeal.Stages.Fl F S1x32)
    = extractStridedSlice S1x32 ![0, 32] (T (Proc.devRef .tc main_arg6) : Cert.ReferenceIdeal.Stages.Fl F S1x64) slices_S1x64_S1x32_0_32 := by
  after_results

theorem ops1_v30 : (StableHlo.after hostOps1 T (no_index (Proc.devRef .tc main_v30)) : Cert.ReferenceIdeal.Stages.Fl F S1x1)
    = shapeCast S1x1 (T (Proc.devRef .tc main_arg7) : Cert.ReferenceIdeal.Stages.Fl F S1) shapeCasts_S1_S1x1 := by
  after_results
  rfl

theorem ops2_v34 : (StableHlo.after hostOps2 T (no_index (Proc.devRef .tc main_v34)) : Cert.ReferenceIdeal.Stages.Fl F S200000x32)
    = Cert.ReferenceIdeal.Stages.agg (T (Proc.devRef .tc main_v31)) (T (Proc.devRef .tc main_v11)) := by
  after_results
  rfl
theorem ops2_v35 : (StableHlo.after hostOps2 T (no_index (Proc.devRef .tc main_v35)) : Cert.ReferenceIdeal.Stages.Fl F S1x32)
    = shapeCast S1x32 (T (Proc.devRef .tc main_arg9) : Cert.ReferenceIdeal.Stages.Fl F S32) shapeCasts_S32_S1x32 := by
  after_results
  rfl

theorem ops3_v43 : (StableHlo.after hostOps3 T (no_index (Proc.devRef .tc main_v43)) : Cert.ReferenceIdeal.Stages.Fl F S1600000x32)
    = Cert.ReferenceIdeal.Stages.rows (T (Proc.devRef .tc main_v36)) (T (Proc.devRef .tc main_v9)) := by
  after_results_simp
  rfl
theorem ops3_v50 : (StableHlo.after hostOps3 T (no_index (Proc.devRef .tc main_v50)) : Cert.ReferenceIdeal.Stages.Fl F S1600000x32)
    = Cert.ReferenceIdeal.Stages.rows (T (Proc.devRef .tc main_v36)) (T (Proc.devRef .tc main_v11)) := by
  after_results_simp
  rfl
theorem ops3_v51 : (StableHlo.after hostOps3 T (no_index (Proc.devRef .tc main_v51)) : Cert.ReferenceIdeal.Stages.Fl F S1x32)
    = extractStridedSlice S1x32 ![0, 0] (T (Proc.devRef .tc main_arg10) : Cert.ReferenceIdeal.Stages.Fl F S1x64) slices_S1x64_S1x32_0_0 := by
  after_results
theorem ops3_v52 : (StableHlo.after hostOps3 T (no_index (Proc.devRef .tc main_v52)) : Cert.ReferenceIdeal.Stages.Fl F S1x32)
    = extractStridedSlice S1x32 ![0, 32] (T (Proc.devRef .tc main_arg10) : Cert.ReferenceIdeal.Stages.Fl F S1x64) slices_S1x64_S1x32_0_32 := by
  after_results
theorem ops3_v53 : (StableHlo.after hostOps3 T (no_index (Proc.devRef .tc main_v53)) : Cert.ReferenceIdeal.Stages.Fl F S1x1)
    = shapeCast S1x1 (T (Proc.devRef .tc main_arg11) : Cert.ReferenceIdeal.Stages.Fl F S1) shapeCasts_S1_S1x1 := by
  after_results
  rfl

theorem ops4_v57 : (StableHlo.after hostOps4 T (no_index (Proc.devRef .tc main_v57)) : Cert.ReferenceIdeal.Stages.Fl F S200000x32)
    = Cert.ReferenceIdeal.Stages.agg (T (Proc.devRef .tc main_v54)) (T (Proc.devRef .tc main_v11)) := by
  after_results
  rfl
theorem ops4_v58 : (StableHlo.after hostOps4 T (no_index (Proc.devRef .tc main_v58)) : Cert.ReferenceIdeal.Stages.Fl F S1x96)
    = shapeCast S1x96 (T (Proc.devRef .tc main_arg14) : Cert.ReferenceIdeal.Stages.Fl F S96) shapeCasts_S96_S1x96 := by
  after_results
  rfl
theorem ops4_v59 : (StableHlo.after hostOps4 T (no_index (Proc.devRef .tc main_v59)) : Cert.ReferenceIdeal.Stages.Fl F S1x96)
    = shapeCast S1x96 (T (Proc.devRef .tc main_arg15) : Cert.ReferenceIdeal.Stages.Fl F S96) shapeCasts_S96_S1x96 := by
  after_results
  rfl

theorem ops5_v68 {dI dR : Cert.ReferenceIdeal.Stages.Fl F S200000x1} {st : Cert.ReferenceIdeal.Stages.Fl F S200000x2} {N : Cert.ReferenceIdeal.Stages.Fl F S50000x1}
    (h2 : T (Proc.devRef .tc main_v2) = dI) (h5 : T (Proc.devRef .tc main_v5) = dR) (hst : T (Proc.devRef .tc main_arg2) = st) (hN : T (Proc.devRef .tc main_arg3) = N) :
    (StableHlo.after hostOps5 T (no_index (Proc.devRef .tc main_v68)) : Cert.ReferenceIdeal.Stages.Fl F S200000x5)
    = concatenate S200000x5 1 [⟨S200000x1, dI⟩, ⟨S200000x1, dR⟩,
        ⟨S200000x1, extractStridedSlice S200000x1 ![0, 0] st slices_S200000x2_S200000x1_0_0⟩,
        ⟨S200000x1, extractStridedSlice S200000x1 ![0, 1] st slices_S200000x2_S200000x1_0_1⟩,
        ⟨S200000x1, broadcastInDim S200000x1 ![0] bcast_S200000_S200000x1_0 (shapeCast S200000 (broadcastInDim S4x50000 ![0, 1] bcast_S1x50000_S4x50000_0_1
          (shapeCast S1x50000 (shapeCast S50000 N shapeCasts_S50000x1_S50000) shapeCasts_S50000_S1x50000)) shapeCasts_S4x50000_S200000)⟩]
        concatenates_S200000x1_S200000x1_S200000x1_S200000x1_S200000x1_S200000x5_d1 := by
  subst h2 h5 hst hN
  simp only [StableHlo.after_cons, StableHlo.after_nil]
  iterate 3 (rw [StableHlo.reshape_result_ne]; rotate_left; decide)
  rw [StableHlo.nary5_result]
  repeat (first
    | rw [StableHlo.unary_result] | rw [StableHlo.reshape_result]
    | (rw [StableHlo.unary_result_ne]; rotate_left; decide)
    | (rw [StableHlo.reshape_result_ne]; rotate_left; decide))
  rfl

theorem ops5_v69 : (StableHlo.after hostOps5 T (no_index (Proc.devRef .tc main_v69)) : Cert.ReferenceIdeal.Stages.Fl F S1x8)
    = shapeCast S1x8 (T (Proc.devRef .tc main_arg17) : Cert.ReferenceIdeal.Stages.Fl F S8) shapeCasts_S8_S1x8 := by
  after_results
  rfl
theorem ops5_v70 : (StableHlo.after hostOps5 T (no_index (Proc.devRef .tc main_v70)) : Cert.ReferenceIdeal.Stages.Fl F S1x8)
    = shapeCast S1x8 (T (Proc.devRef .tc main_arg19) : Cert.ReferenceIdeal.Stages.Fl F S8) shapeCasts_S8_S1x8 := by
  after_results
  rfl
theorem ops5_v71 : (StableHlo.after hostOps5 T (no_index (Proc.devRef .tc main_v71)) : Cert.ReferenceIdeal.Stages.Fl F S1x2)
    = shapeCast S1x2 (T (Proc.devRef .tc main_arg21) : Cert.ReferenceIdeal.Stages.Fl F S2) shapeCasts_S2_S1x2 := by
  after_results
  rfl

/-- A region's result put in place leaves every other reference's contents. -/
theorem update_keep {V : Valuation τ sig (Elt F)} {y r : Ref sig .tc} {v : (Proc.devRef .tc y : DevRef τ sig).ty.Contents (Elt F)} (h : r ≠ y) :
    Function.update V (no_index (Proc.devRef .tc y)) v (no_index (Proc.devRef .tc r)) = V (Proc.devRef .tc r) :=
  Function.update_of_ne (StableHlo.devRef_ne_of_ne h) _ _

/-- A reference none of a line's operations writes keeps its contents across the line. -/
theorem keep_after {ops : List (HloOp τ sig (Elt F))} {Wl : List (Ref sig .tc)}
    (hW : ops.Forall fun op => op.writes ⊆ (Wl.map (Proc.devRef (τ := τ) .tc)).toFinset) {V : Valuation τ sig (Elt F)} {r : Ref sig .tc} (hr : r ∉ Wl) :
    StableHlo.after ops V (no_index (Proc.devRef .tc r)) = V (Proc.devRef .tc r) := StableHlo.after_of_writes_sub ops V hW hr

end Cert.KernelIdeal.KernelValue

end
-- ==== Proof.KI.ValueLib.lean ====
import Idealize.ShloMosaic.Lib.ValueIdx
import Idealize.ShloMosaic.Lib.Pipeline.Value
import Idealize.ShloMosaic.PureOps.Ideal.Laws

noncomputable section

namespace Cert.KernelIdeal.ValueLib

open Idealize.ShloMosaic Idealize.ShloMosaic.ValueIdx
open scoped BigOperators

variable {M K N : Nat} {φ₁ φ₂ : FTy}

-- An M×K by K×N product's contraction, summed over the one contracted coordinate.
theorem plain_sum (L : FVec Ideal ⟨2, ![M, K]⟩ φ₁) (R : FVec Ideal ⟨2, ![K, N]⟩ φ₂) (p : Fin M) (q : Fin N) :
    ∑ k : (DotDims.plain M K N).contr.Idx, L ((DotDims.plain M K N).lhsIdx (ix2 p q) k) * R ((DotDims.plain M K N).rhsIdx (ix2 p q) k)
      = ∑ κ : Fin K, L (ix2 p κ) * R (ix2 κ q) := by
  rw [← Equiv.sum_comp (contrEquiv1 (DotDims.plain M K N) K rfl rfl).symm]
  refine Finset.sum_congr rfl fun κ _ => ?_
  have hk := contrEquiv1_symm_val (DotDims.plain M K N) K rfl rfl κ
  have el : (DotDims.plain M K N).lhsIdx (ix2 p q) ((contrEquiv1 (DotDims.plain M K N) K rfl rfl).symm κ) = ix2 p κ :=
    funext fun a => Fin.ext (by
      match a with
      | ⟨0, _⟩ => rfl
      | ⟨1, _⟩ => exact hk)
  have er : (DotDims.plain M K N).rhsIdx (ix2 p q) ((contrEquiv1 (DotDims.plain M K N) K rfl rfl).symm κ) = ix2 κ q :=
    funext fun a => Fin.ext (by
      match a with
      | ⟨0, _⟩ => exact hk
      | ⟨1, _⟩ => rfl)
  rw [el, er]

theorem matmul_plain_apply (L : FVec Ideal ⟨2, ![M, K]⟩ φ₁) (R : FVec Ideal ⟨2, ![K, N]⟩ φ₂) (p : Fin M) (q : Fin N) :
    matmul (DotDims.plain M K N) none L R (constant ⟨2, ![M, N]⟩ .f32 0x00000000#32) (ix2 p q) = ∑ κ : Fin K, L (ix2 p κ) * R (ix2 κ q) := by
  simp only [matmul]
  rw [Ideal.matmul_constant_zero_apply]
  exact plain_sum L R p q

theorem dotGeneral_plain_apply (L : FVec Ideal ⟨2, ![M, K]⟩ φ₁) (R : FVec Ideal ⟨2, ![K, N]⟩ φ₂) (p : Fin M) (q : Fin N) :
    Host.dotGeneral (DotDims.plain M K N) none L R (ix2 p q) = ∑ κ : Fin K, L (ix2 p κ) * R (ix2 κ q) := by
  simp only [Host.dotGeneral]
  rw [Ideal.dotGeneral_apply]
  exact plain_sum L R p q

-- Rows cut into blocks of height `B 0`, every other axis whole: row `i 0` lies in block `i 0 / B 0`.
theorem rowBlock_cover {r N : Nat} {A B : Fin (r + 1) → Nat} (h0 : A 0 = N * B 0) (hA : ∀ a, a ≠ 0 → A a = B a)
    (idx : Fin N → Fin (r + 1) → Nat) (hi0 : ∀ t, idx t 0 = t.val) (hi : ∀ t a, a ≠ 0 → idx t a = 0)
    (i : (a : Fin (r + 1)) → Fin (A a)) :
    ∃ t : Fin N, ∀ a, idx t a * B a ≤ (i a).val ∧ (i a).val < idx t a * B a + B a := by
  have hlt : (i 0).val < N * B 0 := h0 ▸ (i 0).isLt
  have hB : 0 < B 0 := Nat.pos_of_ne_zero fun h => by rw [h, Nat.mul_zero] at hlt; exact Nat.not_lt_zero _ hlt
  refine ⟨⟨(i 0).val / B 0, Nat.div_lt_of_lt_mul (by rwa [Nat.mul_comm] at hlt)⟩, fun a => ?_⟩
  by_cases ha : a = 0
  · subst ha
    rw [hi0]
    exact ⟨Nat.div_mul_le_self _ _, Nat.lt_div_mul_add hB⟩
  · rw [hi _ a ha, Nat.zero_mul, Nat.zero_add]
    exact ⟨Nat.zero_le _, by rw [← hA a ha]; exact (i a).isLt⟩

theorem zeros3 : (![0, 0, 0] : Fin 3 → Nat) = fun _ => 0 := funext fun a => by fin_cases a <;> rfl
theorem zeros2 : (![0, 0] : Fin 2 → Nat) = fun _ => 0 := funext fun a => by fin_cases a <;> rfl

end Cert.KernelIdeal.ValueLib

end
-- ==== Proof.KI.Value0.lean ====
import proofs.«112250_j2224793059992_2_alg».proof.Proof.KI.Region0
import proofs.«112250_j2224793059992_2_alg».proof.Proof.Stages
import proofs.«112250_j2224793059992_2_alg».proof.Proof.KI.ValueLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value0

open Cert.KernelIdeal Cert.KernelIdeal.Gen Idealize.ShloMosaic Idealize.ShloMosaic.TcCoe
open Idealize.ShloMosaic.ValueIdx
open Idealize.ShloMosaic.Pipeline (Dat)
open scoped BigOperators

theorem prod_apply (L : FVec Ideal S10000x64 .bf16) (R : FVec Ideal S64x32 .bf16) (p : Fin 10000) (q : Fin 32) :
    matmul dot_S10000x64_S64x32_S10000x32_1_0_0_1_n_n none L R (constant S10000x32 .f32 0x00000000#32) (ix2 p q)
      = ∑ k : Fin 64, L (ix2 p k) * R (ix2 k q) := ValueLib.matmul_plain_apply L R p q

theorem stored_apply (X : Vec Ideal S10000x64 .f32) (Wb : Vec Ideal S32x64 .f32) (Bb : Vec Ideal S1x32 .f32) (p : Fin 10000) (q : Fin 32) :
    k0_pay1 (F := Ideal) X Wb Bb (ix2 p q) = (∑ k : Fin 64, X (ix2 p k) * Wb (ix2 q k)) + Bb (ix2 (0 : Fin 1) q) := by
  unfold k0_pay1
  dsimp only
  rw [addf_apply, prod_apply, shapeCast_self, shapeCast_self, broadcastTo_1b_ab_apply]
  refine congrArg (· + Bb (ix2 (0 : Fin 1) q)) (Finset.sum_congr rfl fun k _ => ?_)
  rw [transpose_ix2_apply]
  rfl

theorem hostProd_apply (L : FVec Ideal S200000x64 .f32) (R : FVec Ideal S64x32 .f32) (n : Fin 200000) (j : Fin 32) :
    Host.dotGeneral Cert.ReferenceIdeal.dot_S200000x64_S64x32_S200000x32_1_0_0_1_n_n none L R (ix2 n j)
      = ∑ k : Fin 64, L (ix2 n k) * R (ix2 k j) := ValueLib.dotGeneral_plain_apply L R n j

theorem biasRows_apply (h1 : S32.BroadcastsInDim S1x32 (![1] : Fin 1 → Fin S1x32.rank))
    (h2 : S1x32.BroadcastsInDim S200000x32 (![0, 1] : Fin 2 → Fin S200000x32.rank)) (b : S32.Idx → EReal) (n : Fin 200000) (j : Fin 32) :
    broadcastInDim S200000x32 ![0, 1] h2 (broadcastInDim S1x32 ![1] h1 b) (ix2 n j) = b (ix1 j) := by
  refine (broadcastInDim_apply _ h2 _ (ix2 n j) (ix2 (0 : Fin 1) j) fun a => ?_).trans
    (broadcastInDim_apply _ h1 b (ix2 (0 : Fin 1) j) (ix1 j) fun a => ?_)
  · match a with
    | ⟨0, _⟩ => rfl
    | ⟨1, _⟩ => rfl
  · match a with
    | ⟨0, _⟩ => rfl

theorem lin1_apply (x : Cert.ReferenceIdeal.Stages.Fl Ideal S200000x64) (W : Cert.ReferenceIdeal.Stages.Fl Ideal S32x64)
    (b : Cert.ReferenceIdeal.Stages.Fl Ideal S32) (n : Fin 200000) (j : Fin 32) :
    Cert.ReferenceIdeal.Stages.lin1 x W b (ix2 n j) = (∑ k : Fin 64, x (ix2 n k) * W (ix2 j k)) + b (ix1 j) := by
  unfold Cert.ReferenceIdeal.Stages.lin1
  rw [addf_apply, hostProd_apply, biasRows_apply]
  refine congrArg (· + b (ix1 j)) (Finset.sum_congr rfl fun k _ => ?_)
  rw [transpose_ix2_apply]

section Blocks

variable (V : (c : Dev nD) → (b : Ref sig .tc) → Buf (Elt Ideal) ((c : Thread nD τ).loc b))

theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

theorem featBlock_apply (c : Dev nD) (t : Fin cfg0.N) (p : Fin 10000) (k : Fin 64) (n : Fin 200000)
    (hn : n.val = t.val * 10000 + p.val) :
    (Region0.blk V c 0 t : Vec Ideal S10000x64 .f32) (ix2 p k) = (V c main_v7 : S200000x64.Idx → Elt Ideal .f32) (ix2 n k) := by
  obtain ⟨e0, e1, -⟩ := blockIdx t
  unfold Region0.blk
  rw [View.read_apply]
  show V c main_v7 _ = V c main_v7 _
  refine congrArg (V c main_v7) (funext fun a => Fin.ext ?_)
  match a with
  | ⟨0, _⟩ => show win0_0.index t (0 : Fin 2) * 10000 + 1 * p.val = n.val; omega
  | ⟨1, _⟩ => show win0_0.index t (1 : Fin 2) * 64 + 1 * k.val = k.val; omega

theorem weightBlock_apply (c : Dev nD) (t : Fin cfg0.N) (q : Fin 32) (k : Fin 64) :
    (Region0.blk V c 1 t : Vec Ideal S32x64 .f32) (ix2 q k) = (V c main_arg4 : S32x64.Idx → Elt Ideal .f32) (ix2 q k) := by
  obtain ⟨-, -, e2, e3, -⟩ := blockIdx t
  unfold Region0.blk
  rw [View.read_apply]
  show V c main_arg4 _ = V c main_arg4 _
  refine congrArg (V c main_arg4) (funext fun a => Fin.ext ?_)
  match a with
  | ⟨0, _⟩ => show win0_1.index t (0 : Fin 2) * 32 + 1 * q.val = q.val; omega
  | ⟨1, _⟩ => show win0_1.index t (1 : Fin 2) * 64 + 1 * k.val = k.val; omega

theorem biasBlock_apply (c : Dev nD) (t : Fin cfg0.N) (u : Fin 1) (q : Fin 32) :
    (Region0.blk V c 2 t : Vec Ideal S1x32 .f32) (ix2 u q) = (V c main_v12 : S1x32.Idx → Elt Ideal .f32) (ix2 u q) := by
  obtain ⟨-, -, -, -, e4, e5, -⟩ := blockIdx t
  unfold Region0.blk
  rw [View.read_apply]
  show V c main_v12 _ = V c main_v12 _
  refine congrArg (V c main_v12) (funext fun a => Fin.ext ?_)
  match a with
  | ⟨0, _⟩ => show win0_2.index t (0 : Fin 2) * 1 + 1 * u.val = u.val; omega
  | ⟨1, _⟩ => show win0_2.index t (1 : Fin 2) * 32 + 1 * q.val = q.val; omega

theorem stored_eq_lin1 (c : Dev nD) (x : Cert.ReferenceIdeal.Stages.Fl Ideal S200000x64) (W : Cert.ReferenceIdeal.Stages.Fl Ideal S32x64)
    (b : Cert.ReferenceIdeal.Stages.Fl Ideal S32) (hx : V c main_v7 = x) (hW : V c main_arg4 = W)
    (hb : V c main_v12 = shapeCast S1x32 b shapeCasts_S32_S1x32) (t : Fin cfg0.N) (p : Fin 10000) (q : Fin 32) (n : Fin 200000)
    (hn : n.val = t.val * 10000 + p.val) :
    k0_pay1 (F := Ideal) (Region0.blk V c 0 t) (Region0.blk V c 1 t) (Region0.blk V c 2 t) (ix2 p q)
      = Cert.ReferenceIdeal.Stages.lin1 x W b (ix2 n q) := by
  rw [lin1_apply]
  refine (stored_apply (Region0.blk V c 0 t) (Region0.blk V c 1 t) (Region0.blk V c 2 t) p q).trans ?_
  rw [biasBlock_apply V c t 0 q, hb, shapeCast_a_1a_apply]
  refine congrArg (· + b (ix1 q)) (Finset.sum_congr rfl fun k _ => ?_)
  rw [featBlock_apply V c t p k n hn, weightBlock_apply V c t q k, hx, hW]

theorem flushed_eq (c : Dev nD) (x : Cert.ReferenceIdeal.Stages.Fl Ideal S200000x64) (W : Cert.ReferenceIdeal.Stages.Fl Ideal S32x64)
    (b : Cert.ReferenceIdeal.Stages.Fl Ideal S32) (hx : V c main_v7 = x) (hW : V c main_arg4 = W)
    (hb : V c main_v12 = shapeCast S1x32 b shapeCasts_S32_S1x32) (t : Fin cfg0.N) :
    (Region0.data V c).flushed 3 t = ((cfg0.win 3).blk t).view.read (Elt Ideal) (Cert.ReferenceIdeal.Stages.lin1 x W b) := by
  show (cfg0.win 3).cut (cfg0.grid.coords t) ((Region0.data V c).after 3 t) = _
  rw [Region0.after_3]
  unfold Region0.zBlock
  rw [View.canon_unit_zero ValueLib.zeros2]
  simp only [View.ld_unit_zero (S := S10000x64) ValueLib.zeros2, View.ld_unit_zero (S := S32x64) ValueLib.zeros2, View.ld_unit_zero (S := S1x32) ValueLib.zeros2]
  obtain ⟨-, -, -, -, -, -, e6, e7, e8⟩ := blockIdx t
  funext y
  obtain ⟨p, q, rfl⟩ : ∃ (p : Fin 10000) (q : Fin 32), y = ix2 p q := ⟨y 0, y 1, eq_ix2 y⟩
  have hn : t.val * 10000 + p.val < 200000 := by have := p.isLt; omega
  have hemb : ((cfg0.win 3).blk t).view.emb (ix2 p q) = (ix2 (⟨t.val * 10000 + p.val, hn⟩ : Fin 200000) q : S200000x32.Idx) := by
    funext a; apply Fin.ext
    match a with
    | ⟨0, _⟩ => show win0_3.index t (0 : Fin 2) * 10000 + 1 * p.val = t.val * 10000 + p.val; omega
    | ⟨1, _⟩ => show win0_3.index t (1 : Fin 2) * 32 + 1 * q.val = q.val; omega
  rw [View.read_apply, hemb]
  exact stored_eq_lin1 V c x W b hx hW hb t p q ⟨t.val * 10000 + p.val, hn⟩ rfl

theorem mem_resultBlock (t : Fin cfg0.N) (i : S200000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v13).slice (win0_3.rect t)).set ↔ _
  rw [View.set_slice_whole, Rect.mem_set_unit]
  exact Iff.rfl

theorem covered (i : S200000x32.Idx) : ∃ t : Fin cfg0.N, (cfg0.win 3).flush t = true ∧ i ∈ ((cfg0.win 3).blk t).view.set := by
  obtain ⟨t, ht⟩ := ValueLib.rowBlock_cover (r := 1) (A := S200000x32.size) (B := S10000x32.size)
    ((show S200000x32.size 0 = 20 * S10000x32.size 0 from rfl).trans (by rw [N_0])) (by decide) win0_3.index
    (fun t => (blockIdx t).2.2.2.2.2.2.1) (fun t a ha => by
      match a with
      | ⟨0, _⟩ => exact absurd rfl ha
      | ⟨1, _⟩ => exact (blockIdx t).2.2.2.2.2.2.2.1) i
  exact ⟨t, flush0_3 t, (mem_resultBlock t i).mpr ht⟩

end Blocks

theorem value (V : (c : Dev nD) → (b : Ref sig .tc) → Buf (Elt Ideal) ((c : Thread nD τ).loc b)) (c : Dev nD)
    (x : Cert.ReferenceIdeal.Stages.Fl Ideal S200000x64) (W : Cert.ReferenceIdeal.Stages.Fl Ideal S32x64) (b : Cert.ReferenceIdeal.Stages.Fl Ideal S32)
    (hx : V c main_v7 = x) (hW : V c main_arg4 = W) (hb : V c main_v12 = shapeCast S1x32 b shapeCasts_S32_S1x32) :
    (Region0.data V c).arrAt 3 cfg0.N = Cert.ReferenceIdeal.Stages.lin1 x W b :=
  (Region0.data V c).arrAt_eq_of_cover 3 (Cert.ReferenceIdeal.Stages.lin1 x W b) (fun t _ => flushed_eq V c x W b hx hW hb t) covered

end Cert.KernelIdeal.Value0

end
-- ==== Proof.KI.ValueMsg.lean ====
import proofs.«112250_j2224793059992_2_alg».proof.KernelIdeal
import proofs.«112250_j2224793059992_2_alg».proof.Proof.Stages
import proofs.«112250_j2224793059992_2_alg».proof.Proof.KI.ValueLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValueMsg

open Cert.KernelIdeal Idealize.ShloMosaic Idealize.ShloMosaic.TcCoe
open Idealize.ShloMosaic.ValueIdx
open Idealize.ShloMosaic.Pipeline (Dat)
open scoped BigOperators

def rectify (e : EReal) : EReal :=
  Scalar.select (FloatOps.cmpf (F := Ideal) (φ := .f32) .oge e (Ideal.ofBits .f32 0x00000000#32)) e
    (Ideal.ofBits .f32 0x3C23D70A#32 * e)

theorem bcastCol_apply {a b : ℕ} (hb : b ≠ 1) (v : (⟨2, ![a, 1]⟩ : Shape).Idx → EReal) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem bcastOne_apply {a : ℕ} (v : (⟨2, ![1, 1]⟩ : Shape).Idx → EReal) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

theorem castCol_apply {a : ℕ} (v : (⟨1, ![a]⟩ : Shape).Idx → EReal) (h : (⟨1, ![a]⟩ : Shape).ShapeCasts ⟨2, ![a, 1]⟩)
    (p : Fin a) (z : Fin 1) : shapeCast ⟨2, ![a, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

theorem laneSum_apply (x : FVec Ideal S8000x32 .f32) (h : S8000x32.Reduces [1] S8000) (hφ : FKind.Formats .f32)
    (hacc : (0x00000000#32 : BitVec 32) = 0x00000000#32) (p : Fin 8000) :
    multiReduction .add [1] S8000 x 0x00000000#32 h hφ hacc (ix1 p) = ∑ k : Fin 32, x (ix2 p k) := by
  refine (Ideal.multiReduction_add_single x 0x00000000#32 h hφ hacc (ix1 p)).trans ?_
  refine Finset.sum_congr rfl fun k _ => congrArg x (funext fun a => Fin.ext ?_)
  match a with
  | ⟨0, _⟩ => rfl
  | ⟨1, _⟩ => rfl

theorem rectCol_apply (e : FVec Ideal S8000x1 .f32) (p : Fin 8000) (z : Fin 1) :
    select (cmpf .oge e (broadcast S8000x1 (Scalar.ofBits .f32 0x00000000#32))) e
      (mulf (broadcast S8000x1 (Scalar.ofBits .f32 0x3C23D70A#32)) e) (ix2 p z) = rectify (e (ix2 p z)) := rfl

theorem rowDot_apply (x : FVec Ideal S8000x32 .f32) (w : FVec Ideal S1x32 .f32) (hb : S1x32.Broadcasts S8000x32)
    (h : S8000x32.Reduces [1] S8000) (hφ : FKind.Formats .f32) (hacc : (0x00000000#32 : BitVec 32) = 0x00000000#32)
    (hc : S8000.ShapeCasts S8000x1) (p : Fin 8000) (z : Fin 1) :
    shapeCast S8000x1 (multiReduction .add [1] S8000 (mulf x (broadcastTo S8000x32 w hb)) 0x00000000#32 h hφ hacc) hc (ix2 p z)
      = ∑ k : Fin 32, x (ix2 p k) * w (ix2 (0 : Fin 1) k) := by
  refine (castCol_apply _ hc p z).trans ?_
  refine (laneSum_apply _ h hφ hacc p).trans ?_
  refine Finset.sum_congr rfl fun k _ => ?_
  refine (mulf_apply _ _ _).trans ?_
  exact congrArg (x (ix2 p k) * ·) (broadcastTo_1b_ab_apply w hb p k)

section Reference

theorem scoreDot_apply (l : FVec Ideal Cert.ReferenceIdeal.S1600000x64 .f32) (w : FVec Ideal Cert.ReferenceIdeal.S64x1 .f32)
    (r : Fin 1600000) (z : Fin 1) :
    Host.dotGeneral Cert.ReferenceIdeal.dot_S1600000x64_S64x1_S1600000x1_1_0_0_1_n_n none l w (ix2 r z)
      = ∑ k : Fin 64, l (ix2 r k) * w (ix2 k (0 : Fin 1)) :=
  (ValueLib.dotGeneral_plain_apply l w r z).trans (by rw [Subsingleton.elim z 0])

end Reference

section Reference

theorem sum_halves (f : Fin 64 → EReal) :
    ∑ k : Fin 64, f k = (∑ k : Fin 32, f ⟨k.val, by omega⟩) + ∑ k : Fin 32, f ⟨32 + k.val, by omega⟩ :=
  Fin.sum_univ_add (a := 32) (b := 32) f

theorem joined_left (zs zd : FVec Ideal Cert.ReferenceIdeal.S1600000x32 .f32)
    (h : Shape.Concatenates [Cert.ReferenceIdeal.S1600000x32, Cert.ReferenceIdeal.S1600000x32] Cert.ReferenceIdeal.S1600000x64 1)
    (r : Fin 1600000) (k : Fin 32) :
    concatenate Cert.ReferenceIdeal.S1600000x64 1 [⟨Cert.ReferenceIdeal.S1600000x32, zs⟩, ⟨Cert.ReferenceIdeal.S1600000x32, zd⟩] h
        (ix2 r (⟨k.val, by omega⟩ : Fin 64))
      = zs (ix2 r k) :=
  concatenate_pair_apply_left 1 zs zd h _ rfl (ix2 r k) (fun b => match b with | ⟨0, _⟩ => rfl | ⟨1, _⟩ => rfl)

theorem joined_right (zs zd : FVec Ideal Cert.ReferenceIdeal.S1600000x32 .f32)
    (h : Shape.Concatenates [Cert.ReferenceIdeal.S1600000x32, Cert.ReferenceIdeal.S1600000x32] Cert.ReferenceIdeal.S1600000x64 1)
    (r : Fin 1600000) (k : Fin 32) :
    concatenate Cert.ReferenceIdeal.S1600000x64 1 [⟨Cert.ReferenceIdeal.S1600000x32, zs⟩, ⟨Cert.ReferenceIdeal.S1600000x32, zd⟩] h
        (ix2 r (⟨32 + k.val, by omega⟩ : Fin 64))
      = zd (ix2 r k) :=
  concatenate_pair_apply_right 1 zs zd h _ rfl rfl (ix2 r k)
    (fun b hb => match b with | ⟨0, _⟩ => rfl | ⟨1, _⟩ => absurd rfl hb)
    (by show k.val + 32 = 32 + k.val; omega)

theorem bias_apply (ab : FVec Ideal Cert.ReferenceIdeal.S1 .f32)
    (h1 : Cert.ReferenceIdeal.S1.BroadcastsInDim Cert.ReferenceIdeal.S1x1 (![1] : Fin 1 → Fin Cert.ReferenceIdeal.S1x1.rank))
    (h2 : Cert.ReferenceIdeal.S1x1.BroadcastsInDim Cert.ReferenceIdeal.S1600000x1 (![0, 1] : Fin 2 → Fin Cert.ReferenceIdeal.S1600000x1.rank))
    (r : Fin 1600000) (z : Fin 1) :
    broadcastInDim Cert.ReferenceIdeal.S1600000x1 ![0, 1] h2 (broadcastInDim Cert.ReferenceIdeal.S1x1 ![1] h1 ab) (ix2 r z)
      = ab (ix1 (0 : Fin 1)) := by
  refine (broadcastInDim_apply _ _ _ (ix2 r z) (ix2 (0 : Fin 1) (0 : Fin 1))
    (fun a => match a with | ⟨0, _⟩ => rfl | ⟨1, _⟩ => rfl)).trans ?_
  exact broadcastInDim_apply _ _ ab (ix2 (0 : Fin 1) (0 : Fin 1)) (ix1 (0 : Fin 1)) (fun a => match a with | ⟨0, _⟩ => rfl)

theorem leaky_apply (x : FVec Ideal Cert.ReferenceIdeal.S1600000x1 .f32) (r : Fin 1600000) (z : Fin 1) :
    Cert.ReferenceIdeal.Stages.leaky (F := Ideal) x (constant (F := Ideal) Cert.ReferenceIdeal.S_ .f32 0x3C23D70A#32) (ix2 r z) = rectify (x (ix2 r z)) := rfl

theorem msg_apply (zs zd : Cert.ReferenceIdeal.Stages.Fl Ideal Cert.ReferenceIdeal.S1600000x32)
    (aW : Cert.ReferenceIdeal.Stages.Fl Ideal Cert.ReferenceIdeal.S1x64) (ab : Cert.ReferenceIdeal.Stages.Fl Ideal Cert.ReferenceIdeal.S1)
    (r : Fin 1600000) (q : Fin 32) :
    Cert.ReferenceIdeal.Stages.msg zs zd aW ab (ix2 r q)
      = zs (ix2 r q) * rectify ((∑ k : Fin 32, zs (ix2 r k) * aW (ix2 (0 : Fin 1) (⟨k.val, by omega⟩ : Fin 64)))
          + (∑ k : Fin 32, zd (ix2 r k) * aW (ix2 (0 : Fin 1) (⟨32 + k.val, by omega⟩ : Fin 64))) + ab (ix1 (0 : Fin 1))) := by
  unfold Cert.ReferenceIdeal.Stages.msg
  refine (mulf_apply _ _ _).trans ?_
  refine congrArg (zs (ix2 r q) * ·) ?_
  refine (broadcastInDim_apply _ _ _ (ix2 r q) (ix2 r (0 : Fin 1)) (fun a => match a with | ⟨0, _⟩ => rfl | ⟨1, _⟩ => rfl)).trans ?_
  refine (leaky_apply _ r 0).trans ?_
  refine congrArg rectify ?_
  unfold Cert.ReferenceIdeal.Stages.score
  refine (addf_apply _ _ _).trans ?_
  refine congrArg₂ (· + ·) ?_ (bias_apply ab _ _ r 0)
  refine (scoreDot_apply _ _ r 0).trans ?_
  refine (sum_halves _).trans ?_
  refine congrArg₂ (· + ·) (Finset.sum_congr rfl fun k _ => ?_) (Finset.sum_congr rfl fun k _ => ?_)
  · exact congrArg₂ (· * ·) (joined_left zs zd _ r k) (transpose_ix2_apply aW _ (⟨k.val, by omega⟩ : Fin 64) (0 : Fin 1))
  · exact congrArg₂ (· * ·) (joined_right zs zd _ r k) (transpose_ix2_apply aW _ (⟨32 + k.val, by omega⟩ : Fin 64) (0 : Fin 1))

end Reference

end Cert.KernelIdeal.ValueMsg

end
-- ==== Proof.KI.Value1.lean ====
import proofs.«112250_j2224793059992_2_alg».proof.Proof.KI.Region1
import proofs.«112250_j2224793059992_2_alg».proof.Proof.KI.ValueMsg
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value1

open Cert.KernelIdeal Cert.KernelIdeal.Gen Idealize.ShloMosaic Idealize.ShloMosaic.TcCoe
open Idealize.ShloMosaic.ValueIdx
open Idealize.ShloMosaic.Pipeline (Dat)
open scoped BigOperators
open Cert.KernelIdeal.ValueMsg

theorem pay_apply (x0 x2 : Vec Ideal S8000x32 .f32) (x4 x6 : Vec Ideal S1x32 .f32) (x17 : Vec Ideal S1x1 .f32)
    (p : Fin 8000) (q : Fin 32) :
    k1_pay1 x0 x2 x4 x6 x17 (ix2 p q)
      = x0 (ix2 p q) * rectify ((∑ k : Fin 32, x0 (ix2 p k) * x4 (ix2 (0 : Fin 1) k))
          + (∑ k : Fin 32, x2 (ix2 p k) * x6 (ix2 (0 : Fin 1) k)) + x17 (ix2 (0 : Fin 1) (0 : Fin 1))) := by
  unfold k1_pay1
  simp only [shapeCast_self]
  refine (mulf_apply _ _ _).trans ?_
  refine congrArg (x0 (ix2 p q) * ·) ?_
  refine (bcastCol_apply (by decide) _ _ p q).trans ?_
  refine (rectCol_apply _ p 0).trans ?_
  refine congrArg rectify ?_
  refine (addf_apply _ _ _).trans ?_
  refine congrArg₂ (· + ·) ((addf_apply _ _ _).trans (congrArg₂ (· + ·) ?_ ?_)) (bcastOne_apply _ _ p 0)
  · exact rowDot_apply x0 x4 _ _ _ _ _ p 0
  · exact rowDot_apply x2 x6 _ _ _ _ _ p 0

section Blocks

variable (V : (c : Dev nD) → (b : Ref sig .tc) → Buf (Elt Ideal) ((c : Thread nD τ).loc b)) (c : Dev nD)

theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem srcBlock_apply (t : Fin cfg1.N) (x : S8000x32.Idx) (k : S1600000x32.Idx)
    (hk0 : (k 0).val = 8000 * t.val + (x 0).val) (hk1 : (k 1).val = (x 1).val) :
    (Region1.blk V c 0 t : Vec Ideal S8000x32 .f32) x = (V c main_v20 : S1600000x32.Idx → Elt Ideal .f32) k := by
  obtain ⟨e0, e1, -⟩ := blockIndex t
  unfold Region1.blk
  rw [View.read_apply]
  show V c main_v20 _ = V c main_v20 _
  refine congrArg (V c main_v20) (funext fun a => Fin.ext ?_)
  match a with
  | ⟨0, _⟩ => show win1_0.index t (0 : Fin 2) * 8000 + 1 * (x 0).val = (k 0).val; rw [e0, hk0]; omega
  | ⟨1, _⟩ => show win1_0.index t (1 : Fin 2) * 32 + 1 * (x 1).val = (k 1).val; rw [e1, hk1]; omega

theorem dstBlock_apply (t : Fin cfg1.N) (x : S8000x32.Idx) (k : S1600000x32.Idx)
    (hk0 : (k 0).val = 8000 * t.val + (x 0).val) (hk1 : (k 1).val = (x 1).val) :
    (Region1.blk V c 1 t : Vec Ideal S8000x32 .f32) x = (V c main_v27 : S1600000x32.Idx → Elt Ideal .f32) k := by
  obtain ⟨-, -, e0, e1, -⟩ := blockIndex t
  unfold Region1.blk
  rw [View.read_apply]
  show V c main_v27 _ = V c main_v27 _
  refine congrArg (V c main_v27) (funext fun a => Fin.ext ?_)
  match a with
  | ⟨0, _⟩ => show win1_1.index t (0 : Fin 2) * 8000 + 1 * (x 0).val = (k 0).val; rw [e0, hk0]; omega
  | ⟨1, _⟩ => show win1_1.index t (1 : Fin 2) * 32 + 1 * (x 1).val = (k 1).val; rw [e1, hk1]; omega

theorem w1Block_apply (t : Fin cfg1.N) (x : S1x32.Idx) :
    (Region1.blk V c 2 t : Vec Ideal S1x32 .f32) x = (V c main_v28 : S1x32.Idx → Elt Ideal .f32) x := by
  obtain ⟨-, -, -, -, e0, e1, -⟩ := blockIndex t
  unfold Region1.blk
  rw [View.read_apply]
  show V c main_v28 _ = V c main_v28 _
  refine congrArg (V c main_v28) (funext fun a => Fin.ext ?_)
  match a with
  | ⟨0, _⟩ => show win1_2.index t (0 : Fin 2) * 1 + 1 * (x 0).val = (x 0).val; rw [e0]; omega
  | ⟨1, _⟩ => show win1_2.index t (1 : Fin 2) * 32 + 1 * (x 1).val = (x 1).val; rw [e1]; omega

theorem w2Block_apply (t : Fin cfg1.N) (x : S1x32.Idx) :
    (Region1.blk V c 3 t : Vec Ideal S1x32 .f32) x = (V c main_v29 : S1x32.Idx → Elt Ideal .f32) x := by
  obtain ⟨-, -, -, -, -, -, e0, e1, -⟩ := blockIndex t
  unfold Region1.blk
  rw [View.read_apply]
  show V c main_v29 _ = V c main_v29 _
  refine congrArg (V c main_v29) (funext fun a => Fin.ext ?_)
  match a with
  | ⟨0, _⟩ => show win1_3.index t (0 : Fin 2) * 1 + 1 * (x 0).val = (x 0).val; rw [e0]; omega
  | ⟨1, _⟩ => show win1_3.index t (1 : Fin 2) * 32 + 1 * (x 1).val = (x 1).val; rw [e1]; omega

theorem biasBlock_apply (t : Fin cfg1.N) (x : S1x1.Idx) :
    (Region1.blk V c 4 t : Vec Ideal S1x1 .f32) x = (V c main_v30 : S1x1.Idx → Elt Ideal .f32) x := by
  obtain ⟨-, -, -, -, -, -, -, -, e0, e1, -⟩ := blockIndex t
  unfold Region1.blk
  rw [View.read_apply]
  show V c main_v30 _ = V c main_v30 _
  refine congrArg (V c main_v30) (funext fun a => Fin.ext ?_)
  match a with
  | ⟨0, _⟩ => show win1_4.index t (0 : Fin 2) * 1 + 1 * (x 0).val = (x 0).val; rw [e0]; omega
  | ⟨1, _⟩ => show win1_4.index t (1 : Fin 2) * 1 + 1 * (x 1).val = (x 1).val; rw [e1]; omega

end Blocks

section Final

variable (V : (c : Dev nD) → (b : Ref sig .tc) → Buf (Elt Ideal) ((c : Thread nD τ).loc b)) (c : Dev nD)

theorem flushed_eq (zs zd : Cert.ReferenceIdeal.Stages.Fl Ideal S1600000x32) (aW : Cert.ReferenceIdeal.Stages.Fl Ideal S1x64)
    (ab : Cert.ReferenceIdeal.Stages.Fl Ideal S1)
    (hs : V c main_v20 = zs) (hd : V c main_v27 = zd)
    (h2 : V c main_v28 = extractStridedSlice S1x32 ![0, 0] aW slices_S1x64_S1x32_0_0)
    (h3 : V c main_v29 = extractStridedSlice S1x32 ![0, 32] aW slices_S1x64_S1x32_0_32)
    (h4 : V c main_v30 = shapeCast S1x1 ab shapeCasts_S1_S1x1) (t : Fin cfg1.N) :
    (Region1.data V c).flushed 5 t
      = ((cfg1.win 5).blk t).view.read (Elt Ideal) (Cert.ReferenceIdeal.Stages.msg zs zd aW ab) := by
  show (cfg1.win 5).cut (cfg1.grid.coords t) ((Region1.data V c).after 5 t) = _
  rw [Region1.after_5]
  unfold Region1.msgBlock
  rw [View.canon_unit_zero ValueLib.zeros2]
  simp only [View.ld_unit_zero (S := S8000x32) ValueLib.zeros2, View.ld_unit_zero (S := S1x32) ValueLib.zeros2,
    View.ld_unit_zero (S := S1x1) ValueLib.zeros2]
  obtain ⟨-, -, -, -, -, -, -, -, -, -, e0, e1⟩ := blockIndex t
  have hN : cfg1.N = 200 := N_1
  funext j
  obtain ⟨p, q, rfl⟩ : ∃ (p : Fin 8000) (q : Fin 32), j = ix2 p q := ⟨j 0, j 1, eq_ix2 j⟩
  have hr : 8000 * t.val + p.val < 1600000 := by have := t.isLt; omega
  have hemb : ((cfg1.win 5).blk t).view.emb (ix2 p q) = ix2 (⟨8000 * t.val + p.val, hr⟩ : Fin 1600000) q := by
    funext a; apply Fin.ext
    match a with
    | ⟨0, _⟩ => show win1_5.index t (0 : Fin 2) * 8000 + 1 * p.val = 8000 * t.val + p.val; rw [e0]; omega
    | ⟨1, _⟩ => show win1_5.index t (1 : Fin 2) * 32 + 1 * q.val = q.val; rw [e1]; omega
  show k1_pay1 (Region1.blk V c 0 t) (Region1.blk V c 1 t) (Region1.blk V c 2 t) (Region1.blk V c 3 t) (Region1.blk V c 4 t) (ix2 p q)
      = Cert.ReferenceIdeal.Stages.msg zs zd aW ab (((cfg1.win 5).blk t).view.emb (ix2 p q))
  rw [hemb]
  refine (pay_apply (Region1.blk V c 0 t) (Region1.blk V c 1 t) (Region1.blk V c 2 t) (Region1.blk V c 3 t) (Region1.blk V c 4 t) p q).trans ?_
  refine Eq.trans ?_ (msg_apply zs zd aW ab ⟨8000 * t.val + p.val, hr⟩ q).symm
  have es : ∀ k : Fin 32, (Region1.blk V c 0 t : Vec Ideal S8000x32 .f32) (ix2 p k) = zs (ix2 (⟨8000 * t.val + p.val, hr⟩ : Fin 1600000) k) :=
    fun k => (srcBlock_apply V c t (ix2 p k) (ix2 (⟨8000 * t.val + p.val, hr⟩ : Fin 1600000) k) rfl rfl).trans (congrFun hs _)
  have ed : ∀ k : Fin 32, (Region1.blk V c 1 t : Vec Ideal S8000x32 .f32) (ix2 p k) = zd (ix2 (⟨8000 * t.val + p.val, hr⟩ : Fin 1600000) k) :=
    fun k => (dstBlock_apply V c t (ix2 p k) (ix2 (⟨8000 * t.val + p.val, hr⟩ : Fin 1600000) k) rfl rfl).trans (congrFun hd _)
  have e2 : ∀ k : Fin 32, (Region1.blk V c 2 t : Vec Ideal S1x32 .f32) (ix2 (0 : Fin 1) k) = aW (ix2 (0 : Fin 1) (⟨k.val, by omega⟩ : Fin 64)) :=
    fun k => (w1Block_apply V c t (ix2 (0 : Fin 1) k)).trans ((congrFun h2 _).trans
      (slice2_axis1_apply 0 aW slices_S1x64_S1x32_0_0 (0 : Fin 1) k (⟨k.val, by omega⟩ : Fin 64) (Nat.zero_add _).symm))
  have e3 : ∀ k : Fin 32, (Region1.blk V c 3 t : Vec Ideal S1x32 .f32) (ix2 (0 : Fin 1) k) = aW (ix2 (0 : Fin 1) (⟨32 + k.val, by omega⟩ : Fin 64)) :=
    fun k => (w2Block_apply V c t (ix2 (0 : Fin 1) k)).trans ((congrFun h3 _).trans
      (slice2_axis1_apply 32 aW slices_S1x64_S1x32_0_32 (0 : Fin 1) k (⟨32 + k.val, by omega⟩ : Fin 64) rfl))
  have e4 : (Region1.blk V c 4 t : Vec Ideal S1x1 .f32) (ix2 (0 : Fin 1) (0 : Fin 1)) = ab (ix1 (0 : Fin 1)) :=
    (biasBlock_apply V c t (ix2 (0 : Fin 1) (0 : Fin 1))).trans ((congrFun h4 _).trans
      (shapeCast_a_1a_apply ab shapeCasts_S1_S1x1 (0 : Fin 1) (0 : Fin 1)))
  exact congrArg₂ (· * ·) (es q) (congrArg rectify (congrArg₂ (· + ·) (congrArg₂ (· + ·)
    (Finset.sum_congr rfl fun k _ => congrArg₂ (· * ·) (es k) (e2 k))
    (Finset.sum_congr rfl fun k _ => congrArg₂ (· * ·) (ed k) (e3 k))) e4))

theorem mem_resultBlock (t : Fin cfg1.N) (i : S1600000x32.Idx) :
    i ∈ ((cfg1.win 5).blk t).view.set ↔ ∀ a : Fin 2, win1_5.index t a * S8000x32.size a ≤ (i a).val
      ∧ (i a).val < win1_5.index t a * S8000x32.size a + S8000x32.size a := by
  show i ∈ ((View.whole main_v31).slice (win1_5.rect t)).set ↔ _
  rw [View.set_slice_whole, Rect.mem_set_unit]
  exact Iff.rfl

theorem covered (i : S1600000x32.Idx) :
    ∃ t : Fin cfg1.N, (cfg1.win 5).flush t = true ∧ i ∈ ((cfg1.win 5).blk t).view.set := by
  obtain ⟨t, ht⟩ := ValueLib.rowBlock_cover (r := 1) (A := S1600000x32.size) (B := S8000x32.size)
    ((show S1600000x32.size 0 = 200 * S8000x32.size 0 from rfl).trans (by rw [N_1])) (by decide) win1_5.index
    (fun t => (blockIndex t).2.2.2.2.2.2.2.2.2.2.1) (fun t a ha => by
      match a with
      | ⟨0, _⟩ => exact absurd rfl ha
      | ⟨1, _⟩ => exact (blockIndex t).2.2.2.2.2.2.2.2.2.2.2) i
  exact ⟨t, flush1_5 t, (mem_resultBlock t i).mpr ht⟩

end Final

theorem value (V : (c : Dev nD) → (b : Ref sig .tc) → Buf (Elt Ideal) ((c : Thread nD τ).loc b)) (c : Dev nD)
    (zs zd : Cert.ReferenceIdeal.Stages.Fl Ideal S1600000x32) (aW : Cert.ReferenceIdeal.Stages.Fl Ideal S1x64) (ab : Cert.ReferenceIdeal.Stages.Fl Ideal S1)
    (hs : V c main_v20 = zs) (hd : V c main_v27 = zd)
    (h2 : V c main_v28 = extractStridedSlice S1x32 ![0, 0] aW slices_S1x64_S1x32_0_0)
    (h3 : V c main_v29 = extractStridedSlice S1x32 ![0, 32] aW slices_S1x64_S1x32_0_32)
    (h4 : V c main_v30 = shapeCast S1x1 ab shapeCasts_S1_S1x1) :
    (Region1.data V c).arrAt 5 cfg1.N = Cert.ReferenceIdeal.Stages.msg zs zd aW ab :=
  (Region1.data V c).arrAt_eq_of_cover 5 (Cert.ReferenceIdeal.Stages.msg zs zd aW ab)
    (fun t _ => flushed_eq V c zs zd aW ab hs hd h2 h3 h4 t) covered

end Cert.KernelIdeal.Value1

end
-- ==== Proof.KI.Value2.lean ====
import proofs.«112250_j2224793059992_2_alg».proof.Proof.KI.Region2
import proofs.«112250_j2224793059992_2_alg».proof.Proof.Stages
import proofs.«112250_j2224793059992_2_alg».proof.Proof.KI.ValueLib
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Value2

open Cert.KernelIdeal Cert.KernelIdeal.Gen Idealize.ShloMosaic Idealize.ShloMosaic.TcCoe
open Idealize.ShloMosaic.ValueIdx
open Idealize.ShloMosaic.Pipeline (Dat)

def eluAt (x : EReal) : EReal := if 0 < x then x else Ideal.exp x - 1

theorem select_ogt {α : Type} (x y : EReal) (a b : α) :
    Scalar.select (Ideal.cmp .ogt x y) a b = if y < x then a else b := by
  unfold Scalar.select Ideal.cmp
  by_cases h : y < x <;> simp [h]

theorem matmul_at (l : FVec Ideal S10000x32 .bf16) (r : FVec Ideal S32x32 .bf16) (p : Fin 10000) (q : Fin 32) :
    matmul dot_S10000x32_S32x32_S10000x32_1_0_0_1_n_n none l r (constant S10000x32 .f32 0x00000000#32) (ix2 p q)
      = ∑ k : Fin 32, l (ix2 p k) * r (ix2 k q) := ValueLib.matmul_plain_apply l r p q

theorem pay_at (x : Vec Ideal S10000x32 .f32) (w : Vec Ideal S32x32 .f32) (bb : Vec Ideal S1x32 .f32) (p : Fin 10000) (q : Fin 32) :
    k2_pay1 x w bb (ix2 p q) = (∑ k : Fin 32, eluAt (x (ix2 p k)) * w (ix2 q k)) + bb (ix2 (0 : Fin 1) q) := by
  unfold k2_pay1
  refine (addf_apply _ _ (ix2 p q)).trans ?_
  refine congrArg₂ (· + ·) ?_ ?_
  · refine (matmul_at _ _ p q).trans ?_
    refine Finset.sum_congr rfl fun k _ => ?_
    refine congrArg₂ (· * ·) ?_ ?_
    · rw [shapeCast_self]
      show Scalar.select (Ideal.cmp .ogt (x (ix2 p k)) (Ideal.ofBits .f32 0x00000000#32)) (x (ix2 p k))
          (Ideal.exp (x (ix2 p k)) - Ideal.ofBits .f32 0x3F800000#32) = _
      rw [select_ogt, Ideal.ofBits_zero_f32, Ideal.ofBits_one_f32]
      rfl
    · exact transpose_ix2_apply _ _ k q
  · refine (broadcastTo_1b_ab_apply _ _ p q).trans ?_
    rw [shapeCast_self]

theorem elu_at (h : Cert.ReferenceIdeal.Stages.Fl Ideal S200000x32) (i : S200000x32.Idx) :
    Cert.ReferenceIdeal.Stages.elu h i = eluAt (h i) := by
  show Scalar.select (Ideal.cmp .ogt (h i) (Ideal.ofBits .f32 0x00000000#32)) (h i)
      (Ideal.ofBits .f32 0x3F800000#32 * (Ideal.exp (Scalar.select (Ideal.cmp .ogt (h i) (Ideal.ofBits .f32 0x00000000#32))
        (Ideal.ofBits .f32 0x00000000#32) (h i)) - 1)) = _
  rw [select_ogt, select_ogt, Ideal.ofBits_zero_f32, Ideal.ofBits_one_f32]
  unfold eluAt
  by_cases hp : (0 : EReal) < h i
  · rw [if_pos hp, if_pos hp]
  · rw [if_neg hp, if_neg hp, if_neg hp, one_mul]

theorem dot_at (l : FVec Ideal S200000x32 .f32) (r : FVec Ideal S32x32 .f32) (n : Fin 200000) (j : Fin 32) :
    Host.dotGeneral Cert.ReferenceIdeal.dot_S200000x32_S32x32_S200000x32_1_0_0_1_n_n none l r (ix2 n j)
      = ∑ k : Fin 32, l (ix2 n k) * r (ix2 k j) := ValueLib.dotGeneral_plain_apply l r n j

theorem biasRow_at (b : Cert.ReferenceIdeal.Stages.Fl Ideal S32) (j : Fin 32) :
    broadcastInDim S1x32 ![1] Cert.ReferenceIdeal.Gen.bcast_S32_S1x32_1 b (ix2 (0 : Fin 1) j) = b (ix1 j) := by
  refine broadcastInDim_apply ![1] Cert.ReferenceIdeal.Gen.bcast_S32_S1x32_1 b (ix2 (0 : Fin 1) j) (ix1 j) fun a => ?_
  match a with
  | ⟨0, _⟩ => rfl

theorem lin2_at (x : Cert.ReferenceIdeal.Stages.Fl Ideal S200000x32) (W : Cert.ReferenceIdeal.Stages.Fl Ideal S32x32)
    (b : Cert.ReferenceIdeal.Stages.Fl Ideal S32) (n : Fin 200000) (j : Fin 32) :
    Cert.ReferenceIdeal.Stages.lin2 x W b (ix2 n j) = (∑ k : Fin 32, x (ix2 n k) * W (ix2 j k)) + b (ix1 j) := by
  unfold Cert.ReferenceIdeal.Stages.lin2
  refine (addf_apply _ _ (ix2 n j)).trans ?_
  refine congrArg₂ (· + ·) ?_ ?_
  · refine (dot_at _ _ n j).trans ?_
    refine Finset.sum_congr rfl fun k _ => ?_
    exact congrArg (x (ix2 n k) * ·) (transpose_ix2_apply _ _ k j)
  · refine (broadcastInDim_oneRow_apply _ _ n j).trans ?_
    exact biasRow_at b j

def projAt (h : Vec Ideal S200000x32 .f32) (w : Vec Ideal S32x32 .f32) (bb : Vec Ideal S1x32 .f32) (n : Fin 200000) (j : Fin 32) : EReal :=
  (∑ k : Fin 32, eluAt (h (ix2 n k)) * w (ix2 j k)) + bb (ix2 (0 : Fin 1) j)

def proj (h : Vec Ideal S200000x32 .f32) (w : Vec Ideal S32x32 .f32) (bb : Vec Ideal S1x32 .f32) : S200000x32.Idx → Elt Ideal .f32 :=
  fun i => projAt h w bb (i 0) (i 1)

theorem proj_apply (h : Vec Ideal S200000x32 .f32) (w : Vec Ideal S32x32 .f32) (bb : Vec Ideal S1x32 .f32) (i : S200000x32.Idx) :
    proj h w bb i = (∑ k : Fin 32, eluAt (h (ix2 (i 0) k)) * w (ix2 (i 1) k)) + bb (ix2 (0 : Fin 1) (i 1)) := rfl

theorem proj_eq_lin2 (h : Cert.ReferenceIdeal.Stages.Fl Ideal S200000x32) (W : Cert.ReferenceIdeal.Stages.Fl Ideal S32x32)
    (b : Cert.ReferenceIdeal.Stages.Fl Ideal S32) :
    proj h W (shapeCast S1x32 b shapeCasts_S32_S1x32)
      = Cert.ReferenceIdeal.Stages.lin2 (Cert.ReferenceIdeal.Stages.elu h) W b := by
  refine funext fun (i : S200000x32.Idx) => ?_
  obtain ⟨n, j, rfl⟩ : ∃ (n : Fin 200000) (j : Fin 32), i = ix2 n j := ⟨i 0, i 1, eq_ix2 i⟩
  refine Eq.trans ?_ (lin2_at (Cert.ReferenceIdeal.Stages.elu h) W b n j).symm
  refine (proj_apply h W (shapeCast S1x32 b shapeCasts_S32_S1x32) (ix2 n j)).trans ?_
  refine congrArg₂ (· + ·) (Finset.sum_congr rfl fun k _ => ?_) ?_
  · rw [elu_at]
  · exact shapeCast_a_1a_apply b shapeCasts_S32_S1x32 0 j

section
variable (V : (c : Dev nD) → (b : Ref sig .tc) → Buf (Elt Ideal) ((c : Thread nD τ).loc b)) (c : Dev nD)

abbrev aggBlk (t : Fin cfg2.N) : Vec Ideal S10000x32 .f32 := Region2.blk V c 0 t
abbrev wBlk (t : Fin cfg2.N) : Vec Ideal S32x32 .f32 := Region2.blk V c 1 t
abbrev biasBlk (t : Fin cfg2.N) : Vec Ideal S1x32 .f32 := Region2.blk V c 2 t

theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem aggBlock_at (t : Fin cfg2.N) (p : Fin 10000) (k : Fin 32) (i : S200000x32.Idx)
    (h0 : (i 0).val = t.val * 10000 + p.val) (h1 : (i 1).val = k.val) :
    aggBlk V c t (ix2 p k) = (V c main_v34 : S200000x32.Idx → Elt Ideal .f32) i := by
  obtain ⟨e0, e1, -⟩ := blockIndices t
  unfold aggBlk Region2.blk
  rw [View.read_apply]
  show V c main_v34 _ = V c main_v34 _
  congr 1
  funext a
  apply Fin.ext
  match a with
  | ⟨0, _⟩ => show win2_0.index t (0 : Fin 2) * 10000 + 1 * p.val = (i 0).val; rw [e0, h0]; omega
  | ⟨1, _⟩ => show win2_0.index t (1 : Fin 2) * 32 + 1 * k.val = (i 1).val; rw [e1, h1]; omega

theorem wBlock_at (t : Fin cfg2.N) (j k : Fin 32) (i : S32x32.Idx) (h0 : (i 0).val = j.val) (h1 : (i 1).val = k.val) :
    wBlk V c t (ix2 j k) = (V c main_arg8 : S32x32.Idx → Elt Ideal .f32) i := by
  obtain ⟨-, -, e2, e3, -⟩ := blockIndices t
  unfold wBlk Region2.blk
  rw [View.read_apply]
  show V c main_arg8 _ = V c main_arg8 _
  congr 1
  funext a
  apply Fin.ext
  match a with
  | ⟨0, _⟩ => show win2_1.index t (0 : Fin 2) * 32 + 1 * j.val = (i 0).val; rw [e2, h0]; omega
  | ⟨1, _⟩ => show win2_1.index t (1 : Fin 2) * 32 + 1 * k.val = (i 1).val; rw [e3, h1]; omega

theorem biasBlock_at (t : Fin cfg2.N) (j : Fin 32) (i : S1x32.Idx) (h1 : (i 1).val = j.val) :
    biasBlk V c t (ix2 (0 : Fin 1) j) = (V c main_v35 : S1x32.Idx → Elt Ideal .f32) i := by
  obtain ⟨-, -, -, -, e4, e5, -⟩ := blockIndices t
  have h0 : (i 0).val < 1 := idx2_lt0 i
  unfold biasBlk Region2.blk
  rw [View.read_apply]
  show V c main_v35 _ = V c main_v35 _
  congr 1
  funext a
  apply Fin.ext
  match a with
  | ⟨0, _⟩ => show win2_2.index t (0 : Fin 2) * 1 + 1 * 0 = (i 0).val; rw [e4]; omega
  | ⟨1, _⟩ => show win2_2.index t (1 : Fin 2) * 32 + 1 * j.val = (i 1).val; rw [e5, h1]; omega

theorem outRow (t : Fin cfg2.N) (p : Fin 10000) (q : Fin 32) :
    ((((cfg2.win 3).blk t).view.emb (ix2 p q) : S200000x32.Idx) 0).val = t.val * 10000 + p.val := by
  obtain ⟨-, -, -, -, -, -, e6, -⟩ := blockIndices t
  show win2_3.index t (0 : Fin 2) * 10000 + 1 * p.val = _
  rw [e6]; omega

theorem outCol (t : Fin cfg2.N) (p : Fin 10000) (q : Fin 32) :
    ((((cfg2.win 3).blk t).view.emb (ix2 p q) : S200000x32.Idx) 1).val = q.val := by
  obtain ⟨-, -, -, -, -, -, -, e7⟩ := blockIndices t
  show win2_3.index t (1 : Fin 2) * 32 + 1 * q.val = _
  rw [e7]; omega

theorem read_outBlock (G : S200000x32.Idx → Elt Ideal .f32) (t : Fin cfg2.N) (y : S10000x32.Idx) :
    ((cfg2.win 3).blk t).view.read (Elt Ideal) G y = G (((cfg2.win 3).blk t).view.emb y) := rfl

theorem writtenBack_eq (t : Fin cfg2.N) :
    (Region2.data V c).flushed 3 t
      = ((cfg2.win 3).blk t).view.read (Elt Ideal) (proj (V c main_v34) (V c main_arg8) (V c main_v35)) := by
  show (cfg2.win 3).cut (cfg2.grid.coords t) ((Region2.data V c).after 3 t) = _
  rw [Region2.after_3]
  unfold Region2.zBlock
  rw [View.canon_unit_zero ValueLib.zeros2]
  simp only [View.ld_unit_zero (S := S10000x32) ValueLib.zeros2, View.ld_unit_zero (S := S32x32) ValueLib.zeros2,
    View.ld_unit_zero (S := S1x32) ValueLib.zeros2]
  refine funext fun (y : S10000x32.Idx) => ?_
  obtain ⟨p, q, rfl⟩ : ∃ (p : Fin 10000) (q : Fin 32), y = ix2 p q := ⟨y 0, y 1, eq_ix2 y⟩
  refine (pay_at (aggBlk V c t) (wBlk V c t) (biasBlk V c t) p q).trans ?_
  refine Eq.trans ?_ (read_outBlock _ t (ix2 p q)).symm
  refine Eq.trans ?_ (proj_apply _ _ _ _).symm
  refine congrArg₂ (· + ·) (Finset.sum_congr rfl fun k _ => congrArg₂ (· * ·) (congrArg eluAt ?_) ?_) ?_
  · exact aggBlock_at V c t p k _ (outRow t p q) rfl
  · exact wBlock_at V c t q k _ (outCol t p q) rfl
  · exact biasBlock_at V c t q _ (outCol t p q)

theorem mem_outBlock (t : Fin cfg2.N) (i : S200000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v36).slice (win2_3.rect t)).set ↔ _
  rw [View.set_slice_whole, Rect.mem_set_unit]
  exact Iff.rfl

theorem covered (i : S200000x32.Idx) :
    ∃ t : Fin cfg2.N, (cfg2.win 3).flush t = true ∧ i ∈ ((cfg2.win 3).blk t).view.set := by
  obtain ⟨t, ht⟩ := ValueLib.rowBlock_cover (r := 1) (A := S200000x32.size) (B := S10000x32.size)
    ((show S200000x32.size 0 = 20 * S10000x32.size 0 from rfl).trans (by rw [N_2])) (by decide) win2_3.index
    (fun t => (blockIndices t).2.2.2.2.2.2.1) (fun t a ha => by
      match a with
      | ⟨0, _⟩ => exact absurd rfl ha
      | ⟨1, _⟩ => exact (blockIndices t).2.2.2.2.2.2.2) i
  exact ⟨t, flush2_3 t, (mem_outBlock t i).mpr ht⟩

theorem array_eq :
    (Region2.data V c).arrAt 3 cfg2.N = proj (V c main_v34) (V c main_arg8) (V c main_v35) :=
  (Region2.data V c).arrAt_eq_of_cover 3 (proj (V c main_v34) (V c main_arg8) (V c main_v35))
    (fun t _ => writtenBack_eq V c t) covered

end

theorem value (V : (c : Dev nD) → (b : Ref sig .tc) → Buf (Elt Ideal) ((c : Thread nD τ).loc b)) (c : Dev nD)
    (h : Cert.ReferenceIdeal.Stages.Fl Ideal S200000x32) (W : Cert.ReferenceIdeal.Stages.Fl Ideal S32x32) (b : Cert.ReferenceIdeal.Stages.Fl Ideal S32)
    (hx : V c main_v34 = h) (hW : V c main_arg8 = W) (hb : V c main_v35 = shapeCast S1x32 b shapeCasts_S32_S1x32) :
    (Region2.data V c).arrAt 3 cfg2.N = Cert.ReferenceIdeal.Stages.lin2 (Cert.ReferenceIdeal.Stages.elu h) W b := by
  subst hx hW
  exact ((array_eq V c).trans (congrArg (proj (V c main_v34) (V c main_arg8)) hb)).trans (proj_eq_lin2 _ _ b)

end Cert.KernelIdeal.Value2

end
-- ==== Proof.KI.Value3.lean ====
import proofs.«112250_j2224793059992_2_alg».proof.Proof.KI.Region3
import proofs.«112250_j2224793059992_2_alg».proof.Proof.KI.ValueMsg
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value3

open Cert.KernelIdeal Cert.KernelIdeal.Gen Idealize.ShloMosaic Idealize.ShloMosaic.TcCoe
open Idealize.ShloMosaic.ValueIdx
open Idealize.ShloMosaic.Pipeline (Dat)
open scoped BigOperators
open Cert.KernelIdeal.ValueMsg

theorem pay_apply (x0 x2 : Vec Ideal S8000x32 .f32) (x4 x6 : Vec Ideal S1x32 .f32) (x17 : Vec Ideal S1x1 .f32)
    (p : Fin 8000) (q : Fin 32) :
    k3_pay1 x0 x2 x4 x6 x17 (ix2 p q)
      = x0 (ix2 p q) * rectify ((∑ k : Fin 32, x0 (ix2 p k) * x4 (ix2 (0 : Fin 1) k))
          + (∑ k : Fin 32, x2 (ix2 p k) * x6 (ix2 (0 : Fin 1) k)) + x17 (ix2 (0 : Fin 1) (0 : Fin 1))) := by
  unfold k3_pay1
  simp only [shapeCast_self]
  refine (mulf_apply _ _ _).trans ?_
  refine congrArg (x0 (ix2 p q) * ·) ?_
  refine (bcastCol_apply (by decide) _ _ p q).trans ?_
  refine (rectCol_apply _ p 0).trans ?_
  refine congrArg rectify ?_
  refine (addf_apply _ _ _).trans ?_
  refine congrArg₂ (· + ·) ((addf_apply _ _ _).trans (congrArg₂ (· + ·) ?_ ?_)) (bcastOne_apply _ _ p 0)
  · exact rowDot_apply x0 x4 _ _ _ _ _ p 0
  · exact rowDot_apply x2 x6 _ _ _ _ _ p 0

section Blocks

variable (V : (c : Dev nD) → (b : Ref sig .tc) → Buf (Elt Ideal) ((c : Thread nD τ).loc b)) (c : Dev nD)

theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem srcBlock_apply (t : Fin cfg3.N) (x : S8000x32.Idx) (k : S1600000x32.Idx)
    (hk0 : (k 0).val = 8000 * t.val + (x 0).val) (hk1 : (k 1).val = (x 1).val) :
    (Region3.blk V c 0 t : Vec Ideal S8000x32 .f32) x = (V c main_v43 : S1600000x32.Idx → Elt Ideal .f32) k := by
  obtain ⟨e0, e1, -⟩ := blockIndex t
  unfold Region3.blk
  rw [View.read_apply]
  show V c main_v43 _ = V c main_v43 _
  refine congrArg (V c main_v43) (funext fun a => Fin.ext ?_)
  match a with
  | ⟨0, _⟩ => show win3_0.index t (0 : Fin 2) * 8000 + 1 * (x 0).val = (k 0).val; rw [e0, hk0]; omega
  | ⟨1, _⟩ => show win3_0.index t (1 : Fin 2) * 32 + 1 * (x 1).val = (k 1).val; rw [e1, hk1]; omega

theorem dstBlock_apply (t : Fin cfg3.N) (x : S8000x32.Idx) (k : S1600000x32.Idx)
    (hk0 : (k 0).val = 8000 * t.val + (x 0).val) (hk1 : (k 1).val = (x 1).val) :
    (Region3.blk V c 1 t : Vec Ideal S8000x32 .f32) x = (V c main_v50 : S1600000x32.Idx → Elt Ideal .f32) k := by
  obtain ⟨-, -, e0, e1, -⟩ := blockIndex t
  unfold Region3.blk
  rw [View.read_apply]
  show V c main_v50 _ = V c main_v50 _
  refine congrArg (V c main_v50) (funext fun a => Fin.ext ?_)
  match a with
  | ⟨0, _⟩ => show win3_1.index t (0 : Fin 2) * 8000 + 1 * (x 0).val = (k 0).val; rw [e0, hk0]; omega
  | ⟨1, _⟩ => show win3_1.index t (1 : Fin 2) * 32 + 1 * (x 1).val = (k 1).val; rw [e1, hk1]; omega

theorem w1Block_apply (t : Fin cfg3.N) (x : S1x32.Idx) :
    (Region3.blk V c 2 t : Vec Ideal S1x32 .f32) x = (V c main_v51 : S1x32.Idx → Elt Ideal .f32) x := by
  obtain ⟨-, -, -, -, e0, e1, -⟩ := blockIndex t
  unfold Region3.blk
  rw [View.read_apply]
  show V c main_v51 _ = V c main_v51 _
  refine congrArg (V c main_v51) (funext fun a => Fin.ext ?_)
  match a with
  | ⟨0, _⟩ => show win3_2.index t (0 : Fin 2) * 1 + 1 * (x 0).val = (x 0).val; rw [e0]; omega
  | ⟨1, _⟩ => show win3_2.index t (1 : Fin 2) * 32 + 1 * (x 1).val = (x 1).val; rw [e1]; omega

theorem w2Block_apply (t : Fin cfg3.N) (x : S1x32.Idx) :
    (Region3.blk V c 3 t : Vec Ideal S1x32 .f32) x = (V c main_v52 : S1x32.Idx → Elt Ideal .f32) x := by
  obtain ⟨-, -, -, -, -, -, e0, e1, -⟩ := blockIndex t
  unfold Region3.blk
  rw [View.read_apply]
  show V c main_v52 _ = V c main_v52 _
  refine congrArg (V c main_v52) (funext fun a => Fin.ext ?_)
  match a with
  | ⟨0, _⟩ => show win3_3.index t (0 : Fin 2) * 1 + 1 * (x 0).val = (x 0).val; rw [e0]; omega
  | ⟨1, _⟩ => show win3_3.index t (1 : Fin 2) * 32 + 1 * (x 1).val = (x 1).val; rw [e1]; omega

theorem biasBlock_apply (t : Fin cfg3.N) (x : S1x1.Idx) :
    (Region3.blk V c 4 t : Vec Ideal S1x1 .f32) x = (V c main_v53 : S1x1.Idx → Elt Ideal .f32) x := by
  obtain ⟨-, -, -, -, -, -, -, -, e0, e1, -⟩ := blockIndex t
  unfold Region3.blk
  rw [View.read_apply]
  show V c main_v53 _ = V c main_v53 _
  refine congrArg (V c main_v53) (funext fun a => Fin.ext ?_)
  match a with
  | ⟨0, _⟩ => show win3_4.index t (0 : Fin 2) * 1 + 1 * (x 0).val = (x 0).val; rw [e0]; omega
  | ⟨1, _⟩ => show win3_4.index t (1 : Fin 2) * 1 + 1 * (x 1).val = (x 1).val; rw [e1]; omega

end Blocks

section Final

variable (V : (c : Dev nD) → (b : Ref sig .tc) → Buf (Elt Ideal) ((c : Thread nD τ).loc b)) (c : Dev nD)

theorem flushed_eq (zs zd : Cert.ReferenceIdeal.Stages.Fl Ideal S1600000x32) (aW : Cert.ReferenceIdeal.Stages.Fl Ideal S1x64)
    (ab : Cert.ReferenceIdeal.Stages.Fl Ideal S1)
    (hs : V c main_v43 = zs) (hd : V c main_v50 = zd)
    (h2 : V c main_v51 = extractStridedSlice S1x32 ![0, 0] aW slices_S1x64_S1x32_0_0)
    (h3 : V c main_v52 = extractStridedSlice S1x32 ![0, 32] aW slices_S1x64_S1x32_0_32)
    (h4 : V c main_v53 = shapeCast S1x1 ab shapeCasts_S1_S1x1) (t : Fin cfg3.N) :
    (Region3.data V c).flushed 5 t
      = ((cfg3.win 5).blk t).view.read (Elt Ideal) (Cert.ReferenceIdeal.Stages.msg zs zd aW ab) := by
  show (cfg3.win 5).cut (cfg3.grid.coords t) ((Region3.data V c).after 5 t) = _
  rw [Region3.after_5]
  unfold Region3.msgBlock
  rw [View.canon_unit_zero ValueLib.zeros2]
  simp only [View.ld_unit_zero (S := S8000x32) ValueLib.zeros2, View.ld_unit_zero (S := S1x32) ValueLib.zeros2,
    View.ld_unit_zero (S := S1x1) ValueLib.zeros2]
  obtain ⟨-, -, -, -, -, -, -, -, -, -, e0, e1⟩ := blockIndex t
  have hN : cfg3.N = 200 := N_3
  funext j
  obtain ⟨p, q, rfl⟩ : ∃ (p : Fin 8000) (q : Fin 32), j = ix2 p q := ⟨j 0, j 1, eq_ix2 j⟩
  have hr : 8000 * t.val + p.val < 1600000 := by have := t.isLt; omega
  have hemb : ((cfg3.win 5).blk t).view.emb (ix2 p q) = ix2 (⟨8000 * t.val + p.val, hr⟩ : Fin 1600000) q := by
    funext a; apply Fin.ext
    match a with
    | ⟨0, _⟩ => show win3_5.index t (0 : Fin 2) * 8000 + 1 * p.val = 8000 * t.val + p.val; rw [e0]; omega
    | ⟨1, _⟩ => show win3_5.index t (1 : Fin 2) * 32 + 1 * q.val = q.val; rw [e1]; omega
  show k3_pay1 (Region3.blk V c 0 t) (Region3.blk V c 1 t) (Region3.blk V c 2 t) (Region3.blk V c 3 t) (Region3.blk V c 4 t) (ix2 p q)
      = Cert.ReferenceIdeal.Stages.msg zs zd aW ab (((cfg3.win 5).blk t).view.emb (ix2 p q))
  rw [hemb]
  refine (pay_apply (Region3.blk V c 0 t) (Region3.blk V c 1 t) (Region3.blk V c 2 t) (Region3.blk V c 3 t) (Region3.blk V c 4 t) p q).trans ?_
  refine Eq.trans ?_ (msg_apply zs zd aW ab ⟨8000 * t.val + p.val, hr⟩ q).symm
  have es : ∀ k : Fin 32, (Region3.blk V c 0 t : Vec Ideal S8000x32 .f32) (ix2 p k) = zs (ix2 (⟨8000 * t.val + p.val, hr⟩ : Fin 1600000) k) :=
    fun k => (srcBlock_apply V c t (ix2 p k) (ix2 (⟨8000 * t.val + p.val, hr⟩ : Fin 1600000) k) rfl rfl).trans (congrFun hs _)
  have ed : ∀ k : Fin 32, (Region3.blk V c 1 t : Vec Ideal S8000x32 .f32) (ix2 p k) = zd (ix2 (⟨8000 * t.val + p.val, hr⟩ : Fin 1600000) k) :=
    fun k => (dstBlock_apply V c t (ix2 p k) (ix2 (⟨8000 * t.val + p.val, hr⟩ : Fin 1600000) k) rfl rfl).trans (congrFun hd _)
  have e2 : ∀ k : Fin 32, (Region3.blk V c 2 t : Vec Ideal S1x32 .f32) (ix2 (0 : Fin 1) k) = aW (ix2 (0 : Fin 1) (⟨k.val, by omega⟩ : Fin 64)) :=
    fun k => (w1Block_apply V c t (ix2 (0 : Fin 1) k)).trans ((congrFun h2 _).trans
      (slice2_axis1_apply 0 aW slices_S1x64_S1x32_0_0 (0 : Fin 1) k (⟨k.val, by omega⟩ : Fin 64) (Nat.zero_add _).symm))
  have e3 : ∀ k : Fin 32, (Region3.blk V c 3 t : Vec Ideal S1x32 .f32) (ix2 (0 : Fin 1) k) = aW (ix2 (0 : Fin 1) (⟨32 + k.val, by omega⟩ : Fin 64)) :=
    fun k => (w2Block_apply V c t (ix2 (0 : Fin 1) k)).trans ((congrFun h3 _).trans
      (slice2_axis1_apply 32 aW slices_S1x64_S1x32_0_32 (0 : Fin 1) k (⟨32 + k.val, by omega⟩ : Fin 64) rfl))
  have e4 : (Region3.blk V c 4 t : Vec Ideal S1x1 .f32) (ix2 (0 : Fin 1) (0 : Fin 1)) = ab (ix1 (0 : Fin 1)) :=
    (biasBlock_apply V c t (ix2 (0 : Fin 1) (0 : Fin 1))).trans ((congrFun h4 _).trans
      (shapeCast_a_1a_apply ab shapeCasts_S1_S1x1 (0 : Fin 1) (0 : Fin 1)))
  exact congrArg₂ (· * ·) (es q) (congrArg rectify (congrArg₂ (· + ·) (congrArg₂ (· + ·)
    (Finset.sum_congr rfl fun k _ => congrArg₂ (· * ·) (es k) (e2 k))
    (Finset.sum_congr rfl fun k _ => congrArg₂ (· * ·) (ed k) (e3 k))) e4))

theorem mem_resultBlock (t : Fin cfg3.N) (i : S1600000x32.Idx) :
    i ∈ ((cfg3.win 5).blk t).view.set ↔ ∀ a : Fin 2, win3_5.index t a * S8000x32.size a ≤ (i a).val
      ∧ (i a).val < win3_5.index t a * S8000x32.size a + S8000x32.size a := by
  show i ∈ ((View.whole main_v54).slice (win3_5.rect t)).set ↔ _
  rw [View.set_slice_whole, Rect.mem_set_unit]
  exact Iff.rfl

theorem covered (i : S1600000x32.Idx) :
    ∃ t : Fin cfg3.N, (cfg3.win 5).flush t = true ∧ i ∈ ((cfg3.win 5).blk t).view.set := by
  obtain ⟨t, ht⟩ := ValueLib.rowBlock_cover (r := 1) (A := S1600000x32.size) (B := S8000x32.size)
    ((show S1600000x32.size 0 = 200 * S8000x32.size 0 from rfl).trans (by rw [N_3])) (by decide) win3_5.index
    (fun t => (blockIndex t).2.2.2.2.2.2.2.2.2.2.1) (fun t a ha => by
      match a with
      | ⟨0, _⟩ => exact absurd rfl ha
      | ⟨1, _⟩ => exact (blockIndex t).2.2.2.2.2.2.2.2.2.2.2) i
  exact ⟨t, flush3_5 t, (mem_resultBlock t i).mpr ht⟩

end Final

theorem value (V : (c : Dev nD) → (b : Ref sig .tc) → Buf (Elt Ideal) ((c : Thread nD τ).loc b)) (c : Dev nD)
    (zs zd : Cert.ReferenceIdeal.Stages.Fl Ideal S1600000x32) (aW : Cert.ReferenceIdeal.Stages.Fl Ideal S1x64) (ab : Cert.ReferenceIdeal.Stages.Fl Ideal S1)
    (hs : V c main_v43 = zs) (hd : V c main_v50 = zd)
    (h2 : V c main_v51 = extractStridedSlice S1x32 ![0, 0] aW slices_S1x64_S1x32_0_0)
    (h3 : V c main_v52 = extractStridedSlice S1x32 ![0, 32] aW slices_S1x64_S1x32_0_32)
    (h4 : V c main_v53 = shapeCast S1x1 ab shapeCasts_S1_S1x1) :
    (Region3.data V c).arrAt 5 cfg3.N = Cert.ReferenceIdeal.Stages.msg zs zd aW ab :=
  (Region3.data V c).arrAt_eq_of_cover 5 (Cert.ReferenceIdeal.Stages.msg zs zd aW ab)
    (fun t _ => flushed_eq V c zs zd aW ab hs hd h2 h3 h4 t) covered

end Cert.KernelIdeal.Value3

end
-- ==== Proof.KI.Value4.lean ====
import proofs.«112250_j2224793059992_2_alg».proof.Proof.KI.Region4
import proofs.«112250_j2224793059992_2_alg».proof.Proof.Stages
import proofs.«112250_j2224793059992_2_alg».proof.Proof.KI.ValueLib
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Value4

open Cert.KernelIdeal Cert.KernelIdeal.Gen Idealize.ShloMosaic Idealize.ShloMosaic.TcCoe
open Idealize.ShloMosaic.ValueIdx
open Idealize.ShloMosaic.Pipeline (Dat)
open scoped BigOperators

def eluAt (a : EReal) : EReal :=
  Scalar.select (Ideal.cmp .ogt a (Ideal.ofBits .f32 0x00000000#32)) a (Ideal.exp a - Ideal.ofBits .f32 0x3F800000#32)

def preAt (x w : Fin 32 → EReal) (b : EReal) : EReal := (∑ k : Fin 32, eluAt (x k) * w k) + b

def gateAt (g0 g1 g2 b0 b1 b2 : EReal) : EReal :=
  (Ideal.ofBits .f32 0x3F800000#32 - Ideal.logistic (g1 + b1)) * Ideal.tanh (g2 + Ideal.logistic (g0 + b0) * b2)

theorem matmul_at (a : FVec Ideal S5000x32 .bf16) (b : FVec Ideal S32x96 .bf16) (p : Fin 5000) (c : Fin 96) :
    matmul dot_S5000x32_S32x96_S5000x96_1_0_0_1_n_n none a b (constant (F := Ideal) S5000x96 .f32 0x00000000#32) (ix2 p c)
      = ∑ k : Fin 32, a (ix2 p k) * b (ix2 k c) := ValueLib.matmul_plain_apply a b p c

theorem wT_at (w : FVec Ideal S96x32 .bf16) (k : Fin 32) (c : Fin 96) :
    transpose S32x96 [1, 0] w transposes_S96x32_p1_0_S32x96 (ix2 k c) = w (ix2 c k) :=
  transpose_apply [1, 0] w transposes_S96x32_p1_0_S32x96 (ix2 k c) (ix2 c k) fun b => by
    match b with
    | ⟨0, _⟩ => rfl
    | ⟨1, _⟩ => rfl

theorem row96_at (v : FVec Ideal S1x96 .f32) (p : Fin 5000) (c : Fin 96) :
    broadcastTo S5000x96 v broadcasts_S1x96_S5000x96 (ix2 p c) = v (ix2 0 c) :=
  broadcastTo_apply v broadcasts_S1x96_S5000x96 (ix2 p c) (ix2 0 c) fun a => by
    match a with
    | ⟨0, _⟩ => rfl
    | ⟨1, _⟩ => rfl
theorem row32_at (v : FVec Ideal S1x32 .f32) (p : Fin 5000) (q : Fin 32) :
    broadcastTo S5000x32 v broadcasts_S1x32_S5000x32 (ix2 p q) = v (ix2 0 q) :=
  broadcastTo_apply v broadcasts_S1x32_S5000x32 (ix2 p q) (ix2 0 q) fun a => by
    match a with
    | ⟨0, _⟩ => rfl
    | ⟨1, _⟩ => rfl

def third (o : Nat) (ho : o + 32 ≤ 96) (q : Fin 32) : Fin 96 := ⟨o + q.val, by omega⟩

def rowGate (x : Fin 32 → EReal) (W : Fin 96 → Fin 32 → EReal) (bi bh : Fin 96 → EReal) (q : Fin 32) : EReal :=
  gateAt (preAt x (W (third 0 (by decide) q)) (bi (third 0 (by decide) q)))
    (preAt x (W (third 32 (by decide) q)) (bi (third 32 (by decide) q)))
    (preAt x (W (third 64 (by decide) q)) (bi (third 64 (by decide) q)))
    (bh (third 0 (by decide) q)) (bh (third 32 (by decide) q)) (bh (third 64 (by decide) q))

theorem cols_at (o : Nat) (ho : o + 32 ≤ 96) (g : FVec Ideal S5000x96 .f32) (hs : S5000x96.Slices ![0, o] S5000x32)
    (p : Fin 5000) (q : Fin 32) : extractStridedSlice S5000x32 ![0, o] g hs (ix2 p q) = g (ix2 p (third o ho q)) :=
  extractStridedSlice_apply ![0, o] g hs (ix2 p q) (ix2 p (third o ho q)) fun a => by
    match a with
    | ⟨0, _⟩ => exact (Nat.zero_add _).symm
    | ⟨1, _⟩ => rfl

theorem bcols_at (o : Nat) (ho : o + 32 ≤ 96) (v : FVec Ideal S1x96 .f32) (hs : S1x96.Slices ![0, o] S1x32) (q : Fin 32) :
    extractStridedSlice S1x32 ![0, o] v hs (ix2 0 q) = v (ix2 0 (third o ho q)) :=
  extractStridedSlice_apply ![0, o] v hs (ix2 0 q) (ix2 0 (third o ho q)) fun a => by
    match a with
    | ⟨0, _⟩ => rfl
    | ⟨1, _⟩ => rfl

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl
theorem exp_at {s : Shape} {φ : FTy} (a : FVec Ideal s φ) (i : s.Idx) : exp a i = Ideal.exp (a i) := rfl

theorem pay_at (x0 : Vec Ideal S5000x32 .f32) (w : Vec Ideal S96x32 .f32) (bi bh : Vec Ideal S1x96 .f32) (p : Fin 5000) (q : Fin 32) :
    k4_pay1 x0 w bi bh (ix2 p q)
      = rowGate (fun k => x0 (ix2 p k)) (fun c k => w (ix2 c k)) (fun c => bi (ix2 0 c)) (fun c => bh (ix2 0 c)) q := by
  unfold k4_pay1

  generalize hb : transpose S32x96 _ (truncf (F := Ideal) FTy.bf16 w bitsLt_bf16_f32) transposes_S96x32_p1_0_S32x96 = b
  have hT : ∀ (k : Fin 32) (c : Fin 96), b (ix2 k c) = w (ix2 c k) := fun k c => by
    rw [← hb]
    exact transpose_apply _ _ _ (ix2 k c) (ix2 c k) fun a => by
      match a with
      | ⟨0, _⟩ => rfl
      | ⟨1, _⟩ => rfl
  simp only [mulf_apply, subf_apply, addf_apply, broadcast_apply, logistic_at, tanh_at, exp_at, row32_at, row96_at, shapeCast_self,
    cols_at 0 (by decide), cols_at 32 (by decide), cols_at 64 (by decide),
    bcols_at 0 (by decide), bcols_at 32 (by decide), bcols_at 64 (by decide),
    matmul_at, truncf_apply, select_apply, cmpf_apply, hT]
  rfl

theorem one_f32 : Ideal.ofBits .f32 0x3F800000#32 = 1 := IdealRules.sign_bit.ideal_onePat .f32

theorem elu_at (h : Cert.ReferenceIdeal.Stages.Fl Ideal S200000x32) (i : S200000x32.Idx) :
    Cert.ReferenceIdeal.Stages.elu h i = eluAt (h i) := by
  show Scalar.select (Ideal.cmp .ogt (h i) (Ideal.ofBits .f32 0x00000000#32)) (h i)
      (Ideal.ofBits .f32 0x3F800000#32
        * (Ideal.exp (Scalar.select (Ideal.cmp .ogt (h i) (Ideal.ofBits .f32 0x00000000#32)) (Ideal.ofBits .f32 0x00000000#32) (h i)) - 1)) = _
  unfold eluAt Scalar.select
  by_cases hc : Ideal.cmp .ogt (h i) (Ideal.ofBits .f32 0x00000000#32) = 1
  · rw [if_pos hc, if_pos hc]
  · rw [if_neg hc, if_neg hc, if_neg hc, one_f32, one_mul]

theorem sig32_at (y : Cert.ReferenceIdeal.Stages.Fl Ideal S200000x32) (i : S200000x32.Idx) :
    Cert.ReferenceIdeal.Stages.sig32 y i = Ideal.logistic (y i) := by
  show Ideal.div (Ideal.ofBits .f32 0x3F800000#32) (Ideal.ofBits .f32 0x3F800000#32 + Ideal.exp (-(y i))) = _
  rw [one_f32]
  rfl

theorem ones32_at (i : S200000x32.Idx) :
    Cert.ReferenceIdeal.Stages.ones32 (F := Ideal) i = Ideal.ofBits .f32 0x3F800000#32 := rfl
theorem htanh_at {s : Shape} {φ : FTy} (a : FVec Ideal s φ) (i : s.Idx) : Host.tanh a i = Ideal.tanh (a i) := rfl

theorem gates_at (x : Cert.ReferenceIdeal.Stages.Fl Ideal S200000x32) (W : Cert.ReferenceIdeal.Stages.Fl Ideal S96x32)
    (bi : Cert.ReferenceIdeal.Stages.Fl Ideal S96) (r : Fin 200000) (c : Fin 96) :
    Cert.ReferenceIdeal.Stages.gates x W bi (ix2 r c) = (∑ k : Fin 32, x (ix2 r k) * W (ix2 c k)) + bi (ix1 c) := by
  unfold Cert.ReferenceIdeal.Stages.gates
  rw [addf_apply]
  refine congrArg₂ (· + ·) ?_ ?_
  · refine (ValueLib.dotGeneral_plain_apply _ _ r c).trans (Finset.sum_congr rfl fun k _ => ?_)
    exact congrArg (x (ix2 r k) * ·) (transpose_apply _ W _ (ix2 k c) (ix2 c k) fun b => by
      match b with
      | ⟨0, _⟩ => rfl
      | ⟨1, _⟩ => rfl)
  · exact (broadcastInDim_apply _ _ _ (ix2 r c) (ix2 0 c) (fun a => by
        match a with
        | ⟨0, _⟩ => rfl
        | ⟨1, _⟩ => rfl)).trans
      (broadcastInDim_apply _ _ bi (ix2 0 c) (ix1 c) (fun a => by
        match a with
        | ⟨0, _⟩ => rfl))

theorem hcols_at (o : Nat) (ho : o + 32 ≤ 96) (g : FVec Ideal Cert.ReferenceIdeal.S200000x96 .f32)
    (hs : Cert.ReferenceIdeal.S200000x96.Slices ![0, o] Cert.ReferenceIdeal.S200000x32) (r : Fin 200000) (q : Fin 32) :
    extractStridedSlice Cert.ReferenceIdeal.S200000x32 ![0, o] g hs (ix2 r q) = g (ix2 r (third o ho q)) :=
  extractStridedSlice_apply ![0, o] g hs (ix2 r q) (ix2 r (third o ho q)) fun a => by
    match a with
    | ⟨0, _⟩ => exact (Nat.zero_add _).symm
    | ⟨1, _⟩ => rfl

theorem hb_at (o : Nat) (ho : o + 32 ≤ 96) (bh : Cert.ReferenceIdeal.Stages.Fl Ideal S96) (hs : Cert.ReferenceIdeal.S96.Slices ![o] Cert.ReferenceIdeal.S32)
    (h1 : Cert.ReferenceIdeal.S32.BroadcastsInDim Cert.ReferenceIdeal.S1x32 ![1])
    (h2 : Cert.ReferenceIdeal.S1x32.BroadcastsInDim Cert.ReferenceIdeal.S200000x32 ![0, 1]) (r : Fin 200000) (q : Fin 32) :
    broadcastInDim Cert.ReferenceIdeal.S200000x32 ![0, 1] h2 (broadcastInDim Cert.ReferenceIdeal.S1x32 ![1] h1
      (extractStridedSlice Cert.ReferenceIdeal.S32 ![o] bh hs)) (ix2 r q) = bh (ix1 (third o ho q)) :=
  (broadcastInDim_apply _ h2 _ (ix2 r q) (ix2 0 q) (fun a => by
      match a with
      | ⟨0, _⟩ => rfl
      | ⟨1, _⟩ => rfl)).trans
    ((broadcastInDim_apply _ h1 _ (ix2 0 q) (ix1 q) (fun a => by
      match a with
      | ⟨0, _⟩ => rfl)).trans
    (extractStridedSlice_apply ![o] bh hs (ix1 q) (ix1 (third o ho q)) (fun a => by
      match a with
      | ⟨0, _⟩ => rfl)))

theorem hb0_at (bh : Cert.ReferenceIdeal.Stages.Fl Ideal S96) (r : Fin 200000) (q : Fin 32) :
    Cert.ReferenceIdeal.Stages.hb0 bh (ix2 r q) = bh (ix1 (third 0 (by decide) q)) := hb_at 0 _ bh _ _ _ r q
theorem hb1_at (bh : Cert.ReferenceIdeal.Stages.Fl Ideal S96) (r : Fin 200000) (q : Fin 32) :
    Cert.ReferenceIdeal.Stages.hb1 bh (ix2 r q) = bh (ix1 (third 32 (by decide) q)) := hb_at 32 _ bh _ _ _ r q
theorem hb2_at (bh : Cert.ReferenceIdeal.Stages.Fl Ideal S96) (r : Fin 200000) (q : Fin 32) :
    Cert.ReferenceIdeal.Stages.hb2 bh (ix2 r q) = bh (ix1 (third 64 (by decide) q)) := hb_at 64 _ bh _ _ _ r q

theorem gru_at (h : Cert.ReferenceIdeal.Stages.Fl Ideal S200000x32) (W : Cert.ReferenceIdeal.Stages.Fl Ideal S96x32)
    (bi bh : Cert.ReferenceIdeal.Stages.Fl Ideal S96) (r : Fin 200000) (q : Fin 32) :
    Cert.ReferenceIdeal.Stages.gru (Cert.ReferenceIdeal.Stages.elu h) W bi bh (ix2 r q)
      = rowGate (fun k => h (ix2 r k)) (fun c k => W (ix2 c k)) (fun c => bi (ix1 c)) (fun c => bh (ix1 c)) q := by
  unfold Cert.ReferenceIdeal.Stages.gru
  simp only [mulf_apply, subf_apply, addf_apply, htanh_at, sig32_at, ones32_at, hcols_at 0 (by decide), hcols_at 32 (by decide),
    hcols_at 64 (by decide), hb0_at, hb1_at, hb2_at, gates_at, elu_at]
  rfl

section Blocks

variable (V : (c : Dev nD) → (b : Ref sig .tc) → Buf (Elt Ideal) ((c : Thread nD τ).loc b))

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem feat_at (c : Dev nD) (X : S200000x32.Idx → EReal) (hX : V c main_v57 = X) (t : Fin cfg4.N) (p : Fin 5000) (k : Fin 32)
    (hr : t.val * 5000 + p.val < 200000) : Region4.blk V c 0 t (ix2 p k) = X (ix2 ⟨t.val * 5000 + p.val, hr⟩ k) := by
  obtain ⟨e0, e1, -⟩ := idx_facts t
  show V c main_v57 (((cfg4.win 0).blk t).view.emb (ix2 p k)) = _
  rw [hX]
  refine congrArg X (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 32 + 1 * k.val = k.val; rw [e1]; omega

theorem wts_at (c : Dev nD) (X : S96x32.Idx → EReal) (hX : V c main_arg12 = X) (t : Fin cfg4.N) (g : Fin 96) (k : Fin 32) :
    Region4.blk V c 1 t (ix2 g k) = X (ix2 g k) := by
  obtain ⟨-, -, e0, e1, -⟩ := idx_facts t
  show V c main_arg12 (((cfg4.win 1).blk t).view.emb (ix2 g k)) = _
  rw [hX]
  refine congrArg X (funext fun a => Fin.ext ?_)
  match a with
  | ⟨0, _⟩ => show win4_1.index t (0 : Fin 2) * 96 + 1 * g.val = g.val; rw [e0]; omega
  | ⟨1, _⟩ => show win4_1.index t (1 : Fin 2) * 32 + 1 * k.val = k.val; rw [e1]; omega

theorem row_of_bias (b : S96.Idx → EReal) (hc : S96.ShapeCasts S1x96) (g : Fin 96) : shapeCast S1x96 b hc (ix2 0 g) = b (ix1 g) :=
  (shapeCast_addUnit_apply ![96] b hc (ix2 0 g)).trans (congrArg b (funext fun a => by
    match a with
    | ⟨0, _⟩ => rfl))

theorem bias_i_at (c : Dev nD) (b : S96.Idx → EReal) (hc : S96.ShapeCasts S1x96) (hX : V c main_v58 = shapeCast S1x96 b hc)
    (t : Fin cfg4.N) (g : Fin 96) : Region4.blk V c 2 t (ix2 0 g) = b (ix1 g) := by
  obtain ⟨-, -, -, -, e0, e1, -⟩ := idx_facts t
  show V c main_v58 (((cfg4.win 2).blk t).view.emb (ix2 0 g)) = _
  rw [hX]
  refine Eq.trans (congrArg (shapeCast S1x96 b hc) (funext fun a => Fin.ext ?_)) (row_of_bias b hc g)
  match a with
  | ⟨0, _⟩ => show win4_2.index t (0 : Fin 2) * 1 + 1 * 0 = 0; rw [e0]
  | ⟨1, _⟩ => show win4_2.index t (1 : Fin 2) * 96 + 1 * g.val = g.val; rw [e1]; omega
theorem bias_h_at (c : Dev nD) (b : S96.Idx → EReal) (hc : S96.ShapeCasts S1x96) (hX : V c main_v59 = shapeCast S1x96 b hc)
    (t : Fin cfg4.N) (g : Fin 96) : Region4.blk V c 3 t (ix2 0 g) = b (ix1 g) := by
  obtain ⟨-, -, -, -, -, -, e0, e1, -⟩ := idx_facts t
  show V c main_v59 (((cfg4.win 3).blk t).view.emb (ix2 0 g)) = _
  rw [hX]
  refine Eq.trans (congrArg (shapeCast S1x96 b hc) (funext fun a => Fin.ext ?_)) (row_of_bias b hc g)
  match a with
  | ⟨0, _⟩ => show win4_3.index t (0 : Fin 2) * 1 + 1 * 0 = 0; rw [e0]
  | ⟨1, _⟩ => show win4_3.index t (1 : Fin 2) * 96 + 1 * g.val = g.val; rw [e1]; omega

theorem flushed_eq (c : Dev nD) (h : Cert.ReferenceIdeal.Stages.Fl Ideal S200000x32) (Wih : Cert.ReferenceIdeal.Stages.Fl Ideal S96x32)
    (bih bhh : Cert.ReferenceIdeal.Stages.Fl Ideal S96)
    (hx : V c main_v57 = h) (hW : V c main_arg12 = Wih)
    (hbi : V c main_v58 = shapeCast S1x96 bih shapeCasts_S96_S1x96) (hbh : V c main_v59 = shapeCast S1x96 bhh shapeCasts_S96_S1x96)
    (t : Fin cfg4.N) :
    (Region4.data V c).flushed 4 t
      = ((cfg4.win 4).blk t).view.read (Elt Ideal) (Cert.ReferenceIdeal.Stages.gru (Cert.ReferenceIdeal.Stages.elu h) Wih bih bhh) := by
  show (cfg4.win 4).cut (cfg4.grid.coords t) ((Region4.data V c).after 4 t) = _
  rw [Region4.after_4]
  unfold Region4.hBlock
  rw [View.canon_unit_zero ValueLib.zeros2]
  simp only [View.ld_unit_zero (S := S5000x32) ValueLib.zeros2, View.ld_unit_zero (S := S96x32) ValueLib.zeros2, View.ld_unit_zero (S := S1x96) ValueLib.zeros2]
  funext j
  obtain ⟨p, q, rfl⟩ : ∃ (p : Fin 5000) (q : Fin 32), j = ix2 p q := ⟨j 0, j 1, eq_ix2 j⟩
  have ht : t.val < 40 := lt_of_lt_of_eq t.isLt N_4
  have hr : t.val * 5000 + p.val < 200000 := by have := p.isLt; omega
  obtain ⟨-, -, -, -, -, -, -, -, e0, e1⟩ := idx_facts t
  have he : ((cfg4.win 4).blk t).view.emb (ix2 p q) = ix2 ⟨t.val * 5000 + p.val, hr⟩ q := funext fun a => Fin.ext (by
    match a with
    | ⟨0, _⟩ => show win4_4.index t (0 : Fin 2) * 5000 + 1 * p.val = t.val * 5000 + p.val; rw [e0]; omega
    | ⟨1, _⟩ => show win4_4.index t (1 : Fin 2) * 32 + 1 * q.val = q.val; rw [e1]; omega)
  show k4_pay1 (Region4.blk V c 0 t) (Region4.blk V c 1 t) (Region4.blk V c 2 t) (Region4.blk V c 3 t) (ix2 p q)
    = Cert.ReferenceIdeal.Stages.gru (Cert.ReferenceIdeal.Stages.elu h) Wih bih bhh (((cfg4.win 4).blk t).view.emb (ix2 p q))
  rw [he, gru_at]
  refine (pay_at _ _ _ _ p q).trans ?_
  have h0 : (fun k => Region4.blk V c 0 t (ix2 p k)) = fun k => h (ix2 ⟨t.val * 5000 + p.val, hr⟩ k) :=
    funext fun k => feat_at V c h hx t p k hr
  have h1 : (fun g k => Region4.blk V c 1 t (ix2 g k)) = fun g k => Wih (ix2 g k) :=
    funext fun g => funext fun k => wts_at V c Wih hW t g k
  have h2 : (fun g => Region4.blk V c 2 t (ix2 0 g)) = fun g => bih (ix1 g) := funext fun g => bias_i_at V c bih _ hbi t g
  have h3 : (fun g => Region4.blk V c 3 t (ix2 0 g)) = fun g => bhh (ix1 g) := funext fun g => bias_h_at V c bhh _ hbh t g
  exact congrFun (congr (congr (congr (congrArg rowGate h0) h1) h2) h3) q

theorem mem_blk (t : Fin cfg4.N) (i : S200000x32.Idx) :
    i ∈ ((cfg4.win 4).blk t).view.set
      ↔ ∀ a : Fin 2, win4_4.index t a * S5000x32.size a ≤ (i a).val ∧ (i a).val < win4_4.index t a * S5000x32.size a + S5000x32.size a := by
  show i ∈ ((View.whole main_v60).slice (win4_4.rect t)).set ↔ _
  rw [View.set_slice_whole, Rect.mem_set_unit]
  exact Iff.rfl

theorem covered (i : S200000x32.Idx) : ∃ t : Fin cfg4.N, (cfg4.win 4).flush t = true ∧ i ∈ ((cfg4.win 4).blk t).view.set := by
  obtain ⟨t, ht⟩ := ValueLib.rowBlock_cover (r := 1) (A := S200000x32.size) (B := S5000x32.size)
    ((show S200000x32.size 0 = 40 * S5000x32.size 0 from rfl).trans (by rw [N_4])) (by decide) win4_4.index
    (fun t => (idx_facts t).2.2.2.2.2.2.2.2.1) (fun t a ha => by
      match a with
      | ⟨0, _⟩ => exact absurd rfl ha
      | ⟨1, _⟩ => exact (idx_facts t).2.2.2.2.2.2.2.2.2) i
  exact ⟨t, flush4_4 t, (mem_blk t i).mpr ht⟩

end Blocks

theorem value (V : (c : Dev nD) → (b : Ref sig .tc) → Buf (Elt Ideal) ((c : Thread nD τ).loc b)) (c : Dev nD)
    (h : Cert.ReferenceIdeal.Stages.Fl Ideal S200000x32) (Wih : Cert.ReferenceIdeal.Stages.Fl Ideal S96x32) (bih bhh : Cert.ReferenceIdeal.Stages.Fl Ideal S96)
    (hx : V c main_v57 = h) (hW : V c main_arg12 = Wih)
    (hbi : V c main_v58 = shapeCast S1x96 bih shapeCasts_S96_S1x96) (hbh : V c main_v59 = shapeCast S1x96 bhh shapeCasts_S96_S1x96) :
    (Region4.data V c).arrAt 4 cfg4.N = Cert.ReferenceIdeal.Stages.gru (Cert.ReferenceIdeal.Stages.elu h) Wih bih bhh :=
  (Region4.data V c).arrAt_eq_of_cover 4 (Cert.ReferenceIdeal.Stages.gru (Cert.ReferenceIdeal.Stages.elu h) Wih bih bhh)
    (fun t _ => flushed_eq V c h Wih bih bhh hx hW hbi hbh t) covered

end Cert.KernelIdeal.Value4

end
-- ==== Proof.KI.Value5Pred.lean ====
import proofs.«112250_j2224793059992_2_alg».proof.Proof.KI.Region5
import proofs.«112250_j2224793059992_2_alg».proof.Proof.Stages
import proofs.«112250_j2224793059992_2_alg».proof.Proof.KI.ValueLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value5Pred

open Cert.KernelIdeal Cert.KernelIdeal.Gen Idealize.ShloMosaic Idealize.ShloMosaic.TcCoe
open Idealize.ShloMosaic.ValueIdx
open Idealize.ShloMosaic.Pipeline (Dat)

def feat34 {R : Nat} (x : (⟨2, ![R, 32]⟩ : Shape).Idx → EReal) (a b : Fin R → EReal) (n : Fin R) (k : Fin 34) : EReal :=
  if hk : k.val < 32 then x (ix2 n ⟨k.val, hk⟩) else if k.val = 32 then a n else b n

theorem joined_apply {R : Nat} (x : (⟨2, ![R, 32]⟩ : Shape).Idx → EReal) (a b : (⟨2, ![R, 1]⟩ : Shape).Idx → EReal)
    (hc : Shape.Concatenates [(⟨2, ![R, 32]⟩ : Shape), ⟨2, ![R, 1]⟩, ⟨2, ![R, 1]⟩] ⟨2, ![R, 34]⟩ 1) (n : Fin R) (k : Fin 34) :
    concatenate ⟨2, ![R, 34]⟩ 1 [⟨⟨2, ![R, 32]⟩, x⟩, ⟨⟨2, ![R, 1]⟩, a⟩, ⟨⟨2, ![R, 1]⟩, b⟩] hc (ix2 n k)
      = feat34 x (fun n => a (ix2 n (0 : Fin 1))) (fun n => b (ix2 n (0 : Fin 1))) n k := by
  unfold feat34
  have hk34 : k.val < 34 := k.isLt
  by_cases hk : k.val < 32
  · rw [dif_pos hk]
    refine concatenate_apply_piece 1 [⟨⟨2, ![R, 32]⟩, x⟩, ⟨⟨2, ![R, 1]⟩, a⟩, ⟨⟨2, ![R, 1]⟩, b⟩] hc (ix2 n k) 0 (show (0 : Nat) < 3 by decide)
      ⟨2, ![R, 32]⟩ x rfl rfl 0 rfl (ix2 n ⟨k.val, hk⟩) (fun b hb => ?_) ?_
    · match b with
      | ⟨0, _⟩ => rfl
      | ⟨1, _⟩ => exact absurd rfl hb
    · show 0 + k.val = k.val
      omega
  · rw [dif_neg hk]
    by_cases hk' : k.val = 32
    · rw [if_pos hk']
      refine concatenate_apply_piece 1 [⟨⟨2, ![R, 32]⟩, x⟩, ⟨⟨2, ![R, 1]⟩, a⟩, ⟨⟨2, ![R, 1]⟩, b⟩] hc (ix2 n k) 1 (show (1 : Nat) < 3 by decide)
        ⟨2, ![R, 1]⟩ a rfl rfl 32 rfl (ix2 n (0 : Fin 1)) (fun b hb => ?_) ?_
      · match b with
        | ⟨0, _⟩ => rfl
        | ⟨1, _⟩ => exact absurd rfl hb
      · show 32 + 0 = k.val
        omega
    · rw [if_neg hk']
      refine concatenate_apply_piece 1 [⟨⟨2, ![R, 32]⟩, x⟩, ⟨⟨2, ![R, 1]⟩, a⟩, ⟨⟨2, ![R, 1]⟩, b⟩] hc (ix2 n k) 2 (show (2 : Nat) < 3 by decide)
        ⟨2, ![R, 1]⟩ b rfl rfl 33 rfl (ix2 n (0 : Fin 1)) (fun b hb => ?_) ?_
      · match b with
        | ⟨0, _⟩ => rfl
        | ⟨1, _⟩ => exact absurd rfl hb
      · show 33 + 0 = k.val
        omega

theorem featBlock_apply (v0 : Vec Ideal S2000x32 .f32) (v2 : Vec Ideal S2000x5 .f32) (p : Fin 2000) (k : Fin 34) :
    k5_pay11 v0 v2 (ix2 p k)
      = feat34 v0 (fun p => v2 (ix2 p (0 : Fin 5))) (fun p => v2 (ix2 p (1 : Fin 5))) p k := by
  unfold k5_pay11 k5_pay7
  dsimp only
  refine (truncf_apply (φ := .f32) (ψ := .bf16) _ bitsLt_bf16_f32 (ix2 p k)).trans ?_
  rw [shapeCast_self, shapeCast_self]
  refine (joined_apply v0 _ _ _ p k).trans ?_
  have e0 : (fun n : Fin 2000 => extractStridedSlice S2000x1 ![0, 0] v2 slices_S2000x5_o0_0_S2000x1 (ix2 n (0 : Fin 1)))
      = fun n => v2 (ix2 n (0 : Fin 5)) := funext fun n => slice2_axis1_apply 0 v2 _ n 0 0 rfl
  have e1 : (fun n : Fin 2000 => extractStridedSlice S2000x1 ![0, 1] v2 slices_S2000x5_o0_1_S2000x1 (ix2 n (0 : Fin 1)))
      = fun n => v2 (ix2 n (1 : Fin 5)) := funext fun n => slice2_axis1_apply 1 v2 _ n 0 1 rfl
  rw [e0, e1]

def headAt {R : Nat} (x : Fin R → Fin 34 → EReal) (W : (⟨2, ![8, 34]⟩ : Shape).Idx → EReal) (b : Fin 8 → EReal) (n : Fin R) (q : Fin 8) : EReal :=
  (∑ k : Fin 34, x n k * W (ix2 q k)) + b q

theorem blockDot_apply (x : FVec Ideal S2000x34 .bf16) (w : FVec Ideal S34x8 .bf16) (p : Fin 2000) (q : Fin 8) :
    matmul dot_S2000x34_S34x8_S2000x8_1_0_0_1_n_n none x w (constant (F := Ideal) S2000x8 .f32 0x00000000#32) (ix2 p q)
      = ∑ k : Fin 34, x (ix2 p k) * w (ix2 k q) := ValueLib.matmul_plain_apply x w p q

theorem headBlock_apply (v0 : Vec Ideal S2000x32 .f32) (v2 : Vec Ideal S2000x5 .f32) (w : Vec Ideal S8x34 .f32) (b : Vec Ideal S1x8 .f32)
    (p : Fin 2000) (q : Fin 8) :
    k5_pay12 v0 v2 w b (ix2 p q) = headAt (fun p k => k5_pay11 v0 v2 (ix2 p k)) w (fun q => b (ix2 (0 : Fin 1) q)) p q := by
  unfold k5_pay12 headAt
  dsimp only
  refine (addf_apply _ _ _).trans ?_
  refine congrArg₂ (· + ·) ?_ ?_
  · refine (blockDot_apply _ _ p q).trans ?_
    refine Finset.sum_congr rfl fun k _ => ?_
    refine congrArg (k5_pay11 v0 v2 (ix2 p k) * ·) ?_
    exact transpose_ix2_apply _ _ k q
  · rw [shapeCast_self]
    exact broadcastTo_1b_ab_apply _ _ p q

theorem headBlock'_apply (v0 : Vec Ideal S2000x32 .f32) (v2 : Vec Ideal S2000x5 .f32) (w : Vec Ideal S8x34 .f32) (b : Vec Ideal S1x8 .f32)
    (p : Fin 2000) (q : Fin 8) :
    k5_pay13 v0 v2 w b (ix2 p q) = headAt (fun p k => k5_pay11 v0 v2 (ix2 p k)) w (fun q => b (ix2 (0 : Fin 1) q)) p q :=
  headBlock_apply v0 v2 w b p q

theorem stacked_apply {R : Nat} (x y : (⟨3, ![R, 8, 1]⟩ : Shape).Idx → EReal)
    (hc : Shape.Concatenates [(⟨3, ![R, 8, 1]⟩ : Shape), ⟨3, ![R, 8, 1]⟩] ⟨3, ![R, 8, 2]⟩ 2) (n : Fin R) (q : Fin 8) (r : Fin 2) :
    concatenate ⟨3, ![R, 8, 2]⟩ 2 [⟨⟨3, ![R, 8, 1]⟩, x⟩, ⟨⟨3, ![R, 8, 1]⟩, y⟩] hc (ix3 n q r)
      = if r.val = 0 then x (ix3 n q (0 : Fin 1)) else y (ix3 n q (0 : Fin 1)) := by
  have hr2 : r.val < 2 := r.isLt
  by_cases hr : r.val = 0
  · rw [if_pos hr]
    refine concatenate_pair_apply_left 2 x y hc (ix3 n q r) rfl (ix3 n q (0 : Fin 1)) fun b => ?_
    match b with
    | ⟨0, _⟩ => rfl
    | ⟨1, _⟩ => rfl
    | ⟨2, _⟩ => exact hr.symm
  · rw [if_neg hr]
    refine concatenate_pair_apply_right 2 x y hc (ix3 n q r) rfl rfl (ix3 n q (0 : Fin 1)) (fun b hb => ?_) ?_
    · match b with
      | ⟨0, _⟩ => rfl
      | ⟨1, _⟩ => rfl
      | ⟨2, _⟩ => exact absurd rfl hb
    · show 0 + 1 = r.val
      omega

theorem stackBlock_apply (v22 v28 : FVec Ideal S2000x8 .f32) (p : Fin 2000) (q : Fin 8) (r : Fin 2) :
    k5_pay5 v22 v28 (ix3 p q r) = if r.val = 0 then v22 (ix2 p q) else v28 (ix2 p q) := by
  unfold k5_pay5
  refine (stacked_apply _ _ _ p q r).trans ?_
  have e (v : FVec Ideal S2000x8 .f32) : shapeCast S2000x8x1 v shapeCasts_S2000x8_S2000x8x1 (ix3 p q (0 : Fin 1)) = v (ix2 p q) :=
    shapeCast_apply v _ _ _ (by
      rw [Shape.rowMajor_val_two, Shape.rowMajor_val_three]
      show p.val * 8 + q.val = (p.val * 8 + q.val) * 1 + 0
      omega)
  rw [e, e]

theorem refJoined_apply (h : Cert.ReferenceIdeal.Stages.Fl Ideal S200000x32) (dI dR : Cert.ReferenceIdeal.Stages.Fl Ideal S200000x1)
    (n : Fin 200000) (k : Fin 34) :
    Cert.ReferenceIdeal.Stages.joined h dI dR (ix2 n k)
      = feat34 h (fun n => dI (ix2 n (0 : Fin 1))) (fun n => dR (ix2 n (0 : Fin 1))) n k := by
  unfold Cert.ReferenceIdeal.Stages.joined
  exact joined_apply h dI dR _ n k

theorem refDot_apply (x : FVec Ideal Cert.ReferenceIdeal.S200000x34 .f32) (w : FVec Ideal Cert.ReferenceIdeal.S34x8 .f32) (n : Fin 200000) (q : Fin 8) :
    Host.dotGeneral (F := Ideal) Cert.ReferenceIdeal.dot_S200000x34_S34x8_S200000x8_1_0_0_1_n_n none x w (ix2 n q)
      = ∑ k : Fin 34, x (ix2 n k) * w (ix2 k q) := ValueLib.dotGeneral_plain_apply x w n q

theorem refHead_apply (hc : Cert.ReferenceIdeal.Stages.Fl Ideal Cert.ReferenceIdeal.S200000x34) (W : Cert.ReferenceIdeal.Stages.Fl Ideal S8x34)
    (b : Cert.ReferenceIdeal.Stages.Fl Ideal S8) (n : Fin 200000) (q : Fin 8) :
    Cert.ReferenceIdeal.Stages.head8 hc W b (ix2 n q) = headAt (fun n k => hc (ix2 n k)) W (fun q => b (ix1 q)) n q := by
  unfold Cert.ReferenceIdeal.Stages.head8 headAt
  refine (addf_apply _ _ _).trans ?_
  refine congrArg₂ (· + ·) ?_ ?_
  · refine (refDot_apply _ _ n q).trans ?_
    refine Finset.sum_congr rfl fun k _ => ?_
    refine congrArg (hc (ix2 n k) * ·) ?_
    exact transpose_ix2_apply _ _ k q
  · refine (broadcastInDim_apply _ _ _ (ix2 n q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

theorem refPair_apply (a b : Cert.ReferenceIdeal.Stages.Fl Ideal Cert.ReferenceIdeal.S200000x8) (n : Fin 200000) (q : Fin 8) (r : Fin 2) :
    Cert.ReferenceIdeal.Stages.pair a b (ix3 n q r) = if r.val = 0 then a (ix2 n q) else b (ix2 n q) := by
  unfold Cert.ReferenceIdeal.Stages.pair
  refine (stacked_apply _ _ _ n q r).trans ?_
  have e (v : Cert.ReferenceIdeal.Stages.Fl Ideal Cert.ReferenceIdeal.S200000x8) :
      broadcastInDim Cert.ReferenceIdeal.S200000x8x1 ![0, 1] Cert.ReferenceIdeal.Facts₀.bcast_S200000x8_S200000x8x1_0_1 v (ix3 n q (0 : Fin 1)) = v (ix2 n q) :=
    broadcastInDim_apply _ _ v _ _ fun a => by
      match a with
      | ⟨0, _⟩ => rfl
      | ⟨1, _⟩ => rfl
  rw [e, e]

def predAt {R : Nat} (x : Fin R → Fin 34 → EReal) (WI WR : (⟨2, ![8, 34]⟩ : Shape).Idx → EReal) (bI bR : Fin 8 → EReal)
    (n : Fin R) (q : Fin 8) (r : Fin 2) : EReal :=
  if r.val = 0 then headAt x WI bI n q else headAt x WR bR n q

theorem predBlock_apply (hb : Vec Ideal S2000x32 .f32) (eb : Vec Ideal S2000x5 .f32) (wI : Vec Ideal S8x34 .f32) (bI : Vec Ideal S1x8 .f32)
    (wR : Vec Ideal S8x34 .f32) (bR : Vec Ideal S1x8 .f32) (wS : Vec Ideal S2x34 .f32) (bS : Vec Ideal S1x2 .f32)
    (p : Fin 2000) (q : Fin 8) (r : Fin 2) :
    Region5.predBlock hb eb wI bI wR bR wS bS (ix3 p q r)
      = predAt (feat34 hb (fun p => eb (ix2 p (0 : Fin 5))) (fun p => eb (ix2 p (1 : Fin 5)))) wI wR
          (fun q => bI (ix2 (0 : Fin 1) q)) (fun q => bR (ix2 (0 : Fin 1) q)) p q r := by
  unfold Region5.predBlock predAt
  rw [View.canon_unit_zero ValueLib.zeros3]
  simp only [View.ld_unit_zero (S := S2000x32) ValueLib.zeros2, View.ld_unit_zero (S := S2000x5) ValueLib.zeros2, View.ld_unit_zero (S := S8x34) ValueLib.zeros2,
    View.ld_unit_zero (S := S1x8) ValueLib.zeros2]
  refine (stackBlock_apply _ _ p q r).trans ?_
  rw [headBlock_apply, headBlock'_apply]
  have ef : (fun (p : Fin 2000) (k : Fin 34) => k5_pay11 hb eb (ix2 p k))
      = feat34 hb (fun p => eb (ix2 p (0 : Fin 5))) (fun p => eb (ix2 p (1 : Fin 5))) :=
    funext fun p => funext fun k => featBlock_apply hb eb p k
  rw [ef]

theorem refPred_apply (h : Cert.ReferenceIdeal.Stages.Fl Ideal S200000x32) (dI dR : Cert.ReferenceIdeal.Stages.Fl Ideal S200000x1)
    (WI : Cert.ReferenceIdeal.Stages.Fl Ideal S8x34) (bI : Cert.ReferenceIdeal.Stages.Fl Ideal S8)
    (WR : Cert.ReferenceIdeal.Stages.Fl Ideal S8x34) (bR : Cert.ReferenceIdeal.Stages.Fl Ideal S8)
    (n : Fin 200000) (q : Fin 8) (r : Fin 2) :
    Cert.ReferenceIdeal.Stages.pred h dI dR WI bI WR bR (ix3 n q r)
      = predAt (feat34 h (fun n => dI (ix2 n (0 : Fin 1))) (fun n => dR (ix2 n (0 : Fin 1)))) WI WR
          (fun q => bI (ix1 q)) (fun q => bR (ix1 q)) n q r := by
  unfold Cert.ReferenceIdeal.Stages.pred predAt
  rw [refPair_apply, refHead_apply, refHead_apply]
  have ef : (fun (n : Fin 200000) (k : Fin 34) => Cert.ReferenceIdeal.Stages.joined h dI dR (ix2 n k))
      = feat34 h (fun n => dI (ix2 n (0 : Fin 1))) (fun n => dR (ix2 n (0 : Fin 1))) :=
    funext fun n => funext fun k => refJoined_apply h dI dR n k
  rw [ef]

theorem feat34_congr {R R' : Nat} (x : (⟨2, ![R, 32]⟩ : Shape).Idx → EReal) (x' : (⟨2, ![R', 32]⟩ : Shape).Idx → EReal)
    (a b : Fin R → EReal) (a' b' : Fin R' → EReal) (n : Fin R) (n' : Fin R') (k : Fin 34)
    (hx : ∀ k : Fin 32, x (ix2 n k) = x' (ix2 n' k)) (ha : a n = a' n') (hb : b n = b' n') :
    feat34 x a b n k = feat34 x' a' b' n' k := by
  unfold feat34
  split
  · exact hx _
  · split
    · exact ha
    · exact hb

theorem predAt_congr {R R' : Nat} (x : Fin R → Fin 34 → EReal) (x' : Fin R' → Fin 34 → EReal)
    (WI WR : (⟨2, ![8, 34]⟩ : Shape).Idx → EReal) (bI bR bI' bR' : Fin 8 → EReal) (n : Fin R) (n' : Fin R') (q : Fin 8) (r : Fin 2)
    (hx : ∀ k, x n k = x' n' k) (hI : bI q = bI' q) (hR : bR q = bR' q) :
    predAt x WI WR bI bR n q r = predAt x' WI WR bI' bR' n' q r := by
  unfold predAt headAt
  rw [hI, hR]
  simp only [hx]

variable (V : (c : Dev nD) → (b : Ref sig .tc) → Buf (Elt Ideal) ((c : Thread nD τ).loc b)) (c : Dev nD)

theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_8.index t (0 : Fin 3) = t.val ∧ win5_8.index t (1 : Fin 3) = 0 ∧ win5_8.index t (2 : Fin 3) = 0 :=
  (by decide +kernel : ∀ t : Fin grid5.N, _)

theorem stateBlk_apply (t : Fin cfg5.N) (p : Fin 2000) (k : Fin 32) (n : Fin 200000) (hn : n.val = t.val * 2000 + p.val) :
    (Region5.blk V c 0 t : Vec Ideal S2000x32 .f32) (ix2 p k) = (V c main_v60 : S200000x32.Idx → EReal) (ix2 n k) := by
  obtain ⟨e0, e1, -⟩ := index_facts t
  show (V c main_v60 : S200000x32.Idx → EReal) (((cfg5.win 0).blk t).view.emb (ix2 p k)) = _
  refine congrArg (V c main_v60 : S200000x32.Idx → EReal) ?_
  funext a; apply Fin.ext
  match a with
  | ⟨0, _⟩ => show win5_0.index t (0 : Fin 2) * 2000 + 1 * p.val = n.val; omega
  | ⟨1, _⟩ => show win5_0.index t (1 : Fin 2) * 32 + 1 * k.val = k.val; omega

theorem extrasBlk_apply (t : Fin cfg5.N) (p : Fin 2000) (k : Fin 5) (n : Fin 200000) (hn : n.val = t.val * 2000 + p.val) :
    (Region5.blk V c 1 t : Vec Ideal S2000x5 .f32) (ix2 p k) = (V c main_v68 : S200000x5.Idx → EReal) (ix2 n k) := by
  obtain ⟨-, -, e0, e1, -⟩ := index_facts t
  show (V c main_v68 : S200000x5.Idx → EReal) (((cfg5.win 1).blk t).view.emb (ix2 p k)) = _
  refine congrArg (V c main_v68 : S200000x5.Idx → EReal) ?_
  funext a; apply Fin.ext
  match a with
  | ⟨0, _⟩ => show win5_1.index t (0 : Fin 2) * 2000 + 1 * p.val = n.val; omega
  | ⟨1, _⟩ => show win5_1.index t (1 : Fin 2) * 5 + 1 * k.val = k.val; omega

theorem wIBlk_eq (t : Fin cfg5.N) : (Region5.blk V c 2 t : Vec Ideal S8x34 .f32) = (V c main_arg16 : S8x34.Idx → EReal) := by
  obtain ⟨-, -, -, -, e0, e1, -⟩ := index_facts t
  funext j
  show (V c main_arg16 : S8x34.Idx → EReal) (((cfg5.win 2).blk t).view.emb j) = _
  refine congrArg (V c main_arg16 : S8x34.Idx → EReal) ?_
  funext a; apply Fin.ext
  match a with
  | ⟨0, _⟩ => show win5_2.index t (0 : Fin 2) * 8 + 1 * (j 0).val = (j 0).val; omega
  | ⟨1, _⟩ => show win5_2.index t (1 : Fin 2) * 34 + 1 * (j 1).val = (j 1).val; omega
theorem bIBlk_eq (t : Fin cfg5.N) : (Region5.blk V c 3 t : Vec Ideal S1x8 .f32) = (V c main_v69 : S1x8.Idx → EReal) := by
  obtain ⟨-, -, -, -, -, -, e0, e1, -⟩ := index_facts t
  funext j
  show (V c main_v69 : S1x8.Idx → EReal) (((cfg5.win 3).blk t).view.emb j) = _
  refine congrArg (V c main_v69 : S1x8.Idx → EReal) ?_
  funext a; apply Fin.ext
  match a with
  | ⟨0, _⟩ => show win5_3.index t (0 : Fin 2) * 1 + 1 * (j 0).val = (j 0).val; omega
  | ⟨1, _⟩ => show win5_3.index t (1 : Fin 2) * 8 + 1 * (j 1).val = (j 1).val; omega
theorem wRBlk_eq (t : Fin cfg5.N) : (Region5.blk V c 4 t : Vec Ideal S8x34 .f32) = (V c main_arg18 : S8x34.Idx → EReal) := by
  obtain ⟨-, -, -, -, -, -, -, -, e0, e1, -⟩ := index_facts t
  funext j
  show (V c main_arg18 : S8x34.Idx → EReal) (((cfg5.win 4).blk t).view.emb j) = _
  refine congrArg (V c main_arg18 : S8x34.Idx → EReal) ?_
  funext a; apply Fin.ext
  match a with
  | ⟨0, _⟩ => show win5_4.index t (0 : Fin 2) * 8 + 1 * (j 0).val = (j 0).val; omega
  | ⟨1, _⟩ => show win5_4.index t (1 : Fin 2) * 34 + 1 * (j 1).val = (j 1).val; omega
theorem bRBlk_eq (t : Fin cfg5.N) : (Region5.blk V c 5 t : Vec Ideal S1x8 .f32) = (V c main_v70 : S1x8.Idx → EReal) := by
  obtain ⟨-, -, -, -, -, -, -, -, -, -, e0, e1, -⟩ := index_facts t
  funext j
  show (V c main_v70 : S1x8.Idx → EReal) (((cfg5.win 5).blk t).view.emb j) = _
  refine congrArg (V c main_v70 : S1x8.Idx → EReal) ?_
  funext a; apply Fin.ext
  match a with
  | ⟨0, _⟩ => show win5_5.index t (0 : Fin 2) * 1 + 1 * (j 0).val = (j 0).val; omega
  | ⟨1, _⟩ => show win5_5.index t (1 : Fin 2) * 8 + 1 * (j 1).val = (j 1).val; omega

theorem extras_col0 (x0 x1 x2 x3 x4 : S200000x1.Idx → EReal)
    (hc : Shape.Concatenates [S200000x1, S200000x1, S200000x1, S200000x1, S200000x1] S200000x5 1) (n : Fin 200000) :
    concatenate S200000x5 1 [⟨S200000x1, x0⟩, ⟨S200000x1, x1⟩, ⟨S200000x1, x2⟩, ⟨S200000x1, x3⟩, ⟨S200000x1, x4⟩] hc (ix2 n (0 : Fin 5))
      = x0 (ix2 n (0 : Fin 1)) := by
  refine concatenate_apply_piece 1 [⟨S200000x1, x0⟩, ⟨S200000x1, x1⟩, ⟨S200000x1, x2⟩, ⟨S200000x1, x3⟩, ⟨S200000x1, x4⟩] hc
    (ix2 n (0 : Fin 5)) 0 (show (0 : Nat) < 5 by decide) S200000x1 x0 rfl rfl 0 rfl (ix2 n (0 : Fin 1)) (fun b hb => ?_) rfl
  match b with
  | ⟨0, _⟩ => rfl
  | ⟨1, _⟩ => exact absurd rfl hb

theorem extras_col1 (x0 x1 x2 x3 x4 : S200000x1.Idx → EReal)
    (hc : Shape.Concatenates [S200000x1, S200000x1, S200000x1, S200000x1, S200000x1] S200000x5 1) (n : Fin 200000) :
    concatenate S200000x5 1 [⟨S200000x1, x0⟩, ⟨S200000x1, x1⟩, ⟨S200000x1, x2⟩, ⟨S200000x1, x3⟩, ⟨S200000x1, x4⟩] hc (ix2 n (1 : Fin 5))
      = x1 (ix2 n (0 : Fin 1)) := by
  refine concatenate_apply_piece 1 [⟨S200000x1, x0⟩, ⟨S200000x1, x1⟩, ⟨S200000x1, x2⟩, ⟨S200000x1, x3⟩, ⟨S200000x1, x4⟩] hc
    (ix2 n (1 : Fin 5)) 1 (show (1 : Nat) < 5 by decide) S200000x1 x1 rfl rfl 1 rfl (ix2 n (0 : Fin 1)) (fun b hb => ?_) rfl
  match b with
  | ⟨0, _⟩ => rfl
  | ⟨1, _⟩ => exact absurd rfl hb

theorem mem_predBlk (t : Fin cfg5.N) (i : S200000x8x2.Idx) :
    i ∈ ((cfg5.win 8).blk t).view.set
      ↔ ∀ a : Fin 3, win5_8.index t a * S2000x8x2.size a ≤ (i a).val ∧ (i a).val < win5_8.index t a * S2000x8x2.size a + S2000x8x2.size a := by
  show i ∈ ((View.whole main_v72_0).slice (win5_8.rect t)).set ↔ _
  rw [View.set_slice_whole, Rect.mem_set_unit]
  exact Iff.rfl

theorem pred_cover (i : S200000x8x2.Idx) : ∃ t : Fin cfg5.N, (cfg5.win 8).flush t = true ∧ i ∈ ((cfg5.win 8).blk t).view.set := by
  obtain ⟨t, ht⟩ := ValueLib.rowBlock_cover (r := 2) (A := S200000x8x2.size) (B := S2000x8x2.size)
    ((show S200000x8x2.size 0 = 100 * S2000x8x2.size 0 from rfl).trans (by rw [N_5])) (by decide) win5_8.index
    (fun t => (index_facts t).2.2.2.2.2.2.2.2.2.2.2.2.1) (fun t a ha => by
      match a with
      | ⟨0, _⟩ => exact absurd rfl ha
      | ⟨1, _⟩ => exact (index_facts t).2.2.2.2.2.2.2.2.2.2.2.2.2.1
      | ⟨2, _⟩ => exact (index_facts t).2.2.2.2.2.2.2.2.2.2.2.2.2.2) i
  exact ⟨t, flush5_8 t, (mem_predBlk t i).mpr ht⟩

section Value
variable (h : Cert.ReferenceIdeal.Stages.Fl Ideal S200000x32) (dI dR : Cert.ReferenceIdeal.Stages.Fl Ideal S200000x1)
  (st : Cert.ReferenceIdeal.Stages.Fl Ideal S200000x2) (N : Cert.ReferenceIdeal.Stages.Fl Ideal S50000x1)
  (WI : Cert.ReferenceIdeal.Stages.Fl Ideal S8x34) (bI : Cert.ReferenceIdeal.Stages.Fl Ideal S8)
  (WR : Cert.ReferenceIdeal.Stages.Fl Ideal S8x34) (bR : Cert.ReferenceIdeal.Stages.Fl Ideal S8)

theorem flushed_eq (hh : V c main_v60 = h)
    (he : V c main_v68 = concatenate S200000x5 1 [⟨S200000x1, dI⟩, ⟨S200000x1, dR⟩,
        ⟨S200000x1, extractStridedSlice S200000x1 ![0, 0] st slices_S200000x2_S200000x1_0_0⟩,
        ⟨S200000x1, extractStridedSlice S200000x1 ![0, 1] st slices_S200000x2_S200000x1_0_1⟩,
        ⟨S200000x1, broadcastInDim S200000x1 ![0] bcast_S200000_S200000x1_0 (shapeCast S200000 (broadcastInDim S4x50000 ![0, 1] bcast_S1x50000_S4x50000_0_1
          (shapeCast S1x50000 (shapeCast S50000 N shapeCasts_S50000x1_S50000) shapeCasts_S50000_S1x50000)) shapeCasts_S4x50000_S200000)⟩]
        concatenates_S200000x1_S200000x1_S200000x1_S200000x1_S200000x1_S200000x5_d1)
    (hWI : V c main_arg16 = WI) (hbI : V c main_v69 = shapeCast S1x8 bI shapeCasts_S8_S1x8)
    (hWR : V c main_arg18 = WR) (hbR : V c main_v70 = shapeCast S1x8 bR shapeCasts_S8_S1x8) (t : Fin cfg5.N) :
    (Region5.data V c).flushed 8 t
      = ((cfg5.win 8).blk t).view.read (Elt Ideal) (Cert.ReferenceIdeal.Stages.pred h dI dR WI bI WR bR) := by
  show (cfg5.win 8).cut (cfg5.grid.coords t) ((Region5.data V c).after 8 t) = _
  rw [Region5.after_8]
  funext j
  obtain ⟨p, q, r, rfl⟩ : ∃ (p : Fin 2000) (q : Fin 8) (r : Fin 2), j = ix3 p q r := ⟨j 0, j 1, j 2, eq_ix3 j⟩
  have hp : p.val < 2000 := p.isLt
  have hN : cfg5.N = 100 := N_5
  have ht : t.val < 100 := hN ▸ t.isLt
  obtain ⟨-, -, -, -, -, -, -, -, -, -, -, -, e0, e1, e2⟩ := index_facts t
  let n : Fin 200000 := ⟨t.val * 2000 + p.val, by omega⟩
  have hn : n.val = t.val * 2000 + p.val := rfl
  have hemb : ((cfg5.win 8).blk t).view.emb (ix3 p q r) = ix3 n q r := by
    funext a; apply Fin.ext
    match a with
    | ⟨0, _⟩ => show win5_8.index t (0 : Fin 3) * 2000 + 1 * p.val = n.val; omega
    | ⟨1, _⟩ => show win5_8.index t (1 : Fin 3) * 8 + 1 * q.val = q.val; omega
    | ⟨2, _⟩ => show win5_8.index t (2 : Fin 3) * 2 + 1 * r.val = r.val; omega
  show Region5.predBlock (Region5.blk V c 0 t) (Region5.blk V c 1 t) (Region5.blk V c 2 t) (Region5.blk V c 3 t)
      (Region5.blk V c 4 t) (Region5.blk V c 5 t) (Region5.blk V c 6 t) (Region5.blk V c 7 t) (ix3 p q r)
    = Cert.ReferenceIdeal.Stages.pred h dI dR WI bI WR bR (((cfg5.win 8).blk t).view.emb (ix3 p q r))
  rw [hemb]
  refine (predBlock_apply (Region5.blk V c 0 t) (Region5.blk V c 1 t) (Region5.blk V c 2 t) (Region5.blk V c 3 t)
      (Region5.blk V c 4 t) (Region5.blk V c 5 t) (Region5.blk V c 6 t) (Region5.blk V c 7 t) p q r).trans ?_
  refine Eq.trans ?_ (refPred_apply h dI dR WI bI WR bR n q r).symm
  rw [wIBlk_eq V c t, bIBlk_eq V c t, wRBlk_eq V c t, bRBlk_eq V c t, hWI, hWR, hbI, hbR]
  refine predAt_congr _ _ WI WR _ _ _ _ p n q r (fun k => ?_) ?_ ?_
  · refine feat34_congr _ _ _ _ _ _ p n k (fun k => ?_) ?_ ?_
    · exact (stateBlk_apply V c t p k n hn).trans (congrFun hh _)
    · refine (extrasBlk_apply V c t p 0 n hn).trans ?_
      rw [he]
      exact extras_col0 _ _ _ _ _ _ n
    · refine (extrasBlk_apply V c t p 1 n hn).trans ?_
      rw [he]
      exact extras_col1 _ _ _ _ _ _ n
  · exact shapeCast_a_1a_apply bI _ 0 q
  · exact shapeCast_a_1a_apply bR _ 0 q

end Value

theorem value (V : (c : Dev nD) → (b : Ref sig .tc) → Buf (Elt Ideal) ((c : Thread nD τ).loc b)) (c : Dev nD)
    (h : Cert.ReferenceIdeal.Stages.Fl Ideal S200000x32) (dI dR : Cert.ReferenceIdeal.Stages.Fl Ideal S200000x1) (st : Cert.ReferenceIdeal.Stages.Fl Ideal S200000x2) (N : Cert.ReferenceIdeal.Stages.Fl Ideal S50000x1)
    (WI : Cert.ReferenceIdeal.Stages.Fl Ideal S8x34) (bI : Cert.ReferenceIdeal.Stages.Fl Ideal S8) (WR : Cert.ReferenceIdeal.Stages.Fl Ideal S8x34) (bR : Cert.ReferenceIdeal.Stages.Fl Ideal S8) (Wsir : Cert.ReferenceIdeal.Stages.Fl Ideal S2x34) (bsir : Cert.ReferenceIdeal.Stages.Fl Ideal S2)
    (hh : V c main_v60 = h)
    (he : V c main_v68 = concatenate S200000x5 1 [⟨S200000x1, dI⟩, ⟨S200000x1, dR⟩,
        ⟨S200000x1, extractStridedSlice S200000x1 ![0, 0] st slices_S200000x2_S200000x1_0_0⟩,
        ⟨S200000x1, extractStridedSlice S200000x1 ![0, 1] st slices_S200000x2_S200000x1_0_1⟩,
        ⟨S200000x1, broadcastInDim S200000x1 ![0] bcast_S200000_S200000x1_0 (shapeCast S200000 (broadcastInDim S4x50000 ![0, 1] bcast_S1x50000_S4x50000_0_1
          (shapeCast S1x50000 (shapeCast S50000 N shapeCasts_S50000x1_S50000) shapeCasts_S50000_S1x50000)) shapeCasts_S4x50000_S200000)⟩]
        concatenates_S200000x1_S200000x1_S200000x1_S200000x1_S200000x1_S200000x5_d1)
    (hWI : V c main_arg16 = WI) (hbI : V c main_v69 = shapeCast S1x8 bI shapeCasts_S8_S1x8)
    (hWR : V c main_arg18 = WR) (hbR : V c main_v70 = shapeCast S1x8 bR shapeCasts_S8_S1x8)
    (hWs : V c main_arg20 = Wsir) (hbs : V c main_v71 = shapeCast S1x2 bsir shapeCasts_S2_S1x2) :
    (Region5.data V c).arrAt 8 cfg5.N = Cert.ReferenceIdeal.Stages.pred h dI dR WI bI WR bR :=
  (Region5.data V c).arrAt_eq_of_cover 8 (Cert.ReferenceIdeal.Stages.pred h dI dR WI bI WR bR)
    (fun t _ => flushed_eq V c h dI dR st N WI bI WR bR hh he hWI hbI hWR hbR t) pred_cover

end Cert.KernelIdeal.Value5Pred

end
-- ==== Proof.KI.Value5PhyA.lean ====
import Idealize.ShloMosaic.Lib.ValueIdx
import Idealize.ShloMosaic.Lib.Pipeline.Value
import Idealize.ShloMosaic.PureOps.Ideal.Laws

noncomputable section

namespace Cert.KernelIdeal.Value5Phy

open Idealize.ShloMosaic Idealize.ShloMosaic.ValueIdx
open scoped BigOperators

section Tables
variable {α : Type}

def pick8 {β : Type} (x0 x1 x2 x3 x4 x5 x6 x7 : β) : Fin 8 → β
  | ⟨0, _⟩ => x0 | ⟨1, _⟩ => x1 | ⟨2, _⟩ => x2 | ⟨3, _⟩ => x3 | ⟨4, _⟩ => x4 | ⟨5, _⟩ => x5 | ⟨6, _⟩ => x6 | ⟨7, _⟩ => x7

theorem cols8_read {R : Nat} (x0 x1 x2 x3 x4 x5 x6 x7 : (⟨2, ![R, 1]⟩ : Shape).Idx → α)
    (h : Shape.Concatenates [(⟨2, ![R, 1]⟩ : Shape), ⟨2, ![R, 1]⟩, ⟨2, ![R, 1]⟩, ⟨2, ![R, 1]⟩, ⟨2, ![R, 1]⟩, ⟨2, ![R, 1]⟩,
      ⟨2, ![R, 1]⟩, ⟨2, ![R, 1]⟩] ⟨2, ![R, 8]⟩ 1) (n : Fin R) (k : Fin 8) :
    concatenate ⟨2, ![R, 8]⟩ 1 [⟨⟨2, ![R, 1]⟩, x0⟩, ⟨⟨2, ![R, 1]⟩, x1⟩, ⟨⟨2, ![R, 1]⟩, x2⟩, ⟨⟨2, ![R, 1]⟩, x3⟩, ⟨⟨2, ![R, 1]⟩, x4⟩,
        ⟨⟨2, ![R, 1]⟩, x5⟩, ⟨⟨2, ![R, 1]⟩, x6⟩, ⟨⟨2, ![R, 1]⟩, x7⟩] h (ix2 n k)
      = pick8 x0 x1 x2 x3 x4 x5 x6 x7 k (ix2 n (0 : Fin 1)) := by
  have hi : ∀ (k : Fin 8) (b : Fin 2), b.cast (rfl : 2 = 2) ≠ (1 : Fin 2) →
      ((ix2 n (0 : Fin 1)) b).val = ((ix2 n k) (b.cast rfl)).val := fun k b hb =>
    match b, hb with
    | ⟨0, _⟩, _ => rfl
    | ⟨1, _⟩, hb => absurd rfl hb
  let L : List ((s : Shape) × (s.Idx → α)) := [⟨⟨2, ![R, 1]⟩, x0⟩, ⟨⟨2, ![R, 1]⟩, x1⟩, ⟨⟨2, ![R, 1]⟩, x2⟩, ⟨⟨2, ![R, 1]⟩, x3⟩,
    ⟨⟨2, ![R, 1]⟩, x4⟩, ⟨⟨2, ![R, 1]⟩, x5⟩, ⟨⟨2, ![R, 1]⟩, x6⟩, ⟨⟨2, ![R, 1]⟩, x7⟩]
  match k with
  | ⟨0, hk⟩ => exact concatenate_apply_piece (t := ⟨2, ![R, 8]⟩) 1 L h (ix2 n ⟨0, hk⟩) 0 (show 0 < 8 by omega) ⟨2, ![R, 1]⟩ x0 rfl rfl 0 rfl (ix2 n 0) (hi _) rfl
  | ⟨1, hk⟩ => exact concatenate_apply_piece (t := ⟨2, ![R, 8]⟩) 1 L h (ix2 n ⟨1, hk⟩) 1 (show 1 < 8 by omega) ⟨2, ![R, 1]⟩ x1 rfl rfl 1 rfl (ix2 n 0) (hi _) rfl
  | ⟨2, hk⟩ => exact concatenate_apply_piece (t := ⟨2, ![R, 8]⟩) 1 L h (ix2 n ⟨2, hk⟩) 2 (show 2 < 8 by omega) ⟨2, ![R, 1]⟩ x2 rfl rfl 2 rfl (ix2 n 0) (hi _) rfl
  | ⟨3, hk⟩ => exact concatenate_apply_piece (t := ⟨2, ![R, 8]⟩) 1 L h (ix2 n ⟨3, hk⟩) 3 (show 3 < 8 by omega) ⟨2, ![R, 1]⟩ x3 rfl rfl 3 rfl (ix2 n 0) (hi _) rfl
  | ⟨4, hk⟩ => exact concatenate_apply_piece (t := ⟨2, ![R, 8]⟩) 1 L h (ix2 n ⟨4, hk⟩) 4 (show 4 < 8 by omega) ⟨2, ![R, 1]⟩ x4 rfl rfl 4 rfl (ix2 n 0) (hi _) rfl
  | ⟨5, hk⟩ => exact concatenate_apply_piece (t := ⟨2, ![R, 8]⟩) 1 L h (ix2 n ⟨5, hk⟩) 5 (show 5 < 8 by omega) ⟨2, ![R, 1]⟩ x5 rfl rfl 5 rfl (ix2 n 0) (hi _) rfl
  | ⟨6, hk⟩ => exact concatenate_apply_piece (t := ⟨2, ![R, 8]⟩) 1 L h (ix2 n ⟨6, hk⟩) 6 (show 6 < 8 by omega) ⟨2, ![R, 1]⟩ x6 rfl rfl 6 rfl (ix2 n 0) (hi _) rfl
  | ⟨7, hk⟩ => exact concatenate_apply_piece (t := ⟨2, ![R, 8]⟩) 1 L h (ix2 n ⟨7, hk⟩) 7 (show 7 < 8 by omega) ⟨2, ![R, 1]⟩ x7 rfl rfl 7 rfl (ix2 n 0) (hi _) rfl

theorem pair_read {R : Nat} (a b : (⟨3, ![R, 8, 1]⟩ : Shape).Idx → α)
    (h : Shape.Concatenates [(⟨3, ![R, 8, 1]⟩ : Shape), ⟨3, ![R, 8, 1]⟩] ⟨3, ![R, 8, 2]⟩ 2) (n : Fin R) (k : Fin 8) (c : Fin 2) :
    concatenate ⟨3, ![R, 8, 2]⟩ 2 [⟨⟨3, ![R, 8, 1]⟩, a⟩, ⟨⟨3, ![R, 8, 1]⟩, b⟩] h (ix3 n k c)
      = if c.val = 0 then a (ix3 n k (0 : Fin 1)) else b (ix3 n k (0 : Fin 1)) := by
  have hi : ∀ (c : Fin 2) (d : Fin 3), d.cast (rfl : 3 = 3) ≠ (2 : Fin 3) →
      ((ix3 n k (0 : Fin 1)) d).val = ((ix3 n k c) (d.cast rfl)).val := fun c d hd =>
    match d, hd with
    | ⟨0, _⟩, _ => rfl
    | ⟨1, _⟩, _ => rfl
    | ⟨2, _⟩, hd => absurd rfl hd
  match c with
  | ⟨0, hc⟩ =>
    rw [if_pos rfl]
    exact concatenate_pair_apply_left (t := ⟨3, ![R, 8, 2]⟩) 2 a b h (ix3 n k ⟨0, hc⟩) rfl (ix3 n k (0 : Fin 1)) (fun d =>
      match d with
      | ⟨0, _⟩ => rfl
      | ⟨1, _⟩ => rfl
      | ⟨2, _⟩ => rfl)
  | ⟨1, hc⟩ =>
    rw [if_neg (show ¬(1 : Nat) = 0 by omega)]
    exact concatenate_pair_apply_right (t := ⟨3, ![R, 8, 2]⟩) 2 a b h (ix3 n k ⟨1, hc⟩) rfl rfl (ix3 n k (0 : Fin 1)) (hi _) rfl

theorem lastUnit_read {R : Nat} (x : (⟨2, ![R, 8]⟩ : Shape).Idx → α) (h : (⟨2, ![R, 8]⟩ : Shape).ShapeCasts ⟨3, ![R, 8, 1]⟩)
    (n : Fin R) (k : Fin 8) : shapeCast ⟨3, ![R, 8, 1]⟩ x h (ix3 n k (0 : Fin 1)) = x (ix2 n k) := by
  refine shapeCast_apply x h (ix3 n k (0 : Fin 1)) (ix2 n k) ?_
  rw [Shape.rowMajor_val_two, Shape.rowMajor_val_three]
  show n.val * 8 + k.val = (n.val * 8 + k.val) * 1 + 0
  omega

theorem lastBcast_read {R : Nat} (x : (⟨2, ![R, 8]⟩ : Shape).Idx → α)
    (h : (⟨2, ![R, 8]⟩ : Shape).BroadcastsInDim ⟨3, ![R, 8, 1]⟩ ![0, 1]) (n : Fin R) (k : Fin 8) :
    broadcastInDim ⟨3, ![R, 8, 1]⟩ ![0, 1] h x (ix3 n k (0 : Fin 1)) = x (ix2 n k) := by
  refine broadcastInDim_apply ![0, 1] h x (ix3 n k (0 : Fin 1)) (ix2 n k) fun a => ?_
  match a with
  | ⟨0, _⟩ =>
    show n.val = if R = 1 then 0 else n.val
    split
    · have := n.isLt; omega
    · rfl
  | ⟨1, _⟩ =>
    exact (if_neg (by show ¬((8 : Nat) = 1); omega)).symm

end Tables

def feat (x : Fin 32 → EReal) (d1 d2 : EReal) (k : Fin 34) : EReal :=
  if h : k.val < 32 then x ⟨k.val, h⟩ else if k.val = 32 then d1 else d2

theorem joined_read {R : Nat} (x : (⟨2, ![R, 32]⟩ : Shape).Idx → EReal) (d1 d2 : (⟨2, ![R, 1]⟩ : Shape).Idx → EReal)
    (h : Shape.Concatenates [(⟨2, ![R, 32]⟩ : Shape), ⟨2, ![R, 1]⟩, ⟨2, ![R, 1]⟩] ⟨2, ![R, 34]⟩ 1) (n : Fin R) (k : Fin 34) :
    concatenate ⟨2, ![R, 34]⟩ 1 [⟨⟨2, ![R, 32]⟩, x⟩, ⟨⟨2, ![R, 1]⟩, d1⟩, ⟨⟨2, ![R, 1]⟩, d2⟩] h (ix2 n k)
      = feat (fun q => x (ix2 n q)) (d1 (ix2 n (0 : Fin 1))) (d2 (ix2 n (0 : Fin 1))) k := by
  let L : List ((s : Shape) × (s.Idx → EReal)) := [⟨⟨2, ![R, 32]⟩, x⟩, ⟨⟨2, ![R, 1]⟩, d1⟩, ⟨⟨2, ![R, 1]⟩, d2⟩]
  unfold feat
  by_cases h0 : k.val < 32
  · rw [dif_pos h0]
    refine concatenate_apply_piece (t := ⟨2, ![R, 34]⟩) 1 L h (ix2 n k) 0 (show 0 < 3 by omega) ⟨2, ![R, 32]⟩ x rfl rfl 0 rfl
      (ix2 n ⟨k.val, h0⟩) (fun b hb => ?_) (Nat.zero_add _)
    match b, hb with
    | ⟨0, _⟩, _ => rfl
    | ⟨1, _⟩, hb => exact absurd rfl hb
  · rw [dif_neg h0]
    by_cases h1 : k.val = 32
    · rw [if_pos h1]
      refine concatenate_apply_piece (t := ⟨2, ![R, 34]⟩) 1 L h (ix2 n k) 1 (show 1 < 3 by omega) ⟨2, ![R, 1]⟩ d1 rfl rfl 32 rfl
        (ix2 n (0 : Fin 1)) (fun b hb => ?_) (by show 32 + 0 = k.val; omega)
      match b, hb with
      | ⟨0, _⟩, _ => rfl
      | ⟨1, _⟩, hb => exact absurd rfl hb
    · rw [if_neg h1]
      refine concatenate_apply_piece (t := ⟨2, ![R, 34]⟩) 1 L h (ix2 n k) 2 (show 2 < 3 by omega) ⟨2, ![R, 1]⟩ d2 rfl rfl 33 rfl
        (ix2 n (0 : Fin 1)) (fun b hb => ?_) (by show 33 + 0 = k.val; have := k.isLt; omega)
      match b, hb with
      | ⟨0, _⟩, _ => rfl
      | ⟨1, _⟩, hb => exact absurd rfl hb

theorem plain_lhsIdx {R K N : Nat} (n : Fin R) (c : Fin N) (k : Fin K) :
    (DotDims.plain R K N).lhsIdx (ix2 n c) ((contrEquiv1 (DotDims.plain R K N) K rfl rfl).symm k) = ix2 n k := by
  funext a
  refine Fin.ext ?_
  match a with
  | ⟨0, _⟩ => rfl
  | ⟨1, _⟩ => exact (DotDims.lhsIdx_val_of_single (DotDims.plain R K N) (cl := 1) rfl _ _).trans (contrEquiv1_symm_val _ K rfl rfl k)

theorem plain_rhsIdx {R K N : Nat} (n : Fin R) (c : Fin N) (k : Fin K) :
    (DotDims.plain R K N).rhsIdx (ix2 n c) ((contrEquiv1 (DotDims.plain R K N) K rfl rfl).symm k) = ix2 k c := by
  funext a
  refine Fin.ext ?_
  match a with
  | ⟨0, _⟩ => exact (DotDims.rhsIdx_val_of_single (DotDims.plain R K N) (cr := 0) rfl _ _).trans (contrEquiv1_symm_val _ K rfl rfl k)
  | ⟨1, _⟩ => rfl

theorem plain_sum {R K N : Nat} (x : (⟨2, ![R, K]⟩ : Shape).Idx → EReal) (w : (⟨2, ![K, N]⟩ : Shape).Idx → EReal) (n : Fin R) (c : Fin N) :
    ∑ k : (DotDims.plain R K N).contr.Idx, x ((DotDims.plain R K N).lhsIdx (ix2 n c) k) * w ((DotDims.plain R K N).rhsIdx (ix2 n c) k)
      = ∑ k : Fin K, x (ix2 n k) * w (ix2 k c) := by
  rw [← Equiv.sum_comp (contrEquiv1 (DotDims.plain R K N) K rfl rfl).symm]
  exact Finset.sum_congr rfl fun k _ => by rw [plain_lhsIdx, plain_rhsIdx]

theorem matmul_plain_read {R K N : Nat} {φ₁ φ₂ : FTy} (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (n : Fin R) (c : Fin N) :
    matmul D none x w (constant ⟨2, ![R, N]⟩ .f32 0x00000000#32) (ix2 n c) = ∑ k : Fin K, x (ix2 n k) * w (ix2 k c) := by
  subst hD
  exact (Ideal.matmul_constant_zero_apply _ none x w _).trans (plain_sum x w n c)

theorem dotGeneral_plain_read {R K N : Nat} {φ₁ φ₂ : FTy} (D : DotDims ⟨2, ![R, K]⟩ ⟨2, ![K, N]⟩ ⟨2, ![R, N]⟩) (hD : D = DotDims.plain R K N)
    (x : FVec Ideal ⟨2, ![R, K]⟩ φ₁) (w : FVec Ideal ⟨2, ![K, N]⟩ φ₂) (n : Fin R) (c : Fin N) :
    Host.dotGeneral D none x w (ix2 n c) = ∑ k : Fin K, x (ix2 n k) * w (ix2 k c) := by
  subst hD
  exact (Ideal.dotGeneral_apply _ none .single x w _).trans (plain_sum x w n c)

def stepI (al be n : EReal) (s : EReal × EReal) : EReal := (al * s.1) * Ideal.div ((n - s.1) - s.2) n - be * s.1

def stepR (be : EReal) (s : EReal × EReal) : EReal := be * s.1

def sir (al be n i0 r0 : EReal) : Nat → EReal × EReal
  | 0 => (i0, r0)
  | k + 1 => ((sir al be n i0 r0 k).1 + stepI al be n (sir al be n i0 r0 k), (sir al be n i0 r0 k).2 + stepR be (sir al be n i0 r0 k))

def preRate (x : Fin 34 → EReal) (W : Fin 2 → Fin 34 → EReal) (b : Fin 2 → EReal) (c : Fin 2) : EReal :=
  (∑ k : Fin 34, x k * W c k) + b c

def phyCell (al be n i0 r0 : EReal) (k : Fin 8) (c : Fin 2) : EReal :=
  if c.val = 0 then stepI al be n (sir al be n i0 r0 k.val) else stepR be (sir al be n i0 r0 k.val)

def phyAt (x : Fin 34 → EReal) (W : Fin 2 → Fin 34 → EReal) (b : Fin 2 → EReal) (n i0 r0 : EReal) (k : Fin 8) (c : Fin 2) : EReal :=
  phyCell (Ideal.logistic (preRate x W b 0)) (Ideal.logistic (preRate x W b 1)) n i0 r0 k c

end Cert.KernelIdeal.Value5Phy

end
-- ==== Proof.KI.Value5PhyB.lean ====
import proofs.«112250_j2224793059992_2_alg».proof.Proof.Stages
import proofs.«112250_j2224793059992_2_alg».proof.Proof.KI.Value5PhyA
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.KernelIdeal.Value5Phy

open Idealize.ShloMosaic Idealize.ShloMosaic.ValueIdx
open scoped BigOperators
open Cert.ReferenceIdeal Cert.ReferenceIdeal.Gen
open Cert.ReferenceIdeal.Stages (Fl)

theorem col_read {α : Type} {R : Nat} (x : (⟨1, ![R]⟩ : Shape).Idx → α) (h : (⟨1, ![R]⟩ : Shape).BroadcastsInDim ⟨2, ![R, 1]⟩ ![0])
    (n : Fin R) : broadcastInDim ⟨2, ![R, 1]⟩ ![0] h x (ix2 n (0 : Fin 1)) = x (ix1 n) := by
  refine broadcastInDim_apply ![0] h x (ix2 n (0 : Fin 1)) (ix1 n) fun a => ?_
  match a with
  | ⟨0, _⟩ =>
    show n.val = if R = 1 then 0 else n.val
    split
    · have := n.isLt; omega
    · rfl

theorem flat_read {α : Type} {R : Nat} (x : (⟨2, ![R, 1]⟩ : Shape).Idx → α) (h : (⟨2, ![R, 1]⟩ : Shape).ShapeCasts ⟨1, ![R]⟩)
    (n : Fin R) : shapeCast ⟨1, ![R]⟩ x h (ix1 n) = x (ix2 n (0 : Fin 1)) := by
  refine shapeCast_apply x h (ix1 n) (ix2 n (0 : Fin 1)) ?_
  rw [Shape.rowMajor_val_two, Shape.rowMajor_val_one]
  show n.val * 1 + 0 = n.val
  omega

theorem col_apply (x : Fl Ideal S200000) (n : Fin 200000) : Stages.col x (ix2 n (0 : Fin 1)) = x (ix1 n) := by
  unfold Stages.col
  exact col_read (R := 200000) x _ n

theorem cols8_apply (f : Nat → Fl Ideal S200000) (n : Fin 200000) (k : Fin 8) : Stages.cols8 f (ix2 n k) = f k.val (ix1 n) := by
  unfold Stages.cols8
  refine (cols8_read (R := 200000) _ _ _ _ _ _ _ _ _ n k).trans ?_
  match k with
  | ⟨0, _⟩ => exact col_apply (f 0) n
  | ⟨1, _⟩ => exact col_apply (f 1) n
  | ⟨2, _⟩ => exact col_apply (f 2) n
  | ⟨3, _⟩ => exact col_apply (f 3) n
  | ⟨4, _⟩ => exact col_apply (f 4) n
  | ⟨5, _⟩ => exact col_apply (f 5) n
  | ⟨6, _⟩ => exact col_apply (f 6) n
  | ⟨7, _⟩ => exact col_apply (f 7) n

theorem pair_apply (a b : Fl Ideal S200000x8) (n : Fin 200000) (k : Fin 8) (c : Fin 2) :
    Stages.pair a b (ix3 n k c) = if c.val = 0 then a (ix2 n k) else b (ix2 n k) := by
  unfold Stages.pair
  refine (pair_read (R := 200000) _ _ _ n k c).trans ?_
  split
  · exact lastBcast_read (R := 200000) _ _ n k
  · exact lastBcast_read (R := 200000) _ _ n k

theorem counts_apply (al be n i0 r0 : Fl Ideal S200000) (j : S200000.Idx) (k : Nat) :
    ((Stages.counts al be n i0 r0 k).1 j, (Stages.counts al be n i0 r0 k).2 j) = sir (al j) (be j) (n j) (i0 j) (r0 j) k := by
  induction k with
  | zero => rfl
  | succ k ih =>
    rw [sir, ← ih]
    rfl

theorem newI_apply (al be n i0 r0 : Fl Ideal S200000) (j : S200000.Idx) (k : Nat) :
    Stages.newI al be n (Stages.counts al be n i0 r0 k) j = stepI (al j) (be j) (n j) (sir (al j) (be j) (n j) (i0 j) (r0 j) k) :=
  congrArg (stepI (al j) (be j) (n j)) (counts_apply al be n i0 r0 j k)
theorem newR_apply (al be n i0 r0 : Fl Ideal S200000) (j : S200000.Idx) (k : Nat) :
    Stages.newR be (Stages.counts al be n i0 r0 k) j = stepR (be j) (sir (al j) (be j) (n j) (i0 j) (r0 j) k) :=
  congrArg (stepR (be j)) (counts_apply al be n i0 r0 j k)

theorem phy_cell (h : Fl Ideal S200000x32) (dI dR : Fl Ideal S200000x1) (Wsir : Fl Ideal S2x34) (bsir : Fl Ideal S2) (st : Fl Ideal S200000x2)
    (N : Fl Ideal S50000x1) (n : Fin 200000) (k : Fin 8) (c : Fin 2) :
    Stages.phy h dI dR Wsir bsir st N (ix3 n k c)
      = phyCell (Stages.alpha (Stages.rates (Stages.joined h dI dR) Wsir bsir) (ix1 n))
          (Stages.beta (Stages.rates (Stages.joined h dI dR) Wsir bsir) (ix1 n)) (Stages.popul N (ix1 n))
          (Stages.infected0 st (ix1 n)) (Stages.recovered0 st (ix1 n)) k c := by
  unfold Stages.phy phyCell
  refine (pair_apply _ _ n k c).trans ?_
  split
  · exact (cols8_apply _ n k).trans (newI_apply _ _ _ _ _ (ix1 n) k.val)
  · exact (cols8_apply _ n k).trans (newR_apply _ _ _ _ _ (ix1 n) k.val)

theorem infected0_apply (st : Fl Ideal S200000x2) (n : Fin 200000) : Stages.infected0 st (ix1 n) = st (ix2 n (0 : Fin 2)) := by
  unfold Stages.infected0
  exact (flat_read (R := 200000) _ _ n).trans (slice2_axis1_apply 0 st _ n 0 0 rfl)
theorem recovered0_apply (st : Fl Ideal S200000x2) (n : Fin 200000) : Stages.recovered0 st (ix1 n) = st (ix2 n (1 : Fin 2)) := by
  unfold Stages.recovered0
  exact (flat_read (R := 200000) _ _ n).trans (slice2_axis1_apply 1 st _ n 0 1 rfl)

theorem popul_apply (N : Fl Ideal S50000x1) (n : Fin 200000) :
    Stages.popul N (ix1 n) = N (ix2 (⟨n.val % 50000, Nat.mod_lt _ (by decide)⟩ : Fin 50000) (0 : Fin 1)) := by
  unfold Stages.popul
  have hn := n.isLt
  refine (flat_read (R := 200000) _ _ n).trans ?_
  refine (shapeCast_apply _ _ (ix2 n (0 : Fin 1))
    (ix4 (⟨n.val / 50000, by omega⟩ : Fin 4) (⟨n.val % 50000, Nat.mod_lt _ (by decide)⟩ : Fin 50000) (0 : Fin 1) (0 : Fin 1)) ?_).trans ?_
  · rw [Shape.rowMajor_val_four, Shape.rowMajor_val_two]
    show ((n.val / 50000 * 50000 + n.val % 50000) * 1 + 0) * 1 + 0 = n.val * 1 + 0
    omega
  refine (broadcastInDim_apply _ _ _ _ (ix4 (0 : Fin 1) (⟨n.val % 50000, Nat.mod_lt _ (by decide)⟩ : Fin 50000) (0 : Fin 1) (0 : Fin 1))
    fun a => ?_).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show n.val % 50000 * 1 + 0 = ((0 * 50000 + n.val % 50000) * 1 + 0) * 1 + 0
  omega

theorem ones1_apply (j : S200000.Idx) : Stages.ones1 (F := Ideal) j = 1 := by
  unfold Stages.ones1
  exact (broadcastInDim_scalar_apply _ _ j).trans Ideal.ofBits_one_f32

theorem sig1_apply (y : Fl Ideal S200000) (j : S200000.Idx) : Stages.sig1 y j = Ideal.logistic (y j) := by
  have e : Stages.sig1 y j = Ideal.div (Stages.ones1 (F := Ideal) j) (Stages.ones1 (F := Ideal) j + Ideal.exp (-(y j))) := rfl
  rw [e, ones1_apply]
  rfl

theorem alpha_apply (r : Fl Ideal S200000x2) (n : Fin 200000) : Stages.alpha r (ix1 n) = Ideal.logistic (r (ix2 n (0 : Fin 2))) := by
  unfold Stages.alpha
  rw [sig1_apply, flat_read (R := 200000) _ _ n, slice2_axis1_apply 0 r _ n 0 0 rfl]
theorem beta_apply (r : Fl Ideal S200000x2) (n : Fin 200000) : Stages.beta r (ix1 n) = Ideal.logistic (r (ix2 n (1 : Fin 2))) := by
  unfold Stages.beta
  rw [sig1_apply, flat_read (R := 200000) _ _ n, slice2_axis1_apply 1 r _ n 0 1 rfl]

theorem rowOf_read {α : Type} {C : Nat} (b : (⟨1, ![C]⟩ : Shape).Idx → α) (h : (⟨1, ![C]⟩ : Shape).BroadcastsInDim ⟨2, ![1, C]⟩ ![1])
    (c : Fin C) : broadcastInDim ⟨2, ![1, C]⟩ ![1] h b (ix2 (0 : Fin 1) c) = b (ix1 c) := by
  refine broadcastInDim_apply ![1] h b (ix2 (0 : Fin 1) c) (ix1 c) fun a => ?_
  match a with
  | ⟨0, _⟩ =>
    show c.val = if C = 1 then 0 else c.val
    split
    · have := c.isLt; omega
    · rfl

theorem joined_apply (h : Fl Ideal S200000x32) (dI dR : Fl Ideal S200000x1) (n : Fin 200000) (k : Fin 34) :
    Stages.joined h dI dR (ix2 n k) = feat (fun q => h (ix2 n q)) (dI (ix2 n (0 : Fin 1))) (dR (ix2 n (0 : Fin 1))) k := by
  unfold Stages.joined
  exact joined_read (R := 200000) h dI dR _ n k

theorem rates_apply (hc : Fl Ideal S200000x34) (Wsir : Fl Ideal S2x34) (bsir : Fl Ideal S2) (n : Fin 200000) (c : Fin 2) :
    Stages.rates hc Wsir bsir (ix2 n c) = preRate (fun k => hc (ix2 n k)) (fun c q => Wsir (ix2 c q)) (fun c => bsir (ix1 c)) c := by
  unfold Stages.rates preRate
  refine (addf_apply _ _ _).trans ?_
  congr 1
  · refine (dotGeneral_plain_read _ rfl _ _ n c).trans (Finset.sum_congr rfl fun k _ => ?_)
    congr 1
    exact transpose_ix2_apply _ _ k c
  · exact (broadcastInDim_oneRow_apply _ _ n c).trans (rowOf_read (C := 2) bsir _ c)

theorem phy_read (h : Fl Ideal S200000x32) (dI dR : Fl Ideal S200000x1) (Wsir : Fl Ideal S2x34) (bsir : Fl Ideal S2) (st : Fl Ideal S200000x2)
    (N : Fl Ideal S50000x1) (n : Fin 200000) (k : Fin 8) (c : Fin 2) :
    Stages.phy h dI dR Wsir bsir st N (ix3 n k c)
      = phyAt (feat (fun q => h (ix2 n q)) (dI (ix2 n (0 : Fin 1))) (dR (ix2 n (0 : Fin 1)))) (fun c q => Wsir (ix2 c q))
          (fun c => bsir (ix1 c)) (N (ix2 (⟨n.val % 50000, Nat.mod_lt _ (by decide)⟩ : Fin 50000) (0 : Fin 1)))
          (st (ix2 n (0 : Fin 2))) (st (ix2 n (1 : Fin 2))) k c := by
  rw [phy_cell, alpha_apply, beta_apply, rates_apply, rates_apply, popul_apply, infected0_apply, recovered0_apply]
  have hj : (fun k => Stages.joined h dI dR (ix2 n k)) = feat (fun q => h (ix2 n q)) (dI (ix2 n (0 : Fin 1))) (dR (ix2 n (0 : Fin 1))) :=
    funext fun k => joined_apply h dI dR n k
  rw [hj]
  rfl

end Cert.KernelIdeal.Value5Phy

end
-- ==== Proof.KI.Value5PhyC.lean ====
import proofs.«112250_j2224793059992_2_alg».proof.Proof.KI.Region5
import proofs.«112250_j2224793059992_2_alg».proof.Proof.KI.Value5PhyA
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value5Phy

open Idealize.ShloMosaic Idealize.ShloMosaic.ValueIdx
open scoped BigOperators
open Cert.KernelIdeal Cert.KernelIdeal.Gen Idealize.ShloMosaic.TcCoe

abbrev cnt (v6 v7 v8 v36 v38 : FVec Ideal S2000x1 .f32) (j : S2000x1.Idx) (k : Nat) : EReal × EReal :=
  sir (v36 j) (v38 j) (v8 j) (v6 j) (v7 j) k

theorem step_of (al be n i0 r0 : EReal) (k : Nat) (I R : EReal) (hI : I = (sir al be n i0 r0 k).1) (hR : R = (sir al be n i0 r0 k).2) :
    (al * I) * Ideal.div ((n - I) - R) n - be * I = stepI al be n (sir al be n i0 r0 k)
    ∧ be * I = stepR be (sir al be n i0 r0 k)
    ∧ I + ((al * I) * Ideal.div ((n - I) - R) n - be * I) = (sir al be n i0 r0 (k + 1)).1
    ∧ R + be * I = (sir al be n i0 r0 (k + 1)).2 := by
  subst hI hR
  exact ⟨rfl, rfl, rfl, rfl⟩

section Steps
variable (v6 v7 v8 v36 v38 v39 : FVec Ideal S2000x1 .f32) (j : S2000x1.Idx)

theorem newI1 (h39 : v39 j = v8 j - v6 j) :
    k5_pay18 v6 v7 v8 v36 v38 v39 j = stepI (v36 j) (v38 j) (v8 j) (cnt v6 v7 v8 v36 v38 j 0) := by
  have e : k5_pay18 v6 v7 v8 v36 v38 v39 j = (v36 j * v6 j) * Ideal.div (v39 j - v7 j) (v8 j) - v38 j * v6 j := rfl
  rw [e, h39]
  rfl
theorem newR1 : k5_pay19 v6 v38 j = stepR (v38 j) (cnt v6 v7 v8 v36 v38 j 0) := rfl
theorem cntI1 (h39 : v39 j = v8 j - v6 j) : k5_pay20 v6 v7 v8 v36 v38 v39 j = (cnt v6 v7 v8 v36 v38 j 1).1 := by
  have e : k5_pay20 v6 v7 v8 v36 v38 v39 j = v6 j + k5_pay18 v6 v7 v8 v36 v38 v39 j := rfl
  rw [e, newI1 v6 v7 v8 v36 v38 v39 j h39]
  rfl
theorem cntR1 : k5_pay21 v6 v7 v38 j = (cnt v6 v7 v8 v36 v38 j 1).2 := rfl

theorem newI2 (h39 : v39 j = v8 j - v6 j) :
    k5_pay22 v6 v7 v8 v36 v38 v39 j = stepI (v36 j) (v38 j) (v8 j) (cnt v6 v7 v8 v36 v38 j 1) :=
  (rfl : k5_pay22 v6 v7 v8 v36 v38 v39 j = (v36 j * k5_pay20 v6 v7 v8 v36 v38 v39 j)
      * Ideal.div ((v8 j - k5_pay20 v6 v7 v8 v36 v38 v39 j) - k5_pay21 v6 v7 v38 j) (v8 j) - v38 j * k5_pay20 v6 v7 v8 v36 v38 v39 j).trans
    (step_of _ _ _ _ _ 1 _ _ (cntI1 v6 v7 v8 v36 v38 v39 j h39) (cntR1 v6 v7 v8 v36 v38 j)).1
theorem newR2 (h39 : v39 j = v8 j - v6 j) : k5_pay23 v6 v7 v8 v36 v38 v39 j = stepR (v38 j) (cnt v6 v7 v8 v36 v38 j 1) :=
  (rfl : k5_pay23 v6 v7 v8 v36 v38 v39 j = v38 j * k5_pay20 v6 v7 v8 v36 v38 v39 j).trans
    (step_of (v36 j) _ (v8 j) _ _ 1 _ (k5_pay21 v6 v7 v38 j) (cntI1 v6 v7 v8 v36 v38 v39 j h39) (cntR1 v6 v7 v8 v36 v38 j)).2.1
theorem cntI2 (h39 : v39 j = v8 j - v6 j) : k5_pay24 v6 v7 v8 v36 v38 v39 j = (cnt v6 v7 v8 v36 v38 j 2).1 :=
  (rfl : k5_pay24 v6 v7 v8 v36 v38 v39 j = k5_pay20 v6 v7 v8 v36 v38 v39 j + ((v36 j * k5_pay20 v6 v7 v8 v36 v38 v39 j)
      * Ideal.div ((v8 j - k5_pay20 v6 v7 v8 v36 v38 v39 j) - k5_pay21 v6 v7 v38 j) (v8 j) - v38 j * k5_pay20 v6 v7 v8 v36 v38 v39 j)).trans
    (step_of _ _ _ _ _ 1 _ _ (cntI1 v6 v7 v8 v36 v38 v39 j h39) (cntR1 v6 v7 v8 v36 v38 j)).2.2.1
theorem cntR2 (h39 : v39 j = v8 j - v6 j) : k5_pay25 v6 v7 v8 v36 v38 v39 j = (cnt v6 v7 v8 v36 v38 j 2).2 :=
  (rfl : k5_pay25 v6 v7 v8 v36 v38 v39 j = k5_pay21 v6 v7 v38 j + v38 j * k5_pay20 v6 v7 v8 v36 v38 v39 j).trans
    (step_of (v36 j) _ (v8 j) _ _ 1 _ _ (cntI1 v6 v7 v8 v36 v38 v39 j h39) (cntR1 v6 v7 v8 v36 v38 j)).2.2.2

theorem newI3 (h39 : v39 j = v8 j - v6 j) :
    k5_pay26 v6 v7 v8 v36 v38 v39 j = stepI (v36 j) (v38 j) (v8 j) (cnt v6 v7 v8 v36 v38 j 2) :=
  (rfl : k5_pay26 v6 v7 v8 v36 v38 v39 j = (v36 j * k5_pay24 v6 v7 v8 v36 v38 v39 j)
      * Ideal.div ((v8 j - k5_pay24 v6 v7 v8 v36 v38 v39 j) - k5_pay25 v6 v7 v8 v36 v38 v39 j) (v8 j) - v38 j * k5_pay24 v6 v7 v8 v36 v38 v39 j).trans
    (step_of _ _ _ _ _ 2 _ _ (cntI2 v6 v7 v8 v36 v38 v39 j h39) (cntR2 v6 v7 v8 v36 v38 v39 j h39)).1
theorem newR3 (h39 : v39 j = v8 j - v6 j) : k5_pay27 v6 v7 v8 v36 v38 v39 j = stepR (v38 j) (cnt v6 v7 v8 v36 v38 j 2) :=
  (rfl : k5_pay27 v6 v7 v8 v36 v38 v39 j = v38 j * k5_pay24 v6 v7 v8 v36 v38 v39 j).trans
    (step_of (v36 j) _ (v8 j) _ _ 2 _ (k5_pay25 v6 v7 v8 v36 v38 v39 j) (cntI2 v6 v7 v8 v36 v38 v39 j h39) (cntR2 v6 v7 v8 v36 v38 v39 j h39)).2.1
theorem cntI3 (h39 : v39 j = v8 j - v6 j) : k5_pay28 v6 v7 v8 v36 v38 v39 j = (cnt v6 v7 v8 v36 v38 j 3).1 :=
  (rfl : k5_pay28 v6 v7 v8 v36 v38 v39 j = k5_pay24 v6 v7 v8 v36 v38 v39 j + ((v36 j * k5_pay24 v6 v7 v8 v36 v38 v39 j)
      * Ideal.div ((v8 j - k5_pay24 v6 v7 v8 v36 v38 v39 j) - k5_pay25 v6 v7 v8 v36 v38 v39 j) (v8 j) - v38 j * k5_pay24 v6 v7 v8 v36 v38 v39 j)).trans
    (step_of _ _ _ _ _ 2 _ _ (cntI2 v6 v7 v8 v36 v38 v39 j h39) (cntR2 v6 v7 v8 v36 v38 v39 j h39)).2.2.1
theorem cntR3 (h39 : v39 j = v8 j - v6 j) : k5_pay29 v6 v7 v8 v36 v38 v39 j = (cnt v6 v7 v8 v36 v38 j 3).2 :=
  (rfl : k5_pay29 v6 v7 v8 v36 v38 v39 j = k5_pay25 v6 v7 v8 v36 v38 v39 j + v38 j * k5_pay24 v6 v7 v8 v36 v38 v39 j).trans
    (step_of (v36 j) _ (v8 j) _ _ 2 _ _ (cntI2 v6 v7 v8 v36 v38 v39 j h39) (cntR2 v6 v7 v8 v36 v38 v39 j h39)).2.2.2

theorem newI4 (h39 : v39 j = v8 j - v6 j) :
    k5_pay30 v6 v7 v8 v36 v38 v39 j = stepI (v36 j) (v38 j) (v8 j) (cnt v6 v7 v8 v36 v38 j 3) :=
  (rfl : k5_pay30 v6 v7 v8 v36 v38 v39 j = (v36 j * k5_pay28 v6 v7 v8 v36 v38 v39 j)
      * Ideal.div ((v8 j - k5_pay28 v6 v7 v8 v36 v38 v39 j) - k5_pay29 v6 v7 v8 v36 v38 v39 j) (v8 j) - v38 j * k5_pay28 v6 v7 v8 v36 v38 v39 j).trans
    (step_of _ _ _ _ _ 3 _ _ (cntI3 v6 v7 v8 v36 v38 v39 j h39) (cntR3 v6 v7 v8 v36 v38 v39 j h39)).1
theorem newR4 (h39 : v39 j = v8 j - v6 j) : k5_pay31 v6 v7 v8 v36 v38 v39 j = stepR (v38 j) (cnt v6 v7 v8 v36 v38 j 3) :=
  (rfl : k5_pay31 v6 v7 v8 v36 v38 v39 j = v38 j * k5_pay28 v6 v7 v8 v36 v38 v39 j).trans
    (step_of (v36 j) _ (v8 j) _ _ 3 _ (k5_pay29 v6 v7 v8 v36 v38 v39 j) (cntI3 v6 v7 v8 v36 v38 v39 j h39) (cntR3 v6 v7 v8 v36 v38 v39 j h39)).2.1
theorem cntI4 (h39 : v39 j = v8 j - v6 j) : k5_pay32 v6 v7 v8 v36 v38 v39 j = (cnt v6 v7 v8 v36 v38 j 4).1 :=
  (rfl : k5_pay32 v6 v7 v8 v36 v38 v39 j = k5_pay28 v6 v7 v8 v36 v38 v39 j + ((v36 j * k5_pay28 v6 v7 v8 v36 v38 v39 j)
      * Ideal.div ((v8 j - k5_pay28 v6 v7 v8 v36 v38 v39 j) - k5_pay29 v6 v7 v8 v36 v38 v39 j) (v8 j) - v38 j * k5_pay28 v6 v7 v8 v36 v38 v39 j)).trans
    (step_of _ _ _ _ _ 3 _ _ (cntI3 v6 v7 v8 v36 v38 v39 j h39) (cntR3 v6 v7 v8 v36 v38 v39 j h39)).2.2.1
theorem cntR4 (h39 : v39 j = v8 j - v6 j) : k5_pay33 v6 v7 v8 v36 v38 v39 j = (cnt v6 v7 v8 v36 v38 j 4).2 :=
  (rfl : k5_pay33 v6 v7 v8 v36 v38 v39 j = k5_pay29 v6 v7 v8 v36 v38 v39 j + v38 j * k5_pay28 v6 v7 v8 v36 v38 v39 j).trans
    (step_of (v36 j) _ (v8 j) _ _ 3 _ _ (cntI3 v6 v7 v8 v36 v38 v39 j h39) (cntR3 v6 v7 v8 v36 v38 v39 j h39)).2.2.2

theorem newI5 (h39 : v39 j = v8 j - v6 j) :
    k5_pay34 v6 v7 v8 v36 v38 v39 j = stepI (v36 j) (v38 j) (v8 j) (cnt v6 v7 v8 v36 v38 j 4) :=
  (rfl : k5_pay34 v6 v7 v8 v36 v38 v39 j = (v36 j * k5_pay32 v6 v7 v8 v36 v38 v39 j)
      * Ideal.div ((v8 j - k5_pay32 v6 v7 v8 v36 v38 v39 j) - k5_pay33 v6 v7 v8 v36 v38 v39 j) (v8 j) - v38 j * k5_pay32 v6 v7 v8 v36 v38 v39 j).trans
    (step_of _ _ _ _ _ 4 _ _ (cntI4 v6 v7 v8 v36 v38 v39 j h39) (cntR4 v6 v7 v8 v36 v38 v39 j h39)).1
theorem newR5 (h39 : v39 j = v8 j - v6 j) : k5_pay35 v6 v7 v8 v36 v38 v39 j = stepR (v38 j) (cnt v6 v7 v8 v36 v38 j 4) :=
  (rfl : k5_pay35 v6 v7 v8 v36 v38 v39 j = v38 j * k5_pay32 v6 v7 v8 v36 v38 v39 j).trans
    (step_of (v36 j) _ (v8 j) _ _ 4 _ (k5_pay33 v6 v7 v8 v36 v38 v39 j) (cntI4 v6 v7 v8 v36 v38 v39 j h39) (cntR4 v6 v7 v8 v36 v38 v39 j h39)).2.1
theorem cntI5 (h39 : v39 j = v8 j - v6 j) : k5_pay36 v6 v7 v8 v36 v38 v39 j = (cnt v6 v7 v8 v36 v38 j 5).1 :=
  (rfl : k5_pay36 v6 v7 v8 v36 v38 v39 j = k5_pay32 v6 v7 v8 v36 v38 v39 j + ((v36 j * k5_pay32 v6 v7 v8 v36 v38 v39 j)
      * Ideal.div ((v8 j - k5_pay32 v6 v7 v8 v36 v38 v39 j) - k5_pay33 v6 v7 v8 v36 v38 v39 j) (v8 j) - v38 j * k5_pay32 v6 v7 v8 v36 v38 v39 j)).trans
    (step_of _ _ _ _ _ 4 _ _ (cntI4 v6 v7 v8 v36 v38 v39 j h39) (cntR4 v6 v7 v8 v36 v38 v39 j h39)).2.2.1
theorem cntR5 (h39 : v39 j = v8 j - v6 j) : k5_pay37 v6 v7 v8 v36 v38 v39 j = (cnt v6 v7 v8 v36 v38 j 5).2 :=
  (rfl : k5_pay37 v6 v7 v8 v36 v38 v39 j = k5_pay33 v6 v7 v8 v36 v38 v39 j + v38 j * k5_pay32 v6 v7 v8 v36 v38 v39 j).trans
    (step_of (v36 j) _ (v8 j) _ _ 4 _ _ (cntI4 v6 v7 v8 v36 v38 v39 j h39) (cntR4 v6 v7 v8 v36 v38 v39 j h39)).2.2.2

theorem newI6 (h39 : v39 j = v8 j - v6 j) :
    k5_pay38 v6 v7 v8 v36 v38 v39 j = stepI (v36 j) (v38 j) (v8 j) (cnt v6 v7 v8 v36 v38 j 5) :=
  (rfl : k5_pay38 v6 v7 v8 v36 v38 v39 j = (v36 j * k5_pay36 v6 v7 v8 v36 v38 v39 j)
      * Ideal.div ((v8 j - k5_pay36 v6 v7 v8 v36 v38 v39 j) - k5_pay37 v6 v7 v8 v36 v38 v39 j) (v8 j) - v38 j * k5_pay36 v6 v7 v8 v36 v38 v39 j).trans
    (step_of _ _ _ _ _ 5 _ _ (cntI5 v6 v7 v8 v36 v38 v39 j h39) (cntR5 v6 v7 v8 v36 v38 v39 j h39)).1
theorem newR6 (h39 : v39 j = v8 j - v6 j) : k5_pay39 v6 v7 v8 v36 v38 v39 j = stepR (v38 j) (cnt v6 v7 v8 v36 v38 j 5) :=
  (rfl : k5_pay39 v6 v7 v8 v36 v38 v39 j = v38 j * k5_pay36 v6 v7 v8 v36 v38 v39 j).trans
    (step_of (v36 j) _ (v8 j) _ _ 5 _ (k5_pay37 v6 v7 v8 v36 v38 v39 j) (cntI5 v6 v7 v8 v36 v38 v39 j h39) (cntR5 v6 v7 v8 v36 v38 v39 j h39)).2.1
theorem cntI6 (h39 : v39 j = v8 j - v6 j) : k5_pay40 v6 v7 v8 v36 v38 v39 j = (cnt v6 v7 v8 v36 v38 j 6).1 :=
  (rfl : k5_pay40 v6 v7 v8 v36 v38 v39 j = k5_pay36 v6 v7 v8 v36 v38 v39 j + ((v36 j * k5_pay36 v6 v7 v8 v36 v38 v39 j)
      * Ideal.div ((v8 j - k5_pay36 v6 v7 v8 v36 v38 v39 j) - k5_pay37 v6 v7 v8 v36 v38 v39 j) (v8 j) - v38 j * k5_pay36 v6 v7 v8 v36 v38 v39 j)).trans
    (step_of _ _ _ _ _ 5 _ _ (cntI5 v6 v7 v8 v36 v38 v39 j h39) (cntR5 v6 v7 v8 v36 v38 v39 j h39)).2.2.1
theorem cntR6 (h39 : v39 j = v8 j - v6 j) : k5_pay41 v6 v7 v8 v36 v38 v39 j = (cnt v6 v7 v8 v36 v38 j 6).2 :=
  (rfl : k5_pay41 v6 v7 v8 v36 v38 v39 j = k5_pay37 v6 v7 v8 v36 v38 v39 j + v38 j * k5_pay36 v6 v7 v8 v36 v38 v39 j).trans
    (step_of (v36 j) _ (v8 j) _ _ 5 _ _ (cntI5 v6 v7 v8 v36 v38 v39 j h39) (cntR5 v6 v7 v8 v36 v38 v39 j h39)).2.2.2

theorem newI7 (h39 : v39 j = v8 j - v6 j) :
    k5_pay1 v8 v36 v38 (k5_pay40 v6 v7 v8 v36 v38 v39) (k5_pay41 v6 v7 v8 v36 v38 v39) (k5_pay42 v6 v7 v8 v36 v38 v39) j
      = stepI (v36 j) (v38 j) (v8 j) (cnt v6 v7 v8 v36 v38 j 6) :=
  (rfl : k5_pay1 v8 v36 v38 (k5_pay40 v6 v7 v8 v36 v38 v39) (k5_pay41 v6 v7 v8 v36 v38 v39) (k5_pay42 v6 v7 v8 v36 v38 v39) j
      = (v36 j * k5_pay40 v6 v7 v8 v36 v38 v39 j)
        * Ideal.div ((v8 j - k5_pay40 v6 v7 v8 v36 v38 v39 j) - k5_pay41 v6 v7 v8 v36 v38 v39 j) (v8 j) - v38 j * k5_pay40 v6 v7 v8 v36 v38 v39 j).trans
    (step_of _ _ _ _ _ 6 _ _ (cntI6 v6 v7 v8 v36 v38 v39 j h39) (cntR6 v6 v7 v8 v36 v38 v39 j h39)).1
theorem newR7 (h39 : v39 j = v8 j - v6 j) :
    k5_pay2 v38 (k5_pay40 v6 v7 v8 v36 v38 v39) j = stepR (v38 j) (cnt v6 v7 v8 v36 v38 j 6) :=
  (rfl : k5_pay2 v38 (k5_pay40 v6 v7 v8 v36 v38 v39) j = v38 j * k5_pay40 v6 v7 v8 v36 v38 v39 j).trans
    (step_of (v36 j) _ (v8 j) _ _ 6 _ (k5_pay41 v6 v7 v8 v36 v38 v39 j) (cntI6 v6 v7 v8 v36 v38 v39 j h39) (cntR6 v6 v7 v8 v36 v38 v39 j h39)).2.1
theorem cntI7 (h39 : v39 j = v8 j - v6 j) :
    k5_pay3 (k5_pay40 v6 v7 v8 v36 v38 v39)
        (k5_pay1 v8 v36 v38 (k5_pay40 v6 v7 v8 v36 v38 v39) (k5_pay41 v6 v7 v8 v36 v38 v39) (k5_pay42 v6 v7 v8 v36 v38 v39)) j
      = (cnt v6 v7 v8 v36 v38 j 7).1 :=
  (rfl : k5_pay3 (k5_pay40 v6 v7 v8 v36 v38 v39)
        (k5_pay1 v8 v36 v38 (k5_pay40 v6 v7 v8 v36 v38 v39) (k5_pay41 v6 v7 v8 v36 v38 v39) (k5_pay42 v6 v7 v8 v36 v38 v39)) j
      = k5_pay40 v6 v7 v8 v36 v38 v39 j + ((v36 j * k5_pay40 v6 v7 v8 v36 v38 v39 j)
        * Ideal.div ((v8 j - k5_pay40 v6 v7 v8 v36 v38 v39 j) - k5_pay41 v6 v7 v8 v36 v38 v39 j) (v8 j) - v38 j * k5_pay40 v6 v7 v8 v36 v38 v39 j)).trans
    (step_of _ _ _ _ _ 6 _ _ (cntI6 v6 v7 v8 v36 v38 v39 j h39) (cntR6 v6 v7 v8 v36 v38 v39 j h39)).2.2.1
theorem cntR7 (h39 : v39 j = v8 j - v6 j) :
    addf (k5_pay41 v6 v7 v8 v36 v38 v39) (k5_pay2 v38 (k5_pay40 v6 v7 v8 v36 v38 v39)) j = (cnt v6 v7 v8 v36 v38 j 7).2 :=
  (rfl : addf (k5_pay41 v6 v7 v8 v36 v38 v39) (k5_pay2 v38 (k5_pay40 v6 v7 v8 v36 v38 v39)) j
      = k5_pay41 v6 v7 v8 v36 v38 v39 j + v38 j * k5_pay40 v6 v7 v8 v36 v38 v39 j).trans
    (step_of (v36 j) _ (v8 j) _ _ 6 _ _ (cntI6 v6 v7 v8 v36 v38 v39 j h39) (cntR6 v6 v7 v8 v36 v38 v39 j h39)).2.2.2

end Steps

def newI8 (v8 v36 v38 v97 v98 v105 : FVec Ideal S2000x1 .f32) : FVec Ideal S2000x1 .f32 :=
  subf (mulf (mulf v36 (k5_pay3 v97 v105)) (divf (subf (subf v8 (k5_pay3 v97 v105)) (addf v98 (k5_pay2 v38 v97))) v8))
    (mulf v38 (k5_pay3 v97 v105))

def newR8 (v38 v97 v105 : FVec Ideal S2000x1 .f32) : FVec Ideal S2000x1 .f32 := mulf v38 (k5_pay3 v97 v105)

section Steps8
variable (v6 v7 v8 v36 v38 v39 : FVec Ideal S2000x1 .f32) (j : S2000x1.Idx)

theorem newI8_read (h39 : v39 j = v8 j - v6 j) :
    newI8 v8 v36 v38 (k5_pay40 v6 v7 v8 v36 v38 v39) (k5_pay41 v6 v7 v8 v36 v38 v39)
        (k5_pay1 v8 v36 v38 (k5_pay40 v6 v7 v8 v36 v38 v39) (k5_pay41 v6 v7 v8 v36 v38 v39) (k5_pay42 v6 v7 v8 v36 v38 v39)) j
      = stepI (v36 j) (v38 j) (v8 j) (cnt v6 v7 v8 v36 v38 j 7) :=
  (rfl : newI8 v8 v36 v38 (k5_pay40 v6 v7 v8 v36 v38 v39) (k5_pay41 v6 v7 v8 v36 v38 v39)
        (k5_pay1 v8 v36 v38 (k5_pay40 v6 v7 v8 v36 v38 v39) (k5_pay41 v6 v7 v8 v36 v38 v39) (k5_pay42 v6 v7 v8 v36 v38 v39)) j
      = (v36 j * k5_pay3 (k5_pay40 v6 v7 v8 v36 v38 v39)
            (k5_pay1 v8 v36 v38 (k5_pay40 v6 v7 v8 v36 v38 v39) (k5_pay41 v6 v7 v8 v36 v38 v39) (k5_pay42 v6 v7 v8 v36 v38 v39)) j)
        * Ideal.div ((v8 j - k5_pay3 (k5_pay40 v6 v7 v8 v36 v38 v39)
            (k5_pay1 v8 v36 v38 (k5_pay40 v6 v7 v8 v36 v38 v39) (k5_pay41 v6 v7 v8 v36 v38 v39) (k5_pay42 v6 v7 v8 v36 v38 v39)) j)
          - addf (k5_pay41 v6 v7 v8 v36 v38 v39) (k5_pay2 v38 (k5_pay40 v6 v7 v8 v36 v38 v39)) j) (v8 j)
        - v38 j * k5_pay3 (k5_pay40 v6 v7 v8 v36 v38 v39)
            (k5_pay1 v8 v36 v38 (k5_pay40 v6 v7 v8 v36 v38 v39) (k5_pay41 v6 v7 v8 v36 v38 v39) (k5_pay42 v6 v7 v8 v36 v38 v39)) j).trans
    (step_of _ _ _ _ _ 7 _ _ (cntI7 v6 v7 v8 v36 v38 v39 j h39) (cntR7 v6 v7 v8 v36 v38 v39 j h39)).1
theorem newR8_read (h39 : v39 j = v8 j - v6 j) :
    newR8 v38 (k5_pay40 v6 v7 v8 v36 v38 v39)
        (k5_pay1 v8 v36 v38 (k5_pay40 v6 v7 v8 v36 v38 v39) (k5_pay41 v6 v7 v8 v36 v38 v39) (k5_pay42 v6 v7 v8 v36 v38 v39)) j
      = stepR (v38 j) (cnt v6 v7 v8 v36 v38 j 7) :=
  (rfl : newR8 v38 (k5_pay40 v6 v7 v8 v36 v38 v39)
        (k5_pay1 v8 v36 v38 (k5_pay40 v6 v7 v8 v36 v38 v39) (k5_pay41 v6 v7 v8 v36 v38 v39) (k5_pay42 v6 v7 v8 v36 v38 v39)) j
      = v38 j * k5_pay3 (k5_pay40 v6 v7 v8 v36 v38 v39)
            (k5_pay1 v8 v36 v38 (k5_pay40 v6 v7 v8 v36 v38 v39) (k5_pay41 v6 v7 v8 v36 v38 v39) (k5_pay42 v6 v7 v8 v36 v38 v39)) j).trans
    (step_of (v36 j) _ (v8 j) _ _ 7 _ (addf (k5_pay41 v6 v7 v8 v36 v38 v39) (k5_pay2 v38 (k5_pay40 v6 v7 v8 v36 v38 v39)) j)
      (cntI7 v6 v7 v8 v36 v38 v39 j h39) (cntR7 v6 v7 v8 v36 v38 v39 j h39)).2.1

end Steps8

theorem store_read (v8 v36 v38 v45 v55 v65 v75 v85 v95 v97 v98 v105 : FVec Ideal S2000x1 .f32) (v118 : FVec Ideal S2000x8 .f32)
    (r : Fin 2000) (k : Fin 8) (c : Fin 2) :
    k5_pay6 v8 v36 v38 v45 v55 v65 v75 v85 v95 v97 v98 v105 v118 (ix3 r k c)
      = if c.val = 0 then pick8 v45 v55 v65 v75 v85 v95 v105 (newI8 v8 v36 v38 v97 v98 v105) k (ix2 r (0 : Fin 1))
        else v118 (ix2 r k) := by
  unfold k5_pay6
  refine (pair_read (R := 2000) _ _ _ r k c).trans ?_
  split
  · exact (lastUnit_read (R := 2000) _ _ r k).trans (cols8_read (R := 2000) _ _ _ _ _ _ _ _ _ r k)
  · exact lastUnit_read (R := 2000) _ _ r k

theorem recov_read (v38 v46 v56 v66 v76 v86 v96 v97 v105 : FVec Ideal S2000x1 .f32) (r : Fin 2000) (k : Fin 8) :
    k5_pay4 v38 v46 v56 v66 v76 v86 v96 v97 v105 (ix2 r k)
      = pick8 v46 v56 v66 v76 v86 v96 (k5_pay2 v38 v97) (newR8 v38 v97 v105) k (ix2 r (0 : Fin 1)) := by
  unfold k5_pay4
  exact cols8_read (R := 2000) _ _ _ _ _ _ _ _ _ r k

section Rates
variable (v0 : Vec Ideal S2000x32 .f32) (v2 : Vec Ideal S2000x5 .f32) (v15 : Vec Ideal S2x34 .f32) (v31 : Vec Ideal S1x2 .f32)

theorem extras_eq : k5_pay7 v2 = v2 := shapeCast_self v2 _

theorem colI_read (r : Fin 2000) : k5_pay8 v2 (ix2 r (0 : Fin 1)) = v2 (ix2 r (2 : Fin 5)) := by
  unfold k5_pay8
  exact (slice2_axis1_apply 2 (k5_pay7 v2) slices_S2000x5_o0_2_S2000x1 r 0 2 rfl).trans (congrFun (extras_eq v2) _)
theorem colR_read (r : Fin 2000) : k5_pay9 v2 (ix2 r (0 : Fin 1)) = v2 (ix2 r (3 : Fin 5)) := by
  unfold k5_pay9
  exact (slice2_axis1_apply 3 (k5_pay7 v2) slices_S2000x5_o0_3_S2000x1 r 0 3 rfl).trans (congrFun (extras_eq v2) _)
theorem colN_read (r : Fin 2000) : k5_pay10 v2 (ix2 r (0 : Fin 1)) = v2 (ix2 r (4 : Fin 5)) := by
  unfold k5_pay10
  exact (slice2_axis1_apply 4 (k5_pay7 v2) slices_S2000x5_o0_4_S2000x1 r 0 4 rfl).trans (congrFun (extras_eq v2) _)

theorem feats_read (r : Fin 2000) (k : Fin 34) :
    k5_pay11 v0 v2 (ix2 r k) = feat (fun q => v0 (ix2 r q)) (v2 (ix2 r (0 : Fin 5))) (v2 (ix2 r (1 : Fin 5))) k := by
  unfold k5_pay11
  refine (truncf_apply (ψ := .bf16) (φ := .f32) _ bitsLt_bf16_f32 _).trans ((joined_read (R := 2000) _ _ _ _ r k).trans ?_)
  rw [shapeCast_self, slice2_axis1_apply 0 (k5_pay7 v2) _ r 0 0 rfl, slice2_axis1_apply 1 (k5_pay7 v2) _ r 0 1 rfl, extras_eq]

theorem preRate_read (r : Fin 2000) (c : Fin 2) :
    k5_pay14 v0 v2 v15 v31 (ix2 r c)
      = preRate (feat (fun q => v0 (ix2 r q)) (v2 (ix2 r (0 : Fin 5))) (v2 (ix2 r (1 : Fin 5)))) (fun c q => v15 (ix2 c q))
          (fun c => v31 (ix2 (0 : Fin 1) c)) c := by
  unfold k5_pay14 preRate
  refine (addf_apply _ _ _).trans ?_
  congr 1
  · refine (matmul_plain_read _ rfl _ _ r c).trans (Finset.sum_congr rfl fun k _ => ?_)
    rw [feats_read]
    congr 1
    exact (transpose_ix2_apply _ _ k c).trans (truncf_apply (ψ := .bf16) (φ := .f32) v15 bitsLt_bf16_f32 _)
  · exact (broadcastTo_1b_ab_apply _ _ r c).trans (congrFun (shapeCast_self v31 _) _)

theorem rate0_read (r : Fin 2000) :
    k5_pay15 v0 v2 v15 v31 (ix2 r (0 : Fin 1))
      = Ideal.logistic (preRate (feat (fun q => v0 (ix2 r q)) (v2 (ix2 r (0 : Fin 5))) (v2 (ix2 r (1 : Fin 5)))) (fun c q => v15 (ix2 c q))
          (fun c => v31 (ix2 (0 : Fin 1) c)) 0) := by
  unfold k5_pay15
  show Ideal.logistic (extractStridedSlice S2000x1 ![0, 0] (k5_pay14 v0 v2 v15 v31) _ (ix2 r (0 : Fin 1))) = _
  rw [slice2_axis1_apply 0 (k5_pay14 v0 v2 v15 v31) _ r 0 0 rfl, preRate_read]
theorem rate1_read (r : Fin 2000) :
    k5_pay16 v0 v2 v15 v31 (ix2 r (0 : Fin 1))
      = Ideal.logistic (preRate (feat (fun q => v0 (ix2 r q)) (v2 (ix2 r (0 : Fin 5))) (v2 (ix2 r (1 : Fin 5)))) (fun c q => v15 (ix2 c q))
          (fun c => v31 (ix2 (0 : Fin 1) c)) 1) := by
  unfold k5_pay16
  show Ideal.logistic (extractStridedSlice S2000x1 ![0, 1] (k5_pay14 v0 v2 v15 v31) _ (ix2 r (0 : Fin 1))) = _
  rw [slice2_axis1_apply 1 (k5_pay14 v0 v2 v15 v31) _ r 0 1 rfl, preRate_read]

end Rates

theorem hz2 : (![0, 0] : Fin 2 → Nat) = fun _ => 0 := funext fun a => by fin_cases a <;> rfl
theorem hz3 : (![0, 0, 0] : Fin 3 → Nat) = fun _ => 0 := funext fun a => by fin_cases a <;> rfl

theorem phyBlock_cell (h : Vec Ideal S2000x32 .f32) (e : Vec Ideal S2000x5 .f32) (wI : Vec Ideal S8x34 .f32) (bI : Vec Ideal S1x8 .f32)
    (wR : Vec Ideal S8x34 .f32) (bR : Vec Ideal S1x8 .f32) (wS : Vec Ideal S2x34 .f32) (bS : Vec Ideal S1x2 .f32)
    (r : Fin 2000) (k : Fin 8) (c : Fin 2) :
    Region5.phyBlock h e wI bI wR bR wS bS (ix3 r k c)
      = phyCell (k5_pay15 h e wS bS (ix2 r (0 : Fin 1))) (k5_pay16 h e wS bS (ix2 r (0 : Fin 1))) (k5_pay10 e (ix2 r (0 : Fin 1)))
          (k5_pay8 e (ix2 r (0 : Fin 1))) (k5_pay9 e (ix2 r (0 : Fin 1))) k c := by
  unfold Region5.phyBlock
  rw [View.canon_unit_zero hz3]
  simp only [View.ld_unit_zero (S := S2000x32) hz2, View.ld_unit_zero (S := S2000x5) hz2, View.ld_unit_zero (S := S2x34) hz2,
    View.ld_unit_zero (S := S1x2) hz2]
  refine (store_read _ _ _ _ _ _ _ _ _ _ _ _ _ r k c).trans ?_
  have h39 : k5_pay17 e (ix2 r (0 : Fin 1)) = k5_pay10 e (ix2 r (0 : Fin 1)) - k5_pay8 e (ix2 r (0 : Fin 1)) := rfl
  unfold phyCell
  split
  · match k with
    | ⟨0, _⟩ => exact newI1 _ _ _ _ _ _ _ h39
    | ⟨1, _⟩ => exact newI2 _ _ _ _ _ _ _ h39
    | ⟨2, _⟩ => exact newI3 _ _ _ _ _ _ _ h39
    | ⟨3, _⟩ => exact newI4 _ _ _ _ _ _ _ h39
    | ⟨4, _⟩ => exact newI5 _ _ _ _ _ _ _ h39
    | ⟨5, _⟩ => exact newI6 _ _ _ _ _ _ _ h39
    | ⟨6, _⟩ => exact newI7 _ _ _ _ _ _ _ h39
    | ⟨7, _⟩ => exact newI8_read _ _ _ _ _ _ _ h39
  · refine (recov_read _ _ _ _ _ _ _ _ _ r k).trans ?_
    match k with
    | ⟨0, _⟩ => exact newR1 _ _ _ _ _ _
    | ⟨1, _⟩ => exact newR2 _ _ _ _ _ _ _ h39
    | ⟨2, _⟩ => exact newR3 _ _ _ _ _ _ _ h39
    | ⟨3, _⟩ => exact newR4 _ _ _ _ _ _ _ h39
    | ⟨4, _⟩ => exact newR5 _ _ _ _ _ _ _ h39
    | ⟨5, _⟩ => exact newR6 _ _ _ _ _ _ _ h39
    | ⟨6, _⟩ => exact newR7 _ _ _ _ _ _ _ h39
    | ⟨7, _⟩ => exact newR8_read _ _ _ _ _ _ _ h39

theorem phyBlock_read (h : Vec Ideal S2000x32 .f32) (e : Vec Ideal S2000x5 .f32) (wI : Vec Ideal S8x34 .f32) (bI : Vec Ideal S1x8 .f32)
    (wR : Vec Ideal S8x34 .f32) (bR : Vec Ideal S1x8 .f32) (wS : Vec Ideal S2x34 .f32) (bS : Vec Ideal S1x2 .f32)
    (r : Fin 2000) (k : Fin 8) (c : Fin 2) :
    Region5.phyBlock h e wI bI wR bR wS bS (ix3 r k c)
      = phyAt (feat (fun q => h (ix2 r q)) (e (ix2 r (0 : Fin 5))) (e (ix2 r (1 : Fin 5)))) (fun c q => wS (ix2 c q))
          (fun c => bS (ix2 (0 : Fin 1) c)) (e (ix2 r (4 : Fin 5))) (e (ix2 r (2 : Fin 5))) (e (ix2 r (3 : Fin 5))) k c := by
  rw [phyBlock_cell, rate0_read, rate1_read, colI_read, colR_read, colN_read]
  rfl

end Cert.KernelIdeal.Value5Phy

end
-- ==== Proof.KI.Value5Phy.lean ====
import proofs.«112250_j2224793059992_2_alg».proof.Proof.KI.Region5
import proofs.«112250_j2224793059992_2_alg».proof.Proof.Stages
import proofs.«112250_j2224793059992_2_alg».proof.Proof.KI.Value5PhyA
import proofs.«112250_j2224793059992_2_alg».proof.Proof.KI.Value5PhyB
import proofs.«112250_j2224793059992_2_alg».proof.Proof.KI.Value5PhyC
import proofs.«112250_j2224793059992_2_alg».proof.Proof.KI.ValueLib
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.Value5Phy

open Idealize.ShloMosaic Idealize.ShloMosaic.ValueIdx
open scoped BigOperators
open Cert.KernelIdeal Cert.KernelIdeal.Gen Idealize.ShloMosaic.TcCoe
open Idealize.ShloMosaic.Pipeline (Dat)

theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_9.index t (0 : Fin 3) = t.val ∧ win5_9.index t (1 : Fin 3) = 0 ∧ win5_9.index t (2 : Fin 3) = 0 :=
  (by decide +kernel : ∀ t : Fin grid5.N, _)

section Blocks
variable (V : (c : Dev nD) → (b : Ref sig .tc) → Buf (Elt Ideal) ((c : Thread nD τ).loc b)) (c : Dev nD) (t : Fin cfg5.N)

theorem state_row (r : Fin 2000) (q : Fin 32) (n : Fin 200000) (hn : n.val = 2000 * t.val + r.val) :
    (Region5.blk V c 0 t : Vec Ideal S2000x32 .f32) (ix2 r q) = (V c main_v60 : S200000x32.Idx → EReal) (ix2 n q) := by
  obtain ⟨e0, e1, -⟩ := idx_facts t
  show (V c main_v60 : S200000x32.Idx → EReal) (((cfg5.win 0).blk t).view.emb (ix2 r q)) = _
  refine congrArg (V c main_v60 : S200000x32.Idx → EReal) (funext fun a => Fin.ext ?_)
  match a with
  | ⟨0, _⟩ => show win5_0.index t (0 : Fin 2) * 2000 + 1 * r.val = n.val; omega
  | ⟨1, _⟩ => show win5_0.index t (1 : Fin 2) * 32 + 1 * q.val = q.val; omega

theorem extras_row (r : Fin 2000) (q : Fin 5) (n : Fin 200000) (hn : n.val = 2000 * t.val + r.val) :
    (Region5.blk V c 1 t : Vec Ideal S2000x5 .f32) (ix2 r q) = (V c main_v68 : S200000x5.Idx → EReal) (ix2 n q) := by
  obtain ⟨-, -, e0, e1, -⟩ := idx_facts t
  show (V c main_v68 : S200000x5.Idx → EReal) (((cfg5.win 1).blk t).view.emb (ix2 r q)) = _
  refine congrArg (V c main_v68 : S200000x5.Idx → EReal) (funext fun a => Fin.ext ?_)
  match a with
  | ⟨0, _⟩ => show win5_1.index t (0 : Fin 2) * 2000 + 1 * r.val = n.val; omega
  | ⟨1, _⟩ => show win5_1.index t (1 : Fin 2) * 5 + 1 * q.val = q.val; omega

theorem weights_entry (p : Fin 2) (q : Fin 34) :
    (Region5.blk V c 6 t : Vec Ideal S2x34 .f32) (ix2 p q) = (V c main_arg20 : S2x34.Idx → EReal) (ix2 p q) := by
  obtain ⟨-, -, -, -, e0, e1, -⟩ := idx_facts t
  show (V c main_arg20 : S2x34.Idx → EReal) (((cfg5.win 6).blk t).view.emb (ix2 p q)) = _
  refine congrArg (V c main_arg20 : S2x34.Idx → EReal) (funext fun a => Fin.ext ?_)
  match a with
  | ⟨0, _⟩ => show win5_6.index t (0 : Fin 2) * 2 + 1 * p.val = p.val; omega
  | ⟨1, _⟩ => show win5_6.index t (1 : Fin 2) * 34 + 1 * q.val = q.val; omega

theorem bias_entry (q : Fin 2) :
    (Region5.blk V c 7 t : Vec Ideal S1x2 .f32) (ix2 (0 : Fin 1) q) = (V c main_v71 : S1x2.Idx → EReal) (ix2 (0 : Fin 1) q) := by
  obtain ⟨-, -, -, -, -, -, e0, e1, -⟩ := idx_facts t
  show (V c main_v71 : S1x2.Idx → EReal) (((cfg5.win 7).blk t).view.emb (ix2 (0 : Fin 1) q)) = _
  refine congrArg (V c main_v71 : S1x2.Idx → EReal) (funext fun a => Fin.ext ?_)
  match a with
  | ⟨0, _⟩ => show win5_7.index t (0 : Fin 2) * 1 + 1 * 0 = 0; omega
  | ⟨1, _⟩ => show win5_7.index t (1 : Fin 2) * 2 + 1 * q.val = q.val; omega

end Blocks

section Extras
variable {α : Type}

def pick5 {β : Type} (x0 x1 x2 x3 x4 : β) : Fin 5 → β
  | ⟨0, _⟩ => x0 | ⟨1, _⟩ => x1 | ⟨2, _⟩ => x2 | ⟨3, _⟩ => x3 | ⟨4, _⟩ => x4

theorem cols5_read {R : Nat} (x0 x1 x2 x3 x4 : (⟨2, ![R, 1]⟩ : Shape).Idx → α)
    (h : Shape.Concatenates [(⟨2, ![R, 1]⟩ : Shape), ⟨2, ![R, 1]⟩, ⟨2, ![R, 1]⟩, ⟨2, ![R, 1]⟩, ⟨2, ![R, 1]⟩] ⟨2, ![R, 5]⟩ 1)
    (n : Fin R) (k : Fin 5) :
    concatenate ⟨2, ![R, 5]⟩ 1 [⟨⟨2, ![R, 1]⟩, x0⟩, ⟨⟨2, ![R, 1]⟩, x1⟩, ⟨⟨2, ![R, 1]⟩, x2⟩, ⟨⟨2, ![R, 1]⟩, x3⟩, ⟨⟨2, ![R, 1]⟩, x4⟩] h (ix2 n k)
      = pick5 x0 x1 x2 x3 x4 k (ix2 n (0 : Fin 1)) := by
  have hi : ∀ (k : Fin 5) (b : Fin 2), b.cast (rfl : 2 = 2) ≠ (1 : Fin 2) →
      ((ix2 n (0 : Fin 1)) b).val = ((ix2 n k) (b.cast rfl)).val := fun k b hb =>
    match b, hb with
    | ⟨0, _⟩, _ => rfl
    | ⟨1, _⟩, hb => absurd rfl hb
  let L : List ((s : Shape) × (s.Idx → α)) := [⟨⟨2, ![R, 1]⟩, x0⟩, ⟨⟨2, ![R, 1]⟩, x1⟩, ⟨⟨2, ![R, 1]⟩, x2⟩, ⟨⟨2, ![R, 1]⟩, x3⟩,
    ⟨⟨2, ![R, 1]⟩, x4⟩]
  match k with
  | ⟨0, hk⟩ => exact concatenate_apply_piece (t := ⟨2, ![R, 5]⟩) 1 L h (ix2 n ⟨0, hk⟩) 0 (show 0 < 5 by omega) ⟨2, ![R, 1]⟩ x0 rfl rfl 0 rfl (ix2 n 0) (hi _) rfl
  | ⟨1, hk⟩ => exact concatenate_apply_piece (t := ⟨2, ![R, 5]⟩) 1 L h (ix2 n ⟨1, hk⟩) 1 (show 1 < 5 by omega) ⟨2, ![R, 1]⟩ x1 rfl rfl 1 rfl (ix2 n 0) (hi _) rfl
  | ⟨2, hk⟩ => exact concatenate_apply_piece (t := ⟨2, ![R, 5]⟩) 1 L h (ix2 n ⟨2, hk⟩) 2 (show 2 < 5 by omega) ⟨2, ![R, 1]⟩ x2 rfl rfl 2 rfl (ix2 n 0) (hi _) rfl
  | ⟨3, hk⟩ => exact concatenate_apply_piece (t := ⟨2, ![R, 5]⟩) 1 L h (ix2 n ⟨3, hk⟩) 3 (show 3 < 5 by omega) ⟨2, ![R, 1]⟩ x3 rfl rfl 3 rfl (ix2 n 0) (hi _) rfl
  | ⟨4, hk⟩ => exact concatenate_apply_piece (t := ⟨2, ![R, 5]⟩) 1 L h (ix2 n ⟨4, hk⟩) 4 (show 4 < 5 by omega) ⟨2, ![R, 1]⟩ x4 rfl rfl 4 rfl (ix2 n 0) (hi _) rfl

end Extras

theorem hostPopul_read (N : S50000x1.Idx → EReal) (n : Fin 200000) :
    broadcastInDim S200000x1 ![0] bcast_S200000_S200000x1_0 (shapeCast S200000 (broadcastInDim S4x50000 ![0, 1] bcast_S1x50000_S4x50000_0_1
        (shapeCast S1x50000 (shapeCast S50000 N shapeCasts_S50000x1_S50000) shapeCasts_S50000_S1x50000)) shapeCasts_S4x50000_S200000)
        (ix2 n (0 : Fin 1))
      = N (ix2 (⟨n.val % 50000, Nat.mod_lt _ (by decide)⟩ : Fin 50000) (0 : Fin 1)) := by
  have hn := n.isLt
  refine (col_read (R := 200000) _ _ n).trans ?_
  refine (shapeCast_apply _ _ (ix1 n) (ix2 (⟨n.val / 50000, by omega⟩ : Fin 4) (⟨n.val % 50000, Nat.mod_lt _ (by decide)⟩ : Fin 50000)) ?_).trans ?_
  · rw [Shape.rowMajor_val_two, Shape.rowMajor_val_one]
    show n.val / 50000 * 50000 + n.val % 50000 = n.val
    omega
  refine (broadcastInDim_oneRow_apply _ _ _ _).trans ?_
  refine (shapeCast_a_1a_apply _ _ (0 : Fin 1) _).trans ?_
  exact flat_read (R := 50000) N _ _

section Cell
variable (V : (c : Dev nD) → (b : Ref sig .tc) → Buf (Elt Ideal) ((c : Thread nD τ).loc b)) (c : Dev nD)
  (h : S200000x32.Idx → EReal) (dI dR : S200000x1.Idx → EReal) (st : S200000x2.Idx → EReal) (N : S50000x1.Idx → EReal)
  (Wsir : S2x34.Idx → EReal) (bsir : S2.Idx → EReal)
  (hh : V c main_v60 = h)
  (he : V c main_v68 = concatenate S200000x5 1 [⟨S200000x1, dI⟩, ⟨S200000x1, dR⟩,
      ⟨S200000x1, extractStridedSlice S200000x1 ![0, 0] st slices_S200000x2_S200000x1_0_0⟩,
      ⟨S200000x1, extractStridedSlice S200000x1 ![0, 1] st slices_S200000x2_S200000x1_0_1⟩,
      ⟨S200000x1, broadcastInDim S200000x1 ![0] bcast_S200000_S200000x1_0 (shapeCast S200000 (broadcastInDim S4x50000 ![0, 1] bcast_S1x50000_S4x50000_0_1
        (shapeCast S1x50000 (shapeCast S50000 N shapeCasts_S50000x1_S50000) shapeCasts_S50000_S1x50000)) shapeCasts_S4x50000_S200000)⟩]
      concatenates_S200000x1_S200000x1_S200000x1_S200000x1_S200000x1_S200000x5_d1)
  (hWs : V c main_arg20 = Wsir) (hbs : V c main_v71 = shapeCast S1x2 bsir shapeCasts_S2_S1x2)
include hh he hWs hbs

theorem extras_at (n : Fin 200000) :
    (V c main_v68 : S200000x5.Idx → EReal) (ix2 n (0 : Fin 5)) = dI (ix2 n (0 : Fin 1))
    ∧ (V c main_v68 : S200000x5.Idx → EReal) (ix2 n (1 : Fin 5)) = dR (ix2 n (0 : Fin 1))
    ∧ (V c main_v68 : S200000x5.Idx → EReal) (ix2 n (2 : Fin 5)) = st (ix2 n (0 : Fin 2))
    ∧ (V c main_v68 : S200000x5.Idx → EReal) (ix2 n (3 : Fin 5)) = st (ix2 n (1 : Fin 2))
    ∧ (V c main_v68 : S200000x5.Idx → EReal) (ix2 n (4 : Fin 5))
        = N (ix2 (⟨n.val % 50000, Nat.mod_lt _ (by decide)⟩ : Fin 50000) (0 : Fin 1)) := by
  rw [he]
  refine ⟨cols5_read (R := 200000) _ _ _ _ _ _ n 0, cols5_read (R := 200000) _ _ _ _ _ _ n 1,
    (cols5_read (R := 200000) _ _ _ _ _ _ n 2).trans (slice2_axis1_apply 0 st slices_S200000x2_S200000x1_0_0 n 0 0 rfl),
    (cols5_read (R := 200000) _ _ _ _ _ _ n 3).trans (slice2_axis1_apply 1 st slices_S200000x2_S200000x1_0_1 n 0 1 rfl),
    (cols5_read (R := 200000) _ _ _ _ _ _ n 4).trans (hostPopul_read N n)⟩

theorem block_entry (t : Fin cfg5.N) (r : Fin 2000) (k : Fin 8) (cc : Fin 2) (n : Fin 200000) (hn : n.val = 2000 * t.val + r.val) :
    Region5.phyBlock (Region5.blk V c 0 t) (Region5.blk V c 1 t) (Region5.blk V c 2 t) (Region5.blk V c 3 t) (Region5.blk V c 4 t)
        (Region5.blk V c 5 t) (Region5.blk V c 6 t) (Region5.blk V c 7 t) (ix3 r k cc)
      = Cert.ReferenceIdeal.Stages.phy h dI dR Wsir bsir st N (ix3 n k cc) := by
  obtain ⟨x0, x1, x2, x3, x4⟩ := extras_at V c h dI dR st N Wsir bsir hh he hWs hbs n
  refine (phyBlock_read (Region5.blk V c 0 t) (Region5.blk V c 1 t) (Region5.blk V c 2 t) (Region5.blk V c 3 t) (Region5.blk V c 4 t)
    (Region5.blk V c 5 t) (Region5.blk V c 6 t) (Region5.blk V c 7 t) r k cc).trans ?_
  refine Eq.trans ?_ (phy_read h dI dR Wsir bsir st N n k cc).symm
  have ef : (fun q => (Region5.blk V c 0 t : Vec Ideal S2000x32 .f32) (ix2 r q)) = fun q => h (ix2 n q) :=
    funext fun q => (state_row V c t r q n hn).trans (congrFun hh _)
  have e0 : (Region5.blk V c 1 t : Vec Ideal S2000x5 .f32) (ix2 r (0 : Fin 5)) = dI (ix2 n (0 : Fin 1)) := (extras_row V c t r 0 n hn).trans x0
  have e1 : (Region5.blk V c 1 t : Vec Ideal S2000x5 .f32) (ix2 r (1 : Fin 5)) = dR (ix2 n (0 : Fin 1)) := (extras_row V c t r 1 n hn).trans x1
  have e2 : (Region5.blk V c 1 t : Vec Ideal S2000x5 .f32) (ix2 r (2 : Fin 5)) = st (ix2 n (0 : Fin 2)) := (extras_row V c t r 2 n hn).trans x2
  have e3 : (Region5.blk V c 1 t : Vec Ideal S2000x5 .f32) (ix2 r (3 : Fin 5)) = st (ix2 n (1 : Fin 2)) := (extras_row V c t r 3 n hn).trans x3
  have e4 : (Region5.blk V c 1 t : Vec Ideal S2000x5 .f32) (ix2 r (4 : Fin 5))
      = N (ix2 (⟨n.val % 50000, Nat.mod_lt _ (by decide)⟩ : Fin 50000) (0 : Fin 1)) := (extras_row V c t r 4 n hn).trans x4
  have eW : (fun (p : Fin 2) (q : Fin 34) => (Region5.blk V c 6 t : Vec Ideal S2x34 .f32) (ix2 p q)) = fun p q => Wsir (ix2 p q) :=
    funext fun p => funext fun q => (weights_entry V c t p q).trans (congrFun hWs _)
  have eb : (fun (q : Fin 2) => (Region5.blk V c 7 t : Vec Ideal S1x2 .f32) (ix2 (0 : Fin 1) q)) = fun q => bsir (ix1 q) :=
    funext fun q => (bias_entry V c t q).trans ((congrFun hbs _).trans (shapeCast_a_1a_apply bsir _ (0 : Fin 1) q))
  rw [ef, e0, e1, e2, e3, e4, eW, eb]

end Cell

section Array
variable (V : (c : Dev nD) → (b : Ref sig .tc) → Buf (Elt Ideal) ((c : Thread nD τ).loc b)) (c : Dev nD)

theorem flushed_eq (h : S200000x32.Idx → EReal) (dI dR : S200000x1.Idx → EReal) (st : S200000x2.Idx → EReal) (N : S50000x1.Idx → EReal)
    (Wsir : S2x34.Idx → EReal) (bsir : S2.Idx → EReal)
    (hh : V c main_v60 = h)
    (he : V c main_v68 = concatenate S200000x5 1 [⟨S200000x1, dI⟩, ⟨S200000x1, dR⟩,
        ⟨S200000x1, extractStridedSlice S200000x1 ![0, 0] st slices_S200000x2_S200000x1_0_0⟩,
        ⟨S200000x1, extractStridedSlice S200000x1 ![0, 1] st slices_S200000x2_S200000x1_0_1⟩,
        ⟨S200000x1, broadcastInDim S200000x1 ![0] bcast_S200000_S200000x1_0 (shapeCast S200000 (broadcastInDim S4x50000 ![0, 1] bcast_S1x50000_S4x50000_0_1
          (shapeCast S1x50000 (shapeCast S50000 N shapeCasts_S50000x1_S50000) shapeCasts_S50000_S1x50000)) shapeCasts_S4x50000_S200000)⟩]
        concatenates_S200000x1_S200000x1_S200000x1_S200000x1_S200000x1_S200000x5_d1)
    (hWs : V c main_arg20 = Wsir) (hbs : V c main_v71 = shapeCast S1x2 bsir shapeCasts_S2_S1x2) (t : Fin cfg5.N) :
    (Region5.data V c).flushed 9 t
      = ((cfg5.win 9).blk t).view.read (Elt Ideal) (Cert.ReferenceIdeal.Stages.phy h dI dR Wsir bsir st N) := by
  show (cfg5.win 9).cut (cfg5.grid.coords t) ((Region5.data V c).after 9 t) = _
  rw [Region5.after_9]
  obtain ⟨-, -, -, -, -, -, -, -, e0, e1, e2⟩ := idx_facts t
  have hN : cfg5.N = 100 := N_5
  have ht : t.val < 100 := hN ▸ t.isLt
  refine funext fun (y : S2000x8x2.Idx) => ?_
  obtain ⟨r, k, cc, rfl⟩ : ∃ (r : Fin 2000) (k : Fin 8) (cc : Fin 2), y = ix3 r k cc := ⟨y 0, y 1, y 2, eq_ix3 y⟩
  have hr := r.isLt
  show Region5.phyBlock (Region5.blk V c 0 t) (Region5.blk V c 1 t) (Region5.blk V c 2 t) (Region5.blk V c 3 t) (Region5.blk V c 4 t)
      (Region5.blk V c 5 t) (Region5.blk V c 6 t) (Region5.blk V c 7 t) (ix3 r k cc)
    = Cert.ReferenceIdeal.Stages.phy h dI dR Wsir bsir st N (((cfg5.win 9).blk t).view.emb (ix3 r k cc))
  have hemb : ((cfg5.win 9).blk t).view.emb (ix3 r k cc) = ix3 (⟨2000 * t.val + r.val, by omega⟩ : Fin 200000) k cc := by
    funext a
    refine Fin.ext ?_
    match a with
    | ⟨0, _⟩ => show win5_9.index t (0 : Fin 3) * 2000 + 1 * r.val = 2000 * t.val + r.val; omega
    | ⟨1, _⟩ => show win5_9.index t (1 : Fin 3) * 8 + 1 * k.val = k.val; omega
    | ⟨2, _⟩ => show win5_9.index t (2 : Fin 3) * 2 + 1 * cc.val = cc.val; omega
  rw [hemb]
  exact block_entry V c h dI dR st N Wsir bsir hh he hWs hbs t r k cc _ rfl

theorem mem_blk (t : Fin cfg5.N) (i : S200000x8x2.Idx) :
    i ∈ ((cfg5.win 9).blk t).view.set
      ↔ ∀ a : Fin 3, win5_9.index t a * S2000x8x2.size a ≤ (i a).val ∧ (i a).val < win5_9.index t a * S2000x8x2.size a + S2000x8x2.size a := by
  show i ∈ ((View.whole main_v72_1).slice (win5_9.rect t)).set ↔ _
  rw [View.set_slice_whole, Rect.mem_set_unit]
  exact Iff.rfl

theorem covered (i : S200000x8x2.Idx) : ∃ t : Fin cfg5.N, (cfg5.win 9).flush t = true ∧ i ∈ ((cfg5.win 9).blk t).view.set := by
  obtain ⟨t, ht⟩ := ValueLib.rowBlock_cover (r := 2) (A := S200000x8x2.size) (B := S2000x8x2.size)
    ((show S200000x8x2.size 0 = 100 * S2000x8x2.size 0 from rfl).trans (by rw [N_5])) (by decide) win5_9.index
    (fun t => (idx_facts t).2.2.2.2.2.2.2.2.1) (fun t a ha => by
      match a with
      | ⟨0, _⟩ => exact absurd rfl ha
      | ⟨1, _⟩ => exact (idx_facts t).2.2.2.2.2.2.2.2.2.1
      | ⟨2, _⟩ => exact (idx_facts t).2.2.2.2.2.2.2.2.2.2) i
  exact ⟨t, flush5_9 t, (mem_blk t i).mpr ht⟩

end Array

theorem value (V : (c : Dev nD) → (b : Ref sig .tc) → Buf (Elt Ideal) ((c : Thread nD τ).loc b)) (c : Dev nD)
    (h : Cert.ReferenceIdeal.Stages.Fl Ideal S200000x32) (dI dR : Cert.ReferenceIdeal.Stages.Fl Ideal S200000x1) (st : Cert.ReferenceIdeal.Stages.Fl Ideal S200000x2) (N : Cert.ReferenceIdeal.Stages.Fl Ideal S50000x1)
    (WI : Cert.ReferenceIdeal.Stages.Fl Ideal S8x34) (bI : Cert.ReferenceIdeal.Stages.Fl Ideal S8) (WR : Cert.ReferenceIdeal.Stages.Fl Ideal S8x34) (bR : Cert.ReferenceIdeal.Stages.Fl Ideal S8) (Wsir : Cert.ReferenceIdeal.Stages.Fl Ideal S2x34) (bsir : Cert.ReferenceIdeal.Stages.Fl Ideal S2)
    (hh : V c main_v60 = h)
    (he : V c main_v68 = concatenate S200000x5 1 [⟨S200000x1, dI⟩, ⟨S200000x1, dR⟩,
        ⟨S200000x1, extractStridedSlice S200000x1 ![0, 0] st slices_S200000x2_S200000x1_0_0⟩,
        ⟨S200000x1, extractStridedSlice S200000x1 ![0, 1] st slices_S200000x2_S200000x1_0_1⟩,
        ⟨S200000x1, broadcastInDim S200000x1 ![0] bcast_S200000_S200000x1_0 (shapeCast S200000 (broadcastInDim S4x50000 ![0, 1] bcast_S1x50000_S4x50000_0_1
          (shapeCast S1x50000 (shapeCast S50000 N shapeCasts_S50000x1_S50000) shapeCasts_S50000_S1x50000)) shapeCasts_S4x50000_S200000)⟩]
        concatenates_S200000x1_S200000x1_S200000x1_S200000x1_S200000x1_S200000x5_d1)
    (hWI : V c main_arg16 = WI) (hbI : V c main_v69 = shapeCast S1x8 bI shapeCasts_S8_S1x8)
    (hWR : V c main_arg18 = WR) (hbR : V c main_v70 = shapeCast S1x8 bR shapeCasts_S8_S1x8)
    (hWs : V c main_arg20 = Wsir) (hbs : V c main_v71 = shapeCast S1x2 bsir shapeCasts_S2_S1x2) :
    (Region5.data V c).arrAt 9 cfg5.N = Cert.ReferenceIdeal.Stages.phy h dI dR Wsir bsir st N :=
  (Region5.data V c).arrAt_eq_of_cover 9 (Cert.ReferenceIdeal.Stages.phy h dI dR Wsir bsir st N)
    (fun t _ => flushed_eq V c h dI dR st N Wsir bsir hh he hWs hbs t) covered

end Cert.KernelIdeal.Value5Phy

end
-- ==== Proof.KI.KernelValue.lean ====
import proofs.«112250_j2224793059992_2_alg».proof.Proof.KI.KernelValueHost
import proofs.«112250_j2224793059992_2_alg».proof.Proof.KI.Fold
import proofs.«112250_j2224793059992_2_alg».proof.Proof.KI.Value0
import proofs.«112250_j2224793059992_2_alg».proof.Proof.KI.Value1
import proofs.«112250_j2224793059992_2_alg».proof.Proof.KI.Value2
import proofs.«112250_j2224793059992_2_alg».proof.Proof.KI.Value3
import proofs.«112250_j2224793059992_2_alg».proof.Proof.KI.Value4
import proofs.«112250_j2224793059992_2_alg».proof.Proof.KI.Value5Pred
import proofs.«112250_j2224793059992_2_alg».proof.Proof.KI.Value5Phy
import proofs.«112250_j2224793059992_2_alg».proof.Proof.Stages
import Idealize.ShloMosaic.Lib.StableHlo.Run
import Idealize.ShloMosaic.PureOps.Ideal

noncomputable section

namespace Cert.KernelIdeal.KernelValue

open Cert.KernelIdeal Cert.KernelIdeal.Gen Idealize.ShloMosaic Idealize.ShloMosaic.TcCoe

section Chain

variable (m : (ℓ : Loc nD τ sig) → Buf (Elt Ideal) ℓ) (c : Dev nD)

abbrev argX : Cert.ReferenceIdeal.Stages.Fl Ideal S4x16x50000x4 := m ((c : Thread nD τ).loc main_arg0)

abbrev argA : Cert.ReferenceIdeal.Stages.In Ideal S2x1600000 := m ((c : Thread nD τ).loc main_arg1)

abbrev argSt : Cert.ReferenceIdeal.Stages.Fl Ideal S200000x2 := m ((c : Thread nD τ).loc main_arg2)

abbrev argN : Cert.ReferenceIdeal.Stages.Fl Ideal S50000x1 := m ((c : Thread nD τ).loc main_arg3)

abbrev argW1 : Cert.ReferenceIdeal.Stages.Fl Ideal S32x64 := m ((c : Thread nD τ).loc main_arg4)
abbrev argB1 : Cert.ReferenceIdeal.Stages.Fl Ideal S32 := m ((c : Thread nD τ).loc main_arg5)
abbrev argAW1 : Cert.ReferenceIdeal.Stages.Fl Ideal S1x64 := m ((c : Thread nD τ).loc main_arg6)
abbrev argAB1 : Cert.ReferenceIdeal.Stages.Fl Ideal S1 := m ((c : Thread nD τ).loc main_arg7)

abbrev argW2 : Cert.ReferenceIdeal.Stages.Fl Ideal S32x32 := m ((c : Thread nD τ).loc main_arg8)
abbrev argB2 : Cert.ReferenceIdeal.Stages.Fl Ideal S32 := m ((c : Thread nD τ).loc main_arg9)
abbrev argAW2 : Cert.ReferenceIdeal.Stages.Fl Ideal S1x64 := m ((c : Thread nD τ).loc main_arg10)
abbrev argAB2 : Cert.ReferenceIdeal.Stages.Fl Ideal S1 := m ((c : Thread nD τ).loc main_arg11)

abbrev argWih : Cert.ReferenceIdeal.Stages.Fl Ideal S96x32 := m ((c : Thread nD τ).loc main_arg12)
abbrev argBih : Cert.ReferenceIdeal.Stages.Fl Ideal S96 := m ((c : Thread nD τ).loc main_arg14)
abbrev argBhh : Cert.ReferenceIdeal.Stages.Fl Ideal S96 := m ((c : Thread nD τ).loc main_arg15)

abbrev argWI : Cert.ReferenceIdeal.Stages.Fl Ideal S8x34 := m ((c : Thread nD τ).loc main_arg16)
abbrev argBI : Cert.ReferenceIdeal.Stages.Fl Ideal S8 := m ((c : Thread nD τ).loc main_arg17)
abbrev argWR : Cert.ReferenceIdeal.Stages.Fl Ideal S8x34 := m ((c : Thread nD τ).loc main_arg18)
abbrev argBR : Cert.ReferenceIdeal.Stages.Fl Ideal S8 := m ((c : Thread nD τ).loc main_arg19)
abbrev argWsir : Cert.ReferenceIdeal.Stages.Fl Ideal S2x34 := m ((c : Thread nD τ).loc main_arg20)
abbrev argBsir : Cert.ReferenceIdeal.Stages.Fl Ideal S2 := m ((c : Thread nD τ).loc main_arg21)

abbrev hid : Cert.ReferenceIdeal.Stages.Fl Ideal S200000x32 :=
  Cert.ReferenceIdeal.Stages.hidden (argX m c) (argA m c) (argW1 m c) (argB1 m c) (argAW1 m c) (argAB1 m c)
    (argW2 m c) (argB2 m c) (argAW2 m c) (argAB2 m c) (argWih m c) (argBih m c) (argBhh m c)

theorem z1_eq : Fold.z1 m c = Cert.ReferenceIdeal.Stages.lin1 (Cert.ReferenceIdeal.Stages.feats (argX m c)) (argW1 m c) (argB1 m c) := by
  refine Value0.value (Fold.atTc (Fold.T1 m)) c _ _ _ ?_ ?_ ?_
    <;> simp (disch := decide) only [Fold.atTc, Fold.T1, Gen.V1, keep_after hostOps0_writes, ops0_v7, ops0_v12]

theorem msg1_eq : Fold.msg1 m c = Cert.ReferenceIdeal.Stages.msg (Cert.ReferenceIdeal.Stages.rows (Fold.z1 m c) (Cert.ReferenceIdeal.Stages.src (argA m c))) (Cert.ReferenceIdeal.Stages.rows (Fold.z1 m c) (Cert.ReferenceIdeal.Stages.dst (argA m c))) (argAW1 m c) (argAB1 m c) := by
  refine Value1.value (Fold.atTc (Fold.T3 m)) c _ _ _ _ ?_ ?_ ?_ ?_ ?_
    <;> simp (disch := decide) only [Fold.atTc, Fold.T3, Fold.T2, Fold.T1, Gen.V1, keep_after hostOps0_writes, Function.update_self, update_keep, ops1_v20, ops1_v27, ops1_v28, ops1_v29, ops1_v30, ops0_v9, ops0_v11]

theorem z2_eq : Fold.z2 m c = Cert.ReferenceIdeal.Stages.lin2 (Cert.ReferenceIdeal.Stages.elu (Cert.ReferenceIdeal.Stages.agg (Fold.msg1 m c) (Cert.ReferenceIdeal.Stages.dst (argA m c)))) (argW2 m c) (argB2 m c) := by
  refine Value2.value (Fold.atTc (Fold.T5 m)) c _ _ _ ?_ ?_ ?_
    <;> simp (disch := decide) only [Fold.atTc, Fold.T5, Fold.T4, Fold.T3, Fold.T2, Fold.T1, Gen.V1, keep_after hostOps0_writes, keep_after hostOps1_writes, keep_after hostOps2_writes, Function.update_self, update_keep, ops2_v34, ops2_v35, ops0_v11]

theorem msg2_eq : Fold.msg2 m c = Cert.ReferenceIdeal.Stages.msg (Cert.ReferenceIdeal.Stages.rows (Fold.z2 m c) (Cert.ReferenceIdeal.Stages.src (argA m c))) (Cert.ReferenceIdeal.Stages.rows (Fold.z2 m c) (Cert.ReferenceIdeal.Stages.dst (argA m c))) (argAW2 m c) (argAB2 m c) := by
  refine Value3.value (Fold.atTc (Fold.T7 m)) c _ _ _ _ ?_ ?_ ?_ ?_ ?_
    <;> simp (disch := decide) only [Fold.atTc, Fold.T7, Fold.T6, Fold.T5, Fold.T4, Fold.T3, Fold.T2, Fold.T1, Gen.V1, keep_after hostOps0_writes, keep_after hostOps1_writes, keep_after hostOps2_writes, Function.update_self, update_keep, ops3_v43, ops3_v50, ops3_v51, ops3_v52, ops3_v53, ops0_v9, ops0_v11]

theorem gate_eq : Fold.gate m c = Cert.ReferenceIdeal.Stages.gru (Cert.ReferenceIdeal.Stages.elu (Cert.ReferenceIdeal.Stages.agg (Fold.msg2 m c) (Cert.ReferenceIdeal.Stages.dst (argA m c)))) (argWih m c) (argBih m c) (argBhh m c) := by
  refine Value4.value (Fold.atTc (Fold.T9 m)) c _ _ _ _ ?_ ?_ ?_ ?_
    <;> simp (disch := decide) only [Fold.atTc, Fold.T9, Fold.T8, Fold.T7, Fold.T6, Fold.T5, Fold.T4, Fold.T3, Fold.T2, Fold.T1, Gen.V1, keep_after hostOps0_writes, keep_after hostOps1_writes, keep_after hostOps2_writes, keep_after hostOps3_writes, keep_after hostOps4_writes, Function.update_self, update_keep, ops4_v57, ops4_v58, ops4_v59, ops0_v11]

theorem pred_gate : Fold.pred m c = Cert.ReferenceIdeal.Stages.pred (Fold.gate m c) (Cert.ReferenceIdeal.Stages.lastDiffI (argX m c)) (Cert.ReferenceIdeal.Stages.lastDiffR (argX m c)) (argWI m c) (argBI m c) (argWR m c) (argBR m c) := by
  refine Value5Pred.value (Fold.atTc (Fold.T11 m)) c _ _ _ (argSt m c) (argN m c) _ _ _ _ (argWsir m c) (argBsir m c) ?_ (ops5_v68 _ ?_ ?_ ?_ ?_) ?_ ?_ ?_ ?_ ?_ ?_
    <;> simp (disch := decide) only [Fold.atTc, Fold.T11, Fold.T10, Fold.T9, Fold.T8, Fold.T7, Fold.T6, Fold.T5, Fold.T4, Fold.T3, Fold.T2, Fold.T1, Gen.V1, keep_after hostOps0_writes, keep_after hostOps1_writes, keep_after hostOps2_writes, keep_after hostOps3_writes, keep_after hostOps4_writes, keep_after hostOps5_writes, Function.update_self, update_keep, ops5_v69, ops5_v70, ops5_v71, ops0_v2, ops0_v5]

theorem phy_gate : Fold.phy m c = Cert.ReferenceIdeal.Stages.phy (Fold.gate m c) (Cert.ReferenceIdeal.Stages.lastDiffI (argX m c)) (Cert.ReferenceIdeal.Stages.lastDiffR (argX m c)) (argWsir m c) (argBsir m c) (argSt m c) (argN m c) := by
  refine Value5Phy.value (Fold.atTc (Fold.T11 m)) c _ _ _ _ _ (argWI m c) (argBI m c) (argWR m c) (argBR m c) _ _ ?_ (ops5_v68 _ ?_ ?_ ?_ ?_) ?_ ?_ ?_ ?_ ?_ ?_
    <;> simp (disch := decide) only [Fold.atTc, Fold.T11, Fold.T10, Fold.T9, Fold.T8, Fold.T7, Fold.T6, Fold.T5, Fold.T4, Fold.T3, Fold.T2, Fold.T1, Gen.V1, keep_after hostOps0_writes, keep_after hostOps1_writes, keep_after hostOps2_writes, keep_after hostOps3_writes, keep_after hostOps4_writes, keep_after hostOps5_writes, Function.update_self, update_keep, ops5_v69, ops5_v70, ops5_v71, ops0_v2, ops0_v5]

theorem gate_hid : Fold.gate m c = hid m c := by
  rw [gate_eq, msg2_eq, z2_eq, msg1_eq, z1_eq]
  rfl

theorem pred_eq : Fold.pred m c = Cert.ReferenceIdeal.Stages.pred (hid m c) (Cert.ReferenceIdeal.Stages.lastDiffI (argX m c)) (Cert.ReferenceIdeal.Stages.lastDiffR (argX m c))
    (argWI m c) (argBI m c) (argWR m c) (argBR m c) := by
  rw [pred_gate, gate_hid]

theorem phy_eq : Fold.phy m c = Cert.ReferenceIdeal.Stages.phy (hid m c) (Cert.ReferenceIdeal.Stages.lastDiffI (argX m c)) (Cert.ReferenceIdeal.Stages.lastDiffR (argX m c))
    (argWsir m c) (argBsir m c) (argSt m c) (argN m c) := by
  rw [phy_gate, gate_hid]

end Chain

end Cert.KernelIdeal.KernelValue

end
-- ==== Proof.RefOps.lean ====
import proofs.«112250_j2224793059992_2_alg».proof.Proof.Gen.ReferenceIdeal
import Idealize.ShloMosaic.Lib.StableHlo.Run

noncomputable section

namespace Cert.ReferenceIdeal.HandRead

open Cert.ReferenceIdeal Cert.ReferenceIdeal.Gen Idealize.ShloMosaic Idealize.ShloMosaic.TcCoe Idealize.ShloMosaic.StableHlo

variable {F : FTy → Type} [FloatOps F]

abbrev Arr (S : Shape) (e : EltTy) : Type := (⟨S, e⟩ : BufTy).Contents (Elt F)

abbrev segA0 : List (HloOp τ sig (Elt F)) :=
  [ unary main_arg0 main_v0 ((extractStridedSlice S4x1x50000x1 ![0, 15, 0, 1] · slices_S4x16x50000x4_S4x1x50000x1_0_15_0_1) : Arr S4x16x50000x4 .f32 → Arr S4x1x50000x1 .f32),
    reshape main_v0 main_v1 rfl shapeCasts_S4x1x50000x1_S4x50000,
    reshape main_v1 main_v2 rfl shapeCasts_S4x50000_S200000x1,
    unary main_arg0 main_v3 ((extractStridedSlice S4x1x50000x1 ![0, 15, 0, 2] · slices_S4x16x50000x4_S4x1x50000x1_0_15_0_2) : Arr S4x16x50000x4 .f32 → Arr S4x1x50000x1 .f32),
    reshape main_v3 main_v4 rfl shapeCasts_S4x1x50000x1_S4x50000,
    reshape main_v4 main_v5 rfl shapeCasts_S4x50000_S200000x1,
    unary main_arg0 main_v6 ((transpose S4x50000x16x4 [0, 2, 1, 3] · transposes_S4x16x50000x4_S4x50000x16x4_0_2_1_3) : Arr S4x16x50000x4 .f32 → Arr S4x50000x16x4 .f32),
    reshape main_v6 main_v7 rfl shapeCasts_S4x50000x16x4_S200000x64,
    unary main_arg1 main_v8 ((extractStridedSlice S1x1600000 ![0, 0] · slices_S2x1600000_S1x1600000_0_0) : Arr S2x1600000 .i32 → Arr S1x1600000 .i32),
    reshape main_v8 main_v9 rfl shapeCasts_S1x1600000_S1600000,
    unary main_arg1 main_v10 ((extractStridedSlice S1x1600000 ![1, 0] · slices_S2x1600000_S1x1600000_1_0) : Arr S2x1600000 .i32 → Arr S1x1600000 .i32),
    reshape main_v10 main_v11 rfl shapeCasts_S1x1600000_S1600000,
    unary main_arg4 main_v12 ((transpose S64x32 [1, 0] · transposes_S32x64_S64x32_1_0) : Arr S32x64 .f32 → Arr S64x32 .f32),
    binary main_v7 main_v12 main_v13 ((fun l r => Host.dotGeneral dot_S200000x64_S64x32_S200000x32_1_0_0_1_n_n none l r) : Arr S200000x64 .f32 → Arr S64x32 .f32 → Arr S200000x32 .f32),
    unary main_arg5 main_v14 (broadcastInDim S1x32 ![1] bcast_S32_S1x32_1 : Arr S32 .f32 → Arr S1x32 .f32),
    unary main_v14 main_v15 (broadcastInDim S200000x32 ![0, 1] bcast_S1x32_S200000x32_0_1 : Arr S1x32 .f32 → Arr S200000x32 .f32),
    binary main_v13 main_v15 main_v16 (addf : Arr S200000x32 .f32 → Arr S200000x32 .f32 → Arr S200000x32 .f32) ]

abbrev segA1 : List (HloOp τ sig (Elt F)) :=
  [ nullary main_c (constantI S_ 32 0#32),
    unary main_c main_v17 (broadcastInDim S1600000 ![] bcast_S_S1600000 : Arr S_ .i32 → Arr S1600000 .i32),
    binary main_v9 main_v17 main_v18 (cmpi .slt : Arr S1600000 .i32 → Arr S1600000 .i32 → Arr S1600000 .i1),
    nullary main_c_0 (constantI S_ 32 200000#32),
    unary main_c_0 main_v19 (broadcastInDim S1600000 ![] bcast_S_S1600000 : Arr S_ .i32 → Arr S1600000 .i32),
    binary main_v9 main_v19 main_v20 (addi : Arr S1600000 .i32 → Arr S1600000 .i32 → Arr S1600000 .i32),
    ternary main_v18 main_v20 main_v9 main_v21 (select : Arr S1600000 .i1 → Arr S1600000 .i32 → Arr S1600000 .i32 → Arr S1600000 .i32),
    unary main_v21 main_v22 (broadcastInDim S1600000x1 ![0] bcast_S1600000_S1600000x1_0 : Arr S1600000 .i32 → Arr S1600000x1 .i32),
    binary main_v16 main_v22 main_v23 ((fun x i => Host.gather gather_S200000x32_S1600000x1_S1600000x32_1_0_n_n_0_1_132 x i) : Arr S200000x32 .f32 → Arr S1600000x1 .i32 → Arr S1600000x32 .f32),
    nullary main_c_1 (constantI S_ 32 0#32),
    unary main_c_1 main_v24 (broadcastInDim S1600000 ![] bcast_S_S1600000 : Arr S_ .i32 → Arr S1600000 .i32),
    binary main_v11 main_v24 main_v25 (cmpi .slt : Arr S1600000 .i32 → Arr S1600000 .i32 → Arr S1600000 .i1),
    nullary main_c_2 (constantI S_ 32 200000#32),
    unary main_c_2 main_v26 (broadcastInDim S1600000 ![] bcast_S_S1600000 : Arr S_ .i32 → Arr S1600000 .i32),
    binary main_v11 main_v26 main_v27 (addi : Arr S1600000 .i32 → Arr S1600000 .i32 → Arr S1600000 .i32),
    ternary main_v25 main_v27 main_v11 main_v28 (select : Arr S1600000 .i1 → Arr S1600000 .i32 → Arr S1600000 .i32 → Arr S1600000 .i32),
    unary main_v28 main_v29 (broadcastInDim S1600000x1 ![0] bcast_S1600000_S1600000x1_0 : Arr S1600000 .i32 → Arr S1600000x1 .i32),
    binary main_v16 main_v29 main_v30 ((fun x i => Host.gather gather_S200000x32_S1600000x1_S1600000x32_1_0_n_n_0_1_132 x i) : Arr S200000x32 .f32 → Arr S1600000x1 .i32 → Arr S1600000x32 .f32) ]

abbrev segA2 : List (HloOp τ sig (Elt F)) :=
  [ binary main_v23 main_v30 main_v31 ((fun a b => concatenate S1600000x64 1 [⟨S1600000x32, a⟩, ⟨S1600000x32, b⟩] concatenates_S1600000x32_S1600000x32_S1600000x64_d1) : Arr S1600000x32 .f32 → Arr S1600000x32 .f32 → Arr S1600000x64 .f32),
    unary main_arg6 main_v32 ((transpose S64x1 [1, 0] · transposes_S1x64_S64x1_1_0) : Arr S1x64 .f32 → Arr S64x1 .f32),
    binary main_v31 main_v32 main_v33 ((fun l r => Host.dotGeneral dot_S1600000x64_S64x1_S1600000x1_1_0_0_1_n_n none l r) : Arr S1600000x64 .f32 → Arr S64x1 .f32 → Arr S1600000x1 .f32),
    unary main_arg7 main_v34 (broadcastInDim S1x1 ![1] bcast_S1_S1x1_1 : Arr S1 .f32 → Arr S1x1 .f32),
    unary main_v34 main_v35 (broadcastInDim S1600000x1 ![0, 1] bcast_S1x1_S1600000x1_0_1 : Arr S1x1 .f32 → Arr S1600000x1 .f32),
    binary main_v33 main_v35 main_v36 (addf : Arr S1600000x1 .f32 → Arr S1600000x1 .f32 → Arr S1600000x1 .f32),
    nullary main_cst (constant S_ .f32 0x3C23D70A#32),
    TRef.nullary main_call0.cst (constant S_ .f32 0x00000000#32),
    TRef.unary main_call0.cst main_call0.v0 (broadcastInDim S1600000x1 ![] bcast_S_S1600000x1),
    TRef.binary (.of main_v36) main_call0.v0 main_call0.v1 (cmpf .oge),
    TRef.unary (.of main_cst) main_call0.v2 id,
    TRef.unary main_call0.v2 main_call0.v3 (broadcastInDim S1600000x1 ![] bcast_S_S1600000x1),
    TRef.binary main_call0.v3 (.of main_v36) main_call0.v4 mulf,
    TRef.ternary main_call0.v1 (.of main_v36) main_call0.v4 main_call0.call0.v0 select,
    unary main_v37 main_v38 (broadcastInDim S1600000x32 ![0, 1] bcast_S1600000x1_S1600000x32_0_1 : Arr S1600000x1 .f32 → Arr S1600000x32 .f32),
    binary main_v23 main_v38 main_v39 (mulf : Arr S1600000x32 .f32 → Arr S1600000x32 .f32 → Arr S1600000x32 .f32),
    nullary main_cst_3 (constant S_ .f32 0x00000000#32),
    unary main_cst_3 main_v40 (broadcastInDim S200000x32 ![] bcast_S_S200000x32 : Arr S_ .f32 → Arr S200000x32 .f32),
    unary main_v11 main_v41 (broadcastInDim S1600000x1 ![0] bcast_S1600000_S1600000x1_0 : Arr S1600000 .i32 → Arr S1600000x1 .i32),
    ternary main_v40 main_v41 main_v39 main_v42 ((fun x i u => Host.scatterAdd scatter_S200000x32_S1600000x1_S1600000x32_1_0_0_1 x i u) : Arr S200000x32 .f32 → Arr S1600000x1 .i32 → Arr S1600000x32 .f32 → Arr S200000x32 .f32) ]

abbrev segA3 : List (HloOp τ sig (Elt F)) :=
  [ TRef.nullary main_call1.cst (constant S_ .f32 0x00000000#32),
    TRef.unary main_call1.cst main_call1.v0 (broadcastInDim S200000x32 ![] bcast_S_S200000x32),
    TRef.binary (.of main_v42) main_call1.v0 main_call1.v1 (cmpf .ogt),
    TRef.nullary main_call1.cst_0 (constant S_ .f32 0x00000000#32),
    TRef.unary main_call1.cst_0 main_call1.v2 (broadcastInDim S200000x32 ![] bcast_S_S200000x32),
    TRef.binary (.of main_v42) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S200000x32 ![] bcast_S_S200000x32),
    TRef.ternary main_call1.v3 main_call1.call0.v1 (.of main_v42) main_call1.call0.v2 select,
    TRef.unary main_call1.call0.v2 main_call1.v5 Host.expm1,
    TRef.nullary main_call1.cst_2 (constant S_ .f32 0x3F800000#32),
    TRef.unary main_call1.cst_2 main_call1.v6 (broadcastInDim S200000x32 ![] bcast_S_S200000x32),
    TRef.binary main_call1.v6 main_call1.v5 main_call1.v7 mulf,
    TRef.ternary main_call1.v1 (.of main_v42) main_call1.v7 main_call1.call1.v0 select ]

abbrev segA4 : List (HloOp τ sig (Elt F)) :=
  [ unary main_arg8 main_v44 ((transpose S32x32 [1, 0] · transposes_S32x32_S32x32_1_0) : Arr S32x32 .f32 → Arr S32x32 .f32),
    binary main_v43 main_v44 main_v45 ((fun l r => Host.dotGeneral dot_S200000x32_S32x32_S200000x32_1_0_0_1_n_n none l r) : Arr S200000x32 .f32 → Arr S32x32 .f32 → Arr S200000x32 .f32),
    unary main_arg9 main_v46 (broadcastInDim S1x32 ![1] bcast_S32_S1x32_1 : Arr S32 .f32 → Arr S1x32 .f32),
    unary main_v46 main_v47 (broadcastInDim S200000x32 ![0, 1] bcast_S1x32_S200000x32_0_1 : Arr S1x32 .f32 → Arr S200000x32 .f32),
    binary main_v45 main_v47 main_v48 (addf : Arr S200000x32 .f32 → Arr S200000x32 .f32 → Arr S200000x32 .f32),
    nullary main_c_4 (constantI S_ 32 0#32),
    unary main_c_4 main_v49 (broadcastInDim S1600000 ![] bcast_S_S1600000 : Arr S_ .i32 → Arr S1600000 .i32),
    binary main_v9 main_v49 main_v50 (cmpi .slt : Arr S1600000 .i32 → Arr S1600000 .i32 → Arr S1600000 .i1),
    nullary main_c_5 (constantI S_ 32 200000#32),
    unary main_c_5 main_v51 (broadcastInDim S1600000 ![] bcast_S_S1600000 : Arr S_ .i32 → Arr S1600000 .i32) ]

abbrev segB1 : List (HloOp τ sig (Elt F)) :=
  [ binary main_v9 main_v51 main_v52 (addi : Arr S1600000 .i32 → Arr S1600000 .i32 → Arr S1600000 .i32),
    ternary main_v50 main_v52 main_v9 main_v53 (select : Arr S1600000 .i1 → Arr S1600000 .i32 → Arr S1600000 .i32 → Arr S1600000 .i32),
    unary main_v53 main_v54 (broadcastInDim S1600000x1 ![0] bcast_S1600000_S1600000x1_0 : Arr S1600000 .i32 → Arr S1600000x1 .i32),
    binary main_v48 main_v54 main_v55 ((fun x i => Host.gather gather_S200000x32_S1600000x1_S1600000x32_1_0_n_n_0_1_132 x i) : Arr S200000x32 .f32 → Arr S1600000x1 .i32 → Arr S1600000x32 .f32),
    nullary main_c_6 (constantI S_ 32 0#32),
    unary main_c_6 main_v56 (broadcastInDim S1600000 ![] bcast_S_S1600000 : Arr S_ .i32 → Arr S1600000 .i32),
    binary main_v11 main_v56 main_v57 (cmpi .slt : Arr S1600000 .i32 → Arr S1600000 .i32 → Arr S1600000 .i1),
    nullary main_c_7 (constantI S_ 32 200000#32),
    unary main_c_7 main_v58 (broadcastInDim S1600000 ![] bcast_S_S1600000 : Arr S_ .i32 → Arr S1600000 .i32),
    binary main_v11 main_v58 main_v59 (addi : Arr S1600000 .i32 → Arr S1600000 .i32 → Arr S1600000 .i32),
    ternary main_v57 main_v59 main_v11 main_v60 (select : Arr S1600000 .i1 → Arr S1600000 .i32 → Arr S1600000 .i32 → Arr S1600000 .i32),
    unary main_v60 main_v61 (broadcastInDim S1600000x1 ![0] bcast_S1600000_S1600000x1_0 : Arr S1600000 .i32 → Arr S1600000x1 .i32),
    binary main_v48 main_v61 main_v62 ((fun x i => Host.gather gather_S200000x32_S1600000x1_S1600000x32_1_0_n_n_0_1_132 x i) : Arr S200000x32 .f32 → Arr S1600000x1 .i32 → Arr S1600000x32 .f32) ]

abbrev segB2 : List (HloOp τ sig (Elt F)) :=
  [ binary main_v55 main_v62 main_v63 ((fun a b => concatenate S1600000x64 1 [⟨S1600000x32, a⟩, ⟨S1600000x32, b⟩] concatenates_S1600000x32_S1600000x32_S1600000x64_d1) : Arr S1600000x32 .f32 → Arr S1600000x32 .f32 → Arr S1600000x64 .f32),
    unary main_arg10 main_v64 ((transpose S64x1 [1, 0] · transposes_S1x64_S64x1_1_0) : Arr S1x64 .f32 → Arr S64x1 .f32),
    binary main_v63 main_v64 main_v65 ((fun l r => Host.dotGeneral dot_S1600000x64_S64x1_S1600000x1_1_0_0_1_n_n none l r) : Arr S1600000x64 .f32 → Arr S64x1 .f32 → Arr S1600000x1 .f32),
    unary main_arg11 main_v66 (broadcastInDim S1x1 ![1] bcast_S1_S1x1_1 : Arr S1 .f32 → Arr S1x1 .f32),
    unary main_v66 main_v67 (broadcastInDim S1600000x1 ![0, 1] bcast_S1x1_S1600000x1_0_1 : Arr S1x1 .f32 → Arr S1600000x1 .f32),
    binary main_v65 main_v67 main_v68 (addf : Arr S1600000x1 .f32 → Arr S1600000x1 .f32 → Arr S1600000x1 .f32),
    nullary main_cst_8 (constant S_ .f32 0x3C23D70A#32),
    TRef.nullary main_call2.cst (constant S_ .f32 0x00000000#32),
    TRef.unary main_call2.cst main_call2.v0 (broadcastInDim S1600000x1 ![] bcast_S_S1600000x1),
    TRef.binary (.of main_v68) main_call2.v0 main_call2.v1 (cmpf .oge),
    TRef.unary (.of main_cst_8) main_call2.v2 id,
    TRef.unary main_call2.v2 main_call2.v3 (broadcastInDim S1600000x1 ![] bcast_S_S1600000x1),
    TRef.binary main_call2.v3 (.of main_v68) main_call2.v4 mulf,
    TRef.ternary main_call2.v1 (.of main_v68) main_call2.v4 main_call2.call0.v0 select,
    unary main_v69 main_v70 (broadcastInDim S1600000x32 ![0, 1] bcast_S1600000x1_S1600000x32_0_1 : Arr S1600000x1 .f32 → Arr S1600000x32 .f32),
    binary main_v55 main_v70 main_v71 (mulf : Arr S1600000x32 .f32 → Arr S1600000x32 .f32 → Arr S1600000x32 .f32),
    nullary main_cst_9 (constant S_ .f32 0x00000000#32),
    unary main_cst_9 main_v72 (broadcastInDim S200000x32 ![] bcast_S_S200000x32 : Arr S_ .f32 → Arr S200000x32 .f32),
    unary main_v11 main_v73 (broadcastInDim S1600000x1 ![0] bcast_S1600000_S1600000x1_0 : Arr S1600000 .i32 → Arr S1600000x1 .i32),
    ternary main_v72 main_v73 main_v71 main_v74 ((fun x i u => Host.scatterAdd scatter_S200000x32_S1600000x1_S1600000x32_1_0_0_1 x i u) : Arr S200000x32 .f32 → Arr S1600000x1 .i32 → Arr S1600000x32 .f32 → Arr S200000x32 .f32) ]

abbrev segB3 : List (HloOp τ sig (Elt F)) :=
  [ TRef.nullary main_call3.cst (constant S_ .f32 0x00000000#32),
    TRef.unary main_call3.cst main_call3.v0 (broadcastInDim S200000x32 ![] bcast_S_S200000x32),
    TRef.binary (.of main_v74) main_call3.v0 main_call3.v1 (cmpf .ogt),
    TRef.nullary main_call3.cst_0 (constant S_ .f32 0x00000000#32),
    TRef.unary main_call3.cst_0 main_call3.v2 (broadcastInDim S200000x32 ![] bcast_S_S200000x32),
    TRef.binary (.of main_v74) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S200000x32 ![] bcast_S_S200000x32),
    TRef.ternary main_call3.v3 main_call3.call0.v1 (.of main_v74) main_call3.call0.v2 select,
    TRef.unary main_call3.call0.v2 main_call3.v5 Host.expm1,
    TRef.nullary main_call3.cst_2 (constant S_ .f32 0x3F800000#32),
    TRef.unary main_call3.cst_2 main_call3.v6 (broadcastInDim S200000x32 ![] bcast_S_S200000x32),
    TRef.binary main_call3.v6 main_call3.v5 main_call3.v7 mulf,
    TRef.ternary main_call3.v1 (.of main_v74) main_call3.v7 main_call3.call1.v0 select ]

abbrev segB4 : List (HloOp τ sig (Elt F)) :=
  [ unary main_arg12 main_v76 ((transpose S32x96 [1, 0] · transposes_S96x32_S32x96_1_0) : Arr S96x32 .f32 → Arr S32x96 .f32),
    binary main_v75 main_v76 main_v77 ((fun l r => Host.dotGeneral dot_S200000x32_S32x96_S200000x96_1_0_0_1_n_n none l r) : Arr S200000x32 .f32 → Arr S32x96 .f32 → Arr S200000x96 .f32),
    unary main_arg14 main_v78 (broadcastInDim S1x96 ![1] bcast_S96_S1x96_1 : Arr S96 .f32 → Arr S1x96 .f32),
    unary main_v78 main_v79 (broadcastInDim S200000x96 ![0, 1] bcast_S1x96_S200000x96_0_1 : Arr S1x96 .f32 → Arr S200000x96 .f32),
    binary main_v77 main_v79 main_v80 (addf : Arr S200000x96 .f32 → Arr S200000x96 .f32 → Arr S200000x96 .f32),
    unary main_v80 main_v81 ((extractStridedSlice S200000x32 ![0, 0] · slices_S200000x96_S200000x32_0_0) : Arr S200000x96 .f32 → Arr S200000x32 .f32),
    unary main_arg15 main_v82 ((extractStridedSlice S32 ![0] · slices_S96_S32_0) : Arr S96 .f32 → Arr S32 .f32),
    unary main_v82 main_v83 (broadcastInDim S1x32 ![1] bcast_S32_S1x32_1 : Arr S32 .f32 → Arr S1x32 .f32),
    unary main_v83 main_v84 (broadcastInDim S200000x32 ![0, 1] bcast_S1x32_S200000x32_0_1 : Arr S1x32 .f32 → Arr S200000x32 .f32),
    binary main_v81 main_v84 main_v85 (addf : Arr S200000x32 .f32 → Arr S200000x32 .f32 → Arr S200000x32 .f32),
    unary main_v85 main_v86 (Host.negf : Arr S200000x32 .f32 → Arr S200000x32 .f32),
    unary main_v86 main_v87 (Host.exp : Arr S200000x32 .f32 → Arr S200000x32 .f32),
    nullary main_cst_10 (constant S_ .f32 0x3F800000#32),
    unary main_cst_10 main_v88 (broadcastInDim S200000x32 ![] bcast_S_S200000x32 : Arr S_ .f32 → Arr S200000x32 .f32),
    binary main_v88 main_v87 main_v89 (addf : Arr S200000x32 .f32 → Arr S200000x32 .f32 → Arr S200000x32 .f32),
    nullary main_cst_11 (constant S_ .f32 0x3F800000#32),
    unary main_cst_11 main_v90 (broadcastInDim S200000x32 ![] bcast_S_S200000x32 : Arr S_ .f32 → Arr S200000x32 .f32),
    binary main_v90 main_v89 main_v91 (Host.divf : Arr S200000x32 .f32 → Arr S200000x32 .f32 → Arr S200000x32 .f32),
    unary main_v80 main_v92 ((extractStridedSlice S200000x32 ![0, 32] · slices_S200000x96_S200000x32_0_32) : Arr S200000x96 .f32 → Arr S200000x32 .f32),
    unary main_arg15 main_v93 ((extractStridedSlice S32 ![32] · slices_S96_S32_32) : Arr S96 .f32 → Arr S32 .f32),
    unary main_v93 main_v94 (broadcastInDim S1x32 ![1] bcast_S32_S1x32_1 : Arr S32 .f32 → Arr S1x32 .f32),
    unary main_v94 main_v95 (broadcastInDim S200000x32 ![0, 1] bcast_S1x32_S200000x32_0_1 : Arr S1x32 .f32 → Arr S200000x32 .f32),
    binary main_v92 main_v95 main_v96 (addf : Arr S200000x32 .f32 → Arr S200000x32 .f32 → Arr S200000x32 .f32),
    unary main_v96 main_v97 (Host.negf : Arr S200000x32 .f32 → Arr S200000x32 .f32),
    unary main_v97 main_v98 (Host.exp : Arr S200000x32 .f32 → Arr S200000x32 .f32),
    nullary main_cst_12 (constant S_ .f32 0x3F800000#32),
    unary main_cst_12 main_v99 (broadcastInDim S200000x32 ![] bcast_S_S200000x32 : Arr S_ .f32 → Arr S200000x32 .f32),
    binary main_v99 main_v98 main_v100 (addf : Arr S200000x32 .f32 → Arr S200000x32 .f32 → Arr S200000x32 .f32),
    nullary main_cst_13 (constant S_ .f32 0x3F800000#32),
    unary main_cst_13 main_v101 (broadcastInDim S200000x32 ![] bcast_S_S200000x32 : Arr S_ .f32 → Arr S200000x32 .f32),
    binary main_v101 main_v100 main_v102 (Host.divf : Arr S200000x32 .f32 → Arr S200000x32 .f32 → Arr S200000x32 .f32),
    unary main_v80 main_v103 ((extractStridedSlice S200000x32 ![0, 64] · slices_S200000x96_S200000x32_0_64) : Arr S200000x96 .f32 → Arr S200000x32 .f32) ]

abbrev segG : List (HloOp τ sig (Elt F)) :=
  [ unary main_arg15 main_v104 ((extractStridedSlice S32 ![64] · slices_S96_S32_64) : Arr S96 .f32 → Arr S32 .f32),
    unary main_v104 main_v105 (broadcastInDim S1x32 ![1] bcast_S32_S1x32_1 : Arr S32 .f32 → Arr S1x32 .f32),
    unary main_v105 main_v106 (broadcastInDim S200000x32 ![0, 1] bcast_S1x32_S200000x32_0_1 : Arr S1x32 .f32 → Arr S200000x32 .f32),
    binary main_v91 main_v106 main_v107 (mulf : Arr S200000x32 .f32 → Arr S200000x32 .f32 → Arr S200000x32 .f32),
    binary main_v103 main_v107 main_v108 (addf : Arr S200000x32 .f32 → Arr S200000x32 .f32 → Arr S200000x32 .f32),
    unary main_v108 main_v109 (Host.tanh : Arr S200000x32 .f32 → Arr S200000x32 .f32),
    nullary main_cst_14 (constant S_ .f32 0x3F800000#32),
    unary main_cst_14 main_v110 (broadcastInDim S200000x32 ![] bcast_S_S200000x32 : Arr S_ .f32 → Arr S200000x32 .f32),
    binary main_v110 main_v102 main_v111 (subf : Arr S200000x32 .f32 → Arr S200000x32 .f32 → Arr S200000x32 .f32),
    binary main_v111 main_v109 main_v112 (mulf : Arr S200000x32 .f32 → Arr S200000x32 .f32 → Arr S200000x32 .f32) ]

abbrev segJ : List (HloOp τ sig (Elt F)) :=
  [ nary ![main_v112, main_v2, main_v5] main_v113 (fun u => concatenate S200000x34 1 [⟨S200000x32, u 0⟩, ⟨S200000x1, u 1⟩, ⟨S200000x1, u 2⟩] concatenates_S200000x32_S200000x1_S200000x1_S200000x34_d1) ]

abbrev segK : List (HloOp τ sig (Elt F)) :=
  [ unary main_arg16 main_v114 ((transpose S34x8 [1, 0] · transposes_S8x34_S34x8_1_0) : Arr S8x34 .f32 → Arr S34x8 .f32),
    binary main_v113 main_v114 main_v115 ((fun l r => Host.dotGeneral dot_S200000x34_S34x8_S200000x8_1_0_0_1_n_n none l r) : Arr S200000x34 .f32 → Arr S34x8 .f32 → Arr S200000x8 .f32),
    unary main_arg17 main_v116 (broadcastInDim S1x8 ![1] bcast_S8_S1x8_1 : Arr S8 .f32 → Arr S1x8 .f32),
    unary main_v116 main_v117 (broadcastInDim S200000x8 ![0, 1] bcast_S1x8_S200000x8_0_1 : Arr S1x8 .f32 → Arr S200000x8 .f32),
    binary main_v115 main_v117 main_v118 (addf : Arr S200000x8 .f32 → Arr S200000x8 .f32 → Arr S200000x8 .f32),
    unary main_v118 main_v119 (broadcastInDim S200000x8x1 ![0, 1] bcast_S200000x8_S200000x8x1_0_1 : Arr S200000x8 .f32 → Arr S200000x8x1 .f32),
    unary main_arg18 main_v120 ((transpose S34x8 [1, 0] · transposes_S8x34_S34x8_1_0) : Arr S8x34 .f32 → Arr S34x8 .f32),
    binary main_v113 main_v120 main_v121 ((fun l r => Host.dotGeneral dot_S200000x34_S34x8_S200000x8_1_0_0_1_n_n none l r) : Arr S200000x34 .f32 → Arr S34x8 .f32 → Arr S200000x8 .f32),
    unary main_arg19 main_v122 (broadcastInDim S1x8 ![1] bcast_S8_S1x8_1 : Arr S8 .f32 → Arr S1x8 .f32),
    unary main_v122 main_v123 (broadcastInDim S200000x8 ![0, 1] bcast_S1x8_S200000x8_0_1 : Arr S1x8 .f32 → Arr S200000x8 .f32),
    binary main_v121 main_v123 main_v124 (addf : Arr S200000x8 .f32 → Arr S200000x8 .f32 → Arr S200000x8 .f32),
    unary main_v124 main_v125 (broadcastInDim S200000x8x1 ![0, 1] bcast_S200000x8_S200000x8x1_0_1 : Arr S200000x8 .f32 → Arr S200000x8x1 .f32),
    unary main_arg20 main_v126 ((transpose S34x2 [1, 0] · transposes_S2x34_S34x2_1_0) : Arr S2x34 .f32 → Arr S34x2 .f32),
    binary main_v113 main_v126 main_v127 ((fun l r => Host.dotGeneral dot_S200000x34_S34x2_S200000x2_1_0_0_1_n_n none l r) : Arr S200000x34 .f32 → Arr S34x2 .f32 → Arr S200000x2 .f32),
    unary main_arg21 main_v128 (broadcastInDim S1x2 ![1] bcast_S2_S1x2_1 : Arr S2 .f32 → Arr S1x2 .f32),
    unary main_v128 main_v129 (broadcastInDim S200000x2 ![0, 1] bcast_S1x2_S200000x2_0_1 : Arr S1x2 .f32 → Arr S200000x2 .f32),
    binary main_v127 main_v129 main_v130 (addf : Arr S200000x2 .f32 → Arr S200000x2 .f32 → Arr S200000x2 .f32),
    unary main_v130 main_v131 ((extractStridedSlice S200000x1 ![0, 0] · slices_S200000x2_S200000x1_0_0) : Arr S200000x2 .f32 → Arr S200000x1 .f32),
    reshape main_v131 main_v132 rfl shapeCasts_S200000x1_S200000,
    unary main_v132 main_v133 (Host.negf : Arr S200000 .f32 → Arr S200000 .f32),
    unary main_v133 main_v134 (Host.exp : Arr S200000 .f32 → Arr S200000 .f32),
    nullary main_cst_15 (constant S_ .f32 0x3F800000#32),
    unary main_cst_15 main_v135 (broadcastInDim S200000 ![] bcast_S_S200000 : Arr S_ .f32 → Arr S200000 .f32),
    binary main_v135 main_v134 main_v136 (addf : Arr S200000 .f32 → Arr S200000 .f32 → Arr S200000 .f32),
    nullary main_cst_16 (constant S_ .f32 0x3F800000#32),
    unary main_cst_16 main_v137 (broadcastInDim S200000 ![] bcast_S_S200000 : Arr S_ .f32 → Arr S200000 .f32),
    binary main_v137 main_v136 main_v138 (Host.divf : Arr S200000 .f32 → Arr S200000 .f32 → Arr S200000 .f32),
    unary main_v130 main_v139 ((extractStridedSlice S200000x1 ![0, 1] · slices_S200000x2_S200000x1_0_1) : Arr S200000x2 .f32 → Arr S200000x1 .f32),
    reshape main_v139 main_v140 rfl shapeCasts_S200000x1_S200000,
    unary main_v140 main_v141 (Host.negf : Arr S200000 .f32 → Arr S200000 .f32),
    unary main_v141 main_v142 (Host.exp : Arr S200000 .f32 → Arr S200000 .f32),
    nullary main_cst_17 (constant S_ .f32 0x3F800000#32),
    unary main_cst_17 main_v143 (broadcastInDim S200000 ![] bcast_S_S200000 : Arr S_ .f32 → Arr S200000 .f32),
    binary main_v143 main_v142 main_v144 (addf : Arr S200000 .f32 → Arr S200000 .f32 → Arr S200000 .f32),
    nullary main_cst_18 (constant S_ .f32 0x3F800000#32),
    unary main_cst_18 main_v145 (broadcastInDim S200000 ![] bcast_S_S200000 : Arr S_ .f32 → Arr S200000 .f32),
    binary main_v145 main_v144 main_v146 (Host.divf : Arr S200000 .f32 → Arr S200000 .f32 → Arr S200000 .f32),
    reshape main_arg3 main_v147 rfl shapeCasts_S50000x1_S1x50000x1x1,
    unary main_v147 main_v148 (broadcastInDim S4x50000x1x1 ![0, 1, 2, 3] bcast_S1x50000x1x1_S4x50000x1x1_0_1_2_3 : Arr S1x50000x1x1 .f32 → Arr S4x50000x1x1 .f32),
    reshape main_v148 main_v149 rfl shapeCasts_S4x50000x1x1_S200000x1,
    reshape main_v149 main_v150 rfl shapeCasts_S200000x1_S200000,
    unary main_arg2 main_v151 ((extractStridedSlice S200000x1 ![0, 0] · slices_S200000x2_S200000x1_0_0) : Arr S200000x2 .f32 → Arr S200000x1 .f32),
    reshape main_v151 main_v152 rfl shapeCasts_S200000x1_S200000,
    unary main_arg2 main_v153 ((extractStridedSlice S200000x1 ![0, 1] · slices_S200000x2_S200000x1_0_1) : Arr S200000x2 .f32 → Arr S200000x1 .f32),
    reshape main_v153 main_v154 rfl shapeCasts_S200000x1_S200000 ]

abbrev step1 : List (HloOp τ sig (Elt F)) :=
  [ binary main_v150 main_v152 main_v155 (subf : Arr S200000 .f32 → Arr S200000 .f32 → Arr S200000 .f32),
    binary main_v155 main_v154 main_v156 (subf : Arr S200000 .f32 → Arr S200000 .f32 → Arr S200000 .f32),
    binary main_v138 main_v152 main_v157 (mulf : Arr S200000 .f32 → Arr S200000 .f32 → Arr S200000 .f32),
    binary main_v156 main_v150 main_v158 (Host.divf : Arr S200000 .f32 → Arr S200000 .f32 → Arr S200000 .f32),
    binary main_v157 main_v158 main_v159 (mulf : Arr S200000 .f32 → Arr S200000 .f32 → Arr S200000 .f32),
    binary main_v146 main_v152 main_v160 (mulf : Arr S200000 .f32 → Arr S200000 .f32 → Arr S200000 .f32),
    binary main_v159 main_v160 main_v161 (subf : Arr S200000 .f32 → Arr S200000 .f32 → Arr S200000 .f32),
    binary main_v146 main_v152 main_v162 (mulf : Arr S200000 .f32 → Arr S200000 .f32 → Arr S200000 .f32),
    binary main_v152 main_v161 main_v163 (addf : Arr S200000 .f32 → Arr S200000 .f32 → Arr S200000 .f32),
    binary main_v154 main_v162 main_v164 (addf : Arr S200000 .f32 → Arr S200000 .f32 → Arr S200000 .f32) ]

abbrev step2 : List (HloOp τ sig (Elt F)) :=
  [ binary main_v150 main_v163 main_v165 (subf : Arr S200000 .f32 → Arr S200000 .f32 → Arr S200000 .f32),
    binary main_v165 main_v164 main_v166 (subf : Arr S200000 .f32 → Arr S200000 .f32 → Arr S200000 .f32),
    binary main_v138 main_v163 main_v167 (mulf : Arr S200000 .f32 → Arr S200000 .f32 → Arr S200000 .f32),
    binary main_v166 main_v150 main_v168 (Host.divf : Arr S200000 .f32 → Arr S200000 .f32 → Arr S200000 .f32),
    binary main_v167 main_v168 main_v169 (mulf : Arr S200000 .f32 → Arr S200000 .f32 → Arr S200000 .f32),
    binary main_v146 main_v163 main_v170 (mulf : Arr S200000 .f32 → Arr S200000 .f32 → Arr S200000 .f32),
    binary main_v169 main_v170 main_v171 (subf : Arr S200000 .f32 → Arr S200000 .f32 → Arr S200000 .f32),
    binary main_v146 main_v163 main_v172 (mulf : Arr S200000 .f32 → Arr S200000 .f32 → Arr S200000 .f32),
    binary main_v163 main_v171 main_v173 (addf : Arr S200000 .f32 → Arr S200000 .f32 → Arr S200000 .f32),
    binary main_v164 main_v172 main_v174 (addf : Arr S200000 .f32 → Arr S200000 .f32 → Arr S200000 .f32) ]

abbrev step3 : List (HloOp τ sig (Elt F)) :=
  [ binary main_v150 main_v173 main_v175 (subf : Arr S200000 .f32 → Arr S200000 .f32 → Arr S200000 .f32),
    binary main_v175 main_v174 main_v176 (subf : Arr S200000 .f32 → Arr S200000 .f32 → Arr S200000 .f32),
    binary main_v138 main_v173 main_v177 (mulf : Arr S200000 .f32 → Arr S200000 .f32 → Arr S200000 .f32),
    binary main_v176 main_v150 main_v178 (Host.divf : Arr S200000 .f32 → Arr S200000 .f32 → Arr S200000 .f32),
    binary main_v177 main_v178 main_v179 (mulf : Arr S200000 .f32 → Arr S200000 .f32 → Arr S200000 .f32),
    binary main_v146 main_v173 main_v180 (mulf : Arr S200000 .f32 → Arr S200000 .f32 → Arr S200000 .f32),
    binary main_v179 main_v180 main_v181 (subf : Arr S200000 .f32 → Arr S200000 .f32 → Arr S200000 .f32),
    binary main_v146 main_v173 main_v182 (mulf : Arr S200000 .f32 → Arr S200000 .f32 → Arr S200000 .f32),
    binary main_v173 main_v181 main_v183 (addf : Arr S200000 .f32 → Arr S200000 .f32 → Arr S200000 .f32),
    binary main_v174 main_v182 main_v184 (addf : Arr S200000 .f32 → Arr S200000 .f32 → Arr S200000 .f32) ]

abbrev step4 : List (HloOp τ sig (Elt F)) :=
  [ binary main_v150 main_v183 main_v185 (subf : Arr S200000 .f32 → Arr S200000 .f32 → Arr S200000 .f32),
    binary main_v185 main_v184 main_v186 (subf : Arr S200000 .f32 → Arr S200000 .f32 → Arr S200000 .f32),
    binary main_v138 main_v183 main_v187 (mulf : Arr S200000 .f32 → Arr S200000 .f32 → Arr S200000 .f32),
    binary main_v186 main_v150 main_v188 (Host.divf : Arr S200000 .f32 → Arr S200000 .f32 → Arr S200000 .f32),
    binary main_v187 main_v188 main_v189 (mulf : Arr S200000 .f32 → Arr S200000 .f32 → Arr S200000 .f32),
    binary main_v146 main_v183 main_v190 (mulf : Arr S200000 .f32 → Arr S200000 .f32 → Arr S200000 .f32),
    binary main_v189 main_v190 main_v191 (subf : Arr S200000 .f32 → Arr S200000 .f32 → Arr S200000 .f32),
    binary main_v146 main_v183 main_v192 (mulf : Arr S200000 .f32 → Arr S200000 .f32 → Arr S200000 .f32),
    binary main_v183 main_v191 main_v193 (addf : Arr S200000 .f32 → Arr S200000 .f32 → Arr S200000 .f32),
    binary main_v184 main_v192 main_v194 (addf : Arr S200000 .f32 → Arr S200000 .f32 → Arr S200000 .f32) ]

abbrev step5 : List (HloOp τ sig (Elt F)) :=
  [ binary main_v150 main_v193 main_v195 (subf : Arr S200000 .f32 → Arr S200000 .f32 → Arr S200000 .f32),
    binary main_v195 main_v194 main_v196 (subf : Arr S200000 .f32 → Arr S200000 .f32 → Arr S200000 .f32),
    binary main_v138 main_v193 main_v197 (mulf : Arr S200000 .f32 → Arr S200000 .f32 → Arr S200000 .f32),
    binary main_v196 main_v150 main_v198 (Host.divf : Arr S200000 .f32 → Arr S200000 .f32 → Arr S200000 .f32),
    binary main_v197 main_v198 main_v199 (mulf : Arr S200000 .f32 → Arr S200000 .f32 → Arr S200000 .f32),
    binary main_v146 main_v193 main_v200 (mulf : Arr S200000 .f32 → Arr S200000 .f32 → Arr S200000 .f32),
    binary main_v199 main_v200 main_v201 (subf : Arr S200000 .f32 → Arr S200000 .f32 → Arr S200000 .f32),
    binary main_v146 main_v193 main_v202 (mulf : Arr S200000 .f32 → Arr S200000 .f32 → Arr S200000 .f32),
    binary main_v193 main_v201 main_v203 (addf : Arr S200000 .f32 → Arr S200000 .f32 → Arr S200000 .f32),
    binary main_v194 main_v202 main_v204 (addf : Arr S200000 .f32 → Arr S200000 .f32 → Arr S200000 .f32) ]

abbrev step6 : List (HloOp τ sig (Elt F)) :=
  [ binary main_v150 main_v203 main_v205 (subf : Arr S200000 .f32 → Arr S200000 .f32 → Arr S200000 .f32),
    binary main_v205 main_v204 main_v206 (subf : Arr S200000 .f32 → Arr S200000 .f32 → Arr S200000 .f32),
    binary main_v138 main_v203 main_v207 (mulf : Arr S200000 .f32 → Arr S200000 .f32 → Arr S200000 .f32),
    binary main_v206 main_v150 main_v208 (Host.divf : Arr S200000 .f32 → Arr S200000 .f32 → Arr S200000 .f32),
    binary main_v207 main_v208 main_v209 (mulf : Arr S200000 .f32 → Arr S200000 .f32 → Arr S200000 .f32),
    binary main_v146 main_v203 main_v210 (mulf : Arr S200000 .f32 → Arr S200000 .f32 → Arr S200000 .f32),
    binary main_v209 main_v210 main_v211 (subf : Arr S200000 .f32 → Arr S200000 .f32 → Arr S200000 .f32),
    binary main_v146 main_v203 main_v212 (mulf : Arr S200000 .f32 → Arr S200000 .f32 → Arr S200000 .f32),
    binary main_v203 main_v211 main_v213 (addf : Arr S200000 .f32 → Arr S200000 .f32 → Arr S200000 .f32),
    binary main_v204 main_v212 main_v214 (addf : Arr S200000 .f32 → Arr S200000 .f32 → Arr S200000 .f32) ]

abbrev step7 : List (HloOp τ sig (Elt F)) :=
  [ binary main_v150 main_v213 main_v215 (subf : Arr S200000 .f32 → Arr S200000 .f32 → Arr S200000 .f32),
    binary main_v215 main_v214 main_v216 (subf : Arr S200000 .f32 → Arr S200000 .f32 → Arr S200000 .f32),
    binary main_v138 main_v213 main_v217 (mulf : Arr S200000 .f32 → Arr S200000 .f32 → Arr S200000 .f32),
    binary main_v216 main_v150 main_v218 (Host.divf : Arr S200000 .f32 → Arr S200000 .f32 → Arr S200000 .f32),
    binary main_v217 main_v218 main_v219 (mulf : Arr S200000 .f32 → Arr S200000 .f32 → Arr S200000 .f32),
    binary main_v146 main_v213 main_v220 (mulf : Arr S200000 .f32 → Arr S200000 .f32 → Arr S200000 .f32),
    binary main_v219 main_v220 main_v221 (subf : Arr S200000 .f32 → Arr S200000 .f32 → Arr S200000 .f32),
    binary main_v146 main_v213 main_v222 (mulf : Arr S200000 .f32 → Arr S200000 .f32 → Arr S200000 .f32),
    binary main_v213 main_v221 main_v223 (addf : Arr S200000 .f32 → Arr S200000 .f32 → Arr S200000 .f32),
    binary main_v214 main_v222 main_v224 (addf : Arr S200000 .f32 → Arr S200000 .f32 → Arr S200000 .f32) ]

abbrev step8 : List (HloOp τ sig (Elt F)) :=
  [ binary main_v150 main_v223 main_v225 (subf : Arr S200000 .f32 → Arr S200000 .f32 → Arr S200000 .f32),
    binary main_v225 main_v224 main_v226 (subf : Arr S200000 .f32 → Arr S200000 .f32 → Arr S200000 .f32),
    binary main_v138 main_v223 main_v227 (mulf : Arr S200000 .f32 → Arr S200000 .f32 → Arr S200000 .f32),
    binary main_v226 main_v150 main_v228 (Host.divf : Arr S200000 .f32 → Arr S200000 .f32 → Arr S200000 .f32),
    binary main_v227 main_v228 main_v229 (mulf : Arr S200000 .f32 → Arr S200000 .f32 → Arr S200000 .f32),
    binary main_v146 main_v223 main_v230 (mulf : Arr S200000 .f32 → Arr S200000 .f32 → Arr S200000 .f32),
    binary main_v229 main_v230 main_v231 (subf : Arr S200000 .f32 → Arr S200000 .f32 → Arr S200000 .f32),
    binary main_v146 main_v223 main_v232 (mulf : Arr S200000 .f32 → Arr S200000 .f32 → Arr S200000 .f32),
    binary main_v223 main_v231 main_v233 (addf : Arr S200000 .f32 → Arr S200000 .f32 → Arr S200000 .f32),
    binary main_v224 main_v232 main_v234 (addf : Arr S200000 .f32 → Arr S200000 .f32 → Arr S200000 .f32) ]

abbrev segE1 : List (HloOp τ sig (Elt F)) :=
  [ unary main_v161 main_v235 (broadcastInDim S200000x1 ![0] bcast_S200000_S200000x1_0 : Arr S200000 .f32 → Arr S200000x1 .f32),
    unary main_v171 main_v236 (broadcastInDim S200000x1 ![0] bcast_S200000_S200000x1_0 : Arr S200000 .f32 → Arr S200000x1 .f32),
    unary main_v181 main_v237 (broadcastInDim S200000x1 ![0] bcast_S200000_S200000x1_0 : Arr S200000 .f32 → Arr S200000x1 .f32),
    unary main_v191 main_v238 (broadcastInDim S200000x1 ![0] bcast_S200000_S200000x1_0 : Arr S200000 .f32 → Arr S200000x1 .f32),
    unary main_v201 main_v239 (broadcastInDim S200000x1 ![0] bcast_S200000_S200000x1_0 : Arr S200000 .f32 → Arr S200000x1 .f32),
    unary main_v211 main_v240 (broadcastInDim S200000x1 ![0] bcast_S200000_S200000x1_0 : Arr S200000 .f32 → Arr S200000x1 .f32),
    unary main_v221 main_v241 (broadcastInDim S200000x1 ![0] bcast_S200000_S200000x1_0 : Arr S200000 .f32 → Arr S200000x1 .f32),
    unary main_v231 main_v242 (broadcastInDim S200000x1 ![0] bcast_S200000_S200000x1_0 : Arr S200000 .f32 → Arr S200000x1 .f32) ]

abbrev segE2 : List (HloOp τ sig (Elt F)) :=
  [ nary ![main_v235, main_v236, main_v237, main_v238, main_v239, main_v240, main_v241, main_v242] main_v243 (fun u => concatenate S200000x8 1 [⟨S200000x1, u 0⟩, ⟨S200000x1, u 1⟩, ⟨S200000x1, u 2⟩, ⟨S200000x1, u 3⟩, ⟨S200000x1, u 4⟩, ⟨S200000x1, u 5⟩, ⟨S200000x1, u 6⟩, ⟨S200000x1, u 7⟩] concatenates_S200000x1_S200000x1_S200000x1_S200000x1_S200000x1_S200000x1_S200000x1_S200000x1_S200000x8_d1),
    unary main_v243 main_v244 (broadcastInDim S200000x8x1 ![0, 1] bcast_S200000x8_S200000x8x1_0_1 : Arr S200000x8 .f32 → Arr S200000x8x1 .f32) ]

abbrev segE3 : List (HloOp τ sig (Elt F)) :=
  [ unary main_v162 main_v245 (broadcastInDim S200000x1 ![0] bcast_S200000_S200000x1_0 : Arr S200000 .f32 → Arr S200000x1 .f32),
    unary main_v172 main_v246 (broadcastInDim S200000x1 ![0] bcast_S200000_S200000x1_0 : Arr S200000 .f32 → Arr S200000x1 .f32),
    unary main_v182 main_v247 (broadcastInDim S200000x1 ![0] bcast_S200000_S200000x1_0 : Arr S200000 .f32 → Arr S200000x1 .f32),
    unary main_v192 main_v248 (broadcastInDim S200000x1 ![0] bcast_S200000_S200000x1_0 : Arr S200000 .f32 → Arr S200000x1 .f32),
    unary main_v202 main_v249 (broadcastInDim S200000x1 ![0] bcast_S200000_S200000x1_0 : Arr S200000 .f32 → Arr S200000x1 .f32),
    unary main_v212 main_v250 (broadcastInDim S200000x1 ![0] bcast_S200000_S200000x1_0 : Arr S200000 .f32 → Arr S200000x1 .f32),
    unary main_v222 main_v251 (broadcastInDim S200000x1 ![0] bcast_S200000_S200000x1_0 : Arr S200000 .f32 → Arr S200000x1 .f32),
    unary main_v232 main_v252 (broadcastInDim S200000x1 ![0] bcast_S200000_S200000x1_0 : Arr S200000 .f32 → Arr S200000x1 .f32) ]

abbrev segE4 : List (HloOp τ sig (Elt F)) :=
  [ nary ![main_v245, main_v246, main_v247, main_v248, main_v249, main_v250, main_v251, main_v252] main_v253 (fun u => concatenate S200000x8 1 [⟨S200000x1, u 0⟩, ⟨S200000x1, u 1⟩, ⟨S200000x1, u 2⟩, ⟨S200000x1, u 3⟩, ⟨S200000x1, u 4⟩, ⟨S200000x1, u 5⟩, ⟨S200000x1, u 6⟩, ⟨S200000x1, u 7⟩] concatenates_S200000x1_S200000x1_S200000x1_S200000x1_S200000x1_S200000x1_S200000x1_S200000x1_S200000x8_d1),
    unary main_v253 main_v254 (broadcastInDim S200000x8x1 ![0, 1] bcast_S200000x8_S200000x8x1_0_1 : Arr S200000x8 .f32 → Arr S200000x8x1 .f32) ]

abbrev segE5 : List (HloOp τ sig (Elt F)) :=
  [ binary main_v119 main_v125 main_v255 ((fun a b => concatenate S200000x8x2 2 [⟨S200000x8x1, a⟩, ⟨S200000x8x1, b⟩] concatenates_S200000x8x1_S200000x8x1_S200000x8x2_d2) : Arr S200000x8x1 .f32 → Arr S200000x8x1 .f32 → Arr S200000x8x2 .f32) ]

abbrev segE6 : List (HloOp τ sig (Elt F)) :=
  [ binary main_v244 main_v254 main_v256 ((fun a b => concatenate S200000x8x2 2 [⟨S200000x8x1, a⟩, ⟨S200000x8x1, b⟩] concatenates_S200000x8x1_S200000x8x1_S200000x8x2_d2) : Arr S200000x8x1 .f32 → Arr S200000x8x1 .f32 → Arr S200000x8x2 .f32) ]

end Cert.ReferenceIdeal.HandRead

end
-- ==== Proof.RefRun.lean ====
import proofs.«112250_j2224793059992_2_alg».proof.Proof.RefOps

noncomputable section

namespace Cert.ReferenceIdeal.HandRun

open Cert.ReferenceIdeal Cert.ReferenceIdeal.Gen Cert.ReferenceIdeal.HandRead Idealize.ShloMosaic Idealize.ShloMosaic.TcCoe Idealize.SL.Sem Idealize.ShloMosaic.StableHlo

variable {F : FTy → Type} [FloatOps F]

abbrev ops0 : List (HloOp τ sig (Elt F)) := segA0 ++ segA1 ++ segA2 ++ segA3 ++ segA4
abbrev ops1 : List (HloOp τ sig (Elt F)) := segB1 ++ segB2 ++ segB3 ++ segB4
abbrev ops2 : List (HloOp τ sig (Elt F)) := segG ++ segJ ++ segK ++ step1.take 4
abbrev ops3 : List (HloOp τ sig (Elt F)) := step1.drop 4 ++ step2 ++ step3 ++ step4 ++ step5 ++ step6 ++ step7.take 4
abbrev ops4 : List (HloOp τ sig (Elt F)) := step7.drop 4 ++ step8 ++ segE1 ++ segE2 ++ segE3 ++ segE4 ++ segE5 ++ segE6

abbrev ops : List (HloOp τ sig (Elt F)) := ops0 ++ ops1 ++ ops2 ++ ops3 ++ ops4

set_option maxRecDepth 8192 in
theorem main_part0_eq (c : Dev nD) : main_part0 (F := F) c = seq ops0 := by
  simp only [main_part0, fn_leaky_relu.body, fn_where.body, fn_elu.body, fn_where_0.body, fn_where_1.body, seq, bind_assoc, pure_bind, bind_pure_unit]
  rfl

set_option maxRecDepth 8192 in
theorem main_part1_eq (c : Dev nD) : main_part1 (F := F) c = seq ops1 := by
  simp only [main_part1, fn_leaky_relu.body, fn_where.body, fn_elu.body, fn_where_0.body, fn_where_1.body, seq, bind_assoc, pure_bind, bind_pure_unit]
  rfl

set_option maxRecDepth 8192 in
theorem main_part2_eq (c : Dev nD) : main_part2 (F := F) c = seq ops2 := by
  simp only [main_part2, bind_assoc, pure_bind, bind_pure_unit]
  rfl

set_option maxRecDepth 8192 in
theorem main_part3_eq (c : Dev nD) : main_part3 (F := F) c = seq ops3 := by
  simp only [main_part3, bind_assoc, pure_bind, bind_pure_unit]
  rfl

set_option maxRecDepth 8192 in
theorem main_part4_eq (c : Dev nD) : main_part4 (F := F) c = seq ops4 := by
  simp only [main_part4, bind_assoc, pure_bind]
  rfl

theorem main_eq (c : Dev nD) : main (F := F) c = seq ops := by
  simp only [main, ops, seq_append, main_part0_eq, main_part1_eq, main_part2_eq, main_part3_eq, main_part4_eq, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, ops0, ops1, ops2, ops3, ops4, List.forall_append, List.take_succ_cons, List.take_zero, List.drop_succ_cons, List.drop_zero,
    List.Forall, nullary_bufs_sub, unary_bufs_sub, binary_bufs_sub, ternary_bufs_sub, reshape_bufs_sub, nary_bufs_sub, and_self]

theorem ops_fresh : (ops : List (HloOp τ sig (Elt F))).Forall fun op => op.fresh = ∅ := by
  simp only [ops, ops0, ops1, ops2, ops3, ops4, List.forall_append, List.take_succ_cons, List.take_zero, List.drop_succ_cons, List.drop_zero]
  repeat' (first | exact rfl | refine ⟨?_, ?_⟩)

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.HandRun

end
-- ==== Proof.RefReadA.lean ====
import proofs.«112250_j2224793059992_2_alg».proof.Proof.RefOps
import proofs.«112250_j2224793059992_2_alg».proof.Proof.Stages
import Idealize.ShloMosaic.Lib.Pipeline.Frame

noncomputable section

namespace Cert.ReferenceIdeal.HandRead

open Cert.ReferenceIdeal Cert.ReferenceIdeal.Gen Idealize.ShloMosaic Idealize.ShloMosaic.TcCoe Idealize.ShloMosaic.StableHlo

variable {F : FTy → Type} [FloatOps F]

private theorem writes_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev segA0_W : List (Ref sig .tc) :=
  [main_v0, main_v1, main_v2, main_v3, main_v4, main_v5, main_v6, main_v7, main_v8, main_v9, main_v10, main_v11, main_v12, main_v13, main_v14, main_v15, main_v16]

theorem segA0_keep (W : Valuation τ sig (Elt F)) (r : Ref sig .tc) (h : r ∉ segA0_W) :
    after segA0 W (Proc.devRef .tc r) = W (Proc.devRef .tc r) := after_of_writes_sub segA0 W (by repeat' (first | exact writes_of_mem (by decide) | refine ⟨?_, ?_⟩)) h

abbrev segA1_W : List (Ref sig .tc) :=
  [main_c, main_v17, main_v18, main_c_0, main_v19, main_v20, main_v21, main_v22, main_v23, main_c_1, main_v24, main_v25, main_c_2, main_v26, main_v27, main_v28, main_v29, main_v30]

theorem segA1_keep (W : Valuation τ sig (Elt F)) (r : Ref sig .tc) (h : r ∉ segA1_W) :
    after segA1 W (Proc.devRef .tc r) = W (Proc.devRef .tc r) := after_of_writes_sub segA1 W (by repeat' (first | exact writes_of_mem (by decide) | refine ⟨?_, ?_⟩)) h

abbrev segA2_W : List (Ref sig .tc) :=
  [main_v31, main_v32, main_v33, main_v34, main_v35, main_v36, main_cst, main_call0.cst.ref, main_call0.v0.ref, main_call0.v1.ref, main_call0.v2.ref, main_call0.v3.ref, main_call0.v4.ref, main_call0.call0.v0.ref, main_v38, main_v39, main_cst_3, main_v40, main_v41, main_v42]

theorem segA2_keep (W : Valuation τ sig (Elt F)) (r : Ref sig .tc) (h : r ∉ segA2_W) :
    after segA2 W (Proc.devRef .tc r) = W (Proc.devRef .tc r) := after_of_writes_sub segA2 W (by repeat' (first | exact writes_of_mem (by decide) | refine ⟨?_, ?_⟩)) h

abbrev segA3_W : List (Ref sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]

theorem segA3_keep (W : Valuation τ sig (Elt F)) (r : Ref sig .tc) (h : r ∉ segA3_W) :
    after segA3 W (Proc.devRef .tc r) = W (Proc.devRef .tc r) := after_of_writes_sub segA3 W (by repeat' (first | exact writes_of_mem (by decide) | refine ⟨?_, ?_⟩)) h

abbrev segA4_W : List (Ref sig .tc) :=
  [main_v44, main_v45, main_v46, main_v47, main_v48, main_c_4, main_v49, main_v50, main_c_5, main_v51]

theorem segA4_keep (W : Valuation τ sig (Elt F)) (r : Ref sig .tc) (h : r ∉ segA4_W) :
    after segA4 W (Proc.devRef .tc r) = W (Proc.devRef .tc r) := after_of_writes_sub segA4 W (by repeat' (first | exact writes_of_mem (by decide) | refine ⟨?_, ?_⟩)) h

abbrev segB1_W : List (Ref sig .tc) :=
  [main_v52, main_v53, main_v54, main_v55, main_c_6, main_v56, main_v57, main_c_7, main_v58, main_v59, main_v60, main_v61, main_v62]

theorem segB1_keep (W : Valuation τ sig (Elt F)) (r : Ref sig .tc) (h : r ∉ segB1_W) :
    after segB1 W (Proc.devRef .tc r) = W (Proc.devRef .tc r) := after_of_writes_sub segB1 W (by repeat' (first | exact writes_of_mem (by decide) | refine ⟨?_, ?_⟩)) h

abbrev segB2_W : List (Ref sig .tc) :=
  [main_v63, main_v64, main_v65, main_v66, main_v67, main_v68, main_cst_8, main_call2.cst.ref, main_call2.v0.ref, main_call2.v1.ref, main_call2.v2.ref, main_call2.v3.ref, main_call2.v4.ref, main_call2.call0.v0.ref, main_v70, main_v71, main_cst_9, main_v72, main_v73, main_v74]

theorem segB2_keep (W : Valuation τ sig (Elt F)) (r : Ref sig .tc) (h : r ∉ segB2_W) :
    after segB2 W (Proc.devRef .tc r) = W (Proc.devRef .tc r) := after_of_writes_sub segB2 W (by repeat' (first | exact writes_of_mem (by decide) | refine ⟨?_, ?_⟩)) h

abbrev segB3_W : List (Ref sig .tc) :=
  [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]

theorem segB3_keep (W : Valuation τ sig (Elt F)) (r : Ref sig .tc) (h : r ∉ segB3_W) :
    after segB3 W (Proc.devRef .tc r) = W (Proc.devRef .tc r) := after_of_writes_sub segB3 W (by repeat' (first | exact writes_of_mem (by decide) | refine ⟨?_, ?_⟩)) h

abbrev segB4_W : List (Ref sig .tc) :=
  [main_v76, main_v77, main_v78, main_v79, main_v80, main_v81, main_v82, main_v83, main_v84, main_v85, main_v86, main_v87, main_cst_10, main_v88, main_v89, main_cst_11, main_v90, main_v91, main_v92, main_v93, main_v94, main_v95, main_v96, main_v97, main_v98, main_cst_12, main_v99, main_v100, main_cst_13, main_v101, main_v102, main_v103]

theorem segB4_keep (W : Valuation τ sig (Elt F)) (r : Ref sig .tc) (h : r ∉ segB4_W) :
    after segB4 W (Proc.devRef .tc r) = W (Proc.devRef .tc r) := after_of_writes_sub segB4 W (by repeat' (first | exact writes_of_mem (by decide) | refine ⟨?_, ?_⟩)) h

abbrev segG_W : List (Ref sig .tc) :=
  [main_v104, main_v105, main_v106, main_v107, main_v108, main_v109, main_cst_14, main_v110, main_v111, main_v112]

theorem segG_keep (W : Valuation τ sig (Elt F)) (r : Ref sig .tc) (h : r ∉ segG_W) :
    after segG W (Proc.devRef .tc r) = W (Proc.devRef .tc r) := after_of_writes_sub segG W (by repeat' (first | exact writes_of_mem (by decide) | refine ⟨?_, ?_⟩)) h

theorem segA0_v2 (W : Valuation τ sig (Elt F)) : after segA0 W (main_v2 : DevRef τ sig)
    = Stages.lastDiffI (W (main_arg0 : DevRef τ sig)) := by
  simp only [segA0]
  after_results_simp
  all_goals rfl

theorem segA0_v5 (W : Valuation τ sig (Elt F)) : after segA0 W (main_v5 : DevRef τ sig)
    = Stages.lastDiffR (W (main_arg0 : DevRef τ sig)) := by
  simp only [segA0]
  after_results_simp
  all_goals rfl

theorem segA0_v9 (W : Valuation τ sig (Elt F)) : after segA0 W (main_v9 : DevRef τ sig)
    = Stages.src (W (main_arg1 : DevRef τ sig)) := by
  simp only [segA0]
  after_results_simp
  all_goals rfl

theorem segA0_v11 (W : Valuation τ sig (Elt F)) : after segA0 W (main_v11 : DevRef τ sig)
    = Stages.dst (W (main_arg1 : DevRef τ sig)) := by
  simp only [segA0]
  after_results_simp
  all_goals rfl

theorem segA0_v16 (W : Valuation τ sig (Elt F)) : after segA0 W (main_v16 : DevRef τ sig)
    = Stages.lin1 (Stages.feats (W (main_arg0 : DevRef τ sig))) (W (main_arg4 : DevRef τ sig)) (W (main_arg5 : DevRef τ sig)) := by
  simp only [segA0]
  after_results_simp
  all_goals rfl

theorem segA1_v23 (W : Valuation τ sig (Elt F)) : after segA1 W (main_v23 : DevRef τ sig)
    = Stages.rows (W (main_v16 : DevRef τ sig)) (W (main_v9 : DevRef τ sig)) := by
  simp only [segA1]
  after_results_simp
  all_goals rfl

theorem segA1_v30 (W : Valuation τ sig (Elt F)) : after segA1 W (main_v30 : DevRef τ sig)
    = Stages.rows (W (main_v16 : DevRef τ sig)) (W (main_v11 : DevRef τ sig)) := by
  simp only [segA1]
  after_results_simp
  all_goals rfl

theorem segA2_v42 (W : Valuation τ sig (Elt F)) : after segA2 W (main_v42 : DevRef τ sig)
    = Stages.agg (Stages.msg (W (main_v23 : DevRef τ sig)) (W (main_v30 : DevRef τ sig)) (W (main_arg6 : DevRef τ sig)) (W (main_arg7 : DevRef τ sig))) (W (main_v11 : DevRef τ sig)) := by
  simp only [segA2]
  after_results_simp
  all_goals rfl

theorem segA3_v43 (W : Valuation τ sig (Elt F)) : after segA3 W (main_v43 : DevRef τ sig)
    = Stages.elu (W (main_v42 : DevRef τ sig)) := by
  simp only [segA3]
  after_results_simp
  all_goals rfl

theorem segA4_v48 (W : Valuation τ sig (Elt F)) : after segA4 W (main_v48 : DevRef τ sig)
    = Stages.lin2 (W (main_v43 : DevRef τ sig)) (W (main_arg8 : DevRef τ sig)) (W (main_arg9 : DevRef τ sig)) := by
  simp only [segA4]
  after_results_simp
  all_goals rfl

theorem segA4_v50 (W : Valuation τ sig (Elt F)) : after segA4 W (main_v50 : DevRef τ sig)
    = cmpi .slt (W (main_v9 : DevRef τ sig)) (broadcastInDim S1600000 ![] bcast_S_S1600000 (constantI S_ 32 0#32)) := by
  simp only [segA4]
  after_results_simp
  all_goals rfl

theorem segA4_v51 (W : Valuation τ sig (Elt F)) : after segA4 W (main_v51 : DevRef τ sig)
    = broadcastInDim S1600000 ![] bcast_S_S1600000 (constantI S_ 32 200000#32) := by
  simp only [segA4]
  after_results_simp
  all_goals rfl

theorem segB1_v55 (W : Valuation τ sig (Elt F)) : after segB1 W (main_v55 : DevRef τ sig)
    = Host.gather gather_S200000x32_S1600000x1_S1600000x32_1_0_n_n_0_1_132 (W (main_v48 : DevRef τ sig))
      (broadcastInDim S1600000x1 ![0] bcast_S1600000_S1600000x1_0 (select (W (main_v50 : DevRef τ sig)) (addi (W (main_v9 : DevRef τ sig)) (W (main_v51 : DevRef τ sig))) (W (main_v9 : DevRef τ sig)))) := by
  simp only [segB1]
  after_results_simp
  all_goals rfl

theorem segB1_v62 (W : Valuation τ sig (Elt F)) : after segB1 W (main_v62 : DevRef τ sig)
    = Stages.rows (W (main_v48 : DevRef τ sig)) (W (main_v11 : DevRef τ sig)) := by
  simp only [segB1]
  after_results_simp
  all_goals rfl

theorem segB2_v74 (W : Valuation τ sig (Elt F)) : after segB2 W (main_v74 : DevRef τ sig)
    = Stages.agg (Stages.msg (W (main_v55 : DevRef τ sig)) (W (main_v62 : DevRef τ sig)) (W (main_arg10 : DevRef τ sig)) (W (main_arg11 : DevRef τ sig))) (W (main_v11 : DevRef τ sig)) := by
  simp only [segB2]
  after_results_simp
  all_goals rfl

theorem segB3_v75 (W : Valuation τ sig (Elt F)) : after segB3 W (main_v75 : DevRef τ sig)
    = Stages.elu (W (main_v74 : DevRef τ sig)) := by
  simp only [segB3]
  after_results_simp
  all_goals rfl

theorem segB4_v91 (W : Valuation τ sig (Elt F)) : after segB4 W (main_v91 : DevRef τ sig)
    = Stages.sig32 (addf (extractStridedSlice S200000x32 ![0, 0] (Stages.gates (W (main_v75 : DevRef τ sig)) (W (main_arg12 : DevRef τ sig)) (W (main_arg14 : DevRef τ sig))) slices_S200000x96_S200000x32_0_0) (Stages.hb0 (W (main_arg15 : DevRef τ sig)))) := by
  simp only [segB4]
  after_results_simp
  all_goals rfl

theorem segB4_v102 (W : Valuation τ sig (Elt F)) : after segB4 W (main_v102 : DevRef τ sig)
    = Stages.sig32 (addf (extractStridedSlice S200000x32 ![0, 32] (Stages.gates (W (main_v75 : DevRef τ sig)) (W (main_arg12 : DevRef τ sig)) (W (main_arg14 : DevRef τ sig))) slices_S200000x96_S200000x32_0_32) (Stages.hb1 (W (main_arg15 : DevRef τ sig)))) := by
  simp only [segB4]
  after_results_simp
  all_goals rfl

theorem segB4_v103 (W : Valuation τ sig (Elt F)) : after segB4 W (main_v103 : DevRef τ sig)
    = extractStridedSlice S200000x32 ![0, 64] (Stages.gates (W (main_v75 : DevRef τ sig)) (W (main_arg12 : DevRef τ sig)) (W (main_arg14 : DevRef τ sig))) slices_S200000x96_S200000x32_0_64 := by
  simp only [segB4]
  after_results_simp
  all_goals rfl

theorem segG_v112 (W : Valuation τ sig (Elt F)) : after segG W (main_v112 : DevRef τ sig)
    = mulf (subf Stages.ones32 (W (main_v102 : DevRef τ sig))) (Host.tanh (addf (W (main_v103 : DevRef τ sig)) (mulf (W (main_v91 : DevRef τ sig)) (Stages.hb2 (W (main_arg15 : DevRef τ sig)))))) := by
  simp only [segG]
  after_results_simp
  all_goals rfl

section Chain

variable (V : Valuation τ sig (Elt F))
abbrev a0 : Valuation τ sig (Elt F) := after segA0 V
abbrev a1 : Valuation τ sig (Elt F) := after segA1 (a0 V)
abbrev a2 : Valuation τ sig (Elt F) := after segA2 (a1 V)
abbrev a3 : Valuation τ sig (Elt F) := after segA3 (a2 V)
abbrev a4 : Valuation τ sig (Elt F) := after segA4 (a3 V)
abbrev b1 : Valuation τ sig (Elt F) := after segB1 (a4 V)
abbrev b2 : Valuation τ sig (Elt F) := after segB2 (b1 V)
abbrev b3 : Valuation τ sig (Elt F) := after segB3 (b2 V)
abbrev b4 : Valuation τ sig (Elt F) := after segB4 (b3 V)
abbrev gv : Valuation τ sig (Elt F) := after segG (b4 V)

abbrev z1Of : Stages.Fl F S200000x32 := Stages.lin1 (Stages.feats (V (main_arg0 : DevRef τ sig))) (V (main_arg4 : DevRef τ sig)) (V (main_arg5 : DevRef τ sig))
abbrev h1Of : Stages.Fl F S200000x32 := Stages.elu (Stages.layer (z1Of V) (V (main_arg1 : DevRef τ sig)) (V (main_arg6 : DevRef τ sig)) (V (main_arg7 : DevRef τ sig)))
abbrev z2Of : Stages.Fl F S200000x32 := Stages.lin2 (h1Of V) (V (main_arg8 : DevRef τ sig)) (V (main_arg9 : DevRef τ sig))
abbrev h2Of : Stages.Fl F S200000x32 := Stages.elu (Stages.layer (z2Of V) (V (main_arg1 : DevRef τ sig)) (V (main_arg10 : DevRef τ sig)) (V (main_arg11 : DevRef τ sig)))
abbrev gatesOf : Stages.Fl F S200000x96 := Stages.gates (h2Of V) (V (main_arg12 : DevRef τ sig)) (V (main_arg14 : DevRef τ sig))

abbrev hiddenOf : Stages.Fl F S200000x32 :=
  Stages.hidden (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig))
    (V (main_arg9 : DevRef τ sig)) (V (main_arg10 : DevRef τ sig)) (V (main_arg11 : DevRef τ sig)) (V (main_arg12 : DevRef τ sig)) (V (main_arg14 : DevRef τ sig)) (V (main_arg15 : DevRef τ sig))

theorem a0_v2 : a0 V (main_v2 : DevRef τ sig) = Stages.lastDiffI (V (main_arg0 : DevRef τ sig)) := segA0_v2 V
theorem a0_v5 : a0 V (main_v5 : DevRef τ sig) = Stages.lastDiffR (V (main_arg0 : DevRef τ sig)) := segA0_v5 V
theorem a0_v9 : a0 V (main_v9 : DevRef τ sig) = Stages.src (V (main_arg1 : DevRef τ sig)) := segA0_v9 V
theorem a0_v11 : a0 V (main_v11 : DevRef τ sig) = Stages.dst (V (main_arg1 : DevRef τ sig)) := segA0_v11 V
theorem a0_v16 : a0 V (main_v16 : DevRef τ sig) = z1Of V := segA0_v16 V

abbrev rest_W : List (Ref sig .tc) :=
  segA1_W ++ segA2_W ++ segA3_W ++ segA4_W ++ segB1_W ++ segB2_W ++ segB3_W ++ segB4_W ++ segG_W

abbrev pre_W : List (Ref sig .tc) := segA0_W ++ rest_W

structure Held (x : DevRef τ sig) (y : x.ty.Contents (Elt F)) : Prop where
  a1 : a1 V x = y
  a3 : a3 V x = y
  a4 : a4 V x = y
  b1 : b1 V x = y
  b3 : b3 V x = y
  b4 : b4 V x = y
  gv : gv V x = y

-- A buffer holding `y` after the first piece, and written by no later piece, holds `y` after every later piece.
theorem carry (r : Ref sig .tc) (h : r ∉ rest_W) {y : (Proc.devRef (τ := τ) .tc r).ty.Contents (Elt F)}
    (e0 : a0 V (Proc.devRef .tc r) = y) : Held V (Proc.devRef .tc r) y := by
  simp only [rest_W, List.mem_append, not_or] at h
  obtain ⟨⟨⟨⟨⟨⟨⟨⟨h1, h2⟩, h3⟩, h4⟩, h5⟩, h6⟩, h7⟩, h8⟩, h9⟩ := h
  have e1 := (segA1_keep (a0 V) r h1).trans e0
  have e2 := (segA2_keep (a1 V) r h2).trans e1
  have e3 := (segA3_keep (a2 V) r h3).trans e2
  have e4 := (segA4_keep (a3 V) r h4).trans e3
  have e5 := (segB1_keep (a4 V) r h5).trans e4
  have e6 := (segB2_keep (b1 V) r h6).trans e5
  have e7 := (segB3_keep (b2 V) r h7).trans e6
  have e8 := (segB4_keep (b3 V) r h8).trans e7
  exact ⟨e1, e3, e4, e5, e7, e8, (segG_keep (b4 V) r h9).trans e8⟩

theorem arg_held (r : Ref sig .tc) (h : r ∉ pre_W) : Held V (Proc.devRef .tc r) (V (Proc.devRef .tc r)) := by
  rw [pre_W, List.mem_append, not_or] at h
  exact carry V r h.2 (segA0_keep V r h.1)

theorem v2_held : Held V (main_v2 : DevRef τ sig) (Stages.lastDiffI (V (main_arg0 : DevRef τ sig))) := carry V main_v2 (by decide) (a0_v2 V)
theorem v5_held : Held V (main_v5 : DevRef τ sig) (Stages.lastDiffR (V (main_arg0 : DevRef τ sig))) := carry V main_v5 (by decide) (a0_v5 V)
theorem v9_held : Held V (main_v9 : DevRef τ sig) (Stages.src (V (main_arg1 : DevRef τ sig))) := carry V main_v9 (by decide) (a0_v9 V)
theorem v11_held : Held V (main_v11 : DevRef τ sig) (Stages.dst (V (main_arg1 : DevRef τ sig))) := carry V main_v11 (by decide) (a0_v11 V)

theorem a1_v23 : a1 V (main_v23 : DevRef τ sig) = Stages.rows (z1Of V) (Stages.src (V (main_arg1 : DevRef τ sig))) :=
  (segA1_v23 (a0 V)).trans (by rw [a0_v16, a0_v9])
theorem a1_v30 : a1 V (main_v30 : DevRef τ sig) = Stages.rows (z1Of V) (Stages.dst (V (main_arg1 : DevRef τ sig))) :=
  (segA1_v30 (a0 V)).trans (by rw [a0_v16, a0_v11])
theorem a2_v42 : a2 V (main_v42 : DevRef τ sig) = Stages.layer (z1Of V) (V (main_arg1 : DevRef τ sig)) (V (main_arg6 : DevRef τ sig)) (V (main_arg7 : DevRef τ sig)) :=
  (segA2_v42 (a1 V)).trans (by rw [a1_v23, a1_v30, (arg_held V main_arg6 (by decide)).a1, (arg_held V main_arg7 (by decide)).a1, (v11_held V).a1] <;> rfl)
theorem a3_v43 : a3 V (main_v43 : DevRef τ sig) = h1Of V :=
  (segA3_v43 (a2 V)).trans (by rw [a2_v42])

theorem a4_v48 : a4 V (main_v48 : DevRef τ sig) = z2Of V :=
  (segA4_v48 (a3 V)).trans (by rw [a3_v43, (arg_held V main_arg8 (by decide)).a3, (arg_held V main_arg9 (by decide)).a3])
theorem a4_v50 : a4 V (main_v50 : DevRef τ sig) = cmpi .slt (Stages.src (V (main_arg1 : DevRef τ sig))) (broadcastInDim S1600000 ![] bcast_S_S1600000 (constantI S_ 32 0#32)) :=
  (segA4_v50 (a3 V)).trans (by rw [(v9_held V).a3])
theorem a4_v51 : a4 V (main_v51 : DevRef τ sig) = broadcastInDim S1600000 ![] bcast_S_S1600000 (constantI S_ 32 200000#32) :=
  segA4_v51 (a3 V)

theorem b1_v55 : b1 V (main_v55 : DevRef τ sig) = Stages.rows (z2Of V) (Stages.src (V (main_arg1 : DevRef τ sig))) :=
  (segB1_v55 (a4 V)).trans (by rw [a4_v48, a4_v50, (v9_held V).a4, a4_v51] <;> rfl)
theorem b1_v62 : b1 V (main_v62 : DevRef τ sig) = Stages.rows (z2Of V) (Stages.dst (V (main_arg1 : DevRef τ sig))) :=
  (segB1_v62 (a4 V)).trans (by rw [a4_v48, (v11_held V).a4])
theorem b2_v74 : b2 V (main_v74 : DevRef τ sig) = Stages.layer (z2Of V) (V (main_arg1 : DevRef τ sig)) (V (main_arg10 : DevRef τ sig)) (V (main_arg11 : DevRef τ sig)) :=
  (segB2_v74 (b1 V)).trans (by rw [b1_v55, b1_v62, (arg_held V main_arg10 (by decide)).b1, (arg_held V main_arg11 (by decide)).b1, (v11_held V).b1] <;> rfl)
theorem b3_v75 : b3 V (main_v75 : DevRef τ sig) = h2Of V :=
  (segB3_v75 (b2 V)).trans (by rw [b2_v74])

theorem b4_v91 : b4 V (main_v91 : DevRef τ sig)
    = Stages.sig32 (addf (extractStridedSlice S200000x32 ![0, 0] (gatesOf V) slices_S200000x96_S200000x32_0_0) (Stages.hb0 (V (main_arg15 : DevRef τ sig)))) :=
  (segB4_v91 (b3 V)).trans (by rw [b3_v75, (arg_held V main_arg12 (by decide)).b3, (arg_held V main_arg14 (by decide)).b3, (arg_held V main_arg15 (by decide)).b3])
theorem b4_v102 : b4 V (main_v102 : DevRef τ sig)
    = Stages.sig32 (addf (extractStridedSlice S200000x32 ![0, 32] (gatesOf V) slices_S200000x96_S200000x32_0_32) (Stages.hb1 (V (main_arg15 : DevRef τ sig)))) :=
  (segB4_v102 (b3 V)).trans (by rw [b3_v75, (arg_held V main_arg12 (by decide)).b3, (arg_held V main_arg14 (by decide)).b3, (arg_held V main_arg15 (by decide)).b3])
theorem b4_v103 : b4 V (main_v103 : DevRef τ sig) = extractStridedSlice S200000x32 ![0, 64] (gatesOf V) slices_S200000x96_S200000x32_0_64 :=
  (segB4_v103 (b3 V)).trans (by rw [b3_v75, (arg_held V main_arg12 (by decide)).b3, (arg_held V main_arg14 (by decide)).b3])

theorem gv_v112 : gv V (main_v112 : DevRef τ sig) = hiddenOf V :=
  (segG_v112 (b4 V)).trans (by rw [b4_v102, b4_v103, b4_v91, (arg_held V main_arg15 (by decide)).b4] <;> rfl)

end Chain

abbrev pre : List (HloOp τ sig (Elt F)) :=
  segA0 ++ segA1 ++ segA2 ++ segA3 ++ segA4 ++ segB1 ++ segB2 ++ segB3 ++ segB4 ++ segG

theorem after_pre (V : Valuation τ sig (Elt F)) : after pre V = gv V := by
  simp only [pre, after_append]

theorem pre_v112 (V : Valuation τ sig (Elt F)) : after pre V (main_v112 : DevRef τ sig) = hiddenOf V := by
  rw [after_pre]; exact gv_v112 V
theorem pre_v2 (V : Valuation τ sig (Elt F)) : after pre V (main_v2 : DevRef τ sig) = Stages.lastDiffI (V (main_arg0 : DevRef τ sig)) := by
  rw [after_pre]; exact (v2_held V).gv
theorem pre_v5 (V : Valuation τ sig (Elt F)) : after pre V (main_v5 : DevRef τ sig) = Stages.lastDiffR (V (main_arg0 : DevRef τ sig)) := by
  rw [after_pre]; exact (v5_held V).gv

theorem pre_keep (V : Valuation τ sig (Elt F)) (r : Ref sig .tc) (h : r ∉ pre_W) :
    after pre V (Proc.devRef .tc r) = V (Proc.devRef .tc r) := by
  rw [after_pre]; exact (arg_held V r h).gv

end Cert.ReferenceIdeal.HandRead

end
-- ==== Proof.RefReadB.lean ====
import proofs.«112250_j2224793059992_2_alg».proof.Proof.RefOps
import proofs.«112250_j2224793059992_2_alg».proof.Proof.Stages
import Idealize.ShloMosaic.Lib.Pipeline.Frame

noncomputable section

namespace Cert.ReferenceIdeal.HandRead

open Cert.ReferenceIdeal Cert.ReferenceIdeal.Gen Idealize.ShloMosaic Idealize.ShloMosaic.TcCoe Idealize.ShloMosaic.StableHlo

variable {F : FTy → Type} [FloatOps F]

private theorem writes_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

section Step

variable {al be nn I R t1 t2 t3 t4 t5 t6 dI dR I' R' : Ref sig .tc}
    {f1 : nn.ty.Contents (Elt F) → I.ty.Contents (Elt F) → t1.ty.Contents (Elt F)}
    {f2 : t1.ty.Contents (Elt F) → R.ty.Contents (Elt F) → t2.ty.Contents (Elt F)}
    {f3 : al.ty.Contents (Elt F) → I.ty.Contents (Elt F) → t3.ty.Contents (Elt F)}
    {f4 : t2.ty.Contents (Elt F) → nn.ty.Contents (Elt F) → t4.ty.Contents (Elt F)}
    {f5 : t3.ty.Contents (Elt F) → t4.ty.Contents (Elt F) → t5.ty.Contents (Elt F)}
    {f6 : be.ty.Contents (Elt F) → I.ty.Contents (Elt F) → t6.ty.Contents (Elt F)}
    {f7 : t5.ty.Contents (Elt F) → t6.ty.Contents (Elt F) → dI.ty.Contents (Elt F)}
    {f8 : be.ty.Contents (Elt F) → I.ty.Contents (Elt F) → dR.ty.Contents (Elt F)}
    {f9 : I.ty.Contents (Elt F) → dI.ty.Contents (Elt F) → I'.ty.Contents (Elt F)}
    {f10 : R.ty.Contents (Elt F) → dR.ty.Contents (Elt F) → R'.ty.Contents (Elt F)}
    {a1 b1 y1 a2 b2 y2 a3 b3 y3 a4 b4 y4 a5 b5 y5 a6 b6 y6 a7 b7 y7 a8 b8 y8 a9 b9 y9 a10 b10 y10}

/-- One step of the recurrence over any fifteen distinct buffers: the rates and the population stay, and the increments and
    the new counts are the ten operations' composite of what the step is given. -/
theorem step_read (hd : [al, be, nn, I, R, t1, t2, t3, t4, t5, t6, dI, dR, I', R'].Nodup) (V : Valuation τ sig (Elt F))
    {A : al.ty.Contents (Elt F)} {B : be.ty.Contents (Elt F)} {N : nn.ty.Contents (Elt F)} {i : I.ty.Contents (Elt F)} {r : R.ty.Contents (Elt F)}
    (hA : V (Proc.devRef .tc al) = A) (hB : V (Proc.devRef .tc be) = B) (hN : V (Proc.devRef .tc nn) = N)
    (hi : V (Proc.devRef .tc I) = i) (hr : V (Proc.devRef .tc R) = r) :
    let V' := after [binary nn I t1 f1 a1 b1 y1, binary t1 R t2 f2 a2 b2 y2, binary al I t3 f3 a3 b3 y3, binary t2 nn t4 f4 a4 b4 y4,
      binary t3 t4 t5 f5 a5 b5 y5, binary be I t6 f6 a6 b6 y6, binary t5 t6 dI f7 a7 b7 y7, binary be I dR f8 a8 b8 y8,
      binary I dI I' f9 a9 b9 y9, binary R dR R' f10 a10 b10 y10] V
    V' (Proc.devRef .tc al) = A ∧ V' (Proc.devRef .tc be) = B ∧ V' (Proc.devRef .tc nn) = N
      ∧ V' (Proc.devRef .tc dI) = f7 (f5 (f3 A i) (f4 (f2 (f1 N i) r) N)) (f6 B i) ∧ V' (Proc.devRef .tc dR) = f8 B i
      ∧ V' (Proc.devRef .tc I') = f9 i (f7 (f5 (f3 A i) (f4 (f2 (f1 N i) r) N)) (f6 B i)) ∧ V' (Proc.devRef .tc R') = f10 r (f8 B i) := by
  intro V'
  simp only [List.nodup_cons, List.mem_cons, List.not_mem_nil, or_false, not_or, List.nodup_nil, and_true] at hd
  subst hA hB hN hi hr
  simp (disch := simp only [hd, ne_eq, not_false_eq_true]) only [V', after_cons, after_nil, binary_result', binary_result_ne', and_self]

/-- A step leaves every buffer it does not write. -/
theorem step_keep (V : Valuation τ sig (Elt F)) {x : Ref sig .tc} (hx : x ∉ [t1, t2, t3, t4, t5, t6, dI, dR, I', R']) :
    after [binary nn I t1 f1 a1 b1 y1, binary t1 R t2 f2 a2 b2 y2, binary al I t3 f3 a3 b3 y3, binary t2 nn t4 f4 a4 b4 y4,
      binary t3 t4 t5 f5 a5 b5 y5, binary be I t6 f6 a6 b6 y6, binary t5 t6 dI f7 a7 b7 y7, binary be I dR f8 a8 b8 y8,
      binary I dI I' f9 a9 b9 y9, binary R dR R' f10 a10 b10 y10] V (no_index (Proc.devRef .tc x)) = V (Proc.devRef .tc x) := by
  simp only [List.mem_cons, List.not_mem_nil, or_false, not_or] at hx
  simp (disch := simp only [hx, ne_eq, not_false_eq_true]) only [after_cons, after_nil, binary_result_ne']

end Step

theorem concat2_congr {α : Type} {t s : Shape} {d : Fin t.rank} {a a' b b' : s.Idx → α} {h} (ha : a = a') (hb : b = b') :
    concatenate t d [⟨s, a⟩, ⟨s, b⟩] h = concatenate t d [⟨s, a'⟩, ⟨s, b'⟩] h := by rw [ha, hb]

theorem concat8_congr {α : Type} {t s : Shape} {d : Fin t.rank} {a0 a1 a2 a3 a4 a5 a6 a7 b0 b1 b2 b3 b4 b5 b6 b7 : s.Idx → α} {h}
    (h0 : a0 = b0) (h1 : a1 = b1) (h2 : a2 = b2) (h3 : a3 = b3) (h4 : a4 = b4) (h5 : a5 = b5) (h6 : a6 = b6) (h7 : a7 = b7) :
    concatenate t d [⟨s, a0⟩, ⟨s, a1⟩, ⟨s, a2⟩, ⟨s, a3⟩, ⟨s, a4⟩, ⟨s, a5⟩, ⟨s, a6⟩, ⟨s, a7⟩] h
      = concatenate t d [⟨s, b0⟩, ⟨s, b1⟩, ⟨s, b2⟩, ⟨s, b3⟩, ⟨s, b4⟩, ⟨s, b5⟩, ⟨s, b6⟩, ⟨s, b7⟩] h := by
  rw [h0, h1, h2, h3, h4, h5, h6, h7]

abbrev segE : List (HloOp τ sig (Elt F)) := segE1 ++ segE2 ++ segE3 ++ segE4 ++ segE5 ++ segE6

theorem segE_read (V : Valuation τ sig (Elt F)) (a b : Stages.Fl F S200000x8) (f g : Nat → Stages.Fl F S200000)
    (ha : V (main_v119 : DevRef τ sig) = broadcastInDim S200000x8x1 ![0, 1] bcast_S200000x8_S200000x8x1_0_1 a)
    (hb : V (main_v125 : DevRef τ sig) = broadcastInDim S200000x8x1 ![0, 1] bcast_S200000x8_S200000x8x1_0_1 b)
    (hf : V main_v161 = f 0 ∧ V main_v171 = f 1 ∧ V main_v181 = f 2 ∧ V main_v191 = f 3 ∧ V main_v201 = f 4 ∧ V main_v211 = f 5 ∧ V main_v221 = f 6 ∧ V main_v231 = f 7)
    (hg : V main_v162 = g 0 ∧ V main_v172 = g 1 ∧ V main_v182 = g 2 ∧ V main_v192 = g 3 ∧ V main_v202 = g 4 ∧ V main_v212 = g 5 ∧ V main_v222 = g 6 ∧ V main_v232 = g 7) :
    after segE V (main_v255 : DevRef τ sig) = Stages.pair a b ∧ after segE V (main_v256 : DevRef τ sig) = Stages.pair (Stages.cols8 f) (Stages.cols8 g) := by
  obtain ⟨f0, f1, f2, f3, f4, f5, f6, f7⟩ := hf
  obtain ⟨g0, g1, g2, g3, g4, g5, g6, g7⟩ := hg
  simp only [segE, segE1, segE2, segE3, segE4, segE5, segE6, List.cons_append, List.nil_append]
  refine ⟨?_, ?_⟩ <;> simp (disch := decide) only [after_cons, after_nil, unary_result', binary_result', nary_result', unary_result_ne', binary_result_ne', nary_result_ne', Matrix.cons_val, Stages.col, ha, hb, f0, f1, f2, f3, f4, f5, f6, f7, g0, g1, g2, g3, g4, g5, g6, g7]
    <;> refine concat2_congr ?_ ?_ <;> simp (disch := decide) only [after_cons, after_nil, unary_result', binary_result', nary_result', unary_result_ne', binary_result_ne', nary_result_ne', Matrix.cons_val, Stages.col, ha, hb, f0, f1, f2, f3, f4, f5, f6, f7, g0, g1, g2, g3, g4, g5, g6, g7]
    <;> refine congrArg _ (concat8_congr ?_ ?_ ?_ ?_ ?_ ?_ ?_ ?_) <;> simp (disch := decide) only [after_cons, after_nil, unary_result', binary_result', nary_result', unary_result_ne', binary_result_ne', nary_result_ne', Matrix.cons_val, Stages.col, ha, hb, f0, f1, f2, f3, f4, f5, f6, f7, g0, g1, g2, g3, g4, g5, g6, g7]

section Chain

variable (W : Valuation τ sig (Elt F))

abbrev hcOf : Stages.Fl F S200000x34 := Stages.joined (W (main_v112 : DevRef τ sig)) (W (main_v2 : DevRef τ sig)) (W (main_v5 : DevRef τ sig))
abbrev alOf : Stages.Fl F S200000 := Stages.alpha (Stages.rates (hcOf W) (W (main_arg20 : DevRef τ sig)) (W (main_arg21 : DevRef τ sig)))
abbrev beOf : Stages.Fl F S200000 := Stages.beta (Stages.rates (hcOf W) (W (main_arg20 : DevRef τ sig)) (W (main_arg21 : DevRef τ sig)))
abbrev nnOf : Stages.Fl F S200000 := Stages.popul (W (main_arg3 : DevRef τ sig))
abbrev cntOf (k : Nat) : Stages.Fl F S200000 × Stages.Fl F S200000 :=
  Stages.counts (alOf W) (beOf W) (nnOf W) (Stages.infected0 (W (main_arg2 : DevRef τ sig))) (Stages.recovered0 (W (main_arg2 : DevRef τ sig))) k
abbrev dIOf (k : Nat) : Stages.Fl F S200000 := Stages.newI (alOf W) (beOf W) (nnOf W) (cntOf W k)
abbrev dROf (k : Nat) : Stages.Fl F S200000 := Stages.newR (beOf W) (cntOf W k)

abbrev kv : Valuation τ sig (Elt F) := after segK (after segJ W)
abbrev s1 : Valuation τ sig (Elt F) := after step1 (kv W)
abbrev s2 : Valuation τ sig (Elt F) := after step2 (s1 W)
abbrev s3 : Valuation τ sig (Elt F) := after step3 (s2 W)
abbrev s4 : Valuation τ sig (Elt F) := after step4 (s3 W)
abbrev s5 : Valuation τ sig (Elt F) := after step5 (s4 W)
abbrev s6 : Valuation τ sig (Elt F) := after step6 (s5 W)
abbrev s7 : Valuation τ sig (Elt F) := after step7 (s6 W)
abbrev s8 : Valuation τ sig (Elt F) := after step8 (s7 W)

theorem kv_read : kv W (main_v119 : DevRef τ sig) = broadcastInDim S200000x8x1 ![0, 1] bcast_S200000x8_S200000x8x1_0_1 (Stages.head8 (hcOf W) (W (main_arg16 : DevRef τ sig)) (W (main_arg17 : DevRef τ sig)))
    ∧ kv W (main_v125 : DevRef τ sig) = broadcastInDim S200000x8x1 ![0, 1] bcast_S200000x8_S200000x8x1_0_1 (Stages.head8 (hcOf W) (W (main_arg18 : DevRef τ sig)) (W (main_arg19 : DevRef τ sig)))
    ∧ kv W (main_v138 : DevRef τ sig) = alOf W ∧ kv W (main_v146 : DevRef τ sig) = beOf W ∧ kv W (main_v150 : DevRef τ sig) = nnOf W
    ∧ kv W (main_v152 : DevRef τ sig) = (cntOf W 0).1 ∧ kv W (main_v154 : DevRef τ sig) = (cntOf W 0).2 := by
  simp only [kv, segJ, segK]
  after_results_simp
  exact ⟨rfl, rfl, rfl, rfl, rfl, rfl, rfl⟩

abbrev StepAt (k : Nat) (V : Valuation τ sig (Elt F)) (dI dR I R : Stages.Fl F S200000) : Prop :=
  V (main_v138 : DevRef τ sig) = alOf W ∧ V (main_v146 : DevRef τ sig) = beOf W ∧ V (main_v150 : DevRef τ sig) = nnOf W ∧ dI = dIOf W k ∧ dR = dROf W k
    ∧ I = (cntOf W (k + 1)).1 ∧ R = (cntOf W (k + 1)).2

theorem st1 : StepAt W 0 (s1 W) (s1 W main_v161) (s1 W main_v162) (s1 W main_v163) (s1 W main_v164) :=
  have ⟨_, _, hA, hB, hN, hi, hr⟩ := kv_read W; step_read (by decide) _ hA hB hN hi hr
theorem st2 : StepAt W 1 (s2 W) (s2 W main_v171) (s2 W main_v172) (s2 W main_v173) (s2 W main_v174) :=
  have ⟨hA, hB, hN, _, _, hi, hr⟩ := st1 W; step_read (by decide) _ hA hB hN hi hr
theorem st3 : StepAt W 2 (s3 W) (s3 W main_v181) (s3 W main_v182) (s3 W main_v183) (s3 W main_v184) :=
  have ⟨hA, hB, hN, _, _, hi, hr⟩ := st2 W; step_read (by decide) _ hA hB hN hi hr
theorem st4 : StepAt W 3 (s4 W) (s4 W main_v191) (s4 W main_v192) (s4 W main_v193) (s4 W main_v194) :=
  have ⟨hA, hB, hN, _, _, hi, hr⟩ := st3 W; step_read (by decide) _ hA hB hN hi hr
theorem st5 : StepAt W 4 (s5 W) (s5 W main_v201) (s5 W main_v202) (s5 W main_v203) (s5 W main_v204) :=
  have ⟨hA, hB, hN, _, _, hi, hr⟩ := st4 W; step_read (by decide) _ hA hB hN hi hr
theorem st6 : StepAt W 5 (s6 W) (s6 W main_v211) (s6 W main_v212) (s6 W main_v213) (s6 W main_v214) :=
  have ⟨hA, hB, hN, _, _, hi, hr⟩ := st5 W; step_read (by decide) _ hA hB hN hi hr
theorem st7 : StepAt W 6 (s7 W) (s7 W main_v221) (s7 W main_v222) (s7 W main_v223) (s7 W main_v224) :=
  have ⟨hA, hB, hN, _, _, hi, hr⟩ := st6 W; step_read (by decide) _ hA hB hN hi hr
theorem st8 : StepAt W 7 (s8 W) (s8 W main_v231) (s8 W main_v232) (s8 W main_v233) (s8 W main_v234) :=
  have ⟨hA, hB, hN, _, _, hi, hr⟩ := st7 W; step_read (by decide) _ hA hB hN hi hr

theorem s8_dI : s8 W main_v161 = dIOf W 0 ∧ s8 W main_v171 = dIOf W 1 ∧ s8 W main_v181 = dIOf W 2 ∧ s8 W main_v191 = dIOf W 3 ∧ s8 W main_v201 = dIOf W 4 ∧ s8 W main_v211 = dIOf W 5 ∧ s8 W main_v221 = dIOf W 6 ∧ s8 W main_v231 = dIOf W 7 := by
  simp (disch := decide) only [step_keep]
  exact ⟨(st1 W).2.2.2.1, (st2 W).2.2.2.1, (st3 W).2.2.2.1, (st4 W).2.2.2.1, (st5 W).2.2.2.1, (st6 W).2.2.2.1, (st7 W).2.2.2.1, (st8 W).2.2.2.1⟩

theorem s8_dR : s8 W main_v162 = dROf W 0 ∧ s8 W main_v172 = dROf W 1 ∧ s8 W main_v182 = dROf W 2 ∧ s8 W main_v192 = dROf W 3 ∧ s8 W main_v202 = dROf W 4 ∧ s8 W main_v212 = dROf W 5 ∧ s8 W main_v222 = dROf W 6 ∧ s8 W main_v232 = dROf W 7 := by
  simp (disch := decide) only [step_keep]
  exact ⟨(st1 W).2.2.2.2.1, (st2 W).2.2.2.2.1, (st3 W).2.2.2.2.1, (st4 W).2.2.2.2.1, (st5 W).2.2.2.2.1, (st6 W).2.2.2.2.1, (st7 W).2.2.2.2.1, (st8 W).2.2.2.2.1⟩

theorem s8_heads : s8 W (main_v119 : DevRef τ sig) = broadcastInDim S200000x8x1 ![0, 1] bcast_S200000x8_S200000x8x1_0_1 (Stages.head8 (hcOf W) (W (main_arg16 : DevRef τ sig)) (W (main_arg17 : DevRef τ sig)))
    ∧ s8 W (main_v125 : DevRef τ sig) = broadcastInDim S200000x8x1 ![0, 1] bcast_S200000x8_S200000x8x1_0_1 (Stages.head8 (hcOf W) (W (main_arg18 : DevRef τ sig)) (W (main_arg19 : DevRef τ sig))) := by
  simp (disch := decide) only [step_keep]
  exact ⟨(kv_read W).1, (kv_read W).2.1⟩

end Chain

abbrev post : List (HloOp τ sig (Elt F)) :=
  segJ ++ segK ++ step1 ++ step2 ++ step3 ++ step4 ++ step5 ++ step6 ++ step7 ++ step8 ++ segE1 ++ segE2 ++ segE3 ++ segE4 ++ segE5 ++ segE6

theorem after_post (W : Valuation τ sig (Elt F)) : after post W = after segE (s8 W) := by
  simp only [post, segE, after_append, kv, s1, s2, s3, s4, s5, s6, s7, s8]

theorem post_v255 (W : Valuation τ sig (Elt F)) : after post W (main_v255 : DevRef τ sig)
    = Stages.pred (W (main_v112 : DevRef τ sig)) (W (main_v2 : DevRef τ sig)) (W (main_v5 : DevRef τ sig)) (W (main_arg16 : DevRef τ sig)) (W (main_arg17 : DevRef τ sig)) (W (main_arg18 : DevRef τ sig)) (W (main_arg19 : DevRef τ sig)) := by
  rw [after_post]; exact (segE_read _ _ _ _ _ (s8_heads W).1 (s8_heads W).2 (s8_dI W) (s8_dR W)).1

theorem post_v256 (W : Valuation τ sig (Elt F)) : after post W (main_v256 : DevRef τ sig)
    = Stages.phy (W (main_v112 : DevRef τ sig)) (W (main_v2 : DevRef τ sig)) (W (main_v5 : DevRef τ sig)) (W (main_arg20 : DevRef τ sig)) (W (main_arg21 : DevRef τ sig)) (W (main_arg2 : DevRef τ sig)) (W (main_arg3 : DevRef τ sig)) := by
  rw [after_post]; exact (segE_read _ _ _ _ _ (s8_heads W).1 (s8_heads W).2 (s8_dI W) (s8_dR W)).2

abbrev post_W : List (Ref sig .tc) :=
  [main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_cst_15, main_cst_16, main_cst_17, main_cst_18]

theorem post_keep (W : Valuation τ sig (Elt F)) (r : Ref sig .tc) (h : r ∉ post_W) :
    after post W (Proc.devRef .tc r) = W (Proc.devRef .tc r) := by
  refine after_of_writes_sub post W ?_ h
  simp only [post, List.forall_append]
  repeat' (first | exact writes_of_mem (by decide) | refine ⟨?_, ?_⟩)

end Cert.ReferenceIdeal.HandRead

end
-- ==== Proof.RefRead.lean ====
import proofs.«112250_j2224793059992_2_alg».proof.Proof.RefRun
import proofs.«112250_j2224793059992_2_alg».proof.Proof.RefReadA
import proofs.«112250_j2224793059992_2_alg».proof.Proof.RefReadB

noncomputable section

namespace Cert.ReferenceIdeal.HandRead

open Cert.ReferenceIdeal Cert.ReferenceIdeal.Gen Cert.ReferenceIdeal.HandRun Idealize.ShloMosaic Idealize.ShloMosaic.TcCoe Idealize.ShloMosaic.StableHlo

variable {F : FTy → Type} [FloatOps F]

theorem take_append_drop_append {α : Type} (n : Nat) (l r : List α) : l.take n ++ (l.drop n ++ r) = l ++ r := by
  rw [← List.append_assoc, List.take_append_drop]

theorem ops_cut : (ops : List (HloOp τ sig (Elt F))) = pre ++ post := by
  simp only [ops, ops0, ops1, ops2, ops3, ops4, pre, post, List.append_assoc, take_append_drop_append]

variable (V : Valuation τ sig (Elt F))

theorem after_ops : after ops V = after post (after pre V) := by
  rw [ops_cut, after_append]

theorem read_pred : after ops V (main_v255 : DevRef τ sig)
    = Stages.pred (hiddenOf V) (Stages.lastDiffI (V main_arg0)) (Stages.lastDiffR (V main_arg0)) (V main_arg16) (V main_arg17) (V main_arg18) (V main_arg19) := by
  rw [after_ops, post_v255, pre_v112, pre_v2, pre_v5, pre_keep V main_arg16 (by decide), pre_keep V main_arg17 (by decide),
    pre_keep V main_arg18 (by decide), pre_keep V main_arg19 (by decide)]

theorem read_phy : after ops V (main_v256 : DevRef τ sig)
    = Stages.phy (hiddenOf V) (Stages.lastDiffI (V main_arg0)) (Stages.lastDiffR (V main_arg0)) (V main_arg20) (V main_arg21) (V main_arg2) (V main_arg3) := by
  rw [after_ops, post_v256, pre_v112, pre_v2, pre_v5, pre_keep V main_arg20 (by decide), pre_keep V main_arg21 (by decide),
    pre_keep V main_arg2 (by decide), pre_keep V main_arg3 (by decide)]

-- A buffer no operation writes (every argument's) holds its launch contents at the end.
theorem read_keep (r : Ref sig .tc) (h : r ∉ pre_W ++ post_W) : after ops V (Proc.devRef .tc r) = V (Proc.devRef .tc r) := by
  rw [List.mem_append, not_or] at h
  rw [after_ops, post_keep _ r h.2, pre_keep V r h.1]

end Cert.ReferenceIdeal.HandRead

end
-- ==== Proof.lean ====
import proofs.«112250_j2224793059992_2_alg».proof.Defs
import proofs.«112250_j2224793059992_2_alg».proof.Proof.K.Run
import proofs.«112250_j2224793059992_2_alg».proof.Proof.KI.Run
import proofs.«112250_j2224793059992_2_alg».proof.Proof.KI.KernelValue
import proofs.«112250_j2224793059992_2_alg».proof.Proof.RefRun
import proofs.«112250_j2224793059992_2_alg».proof.Proof.RefRead
import proofs.«112250_j2224793059992_2_alg».proof.Proof.Gen.Kernel
import proofs.«112250_j2224793059992_2_alg».proof.Proof.Gen.KernelIdeal
import proofs.«112250_j2224793059992_2_alg».proof.Proof.Gen.ReferenceIdeal
import proofs.«112250_j2224793059992_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => (h c).2.2) (Cert.Kernel.Run.run_results m ρ)

theorem frame_kernelIdeal : Cert.frame_KernelIdeal := fun m ρ _ =>
  (θ_run Cert.KernelIdeal.defs _ _).mono (fun _ h c => (h c).2.2) (Cert.KernelIdeal.Run.run_results m ρ)

theorem frame_reference : Cert.frame_ReferenceIdeal := fun m ρ _ =>
  (θ_run Cert.ReferenceIdeal.defs _ _).mono (fun r h c => by
    refine ⟨?_, ?_, ?_, ?_, ?_, ?_, ?_, ?_, ?_, ?_, ?_, ?_, ?_, ?_, ?_, ?_, ?_, ?_, ?_, ?_, ?_, ?_⟩ <;>
      exact (h c _).trans (Cert.ReferenceIdeal.HandRead.read_keep _ _ (by decide)))
    (Cert.ReferenceIdeal.HandRun.run_main (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Fold.pred m c, fun c => Cert.KernelIdeal.Fold.phy m c, Cert.KernelIdeal.Run.run_results m ρ, ?_⟩
  refine (θ_run Cert.ReferenceIdeal.defs _ _).mono (fun r h c => ?_) (Cert.ReferenceIdeal.HandRun.run_main (F := Ideal) m' ρ')
  have e0 : StableHlo.launchContents m' c (Proc.devRef .tc Cert.ReferenceIdeal.main_arg0) = Cert.KernelIdeal.KernelValue.argX m c := (hagree c).1
  have e1 : StableHlo.launchContents m' c (Proc.devRef .tc Cert.ReferenceIdeal.main_arg1) = Cert.KernelIdeal.KernelValue.argA m c := (hagree c).2.1
  have e2 : StableHlo.launchContents m' c (Proc.devRef .tc Cert.ReferenceIdeal.main_arg2) = Cert.KernelIdeal.KernelValue.argSt m c := (hagree c).2.2.1
  have e3 : StableHlo.launchContents m' c (Proc.devRef .tc Cert.ReferenceIdeal.main_arg3) = Cert.KernelIdeal.KernelValue.argN m c := (hagree c).2.2.2.1
  have e4 : StableHlo.launchContents m' c (Proc.devRef .tc Cert.ReferenceIdeal.main_arg4) = Cert.KernelIdeal.KernelValue.argW1 m c := (hagree c).2.2.2.2.1
  have e5 : StableHlo.launchContents m' c (Proc.devRef .tc Cert.ReferenceIdeal.main_arg5) = Cert.KernelIdeal.KernelValue.argB1 m c := (hagree c).2.2.2.2.2.1
  have e6 : StableHlo.launchContents m' c (Proc.devRef .tc Cert.ReferenceIdeal.main_arg6) = Cert.KernelIdeal.KernelValue.argAW1 m c := (hagree c).2.2.2.2.2.2.1
  have e7 : StableHlo.launchContents m' c (Proc.devRef .tc Cert.ReferenceIdeal.main_arg7) = Cert.KernelIdeal.KernelValue.argAB1 m c := (hagree c).2.2.2.2.2.2.2.1
  have e8 : StableHlo.launchContents m' c (Proc.devRef .tc Cert.ReferenceIdeal.main_arg8) = Cert.KernelIdeal.KernelValue.argW2 m c := (hagree c).2.2.2.2.2.2.2.2.1
  have e9 : StableHlo.launchContents m' c (Proc.devRef .tc Cert.ReferenceIdeal.main_arg9) = Cert.KernelIdeal.KernelValue.argB2 m c := (hagree c).2.2.2.2.2.2.2.2.2.1
  have e10 : StableHlo.launchContents m' c (Proc.devRef .tc Cert.ReferenceIdeal.main_arg10) = Cert.KernelIdeal.KernelValue.argAW2 m c := (hagree c).2.2.2.2.2.2.2.2.2.2.1
  have e11 : StableHlo.launchContents m' c (Proc.devRef .tc Cert.ReferenceIdeal.main_arg11) = Cert.KernelIdeal.KernelValue.argAB2 m c := (hagree c).2.2.2.2.2.2.2.2.2.2.2.1
  have e12 : StableHlo.launchContents m' c (Proc.devRef .tc Cert.ReferenceIdeal.main_arg12) = Cert.KernelIdeal.KernelValue.argWih m c := (hagree c).2.2.2.2.2.2.2.2.2.2.2.2.1
  have e14 : StableHlo.launchContents m' c (Proc.devRef .tc Cert.ReferenceIdeal.main_arg14) = Cert.KernelIdeal.KernelValue.argBih m c := (hagree c).2.2.2.2.2.2.2.2.2.2.2.2.2.2.1
  have e15 : StableHlo.launchContents m' c (Proc.devRef .tc Cert.ReferenceIdeal.main_arg15) = Cert.KernelIdeal.KernelValue.argBhh m c := (hagree c).2.2.2.2.2.2.2.2.2.2.2.2.2.2.2.1
  have e16 : StableHlo.launchContents m' c (Proc.devRef .tc Cert.ReferenceIdeal.main_arg16) = Cert.KernelIdeal.KernelValue.argWI m c := (hagree c).2.2.2.2.2.2.2.2.2.2.2.2.2.2.2.2.1
  have e17 : StableHlo.launchContents m' c (Proc.devRef .tc Cert.ReferenceIdeal.main_arg17) = Cert.KernelIdeal.KernelValue.argBI m c := (hagree c).2.2.2.2.2.2.2.2.2.2.2.2.2.2.2.2.2.1
  have e18 : StableHlo.launchContents m' c (Proc.devRef .tc Cert.ReferenceIdeal.main_arg18) = Cert.KernelIdeal.KernelValue.argWR m c := (hagree c).2.2.2.2.2.2.2.2.2.2.2.2.2.2.2.2.2.2.1
  have e19 : StableHlo.launchContents m' c (Proc.devRef .tc Cert.ReferenceIdeal.main_arg19) = Cert.KernelIdeal.KernelValue.argBR m c := (hagree c).2.2.2.2.2.2.2.2.2.2.2.2.2.2.2.2.2.2.2.1
  have e20 : StableHlo.launchContents m' c (Proc.devRef .tc Cert.ReferenceIdeal.main_arg20) = Cert.KernelIdeal.KernelValue.argWsir m c := (hagree c).2.2.2.2.2.2.2.2.2.2.2.2.2.2.2.2.2.2.2.2.1
  have e21 : StableHlo.launchContents m' c (Proc.devRef .tc Cert.ReferenceIdeal.main_arg21) = Cert.KernelIdeal.KernelValue.argBsir m c := (hagree c).2.2.2.2.2.2.2.2.2.2.2.2.2.2.2.2.2.2.2.2.2
  refine ⟨?_, ?_, ?_, ?_, ?_, ?_, ?_, ?_, ?_, ?_, ?_, ?_, ?_, ?_, ?_, ?_, ?_, ?_, ?_, ?_, ?_, ?_, ?_, ?_⟩
  · show _ = Cert.KernelIdeal.Fold.pred m c
    rw [h c Cert.ReferenceIdeal.main_v255, Cert.ReferenceIdeal.HandRead.read_pred, Cert.KernelIdeal.KernelValue.pred_eq]
    simp only [Cert.ReferenceIdeal.HandRead.hiddenOf, Cert.KernelIdeal.KernelValue.hid, e0, e1, e2, e3, e4, e5, e6, e7, e8, e9, e10, e11, e12, e14, e15, e16, e17, e18, e19, e20, e21]
  · show _ = Cert.KernelIdeal.Fold.phy m c
    rw [h c Cert.ReferenceIdeal.main_v256, Cert.ReferenceIdeal.HandRead.read_phy, Cert.KernelIdeal.KernelValue.phy_eq]
    simp only [Cert.ReferenceIdeal.HandRead.hiddenOf, Cert.KernelIdeal.KernelValue.hid, e0, e1, e2, e3, e4, e5, e6, e7, e8, e9, e10, e11, e12, e14, e15, e16, e17, e18, e19, e20, e21]
  all_goals exact (h c _).trans (Cert.ReferenceIdeal.HandRead.read_keep _ _ (by decide))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
